-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v214_1)) (v1 : (c : Dev Cert.KernelIdeal.nD) → Buf (Elt Ideal) ((c.tc : Thread Cert.KernelIdeal.nD Cert.KernelIdeal.τ).loc Cert.KernelIdeal.main_v217)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214_1) = v0 c
          ∧ r.2.mem ((c.tc : Thread Cert.KernelIdeal.nD Cert.KernelIdeal.τ).loc Cert.KernelIdeal.main_v217) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S4x64x64 : Shape := ⟨3, ![4, 64, 64]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg6 : FVec F S4x64 .f32) (main_arg7 : FVec F S4x64x64 .f32) (main_arg8 : FVec F S4x64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S4x64x64 .f32) (main_arg4 : FVec F S4x64 .f32) (main_arg5 : FVec F S4x64 .f32) (main_arg6 : FVec F S4x64 .f32) (main_arg7 : FVec F S4x64x64 .f32) (main_arg8 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S4x64x64 : Shape := ⟨3, ![4, 64, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S128 : Shape := ⟨1, ![128]⟩
abbrev S100000x1 : Shape := ⟨2, ![100000, 1]⟩
abbrev S128x64 : Shape := ⟨2, ![128, 64]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000x1 : Shape := ⟨2, ![5000, 1]⟩
abbrev S5000x128 : Shape := ⟨2, ![5000, 128]⟩
abbrev S128x1 : Shape := ⟨2, ![128, 1]⟩

abbrev nBuf : Space → Nat
  | .hbm => 273
  | .vmem => 132
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S4x64x64, .f32⟩
  | 4 => ⟨S4x64, .f32⟩
  | 5 => ⟨S4x64, .f32⟩
  | 6 => ⟨S4x64, .f32⟩
  | 7 => ⟨S4x64x64, .f32⟩
  | 8 => ⟨S4x64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S_, .f32⟩
  | 28 => ⟨S128, .f32⟩
  | 29 => ⟨S100000x1, .i32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S100000x1, .i32⟩
  | 38 => ⟨S_, .f32⟩
  | 39 => ⟨S100000x64, .f32⟩
  | 40 => ⟨S_, .f32⟩
  | 41 => ⟨S128x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S100000x1, .f32⟩
  | 56 => ⟨S100000x64, .f32⟩
  | 57 => ⟨S100000x64, .f32⟩
  | 58 => ⟨S1x64x64, .f32⟩
  | 59 => ⟨S64x64, .f32⟩
  | 60 => ⟨S1x64, .f32⟩
  | 61 => ⟨S64, .f32⟩
  | 62 => ⟨S1x64, .f32⟩
  | 63 => ⟨S1x64, .f32⟩
  | 64 => ⟨S1x64, .f32⟩
  | 65 => ⟨S64, .f32⟩
  | 66 => ⟨S_, .f32⟩
  | 67 => ⟨S64, .f32⟩
  | 68 => ⟨S64, .f32⟩
  | 69 => ⟨S64, .f32⟩
  | 70 => ⟨S_, .f32⟩
  | 71 => ⟨S64, .f32⟩
  | 72 => ⟨S64, .f32⟩
  | 73 => ⟨S64, .f32⟩
  | 74 => ⟨S64, .f32⟩
  | 75 => ⟨S_, .f32⟩
  | 76 => ⟨S64, .f32⟩
  | 77 => ⟨S64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64x64, .f32⟩
  | 87 => ⟨S64x64, .f32⟩
  | 88 => ⟨S1x64, .f32⟩
  | 89 => ⟨S64, .f32⟩
  | 90 => ⟨S1x64, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S100000x64, .f32⟩
  | 97 => ⟨S100000x64, .f32⟩
  | 98 => ⟨S128x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x1, .f32⟩
  | 113 => ⟨S100000x64, .f32⟩
  | 114 => ⟨S100000x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S1x64, .f32⟩
  | 121 => ⟨S1x64, .f32⟩
  | 122 => ⟨S64, .f32⟩
  | 123 => ⟨S_, .f32⟩
  | 124 => ⟨S64, .f32⟩
  | 125 => ⟨S64, .f32⟩
  | 126 => ⟨S64, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S64, .f32⟩
  | 3 => ⟨S64, .f32⟩
  | 4 => ⟨S_, .f32⟩
  | 5 => ⟨S64, .f32⟩
  | 6 => ⟨S64, .f32⟩
  | 7 => ⟨S1x64x64, .f32⟩
  | 8 => ⟨S64x64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S64, .f32⟩
  | 15 => ⟨S1x64x64, .f32⟩
  | 16 => ⟨S64x64, .f32⟩
  | 17 => ⟨S1x64, .f32⟩
  | 18 => ⟨S64, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S100000x64, .f32⟩
  | 26 => ⟨S100000x64, .f32⟩
  | 27 => ⟨S128x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S100000x1, .f32⟩
  | 42 => ⟨S100000x64, .f32⟩
  | 43 => ⟨S100000x64, .f32⟩
  | 44 => ⟨S1x64x64, .f32⟩
  | 45 => ⟨S64x64, .f32⟩
  | 46 => ⟨S1x64, .f32⟩
  | 47 => ⟨S64, .f32⟩
  | 48 => ⟨S1x64, .f32⟩
  | 49 => ⟨S1x64, .f32⟩
  | 50 => ⟨S1x64, .f32⟩
  | 51 => ⟨S64, .f32⟩
  | 52 => ⟨S_, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S64, .f32⟩
  | 60 => ⟨S64, .f32⟩
  | 61 => ⟨S_, .f32⟩
  | 62 => ⟨S64, .f32⟩
  | 63 => ⟨S64, .f32⟩
  | 64 => ⟨S1x64x64, .f32⟩
  | 65 => ⟨S64x64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S1x64x64, .f32⟩
  | 73 => ⟨S64x64, .f32⟩
  | 74 => ⟨S1x64, .f32⟩
  | 75 => ⟨S64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S100000x64, .f32⟩
  | 83 => ⟨S100000x64, .f32⟩
  | 84 => ⟨S128x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S100000x1, .f32⟩
  | 99 => ⟨S100000x64, .f32⟩
  | 100 => ⟨S100000x64, .f32⟩
  | 101 => ⟨S1x64x64, .f32⟩
  | 102 => ⟨S64x64, .f32⟩
  | 103 => ⟨S1x64, .f32⟩
  | 104 => ⟨S64, .f32⟩
  | 105 => ⟨S1x64, .f32⟩
  | 106 => ⟨S1x64, .f32⟩
  | 107 => ⟨S1x64, .f32⟩
  | 108 => ⟨S64, .f32⟩
  | 109 => ⟨S_, .f32⟩
  | 110 => ⟨S64, .f32⟩
  | 111 => ⟨S64, .f32⟩
  | 112 => ⟨S64, .f32⟩
  | 113 => ⟨S_, .f32⟩
  | 114 => ⟨S64, .f32⟩
  | 115 => ⟨S64, .f32⟩
  | 116 => ⟨S64, .f32⟩
  | 117 => ⟨S64, .f32⟩
  | 118 => ⟨S_, .f32⟩
  | 119 => ⟨S64, .f32⟩
  | 120 => ⟨S64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S100000x64, .f32⟩

abbrev hbmTy0_2 (i : Nat) : BufTy := match i % 128 with
  | 0 => ⟨S64, .f32⟩
  | 1 => ⟨S1x64x64, .f32⟩
  | 2 => ⟨S64x64, .f32⟩
  | 3 => ⟨S1x64, .f32⟩
  | 4 => ⟨S64, .f32⟩
  | 5 => ⟨S1x64, .f32⟩
  | 6 => ⟨S1x64, .f32⟩
  | 7 => ⟨S1x64, .f32⟩
  | 8 => ⟨S1x64, .f32⟩
  | 9 => ⟨S1x64, .f32⟩
  | 10 => ⟨S1x64, .f32⟩
  | 11 => ⟨S100000x64, .f32⟩
  | 12 => ⟨S100000x64, .f32⟩
  | 13 => ⟨S128x64, .f32⟩
  | 14 => ⟨S128x1, .f32⟩
  | 15 => ⟨S128x64, .f32⟩
  | 16 => ⟨S128x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev vmemTy0_0 (i : Nat) : BufTy := match i % 128 with
  | 0 => ⟨S5000x64, .f32⟩
  | 1 => ⟨S5000x64, .f32⟩
  | 2 => ⟨S5000x64, .f32⟩
  | 3 => ⟨S5000x64, .f32⟩
  | 4 => ⟨S64x64, .f32⟩
  | 5 => ⟨S1x64, .f32⟩
  | 6 => ⟨S1x64, .f32⟩
  | 7 => ⟨S1x64, .f32⟩
  | 8 => ⟨S1x64, .f32⟩
  | 9 => ⟨S1x64, .f32⟩
  | 10 => ⟨S5000x64, .f32⟩
  | 11 => ⟨S5000x64, .f32⟩
  | 12 => ⟨S5000x64, .f32⟩
  | 13 => ⟨S5000x64, .f32⟩
  | 14 => ⟨S64x64, .f32⟩
  | 15 => ⟨S1x64, .f32⟩
  | 16 => ⟨S1x64, .f32⟩
  | 17 => ⟨S1x64, .f32⟩
  | 18 => ⟨S1x64, .f32⟩
  | 19 => ⟨S1x64, .f32⟩
  | 20 => ⟨S64x64, .f32⟩
  | 21 => ⟨S1x64, .f32⟩
  | 22 => ⟨S5000x64, .f32⟩
  | 23 => ⟨S5000x64, .f32⟩
  | 24 => ⟨S5000x1, .i32⟩
  | 25 => ⟨S5000x1, .i32⟩
  | 26 => ⟨S128x64, .f32⟩
  | 27 => ⟨S5000x64, .f32⟩
  | 28 => ⟨S5000x64, .f32⟩
  | 29 => ⟨S5000x64, .f32⟩
  | 30 => ⟨S5000x64, .f32⟩
  | 31 => ⟨S128x64, .f32⟩
  | 32 => ⟨S128x64, .f32⟩
  | 33 => ⟨S5000x64, .f32⟩
  | 34 => ⟨S5000x64, .f32⟩
  | 35 => ⟨S5000x64, .f32⟩
  | 36 => ⟨S5000x64, .f32⟩
  | 37 => ⟨S64x64, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S5000x64, .f32⟩
  | 44 => ⟨S5000x64, .f32⟩
  | 45 => ⟨S5000x64, .f32⟩
  | 46 => ⟨S5000x64, .f32⟩
  | 47 => ⟨S64x64, .f32⟩
  | 48 => ⟨S1x64, .f32⟩
  | 49 => ⟨S1x64, .f32⟩
  | 50 => ⟨S1x64, .f32⟩
  | 51 => ⟨S1x64, .f32⟩
  | 52 => ⟨S1x64, .f32⟩
  | 53 => ⟨S64x64, .f32⟩
  | 54 => ⟨S1x64, .f32⟩
  | 55 => ⟨S5000x64, .f32⟩
  | 56 => ⟨S5000x64, .f32⟩
  | 57 => ⟨S5000x1, .i32⟩
  | 58 => ⟨S5000x1, .i32⟩
  | 59 => ⟨S128x64, .f32⟩
  | 60 => ⟨S5000x64, .f32⟩
  | 61 => ⟨S5000x64, .f32⟩
  | 62 => ⟨S5000x64, .f32⟩
  | 63 => ⟨S5000x64, .f32⟩
  | 64 => ⟨S128x64, .f32⟩
  | 65 => ⟨S128x64, .f32⟩
  | 66 => ⟨S5000x64, .f32⟩
  | 67 => ⟨S5000x64, .f32⟩
  | 68 => ⟨S5000x64, .f32⟩
  | 69 => ⟨S5000x64, .f32⟩
  | 70 => ⟨S64x64, .f32⟩
  | 71 => ⟨S1x64, .f32⟩
  | 72 => ⟨S1x64, .f32⟩
  | 73 => ⟨S1x64, .f32⟩
  | 74 => ⟨S1x64, .f32⟩
  | 75 => ⟨S1x64, .f32⟩
  | 76 => ⟨S5000x64, .f32⟩
  | 77 => ⟨S5000x64, .f32⟩
  | 78 => ⟨S5000x64, .f32⟩
  | 79 => ⟨S5000x64, .f32⟩
  | 80 => ⟨S64x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S64x64, .f32⟩
  | 87 => ⟨S1x64, .f32⟩
  | 88 => ⟨S5000x64, .f32⟩
  | 89 => ⟨S5000x64, .f32⟩
  | 90 => ⟨S5000x1, .i32⟩
  | 91 => ⟨S5000x1, .i32⟩
  | 92 => ⟨S128x64, .f32⟩
  | 93 => ⟨S5000x64, .f32⟩
  | 94 => ⟨S5000x64, .f32⟩
  | 95 => ⟨S5000x64, .f32⟩
  | 96 => ⟨S5000x64, .f32⟩
  | 97 => ⟨S128x64, .f32⟩
  | 98 => ⟨S128x64, .f32⟩
  | 99 => ⟨S5000x64, .f32⟩
  | 100 => ⟨S5000x64, .f32⟩
  | 101 => ⟨S5000x64, .f32⟩
  | 102 => ⟨S5000x64, .f32⟩
  | 103 => ⟨S64x64, .f32⟩
  | 104 => ⟨S1x64, .f32⟩
  | 105 => ⟨S1x64, .f32⟩
  | 106 => ⟨S1x64, .f32⟩
  | 107 => ⟨S1x64, .f32⟩
  | 108 => ⟨S1x64, .f32⟩
  | 109 => ⟨S5000x64, .f32⟩
  | 110 => ⟨S5000x64, .f32⟩
  | 111 => ⟨S5000x64, .f32⟩
  | 112 => ⟨S5000x64, .f32⟩
  | 113 => ⟨S64x64, .f32⟩
  | 114 => ⟨S1x64, .f32⟩
  | 115 => ⟨S1x64, .f32⟩
  | 116 => ⟨S1x64, .f32⟩
  | 117 => ⟨S1x64, .f32⟩
  | 118 => ⟨S1x64, .f32⟩
  | 119 => ⟨S64x64, .f32⟩
  | 120 => ⟨S1x64, .f32⟩
  | 121 => ⟨S5000x64, .f32⟩
  | 122 => ⟨S5000x64, .f32⟩
  | 123 => ⟨S5000x1, .i32⟩
  | 124 => ⟨S5000x1, .i32⟩
  | 125 => ⟨S128x64, .f32⟩
  | 126 => ⟨S5000x64, .f32⟩
  | 127 => ⟨S5000x64, .f32⟩
  | _ => ⟨S100000x64, .f32⟩

abbrev vmemTy0_1 (i : Nat) : BufTy := match i % 128 with
  | 0 => ⟨S5000x64, .f32⟩
  | 1 => ⟨S5000x64, .f32⟩
  | 2 => ⟨S128x64, .f32⟩
  | 3 => ⟨S128x64, .f32⟩
  | _ => ⟨S100000x64, .f32⟩

abbrev vmemTy (i : Nat) : BufTy := match i / 128 with
  | 0 => vmemTy0_0 i
  | 1 => vmemTy0_1 i
  | _ => ⟨S100000x64, .f32⟩

abbrev bufTy : (tb : Table) → Fin (tcTables nBuf tb) → BufTy
  | .hbm, ⟨i, _⟩ => hbmTy i
  | .local _ .vmem, ⟨i, _⟩ => vmemTy i
  | _, _ => ⟨S100000x64, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70_0 : Ref sig .tc := ⟨.hbm, 96, rfl⟩
abbrev main_v70_1 : Ref sig .tc := ⟨.hbm, 97, rfl⟩
abbrev main_v70_2 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89_0 : Ref sig .tc := ⟨.hbm, 120, rfl⟩
abbrev main_v89_1 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_19 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118_0 : Ref sig .tc := ⟨.hbm, 153, rfl⟩
abbrev main_v118_1 : Ref sig .tc := ⟨.hbm, 154, rfl⟩
abbrev main_v118_2 : Ref sig .tc := ⟨.hbm, 155, rfl⟩
abbrev main_c_20 : Ref sig .tc := ⟨.hbm, 156, rfl⟩
abbrev main_v119 : Ref sig .tc := ⟨.hbm, 157, rfl⟩
abbrev main_v120 : Ref sig .tc := ⟨.hbm, 158, rfl⟩
abbrev main_c_21 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_22 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137_0 : Ref sig .tc := ⟨.hbm, 177, rfl⟩
abbrev main_v137_1 : Ref sig .tc := ⟨.hbm, 178, rfl⟩
abbrev main_v138 : Ref sig .tc := ⟨.hbm, 179, rfl⟩
abbrev main_cst_23 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_24 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_25 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166_0 : Ref sig .tc := ⟨.hbm, 210, rfl⟩
abbrev main_v166_1 : Ref sig .tc := ⟨.hbm, 211, rfl⟩
abbrev main_v166_2 : Ref sig .tc := ⟨.hbm, 212, rfl⟩
abbrev main_c_26 : Ref sig .tc := ⟨.hbm, 213, rfl⟩
abbrev main_v167 : Ref sig .tc := ⟨.hbm, 214, rfl⟩
abbrev main_v168 : Ref sig .tc := ⟨.hbm, 215, rfl⟩
abbrev main_c_27 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_28 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185_0 : Ref sig .tc := ⟨.hbm, 234, rfl⟩
abbrev main_v185_1 : Ref sig .tc := ⟨.hbm, 235, rfl⟩
abbrev main_v186 : Ref sig .tc := ⟨.hbm, 236, rfl⟩
abbrev main_cst_29 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_30 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_31 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214_0 : Ref sig .tc := ⟨.hbm, 267, rfl⟩
abbrev main_v214_1 : Ref sig .tc := ⟨.hbm, 268, rfl⟩
abbrev main_v214_2 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_scratch0 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_scratch0 : Ref sig .tc := ⟨.vmem, 41, rfl⟩
abbrev cc2_scratch1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg10_1 : Ref sig .tc := ⟨.vmem, 56, rfl⟩
abbrev cc3_stg11_0 : Ref sig .tc := ⟨.vmem, 57, rfl⟩
abbrev cc3_stg11_1 : Ref sig .tc := ⟨.vmem, 58, rfl⟩
abbrev cc3_stg12_0 : Ref sig .tc := ⟨.vmem, 59, rfl⟩
abbrev cc3_stg13_0 : Ref sig .tc := ⟨.vmem, 60, rfl⟩
abbrev cc3_stg13_1 : Ref sig .tc := ⟨.vmem, 61, rfl⟩
abbrev cc3_stg14_0 : Ref sig .tc := ⟨.vmem, 62, rfl⟩
abbrev cc3_stg14_1 : Ref sig .tc := ⟨.vmem, 63, rfl⟩
abbrev cc3_stg15_0 : Ref sig .tc := ⟨.vmem, 64, rfl⟩
abbrev cc3_scratch0 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg1_1 : Ref sig .tc := ⟨.vmem, 69, rfl⟩
abbrev cc4_stg2_0 : Ref sig .tc := ⟨.vmem, 70, rfl⟩
abbrev cc4_stg3_0 : Ref sig .tc := ⟨.vmem, 71, rfl⟩
abbrev cc4_stg4_0 : Ref sig .tc := ⟨.vmem, 72, rfl⟩
abbrev cc4_stg5_0 : Ref sig .tc := ⟨.vmem, 73, rfl⟩
abbrev cc4_scratch0 : Ref sig .tc := ⟨.vmem, 74, rfl⟩
abbrev cc4_scratch1 : Ref sig .tc := ⟨.vmem, 75, rfl⟩
abbrev cc5_stg0_0 : Ref sig .tc := ⟨.vmem, 76, rfl⟩
abbrev cc5_stg0_1 : Ref sig .tc := ⟨.vmem, 77, rfl⟩
abbrev cc5_stg1_0 : Ref sig .tc := ⟨.vmem, 78, rfl⟩
abbrev cc5_stg1_1 : Ref sig .tc := ⟨.vmem, 79, rfl⟩
abbrev cc5_stg2_0 : Ref sig .tc := ⟨.vmem, 80, rfl⟩
abbrev cc5_stg3_0 : Ref sig .tc := ⟨.vmem, 81, rfl⟩
abbrev cc5_stg4_0 : Ref sig .tc := ⟨.vmem, 82, rfl⟩
abbrev cc5_stg5_0 : Ref sig .tc := ⟨.vmem, 83, rfl⟩
abbrev cc5_stg6_0 : Ref sig .tc := ⟨.vmem, 84, rfl⟩
abbrev cc5_stg7_0 : Ref sig .tc := ⟨.vmem, 85, rfl⟩
abbrev cc5_stg8_0 : Ref sig .tc := ⟨.vmem, 86, rfl⟩
abbrev cc5_stg9_0 : Ref sig .tc := ⟨.vmem, 87, rfl⟩
abbrev cc5_stg10_0 : Ref sig .tc := ⟨.vmem, 88, rfl⟩
abbrev cc5_stg10_1 : Ref sig .tc := ⟨.vmem, 89, rfl⟩
abbrev cc5_stg11_0 : Ref sig .tc := ⟨.vmem, 90, rfl⟩
abbrev cc5_stg11_1 : Ref sig .tc := ⟨.vmem, 91, rfl⟩
abbrev cc5_stg12_0 : Ref sig .tc := ⟨.vmem, 92, rfl⟩
abbrev cc5_stg13_0 : Ref sig .tc := ⟨.vmem, 93, rfl⟩
abbrev cc5_stg13_1 : Ref sig .tc := ⟨.vmem, 94, rfl⟩
abbrev cc5_stg14_0 : Ref sig .tc := ⟨.vmem, 95, rfl⟩
abbrev cc5_stg14_1 : Ref sig .tc := ⟨.vmem, 96, rfl⟩
abbrev cc5_stg15_0 : Ref sig .tc := ⟨.vmem, 97, rfl⟩
abbrev cc5_scratch0 : Ref sig .tc := ⟨.vmem, 98, rfl⟩
abbrev cc6_stg0_0 : Ref sig .tc := ⟨.vmem, 99, rfl⟩
abbrev cc6_stg0_1 : Ref sig .tc := ⟨.vmem, 100, rfl⟩
abbrev cc6_stg1_0 : Ref sig .tc := ⟨.vmem, 101, rfl⟩
abbrev cc6_stg1_1 : Ref sig .tc := ⟨.vmem, 102, rfl⟩
abbrev cc6_stg2_0 : Ref sig .tc := ⟨.vmem, 103, rfl⟩
abbrev cc6_stg3_0 : Ref sig .tc := ⟨.vmem, 104, rfl⟩
abbrev cc6_stg4_0 : Ref sig .tc := ⟨.vmem, 105, rfl⟩
abbrev cc6_stg5_0 : Ref sig .tc := ⟨.vmem, 106, rfl⟩
abbrev cc6_scratch0 : Ref sig .tc := ⟨.vmem, 107, rfl⟩
abbrev cc6_scratch1 : Ref sig .tc := ⟨.vmem, 108, rfl⟩
abbrev cc7_stg0_0 : Ref sig .tc := ⟨.vmem, 109, rfl⟩
abbrev cc7_stg0_1 : Ref sig .tc := ⟨.vmem, 110, rfl⟩
abbrev cc7_stg1_0 : Ref sig .tc := ⟨.vmem, 111, rfl⟩
abbrev cc7_stg1_1 : Ref sig .tc := ⟨.vmem, 112, rfl⟩
abbrev cc7_stg2_0 : Ref sig .tc := ⟨.vmem, 113, rfl⟩
abbrev cc7_stg3_0 : Ref sig .tc := ⟨.vmem, 114, rfl⟩
abbrev cc7_stg4_0 : Ref sig .tc := ⟨.vmem, 115, rfl⟩
abbrev cc7_stg5_0 : Ref sig .tc := ⟨.vmem, 116, rfl⟩
abbrev cc7_stg6_0 : Ref sig .tc := ⟨.vmem, 117, rfl⟩
abbrev cc7_stg7_0 : Ref sig .tc := ⟨.vmem, 118, rfl⟩
abbrev cc7_stg8_0 : Ref sig .tc := ⟨.vmem, 119, rfl⟩
abbrev cc7_stg9_0 : Ref sig .tc := ⟨.vmem, 120, rfl⟩
abbrev cc7_stg10_0 : Ref sig .tc := ⟨.vmem, 121, rfl⟩
abbrev cc7_stg10_1 : Ref sig .tc := ⟨.vmem, 122, rfl⟩
abbrev cc7_stg11_0 : Ref sig .tc := ⟨.vmem, 123, rfl⟩
abbrev cc7_stg11_1 : Ref sig .tc := ⟨.vmem, 124, rfl⟩
abbrev cc7_stg12_0 : Ref sig .tc := ⟨.vmem, 125, rfl⟩
abbrev cc7_stg13_0 : Ref sig .tc := ⟨.vmem, 126, rfl⟩
abbrev cc7_stg13_1 : Ref sig .tc := ⟨.vmem, 127, rfl⟩
abbrev cc7_stg14_0 : Ref sig .tc := ⟨.vmem, 128, rfl⟩
abbrev cc7_stg14_1 : Ref sig .tc := ⟨.vmem, 129, rfl⟩
abbrev cc7_stg15_0 : Ref sig .tc := ⟨.vmem, 130, rfl⟩
abbrev cc7_scratch0 : Ref sig .tc := ⟨.vmem, 131, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem13_0 : DmaSem sig := 25
abbrev cc1_sem13_1 : DmaSem sig := 26
abbrev cc1_sem14_0 : DmaSem sig := 27
abbrev cc1_sem14_1 : DmaSem sig := 28
abbrev cc1_sem15_0 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem10_0 : DmaSem sig := 50
abbrev cc3_sem10_1 : DmaSem sig := 51
abbrev cc3_sem11_0 : DmaSem sig := 52
abbrev cc3_sem11_1 : DmaSem sig := 53
abbrev cc3_sem12_0 : DmaSem sig := 54
abbrev cc3_sem13_0 : DmaSem sig := 55
abbrev cc3_sem13_1 : DmaSem sig := 56
abbrev cc3_sem14_0 : DmaSem sig := 57
abbrev cc3_sem14_1 : DmaSem sig := 58
abbrev cc3_sem15_0 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem3_0 : DmaSem sig := 65
abbrev cc4_sem4_0 : DmaSem sig := 66
abbrev cc4_sem5_0 : DmaSem sig := 67
abbrev cc5_sem0_0 : DmaSem sig := 68
abbrev cc5_sem0_1 : DmaSem sig := 69
abbrev cc5_sem1_0 : DmaSem sig := 70
abbrev cc5_sem1_1 : DmaSem sig := 71
abbrev cc5_sem2_0 : DmaSem sig := 72
abbrev cc5_sem3_0 : DmaSem sig := 73
abbrev cc5_sem4_0 : DmaSem sig := 74
abbrev cc5_sem5_0 : DmaSem sig := 75
abbrev cc5_sem6_0 : DmaSem sig := 76
abbrev cc5_sem7_0 : DmaSem sig := 77
abbrev cc5_sem8_0 : DmaSem sig := 78
abbrev cc5_sem9_0 : DmaSem sig := 79
abbrev cc5_sem10_0 : DmaSem sig := 80
abbrev cc5_sem10_1 : DmaSem sig := 81
abbrev cc5_sem11_0 : DmaSem sig := 82
abbrev cc5_sem11_1 : DmaSem sig := 83
abbrev cc5_sem12_0 : DmaSem sig := 84
abbrev cc5_sem13_0 : DmaSem sig := 85
abbrev cc5_sem13_1 : DmaSem sig := 86
abbrev cc5_sem14_0 : DmaSem sig := 87
abbrev cc5_sem14_1 : DmaSem sig := 88
abbrev cc5_sem15_0 : DmaSem sig := 89
abbrev cc6_sem0_0 : DmaSem sig := 90
abbrev cc6_sem0_1 : DmaSem sig := 91
abbrev cc6_sem1_0 : DmaSem sig := 92
abbrev cc6_sem1_1 : DmaSem sig := 93
abbrev cc6_sem2_0 : DmaSem sig := 94
abbrev cc6_sem3_0 : DmaSem sig := 95
abbrev cc6_sem4_0 : DmaSem sig := 96
abbrev cc6_sem5_0 : DmaSem sig := 97
abbrev cc7_sem0_0 : DmaSem sig := 98
abbrev cc7_sem0_1 : DmaSem sig := 99
abbrev cc7_sem1_0 : DmaSem sig := 100
abbrev cc7_sem1_1 : DmaSem sig := 101
abbrev cc7_sem2_0 : DmaSem sig := 102
abbrev cc7_sem3_0 : DmaSem sig := 103
abbrev cc7_sem4_0 : DmaSem sig := 104
abbrev cc7_sem5_0 : DmaSem sig := 105
abbrev cc7_sem6_0 : DmaSem sig := 106
abbrev cc7_sem7_0 : DmaSem sig := 107
abbrev cc7_sem8_0 : DmaSem sig := 108
abbrev cc7_sem9_0 : DmaSem sig := 109
abbrev cc7_sem10_0 : DmaSem sig := 110
abbrev cc7_sem10_1 : DmaSem sig := 111
abbrev cc7_sem11_0 : DmaSem sig := 112
abbrev cc7_sem11_1 : DmaSem sig := 113
abbrev cc7_sem12_0 : DmaSem sig := 114
abbrev cc7_sem13_0 : DmaSem sig := 115
abbrev cc7_sem13_1 : DmaSem sig := 116
abbrev cc7_sem14_0 : DmaSem sig := 117
abbrev cc7_sem14_1 : DmaSem sig := 118
abbrev cc7_sem15_0 : DmaSem sig := 119

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v66 : BitVec 1 := Scalar.cmpi .eq arg0 c19_i32
  let v67 : BitVec 32 := Scalar.extui v66
  let c0_i32_36 : BitVec 32 := 0#32
  let v68 : BitVec 1 := Scalar.cmpi .ne v67 c0_i32_36
  v68

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x1 .i32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S128x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S128x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v67 : BitVec 1 := Scalar.cmpi .eq arg0 c19_i32
  let v68 : BitVec 32 := Scalar.extui v67
  let c0_i32_36 : BitVec 32 := 0#32
  let v69 : BitVec 1 := Scalar.cmpi .ne v68 c0_i32_36
  v69

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S5000x1 .i32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 1 → Memref sig .tc .vmem S128x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S5000x64 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S5000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 1 → Memref sig .tc .vmem S128x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v67 : BitVec 1 := Scalar.cmpi .eq arg0 c19_i32
  let v68 : BitVec 32 := Scalar.extui v67
  let c0_i32_36 : BitVec 32 := 0#32
  let v69 : BitVec 1 := Scalar.cmpi .ne v68 c0_i32_36
  v69

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 2 → Memref sig .tc .vmem S5000x1 .i32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 1 → Memref sig .tc .vmem S128x64 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S5000x64 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev stage5_14 : Fin 2 → Memref sig .tc .vmem S5000x64 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev stage5_15 : Fin 1 → Memref sig .tc .vmem S128x64 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v67 : BitVec 1 := Scalar.cmpi .eq arg0 c19_i32
  let v68 : BitVec 32 := Scalar.extui v67
  let c0_i32_36 : BitVec 32 := 0#32
  let v69 : BitVec 1 := Scalar.cmpi .ne v68 c0_i32_36
  v69

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_15 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S5000x64 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 2 → Memref sig .tc .vmem S5000x1 .i32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev stage7_12 : Fin 1 → Memref sig .tc .vmem S128x64 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 2 → Memref sig .tc .vmem S5000x64 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true]

abbrev stage7_14 : Fin 2 → Memref sig .tc .vmem S5000x64 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

abbrev stage7_15 : Fin 1 → Memref sig .tc .vmem S128x64 .f32 := fun | 0 => Memref.whole cc7_stg15_0 | ⟨_ + 1, h⟩ => absurd h (Nat.not_lt.2 (Nat.le_add_left _ _))
abbrev sem7_15 : Fin 1 → DmaSem sig := fun | 0 => cc7_sem15_0 | ⟨_ + 1, h⟩ => absurd h (Nat.not_lt.2 (Nat.le_add_left _ _))
abbrev reads7_15 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  bcast_S100000_S100000x1_0 : S100000.BroadcastsInDim S100000x1 (![0] : Fin 1 → Fin S100000x1.rank)
  shapeCasts_S100000_S100000x1 : S100000.ShapeCasts S100000x1
  bcast_S_S100000x64 : S_.BroadcastsInDim S100000x64 (![] : Fin 0 → Fin S100000x64.rank)
  bcast_S_S128x64 : S_.BroadcastsInDim S128x64 (![] : Fin 0 → Fin S128x64.rank)
  bcast_S100000x1_S100000x64_0_1 : S100000x1.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reduces_S5000x64_S64 : S5000x64.Reduces [0] S64
  bcast_S_S64 : S_.BroadcastsInDim S64 (![] : Fin 0 → Fin S64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S100000_S1600000x1_S1600000_n_0_0_1_wf : ScatterDims.WF S100000 S1600000x1 S1600000 [] [0] [0] 1
  scatter_S128_S100000x1_S100000_n_0_0_1_wf : ScatterDims.WF S128 S100000x1 S100000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x1.size a ≤ S100000x1.size a
  hwx1_11 : ∀ i : grid1.Coords, EltTy.bits .i32 = 32 ∨ (Rect.block (s := S100000x1) S5000x1.size (cc1_transform_11 i) (hinb1_11 i)).WholeWords (EltTy.packing .i32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x64.size a ≤ S128x64.size a
  hwx1_12 : ∀ i : grid1.Coords, EltTy.bits .f32 = 32 ∨ (Rect.block (s := S128x64) S128x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x64.size a ≤ S100000x64.size a
  hwx1_13 : ∀ i : grid1.Coords, EltTy.bits .f32 = 32 ∨ (Rect.block (s := S100000x64) S5000x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S100000x64.size a
  hwx1_14 : ∀ i : grid1.Coords, EltTy.bits .f32 = 32 ∨ (Rect.block (s := S100000x64) S5000x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x64.size a ≤ S128x64.size a
  hwx1_15 : ∀ i : grid1.Coords, EltTy.bits .f32 = 32 ∨ (Rect.block (s := S128x64) S128x64.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x64.size a ≤ S100000x64.size a
  hwx3_10 : ∀ i : grid3.Coords, EltTy.bits .f32 = 32 ∨ (Rect.block (s := S100000x64) S5000x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x1.size a ≤ S100000x1.size a
  hwx3_11 : ∀ i : grid3.Coords, EltTy.bits .i32 = 32 ∨ (Rect.block (s := S100000x1) S5000x1.size (cc3_transform_11 i) (hinb3_11 i)).WholeWords (EltTy.packing .i32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128x64.size a ≤ S128x64.size a
  hwx3_12 : ∀ i : grid3.Coords, EltTy.bits .f32 = 32 ∨ (Rect.block (s := S128x64) S128x64.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S5000x64.size a ≤ S100000x64.size a
  hwx3_13 : ∀ i : grid3.Coords, EltTy.bits .f32 = 32 ∨ (Rect.block (s := S100000x64) S5000x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x64.size a ≤ S100000x64.size a
  hwx3_14 : ∀ i : grid3.Coords, EltTy.bits .f32 = 32 ∨ (Rect.block (s := S100000x64) S5000x64.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S128x64.size a ≤ S128x64.size a
  hwx3_15 : ∀ i : grid3.Coords, EltTy.bits .f32 = 32 ∨ (Rect.block (s := S128x64) S128x64.size (cc3_transform_15 i) (hinb3_15 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .f32 = 32 ∨ (Rect.block (s := S64x64) S64x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x64.size a ≤ S100000x64.size a
  hwx5_10 : ∀ i : grid5.Coords, EltTy.bits .f32 = 32 ∨ (Rect.block (s := S100000x64) S5000x64.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S5000x1.size a ≤ S100000x1.size a
  hwx5_11 : ∀ i : grid5.Coords, EltTy.bits .i32 = 32 ∨ (Rect.block (s := S100000x1) S5000x1.size (cc5_transform_11 i) (hinb5_11 i)).WholeWords (EltTy.packing .i32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128x64.size a ≤ S128x64.size a
  hwx5_12 : ∀ i : grid5.Coords, EltTy.bits .f32 = 32 ∨ (Rect.block (s := S128x64) S128x64.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S5000x64.size a ≤ S100000x64.size a
  hwx5_13 : ∀ i : grid5.Coords, EltTy.bits .f32 = 32 ∨ (Rect.block (s := S100000x64) S5000x64.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S5000x64.size a ≤ S100000x64.size a
  hwx5_14 : ∀ i : grid5.Coords, EltTy.bits .f32 = 32 ∨ (Rect.block (s := S100000x64) S5000x64.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S128x64.size a ≤ S128x64.size a
  hwx5_15 : ∀ i : grid5.Coords, EltTy.bits .f32 = 32 ∨ (Rect.block (s := S128x64) S128x64.size (cc5_transform_15 i) (hinb5_15 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x64.size a ≤ S64x64.size a
  hwx7_8 : ∀ i : grid7.Coords, EltTy.bits .f32 = 32 ∨ (Rect.block (s := S64x64) S64x64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x64.size a ≤ S1x64.size a
  hwx7_9 : ∀ i : grid7.Coords, EltTy.bits .f32 = 32 ∨ (Rect.block (s := S1x64) S1x64.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x64.size a ≤ S100000x64.size a
  hwx7_10 : ∀ i : grid7.Coords, EltTy.bits .f32 = 32 ∨ (Rect.block (s := S100000x64) S5000x64.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S5000x1.size a ≤ S100000x1.size a
  hwx7_11 : ∀ i : grid7.Coords, EltTy.bits .i32 = 32 ∨ (Rect.block (s := S100000x1) S5000x1.size (cc7_transform_11 i) (hinb7_11 i)).WholeWords (EltTy.packing .i32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S128x64.size a ≤ S128x64.size a
  hwx7_12 : ∀ i : grid7.Coords, EltTy.bits .f32 = 32 ∨ (Rect.block (s := S128x64) S128x64.size (cc7_transform_12 i) (hinb7_12 i)).WholeWords (EltTy.packing .f32)
  hstage7_13 : ∀ j, (stage7_13 j).IsWhole
  nbuf7_13 : grid7.bufCount reads7_13 false = 2
  hreads7_13 : ∀ i i' : grid7.Coords, (∀ a, reads7_13 a = true → i a = i' a) → cc7_transform_13 i = cc7_transform_13 i'
  hinb7_13 : ∀ (i : grid7.Coords) a, (cc7_transform_13 i a + 1) * S5000x64.size a ≤ S100000x64.size a
  hwx7_13 : ∀ i : grid7.Coords, EltTy.bits .f32 = 32 ∨ (Rect.block (s := S100000x64) S5000x64.size (cc7_transform_13 i) (hinb7_13 i)).WholeWords (EltTy.packing .f32)
  hstage7_14 : ∀ j, (stage7_14 j).IsWhole
  nbuf7_14 : grid7.bufCount reads7_14 false = 2
  hreads7_14 : ∀ i i' : grid7.Coords, (∀ a, reads7_14 a = true → i a = i' a) → cc7_transform_14 i = cc7_transform_14 i'
  hinb7_14 : ∀ (i : grid7.Coords) a, (cc7_transform_14 i a + 1) * S5000x64.size a ≤ S100000x64.size a
  hwx7_14 : ∀ i : grid7.Coords, EltTy.bits .f32 = 32 ∨ (Rect.block (s := S100000x64) S5000x64.size (cc7_transform_14 i) (hinb7_14 i)).WholeWords (EltTy.packing .f32)
  hstage7_15 : ∀ j, (stage7_15 j).IsWhole
  nbuf7_15 : grid7.bufCount reads7_15 true = 1
  hreads7_15 : ∀ i i' : grid7.Coords, (∀ a, reads7_15 a = true → i a = i' a) → cc7_transform_15 i = cc7_transform_15 i'
  hinb7_15 : ∀ (i : grid7.Coords) a, (cc7_transform_15 i a + 1) * S128x64.size a ≤ S128x64.size a
  hwx7_15 : ∀ i : grid7.Coords, EltTy.bits .f32 = 32 ∨ (Rect.block (s := S128x64) S128x64.size (cc7_transform_15 i) (hinb7_15 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v69) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21) S5000x64.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v20) S5000x1.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v22) S128x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v70_0) S5000x64.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v70_1) S5000x64.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v70_2) S128x64.size cc1_transform_15 reads1_15 true true 1 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev idle1 : Fin 16 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k1_cond2 i == 1#1) | ⟨_ + 16, h⟩ => absurd h (Nat.not_lt.2 (Nat.le_add_left _ _))

abbrev win2_0 : Pipeline.Window sig grid2 :=
  Pipeline.Window.ofSpec (Memref.whole main_v70_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89_0) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89_1) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v112) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v113) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v114) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v115) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v116) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v109) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v117) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v70_1) S5000x64.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v20) S5000x1.size cc3_transform_11 reads3_11 false false 2 stage3_11 sem3_11
    hrank3 hreads3_11 hinb3_11 nbuf3_11 (Memref.isWhole_whole _) hwx3_11 hstage3_11

abbrev win3_12 : Pipeline.Window sig grid3 :=
  Pipeline.Window.ofSpec (Memref.whole main_v70_2) S128x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v118_0) S5000x64.size cc3_transform_13 reads3_13 true false 2 stage3_13 sem3_13
    hrank3 hreads3_13 hinb3_13 nbuf3_13 (Memref.isWhole_whole _) hwx3_13 hstage3_13

abbrev win3_14 : Pipeline.Window sig grid3 :=
  Pipeline.Window.ofSpec (Memref.whole main_v118_1) S5000x64.size cc3_transform_14 reads3_14 true false 2 stage3_14 sem3_14
    hrank3 hreads3_14 hinb3_14 nbuf3_14 (Memref.isWhole_whole _) hwx3_14 hstage3_14

abbrev win3_15 : Pipeline.Window sig grid3 :=
  Pipeline.Window.ofSpec (Memref.whole main_v118_2) S128x64.size cc3_transform_15 reads3_15 true true 1 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev idle3 : Fin 16 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k3_cond2 i == 1#1) | ⟨_ + 16, h⟩ => absurd h (Nat.not_lt.2 (Nat.le_add_left _ _))

abbrev win4_0 : Pipeline.Window sig grid4 :=
  Pipeline.Window.ofSpec (Memref.whole main_v118_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v133) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v136) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v137_0) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v137_1) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v118_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v131) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v149) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v160) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v161) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v162) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v163) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v164) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v157) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v165) S1x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v118_1) S5000x64.size cc5_transform_10 reads5_10 false false 2 stage5_10 sem5_10
    hrank5 hreads5_10 hinb5_10 nbuf5_10 (Memref.isWhole_whole _) hwx5_10 hstage5_10

abbrev win5_11 : Pipeline.Window sig grid5 :=
  Pipeline.Window.ofSpec (Memref.whole main_v20) S5000x1.size cc5_transform_11 reads5_11 false false 2 stage5_11 sem5_11
    hrank5 hreads5_11 hinb5_11 nbuf5_11 (Memref.isWhole_whole _) hwx5_11 hstage5_11

abbrev win5_12 : Pipeline.Window sig grid5 :=
  Pipeline.Window.ofSpec (Memref.whole main_v118_2) S128x64.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v166_0) S5000x64.size cc5_transform_13 reads5_13 true false 2 stage5_13 sem5_13
    hrank5 hreads5_13 hinb5_13 nbuf5_13 (Memref.isWhole_whole _) hwx5_13 hstage5_13

abbrev win5_14 : Pipeline.Window sig grid5 :=
  Pipeline.Window.ofSpec (Memref.whole main_v166_1) S5000x64.size cc5_transform_14 reads5_14 true false 2 stage5_14 sem5_14
    hrank5 hreads5_14 hinb5_14 nbuf5_14 (Memref.isWhole_whole _) hwx5_14 hstage5_14

abbrev win5_15 : Pipeline.Window sig grid5 :=
  Pipeline.Window.ofSpec (Memref.whole main_v166_2) S128x64.size cc5_transform_15 reads5_15 true true 1 stage5_15 sem5_15
    hrank5 hreads5_15 hinb5_15 nbuf5_15 (Memref.isWhole_whole _) hwx5_15 hstage5_15

abbrev win5 : Fin 16 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | ⟨_ + 16, h⟩ => absurd h (Nat.not_lt.2 (Nat.le_add_left _ _))
abbrev spec5 : Fin 16 → Pipeline.WinSpec sig grid5.rank := fun w => (win5 w).toWinSpec

abbrev idle5 : Fin 16 → grid5.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k5_cond2 i == 1#1) | ⟨_ + 16, h⟩ => absurd h (Nat.not_lt.2 (Nat.le_add_left _ _))

abbrev win6_0 : Pipeline.Window sig grid6 :=
  Pipeline.Window.ofSpec (Memref.whole main_v166_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v179) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v181) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v184) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v185_0) S1x64.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v185_1) S1x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v166_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v179) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v197) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v208) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v209) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v210) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v211) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v212) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v205) S64x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v213) S1x64.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v166_1) S5000x64.size cc7_transform_10 reads7_10 false false 2 stage7_10 sem7_10
    hrank7 hreads7_10 hinb7_10 nbuf7_10 (Memref.isWhole_whole _) hwx7_10 hstage7_10

abbrev win7_11 : Pipeline.Window sig grid7 :=
  Pipeline.Window.ofSpec (Memref.whole main_v20) S5000x1.size cc7_transform_11 reads7_11 false false 2 stage7_11 sem7_11
    hrank7 hreads7_11 hinb7_11 nbuf7_11 (Memref.isWhole_whole _) hwx7_11 hstage7_11

abbrev win7_12 : Pipeline.Window sig grid7 :=
  Pipeline.Window.ofSpec (Memref.whole main_v166_2) S128x64.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v214_0) S5000x64.size cc7_transform_13 reads7_13 true false 2 stage7_13 sem7_13
    hrank7 hreads7_13 hinb7_13 nbuf7_13 (Memref.isWhole_whole _) hwx7_13 hstage7_13

abbrev win7_14 : Pipeline.Window sig grid7 :=
  Pipeline.Window.ofSpec (Memref.whole main_v214_1) S5000x64.size cc7_transform_14 reads7_14 true false 2 stage7_14 sem7_14
    hrank7 hreads7_14 hinb7_14 nbuf7_14 (Memref.isWhole_whole _) hwx7_14 hstage7_14

abbrev win7_15 : Pipeline.Window sig grid7 :=
  Pipeline.Window.ofSpec (Memref.whole main_v214_2) S128x64.size cc7_transform_15 reads7_15 true true 1 stage7_15 sem7_15
    hrank7 hreads7_15 hinb7_15 nbuf7_15 (Memref.isWhole_whole _) hwx7_15 hstage7_15

abbrev win7 : Fin 16 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | ⟨_ + 16, h⟩ => absurd h (Nat.not_lt.2 (Nat.le_add_left _ _))
abbrev spec7 : Fin 16 → Pipeline.WinSpec sig grid7.rank := fun w => (win7 w).toWinSpec

abbrev idle7 : Fin 16 → grid7.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k7_cond2 i == 1#1) | ⟨_ + 16, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S4x64x64 : Shape := ⟨3, ![4, 64, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S128 : Shape := ⟨1, ![128]⟩
abbrev S100000x1 : Shape := ⟨2, ![100000, 1]⟩
abbrev S128x64 : Shape := ⟨2, ![128, 64]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x1 : Shape := ⟨2, ![128, 1]⟩

abbrev nBuf : Space → Nat
  | .hbm => 413
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S4x64x64, .f32⟩
  | 4 => ⟨S4x64, .f32⟩
  | 5 => ⟨S4x64, .f32⟩
  | 6 => ⟨S4x64, .f32⟩
  | 7 => ⟨S4x64x64, .f32⟩
  | 8 => ⟨S4x64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S_, .f32⟩
  | 28 => ⟨S128, .f32⟩
  | 29 => ⟨S100000x1, .i32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S_, .f32⟩
  | 38 => ⟨S100000x64, .f32⟩
  | 39 => ⟨S_, .f32⟩
  | 40 => ⟨S128x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x1, .f32⟩
  | 55 => ⟨S100000x64, .f32⟩
  | 56 => ⟨S100000x64, .f32⟩
  | 57 => ⟨S100000x64, .f32⟩
  | 58 => ⟨S1x64x64, .f32⟩
  | 59 => ⟨S64x64, .f32⟩
  | 60 => ⟨S100000x64, .f32⟩
  | 61 => ⟨S1x64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S100000x64, .f32⟩
  | 79 => ⟨S100000x64, .f32⟩
  | 80 => ⟨S100000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S64, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S100000x64, .f32⟩
  | 126 => ⟨S_, .f32⟩
  | 127 => ⟨S128x64, .f32⟩
  | _ => ⟨S100000x64, .f32⟩

abbrev hbmTy0_1 (i : Nat) : BufTy := match i % 128 with
  | 0 => ⟨S100000x1, .i32⟩
  | 1 => ⟨S128x64, .f32⟩
  | 2 => ⟨S128x1, .f32⟩
  | 3 => ⟨S128x64, .f32⟩
  | 4 => ⟨S128x64, .f32⟩
  | 5 => ⟨S128x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S100000x1, .f32⟩
  | 20 => ⟨S100000x64, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S_, .f32⟩
  | 32 => ⟨S64, .f32⟩
  | 33 => ⟨S_, .f32⟩
  | 34 => ⟨S64, .f32⟩
  | 35 => ⟨S64, .f32⟩
  | 36 => ⟨S_, .i32⟩
  | 37 => ⟨S_, .f32⟩
  | 38 => ⟨S64, .f32⟩
  | 39 => ⟨S1x64, .f32⟩
  | 40 => ⟨S_, .f32⟩
  | 41 => ⟨S1x64, .f32⟩
  | 42 => ⟨S1x64, .f32⟩
  | 43 => ⟨S100000x64, .f32⟩
  | 44 => ⟨S100000x64, .f32⟩
  | 45 => ⟨S100000x64, .f32⟩
  | 46 => ⟨S_, .f32⟩
  | 47 => ⟨S_, .f32⟩
  | 48 => ⟨S_, .f32⟩
  | 49 => ⟨S_, .f32⟩
  | 50 => ⟨S64, .f32⟩
  | 51 => ⟨S64, .f32⟩
  | 52 => ⟨S64, .f32⟩
  | 53 => ⟨S_, .f32⟩
  | 54 => ⟨S_, .i1⟩
  | 55 => ⟨S_, .f32⟩
  | 56 => ⟨S_, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S64, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S1x64x64, .f32⟩
  | 83 => ⟨S64x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S100000x64, .f32⟩
  | 91 => ⟨S_, .f32⟩
  | 92 => ⟨S128x64, .f32⟩
  | 93 => ⟨S100000x1, .i32⟩
  | 94 => ⟨S128x64, .f32⟩
  | 95 => ⟨S128x1, .f32⟩
  | 96 => ⟨S128x64, .f32⟩
  | 97 => ⟨S128x64, .f32⟩
  | 98 => ⟨S128x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x1, .f32⟩
  | 113 => ⟨S100000x64, .f32⟩
  | 114 => ⟨S100000x64, .f32⟩
  | 115 => ⟨S100000x64, .f32⟩
  | 116 => ⟨S1x64x64, .f32⟩
  | 117 => ⟨S64x64, .f32⟩
  | 118 => ⟨S100000x64, .f32⟩
  | 119 => ⟨S1x64, .f32⟩
  | 120 => ⟨S64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S_, .f32⟩
  | 127 => ⟨S64, .f32⟩
  | _ => ⟨S100000x64, .f32⟩

abbrev hbmTy0_2 (i : Nat) : BufTy := match i % 128 with
  | 0 => ⟨S64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S_, .f32⟩
  | 28 => ⟨S64, .f32⟩
  | 29 => ⟨S64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S1x64, .f32⟩
  | 40 => ⟨S64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S1x64x64, .f32⟩
  | 48 => ⟨S64x64, .f32⟩
  | 49 => ⟨S100000x64, .f32⟩
  | 50 => ⟨S1x64, .f32⟩
  | 51 => ⟨S64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S128x64, .f32⟩
  | 58 => ⟨S100000x1, .i32⟩
  | 59 => ⟨S128x64, .f32⟩
  | 60 => ⟨S128x1, .f32⟩
  | 61 => ⟨S128x64, .f32⟩
  | 62 => ⟨S128x64, .f32⟩
  | 63 => ⟨S128x64, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S100000x1, .f32⟩
  | 78 => ⟨S100000x64, .f32⟩
  | 79 => ⟨S100000x64, .f32⟩
  | 80 => ⟨S100000x64, .f32⟩
  | 81 => ⟨S1x64x64, .f32⟩
  | 82 => ⟨S64x64, .f32⟩
  | 83 => ⟨S100000x64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S_, .i32⟩
  | 95 => ⟨S_, .f32⟩
  | 96 => ⟨S64, .f32⟩
  | 97 => ⟨S1x64, .f32⟩
  | 98 => ⟨S_, .f32⟩
  | 99 => ⟨S1x64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S_, .f32⟩
  | 106 => ⟨S_, .f32⟩
  | 107 => ⟨S_, .f32⟩
  | 108 => ⟨S64, .f32⟩
  | 109 => ⟨S64, .f32⟩
  | 110 => ⟨S64, .f32⟩
  | 111 => ⟨S_, .f32⟩
  | 112 => ⟨S_, .i1⟩
  | 113 => ⟨S_, .f32⟩
  | 114 => ⟨S_, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_3 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S1x64x64, .f32⟩
  | 13 => ⟨S64x64, .f32⟩
  | 14 => ⟨S100000x64, .f32⟩
  | 15 => ⟨S1x64, .f32⟩
  | 16 => ⟨S64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S128x64, .f32⟩
  | 23 => ⟨S100000x1, .i32⟩
  | 24 => ⟨S128x64, .f32⟩
  | 25 => ⟨S128x1, .f32⟩
  | 26 => ⟨S128x64, .f32⟩
  | 27 => ⟨S128x64, .f32⟩
  | 28 => ⟨S128x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_9 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_c_13 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_14 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call1_cst : Ref sig .tc := ⟨.hbm, 114, rfl⟩
abbrev main_call1_v0 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_15 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_16 : Ref sig .tc := ⟨.hbm, 134, rfl⟩
abbrev main_v84 : Ref sig .tc := ⟨.hbm, 135, rfl⟩
abbrev main_v85 : Ref sig .tc := ⟨.hbm, 136, rfl⟩
abbrev main_c_17 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_18 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_19 : Ref sig .tc := ⟨.hbm, 159, rfl⟩
abbrev main_v106 : Ref sig .tc := ⟨.hbm, 160, rfl⟩
abbrev main_cst_20 : Ref sig .tc := ⟨.hbm, 161, rfl⟩
abbrev main_v107 : Ref sig .tc := ⟨.hbm, 162, rfl⟩
abbrev main_v108 : Ref sig .tc := ⟨.hbm, 163, rfl⟩
abbrev main_c_21 : Ref sig .tc := ⟨.hbm, 164, rfl⟩
abbrev main_call2_cst : Ref sig .tc := ⟨.hbm, 165, rfl⟩
abbrev main_call2_v0 : Ref sig .tc := ⟨.hbm, 166, rfl⟩
abbrev main_call2_v1 : Ref sig .tc := ⟨.hbm, 167, rfl⟩
abbrev main_call2_cst_0 : Ref sig .tc := ⟨.hbm, 168, rfl⟩
abbrev main_call2_v2 : Ref sig .tc := ⟨.hbm, 169, rfl⟩
abbrev main_call2_v3 : Ref sig .tc := ⟨.hbm, 170, rfl⟩
abbrev main_call2_v4 : Ref sig .tc := ⟨.hbm, 171, rfl⟩
abbrev main_call2_v5 : Ref sig .tc := ⟨.hbm, 172, rfl⟩
abbrev main_call2_v6 : Ref sig .tc := ⟨.hbm, 173, rfl⟩
abbrev main_call2_v7 : Ref sig .tc := ⟨.hbm, 174, rfl⟩
abbrev main_call2_cst_1 : Ref sig .tc := ⟨.hbm, 175, rfl⟩
abbrev main_call2_v8 : Ref sig .tc := ⟨.hbm, 176, rfl⟩
abbrev main_call2_cst_2 : Ref sig .tc := ⟨.hbm, 177, rfl⟩
abbrev main_call2_v9 : Ref sig .tc := ⟨.hbm, 178, rfl⟩
abbrev main_call2_v10 : Ref sig .tc := ⟨.hbm, 179, rfl⟩
abbrev main_call2_v11 : Ref sig .tc := ⟨.hbm, 180, rfl⟩
abbrev main_call2_cst_3 : Ref sig .tc := ⟨.hbm, 181, rfl⟩
abbrev main_call2_v12 : Ref sig .tc := ⟨.hbm, 182, rfl⟩
abbrev main_call2_cst_4 : Ref sig .tc := ⟨.hbm, 183, rfl⟩
abbrev main_call2_call0_v0 : Ref sig .tc := ⟨.hbm, 184, rfl⟩
abbrev main_call2_call0_v1 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_cst_22 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_call3_cst : Ref sig .tc := ⟨.hbm, 207, rfl⟩
abbrev main_call3_v0 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_23 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_c_24 : Ref sig .tc := ⟨.hbm, 227, rfl⟩
abbrev main_v146 : Ref sig .tc := ⟨.hbm, 228, rfl⟩
abbrev main_v147 : Ref sig .tc := ⟨.hbm, 229, rfl⟩
abbrev main_c_25 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_cst_26 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_27 : Ref sig .tc := ⟨.hbm, 252, rfl⟩
abbrev main_v168 : Ref sig .tc := ⟨.hbm, 253, rfl⟩
abbrev main_cst_28 : Ref sig .tc := ⟨.hbm, 254, rfl⟩
abbrev main_v169 : Ref sig .tc := ⟨.hbm, 255, rfl⟩
abbrev main_v170 : Ref sig .tc := ⟨.hbm, 256, rfl⟩
abbrev main_c_29 : Ref sig .tc := ⟨.hbm, 257, rfl⟩
abbrev main_call4_cst : Ref sig .tc := ⟨.hbm, 258, rfl⟩
abbrev main_call4_v0 : Ref sig .tc := ⟨.hbm, 259, rfl⟩
abbrev main_call4_v1 : Ref sig .tc := ⟨.hbm, 260, rfl⟩
abbrev main_call4_cst_0 : Ref sig .tc := ⟨.hbm, 261, rfl⟩
abbrev main_call4_v2 : Ref sig .tc := ⟨.hbm, 262, rfl⟩
abbrev main_call4_v3 : Ref sig .tc := ⟨.hbm, 263, rfl⟩
abbrev main_call4_v4 : Ref sig .tc := ⟨.hbm, 264, rfl⟩
abbrev main_call4_v5 : Ref sig .tc := ⟨.hbm, 265, rfl⟩
abbrev main_call4_v6 : Ref sig .tc := ⟨.hbm, 266, rfl⟩
abbrev main_call4_v7 : Ref sig .tc := ⟨.hbm, 267, rfl⟩
abbrev main_call4_cst_1 : Ref sig .tc := ⟨.hbm, 268, rfl⟩
abbrev main_call4_v8 : Ref sig .tc := ⟨.hbm, 269, rfl⟩
abbrev main_call4_cst_2 : Ref sig .tc := ⟨.hbm, 270, rfl⟩
abbrev main_call4_v9 : Ref sig .tc := ⟨.hbm, 271, rfl⟩
abbrev main_call4_v10 : Ref sig .tc := ⟨.hbm, 272, rfl⟩
abbrev main_call4_v11 : Ref sig .tc := ⟨.hbm, 273, rfl⟩
abbrev main_call4_cst_3 : Ref sig .tc := ⟨.hbm, 274, rfl⟩
abbrev main_call4_v12 : Ref sig .tc := ⟨.hbm, 275, rfl⟩
abbrev main_call4_cst_4 : Ref sig .tc := ⟨.hbm, 276, rfl⟩
abbrev main_call4_call0_v0 : Ref sig .tc := ⟨.hbm, 277, rfl⟩
abbrev main_call4_call0_v1 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_cst_30 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_call5_cst : Ref sig .tc := ⟨.hbm, 300, rfl⟩
abbrev main_call5_v0 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_cst_31 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_c_32 : Ref sig .tc := ⟨.hbm, 320, rfl⟩
abbrev main_v208 : Ref sig .tc := ⟨.hbm, 321, rfl⟩
abbrev main_v209 : Ref sig .tc := ⟨.hbm, 322, rfl⟩
abbrev main_c_33 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_cst_34 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_cst_35 : Ref sig .tc := ⟨.hbm, 345, rfl⟩
abbrev main_v230 : Ref sig .tc := ⟨.hbm, 346, rfl⟩
abbrev main_cst_36 : Ref sig .tc := ⟨.hbm, 347, rfl⟩
abbrev main_v231 : Ref sig .tc := ⟨.hbm, 348, rfl⟩
abbrev main_v232 : Ref sig .tc := ⟨.hbm, 349, rfl⟩
abbrev main_c_37 : Ref sig .tc := ⟨.hbm, 350, rfl⟩
abbrev main_call6_cst : Ref sig .tc := ⟨.hbm, 351, rfl⟩
abbrev main_call6_v0 : Ref sig .tc := ⟨.hbm, 352, rfl⟩
abbrev main_call6_v1 : Ref sig .tc := ⟨.hbm, 353, rfl⟩
abbrev main_call6_cst_0 : Ref sig .tc := ⟨.hbm, 354, rfl⟩
abbrev main_call6_v2 : Ref sig .tc := ⟨.hbm, 355, rfl⟩
abbrev main_call6_v3 : Ref sig .tc := ⟨.hbm, 356, rfl⟩
abbrev main_call6_v4 : Ref sig .tc := ⟨.hbm, 357, rfl⟩
abbrev main_call6_v5 : Ref sig .tc := ⟨.hbm, 358, rfl⟩
abbrev main_call6_v6 : Ref sig .tc := ⟨.hbm, 359, rfl⟩
abbrev main_call6_v7 : Ref sig .tc := ⟨.hbm, 360, rfl⟩
abbrev main_call6_cst_1 : Ref sig .tc := ⟨.hbm, 361, rfl⟩
abbrev main_call6_v8 : Ref sig .tc := ⟨.hbm, 362, rfl⟩
abbrev main_call6_cst_2 : Ref sig .tc := ⟨.hbm, 363, rfl⟩
abbrev main_call6_v9 : Ref sig .tc := ⟨.hbm, 364, rfl⟩
abbrev main_call6_v10 : Ref sig .tc := ⟨.hbm, 365, rfl⟩
abbrev main_call6_v11 : Ref sig .tc := ⟨.hbm, 366, rfl⟩
abbrev main_call6_cst_3 : Ref sig .tc := ⟨.hbm, 367, rfl⟩
abbrev main_call6_v12 : Ref sig .tc := ⟨.hbm, 368, rfl⟩
abbrev main_call6_cst_4 : Ref sig .tc := ⟨.hbm, 369, rfl⟩
abbrev main_call6_call0_v0 : Ref sig .tc := ⟨.hbm, 370, rfl⟩
abbrev main_call6_call0_v1 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_cst_38 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_call7_cst : Ref sig .tc := ⟨.hbm, 393, rfl⟩
abbrev main_call7_v0 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_cst_39 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S_S128x64 : S_.BroadcastsInDim S128x64 (![] : Fin 0 → Fin S128x64.rank)
  bcast_S100000x1_S100000x64_0_1 : S100000x1.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1600000x1_S1600000_n_0_0_1_wf : ScatterDims.WF S100000 S1600000x1 S1600000 [] [0] [0] 1
  scatter_S128_S100000x1_S100000_n_0_0_1_wf : ScatterDims.WF S128 S100000x1 S100000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

class Facts : Prop extends Facts₀ where

variable [Facts]
-- ==== Proof.K.Stats0.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def pt0 (n : ℕ) : Fin cfg0.N := if h : n < cfg0.N then ⟨n, h⟩ else ⟨0, by decide⟩

theorem pt0_val (t : Fin cfg0.N) : pt0 t.val = t := dif_pos t.isLt

def scr0_0 (c : Dev nD) : ℕ → FVec F S1x64 .f32
  | 0 => k0_pay4 (iblk0 V c 0 (pt0 0)) (iblk0 V c 1 (pt0 0)) (iblk0 V c 2 (pt0 0)) (iblk0 V c 3 (pt0 0)) (k0_pay1 (F := F))
  | n + 1 => k0_pay4 (iblk0 V c 0 (pt0 (n + 1))) (iblk0 V c 1 (pt0 (n + 1))) (iblk0 V c 2 (pt0 (n + 1))) (iblk0 V c 3 (pt0 (n + 1))) (scr0_0 c n)

def scr0_1 (c : Dev nD) : ℕ → FVec F S1x64 .f32
  | 0 => k0_pay5 (iblk0 V c 0 (pt0 0)) (iblk0 V c 1 (pt0 0)) (iblk0 V c 2 (pt0 0)) (iblk0 V c 3 (pt0 0)) (k0_pay2 (F := F))
  | n + 1 => k0_pay5 (iblk0 V c 0 (pt0 (n + 1))) (iblk0 V c 1 (pt0 (n + 1))) (iblk0 V c 2 (pt0 (n + 1))) (iblk0 V c 3 (pt0 (n + 1))) (scr0_1 c n)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => scr0_0 V c t.val
    | ⟨5, _⟩ => scr0_1 V c t.val
  Φ t := match t with
    | ⟨0, _⟩ => Pipeline.scopedRest (Ix := Unit) (Name := ℕ) (U := UR sig nD τ) (Lvl := ℕ) (Val := Elt F) spec0 c
    | ⟨n + 1, _⟩ => iprop(owns (c : Thread nD τ) (Memref.whole cc0_scratch0) fullShare (scr0_0 V c n)
        ∗ owns (c : Thread nD τ) (Memref.whole cc0_scratch1) fullShare (scr0_1 V c n)
        ∗ Pipeline.scopedRestBut (Ix := Unit) (Name := ℕ) (U := UR sig nD τ) (Lvl := ℕ) (Val := Elt F) spec0 c [cc0_scratch0, cc0_scratch1])
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = scr0_0 V c t.val := rfl
theorem after0_5 (c : Dev nD) (t : Fin cfg0.N) : (dat0 V c).after 5 t = scr0_1 V c t.val := rfl

theorem hin0 (c : Dev nD) : (Pipeline.scopedRest (Ix := Unit) (Name := ℕ) (U := UR sig nD τ) (Lvl := ℕ) (Val := Elt F) spec0 c : sProp 𝕄) ⊢ (dat0 V c).Φ 0 := .rfl

theorem hout0 (c : Dev nD) : (dat0 V c).Φ (Fin.last cfg0.N) ⊢ (Pipeline.scopedRest (Ix := Unit) (Name := ℕ) (U := UR sig nD τ) (Lvl := ℕ) (Val := Elt F) spec0 c : sProp 𝕄) := by
  show _ ∗ _ ∗ _ ⊢ _
  rw [scopedRest0_split, owns_whole, owns_whole]
  iintro ⟨H0, H1, Hr⟩
  iframe Hr
  isplitl [H0] <;> iexists _ <;> iassumption

abbrev cond0_0 (i : grid0.Coords) : Prop := (Scalar.cmpi .ne (Scalar.extui (Scalar.cmpi .eq (BitVec.ofNat 32 (i 0).val) 0#32)) 0#32) = 1#1

theorem hcond0_0 : ∀ t : Fin grid0.N, cond0_0 (grid0.coords t) ↔ t.val = 0 := by decide +kernel

private theorem hz2 : (![0, 0] : Fin 2 → ℕ) = fun _ => 0 := by
  funext a; fin_cases a <;> rfl

theorem run0 {c : Dev nD} {E : Set ℕ} {i : grid0.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond0_0 i ∧ r0 = k0_pay1 ∧ r1 = k0_pay2 ∨ ¬ cond0_0 i ∧ r0 = s0 ∧ r1 = s1) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 x0 x1 x2 x3 r0) ∗ owns (c : Thread nD τ) arg6 fullShare (k0_pay5 x0 x1 x2 x3 r1)
            ∗ owns (c : Thread nD τ) arg7 fullShare (k0_pay4 x0 x1 x2 x3 r0) ∗ owns (c : Thread nD τ) arg8 fullShare (k0_pay5 x0 x1 x2 x3 r1)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc0__stats_kernel_eq_skeleton, cc0__stats_kernel_skel, k0_part1_eq_skeleton, k0_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) hz2, View.ld_unit_zero (S := S64x64) hz2, View.ld_unit_zero (S := S1x64) hz2, View.readCov_cons_toLoadRect]; exact Eq.trans (View.read_writes_eq_canon _ _ _ fun y => ⟨_, List.mem_cons_self, View.mem_set_unit_zero hz2 inb_S1x64_S1x64_0_0 y⟩) (View.canon_cons_unit_zero hz2 _ _ _)))

theorem body_obligation0 (c : Dev nD) : BodyObligation (dat0 (F := F) V c) (defs₀ (F := F)) Variants.none () Set.univ := fun t => by
  rw [bigSep_W0, bigSep_W0]
  simp only [(dat0 V c).before_in_eq_fetched 0 rfl (fun _ => rfl) (fun _ _ _ => rfl) (fun _ => rfl) t,
    (dat0 V c).before_in_eq_fetched 1 rfl (fun _ => rfl) (fun _ _ _ => rfl) (fun _ => rfl) t,
    (dat0 V c).before_in_eq_fetched 2 rfl (fun _ => rfl) (fun _ _ _ => rfl) (fun _ => rfl) t,
    (dat0 V c).before_in_eq_fetched 3 rfl (fun _ => rfl) (fun _ _ _ => rfl) (fun _ => rfl) t]
  show _ ⊢ wp _ _ _ _ fun _ => iprop((_ ∗ _ ∗ _) ∗ _)
  rw [after0_4, after0_5]
  obtain ⟨_ | n, hn⟩ := t <;> rw [scr0_0, scr0_1, pt0_val ⟨_, hn⟩]
  on_goal 2 =>
    show (_ ∗ _ ∗ _) ∗ _ ⊢ _
    iintro ⟨⟨HS0, HS1, Hr⟩, Ho, ⟨%d0, H0⟩, ⟨%d1, H1⟩, ⟨%d2, H2⟩, ⟨%d3, H3⟩, ⟨%d4, H4⟩, ⟨%d5, H5⟩⟩
    iapply (run0 (.inr ⟨mt (hcond0_0 ⟨n + 1, hn⟩).1 n.succ_ne_zero, rfl, rfl⟩))
  on_goal 1 =>
    show Pipeline.scopedRest spec0 c ∗ _ ⊢ _
    rw [scopedRest0_split]
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run0 (.inl ⟨(hcond0_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    isplitl [H4]; · iexact H4
    iexact H5

end Cert.Kernel.Hand

end
-- ==== Proof.K.Update1Data.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨n % 20, lt_of_lt_of_eq (Nat.mod_lt _ (by decide)) N_1.symm⟩

theorem pt1_val (t : Fin cfg1.N) : pt1 t.val = t :=
  Fin.ext (Nat.mod_eq_of_lt (lt_of_lt_of_eq t.isLt N_1))

def act1 (c : Dev nD) (t : Fin cfg1.N) : FVec F S5000x64 .f32 :=
  k1_pay5 (iblk1 V c 0 t) (iblk1 V c 1 t) (iblk1 V c 2 t) (iblk1 V c 3 t) (iblk1 V c 5 t) (iblk1 V c 4 t) (iblk1 V c 6 t) (iblk1 V c 7 t)

def hnew1 (c : Dev nD) (t : Fin cfg1.N) : FVec F S5000x64 .f32 :=
  k1_pay1 (act1 V c t) (iblk1 V c 8 t) (iblk1 V c 9 t)

def npool1 (c : Dev nD) (t : Fin cfg1.N) : FVec F S5000x64 .f32 :=
  k1_pay2 (act1 V c t) (iblk1 V c 8 t) (iblk1 V c 9 t) (iblk1 V c 10 t)

def scr1_0 (c : Dev nD) : ℕ → FVec F S128x64 .f32
  | 0 => k1_pay3 (act1 V c (pt1 0)) (iblk1 V c 8 (pt1 0)) (iblk1 V c 9 (pt1 0)) (iblk1 V c 11 (pt1 0)) (k1_pay4 (iblk1 V c 12 (pt1 0)))
  | n + 1 => k1_pay3 (act1 V c (pt1 (n + 1))) (iblk1 V c 8 (pt1 (n + 1))) (iblk1 V c 9 (pt1 (n + 1))) (iblk1 V c 11 (pt1 (n + 1))) (scr1_0 c n)

theorem scr1_0_zero (c : Dev nD) : scr1_0 V c 0 = k1_pay3 (act1 V c (pt1 0)) (iblk1 V c 8 (pt1 0)) (iblk1 V c 9 (pt1 0)) (iblk1 V c 11 (pt1 0)) (k1_pay4 (iblk1 V c 12 (pt1 0))) := rfl

theorem scr1_0_succ (c : Dev nD) (n : ℕ) : scr1_0 V c (n + 1) = k1_pay3 (act1 V c (pt1 (n + 1))) (iblk1 V c 8 (pt1 (n + 1))) (iblk1 V c 9 (pt1 (n + 1))) (iblk1 V c 11 (pt1 (n + 1))) (scr1_0 V c n) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => hnew1 V c t
    | ⟨14, _⟩ => npool1 V c t
    | ⟨15, _⟩ => scr1_0 V c t.val
    | ⟨_ + 16, h⟩ => absurd h (Nat.not_lt.2 (Nat.le_add_left _ _))
  Φ t := match t with
    | ⟨0, _⟩ => Pipeline.scopedRest (Ix := Unit) (Name := ℕ) (U := UR sig nD τ) (Lvl := ℕ) (Val := Elt F) spec1 c
    | ⟨n + 1, _⟩ => iprop(owns (c : Thread nD τ) (Memref.whole cc1_scratch0) fullShare (scr1_0 V c n)
        ∗ Pipeline.scopedRestBut (Ix := Unit) (Name := ℕ) (U := UR sig nD τ) (Lvl := ℕ) (Val := Elt F) spec1 c [cc1_scratch0])
  q _ := fullShare
  owed _ := 0

theorem A_eq1 (c : Dev nD) (w : Fin cfg1.W) : (dat1 V c).A w = V c (Pipeline.arrRef spec1 w) := by
  dsimp only [dat1]

theorem after1_13 (c : Dev nD) (t : Fin cfg1.N) : (dat1 V c).after 13 t = hnew1 V c t := by dsimp only [dat1]
theorem after1_14 (c : Dev nD) (t : Fin cfg1.N) : (dat1 V c).after 14 t = npool1 V c t := by dsimp only [dat1]
theorem after1_15 (c : Dev nD) (t : Fin cfg1.N) : (dat1 V c).after 15 t = scr1_0 V c t.val := by dsimp only [dat1]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) ∧ (∀ d, (dat1 V c).before 8 t d = iblk1 V c 8 t)
    ∧ (∀ d, (dat1 V c).before 9 t d = iblk1 V c 9 t) ∧ (∀ d, (dat1 V c).before 10 t d = iblk1 V c 10 t) ∧ (∀ d, (dat1 V c).before 11 t d = iblk1 V c 11 t)
    ∧ (∀ d, (dat1 V c).before 12 t d = iblk1 V c 12 t) := by
  refine ⟨?_, ?_, ?_, ?_, ?_, ?_, ?_, ?_, ?_, ?_, ?_, ?_, ?_⟩ <;>
    refine fun d => Dat.before_in_eq_fetched (dat1 V c) _ ?_ ?_ ?_ ?_ t d <;> intros <;> rfl

-- The invariant as a function of the accumulated value.
def PhiS1 (c : Dev nD) (X : FVec F S128x64 .f32) : sProp 𝕄 :=
  iprop(owns (c : Thread nD τ) (Memref.whole cc1_scratch0) fullShare X ∗ Pipeline.scopedRestBut (Ix := Unit) (Name := ℕ) (U := UR sig nD τ) (Lvl := ℕ) (Val := Elt F) spec1 c [cc1_scratch0])

theorem Phi1_succ (c : Dev nD) (n : ℕ) (h : n + 1 < cfg1.N + 1) : (dat1 V c).Φ ⟨n + 1, h⟩ = PhiS1 c (scr1_0 V c n) := rfl

-- The recurrence of `scr1_0`, read at a grid point.
theorem Phi1_at (c : Dev nD) (t : Fin cfg1.N) :
    (dat1 V c).Φ t.castSucc ⊢ iprop(∃ X, ⌜scr1_0 V c t.val = k1_pay3 (act1 V c t) (iblk1 V c 8 t) (iblk1 V c 9 t) (iblk1 V c 11 t) (if t.val = 0 then k1_pay4 (iblk1 V c 12 t) else X)⌝ ∗ PhiS1 c X) := by
  obtain ⟨n, hn⟩ := t
  cases n with
  | zero =>
    have e : pt1 0 = ⟨0, hn⟩ := pt1_val ⟨0, hn⟩
    rw [show (dat1 V c).Φ (Fin.castSucc ⟨0, hn⟩) = _ from scopedRest1_split c]
    unfold PhiS1; simp only [owns_whole]
    iintro ⟨⟨%X, HS⟩, HR⟩; iexists X; isplitr; swap
    · isplitl [HS]; · iexact HS
      iexact HR
    ipureintro; show scr1_0 V c 0 = _; rw [scr1_0_zero, e] <;> rfl
  | succ n =>
    have e : pt1 (n + 1) = ⟨n + 1, hn⟩ := pt1_val ⟨n + 1, hn⟩
    rw [show (dat1 V c).Φ (Fin.castSucc ⟨n + 1, hn⟩) = _ from Phi1_succ V c n _]
    iintro H; iexists _; isplitr; swap; iexact H
    ipureintro; show scr1_0 V c (n + 1) = _; rw [scr1_0_succ, e] <;> rfl

theorem hin1 (c : Dev nD) : (Pipeline.scopedRest (Ix := Unit) (Name := ℕ) (U := UR sig nD τ) (Lvl := ℕ) (Val := Elt F) spec1 c : sProp 𝕄) ⊢ (dat1 V c).Φ 0 := .rfl

theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  have e : Fin.last cfg1.N = ⟨19 + 1, by have h : cfg1.N = 20 := N_1; omega⟩ :=
    Fin.ext (by rw [Fin.val_last]; exact N_1)
  rw [e, Phi1_succ, scopedRest1_split]; unfold PhiS1; simp only [owns_whole]
  iintro ⟨HS, HR⟩
  isplitl [HS]; · iexists _; iexact HS
  iexact HR

end Cert.Kernel.Hand
-- ==== Proof.K.Update1Cond.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

theorem idleAt1_15 : ∀ t : Fin cfg1.N, t.val ≠ 19 → cfg1.idle 15 (grid1.coords t) = true ∧ (cfg1.win 15).flush t = false :=
  (by decide +kernel : ∀ t : Fin grid1.N, t.val ≠ 19 → cfg1.idle 15 (grid1.coords t) = true ∧ (cfg1.win 15).flush t = false)
theorem liveAt1_15 : ∀ t : Fin cfg1.N, t.val = 19 → cfg1.idle 15 (grid1.coords t) = false :=
  (by decide +kernel : ∀ t : Fin grid1.N, t.val = 19 → cfg1.idle 15 (grid1.coords t) = false)

theorem zoff1 : (![0, 0] : Fin 2 → ℕ) = fun _ => 0 := by funext a; fin_cases a <;> rfl

theorem read_store_whole1 {Val : EltTy → Type} {S : Shape} {e : EltTy} [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h]

end Cert.Kernel.Hand
-- ==== Proof.K.Update1RunA.lean ====
import proofs.«416827_j50268297232946_2_alg».proof.Proof.K.Update1Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
-- One statement for the four outcomes of the two tests, read through equivalent decidable propositions `p0`, `p1`.
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (p0 p1 : Prop) [Decidable p0] [Decidable p1] (h0 : cond1_0 i ↔ p0) (h1 : cond1_1 i ↔ p1) (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (xi15 xs : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ owns (c : Thread nD τ) arg16 fullShare xi15 ∗ owns (c : Thread nD τ) arg17 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (k1_pay1 (k1_pay5 x0 x1 x2 x3 x5 x4 x6 x7) x8 x9)
            ∗ owns (c : Thread nD τ) arg15 fullShare (k1_pay2 (k1_pay5 x0 x1 x2 x3 x5 x4 x6 x7) x8 x9 x10)
            ∗ owns (c : Thread nD τ) arg16 fullShare (if p1 then k1_pay3 (k1_pay5 x0 x1 x2 x3 x5 x4 x6 x7) x8 x9 x11 (if p0 then k1_pay4 x12 else xs) else xi15)
            ∗ owns (c : Thread nD τ) arg17 fullShare (k1_pay3 (k1_pay5 x0 x1 x2 x3 x5 x4 x6 x7) x8 x9 x11 (if p0 then k1_pay4 x12 else xs))) -∗ K ⟨⟩))
      ⊢ wp frame (wpE (defs₀ (F := F)) Variants.none c none) E (cc1__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg17.eq_unread hfs
  by_cases hp0 : p0 <;> by_cases hp1 : p1
  on_goal 1 => simp only [if_pos hp0, if_pos hp1]
  on_goal 2 => simp only [if_pos hp0, if_neg hp1]
  on_goal 3 => simp only [if_neg hp0, if_pos hp1]
  on_goal 4 => simp only [if_neg hp0, if_neg hp1]
  all_goals
    sl_exec (disch := first | exact h0.mpr hp0 | exact mt h0.mp hp0 | exact h1.mpr hp1 | exact mt h1.mp hp1)
    sl_step
    iapply Hk
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]; · iexists _; isplitr; swap; iexact H4; ipureintro; exact hf4
    isplitl [H5]; · iexists _; isplitr; swap; iexact H5; ipureintro; exact hf5
    isplitl [H6]; · iexists _; isplitr; swap; iexact H6; ipureintro; exact hf6
    isplitl [H7]; · iexists _; isplitr; swap; iexact H7; ipureintro; exact hf7
    isplitl [H8]; · iexists _; isplitr; swap; iexact H8; ipureintro; exact hf8
    isplitl [H9]; · iexists _; isplitr; swap; iexact H9; ipureintro; exact hf9
    isplitl [H10]; · iexists _; isplitr; swap; iexact H10; ipureintro; exact hf10
    isplitl [H11]; · iexists _; isplitr; swap; iexact H11; ipureintro; exact hf11
    isplitl [H12]; · iexists _; isplitr; swap; iexact H12; ipureintro; exact hf12
    isplitl [H13]; iexists _; isplitr; swap; iexact H13; ipureintro; rotate_left
    isplitl [H14]; iexists _; isplitr; swap; iexact H14; ipureintro; rotate_left
    isplitl [H15]; iexists _; isplitr; swap; iexact H15; ipureintro; rotate_left
    iexists _; isplitr; swap; iexact HS; ipureintro
    all_goals first
      | (try sl_unfold_run_names
         rw [read_store_whole1 _ _ zoff1]; try sl_unfold_run_names
         simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S5000x64) zoff1, View.ld_unit_zero (S := S64x64) zoff1, View.ld_unit_zero (S := S1x64) zoff1, View.ld_unit_zero (S := S5000x1) zoff1, View.ld_unit_zero (S := S128x64) zoff1])
      | exact hf15

end Cert.Kernel.Hand
-- ==== Proof.K.Update1.lean ====
import proofs.«416827_j50268297232946_2_alg».proof.Proof.K.Update1Data
import proofs.«416827_j50268297232946_2_alg».proof.Proof.K.Update1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves1_15 (c : Dev nD) (t : Fin cfg1.N) (d) (Y) (hY : scr1_0 V c t.val = Y) :
    owns (c : Thread nD τ) (st1_15 t) fullShare (if t.val = 19 then Y else (dat1 V c).before 15 t d) ⊢ (dat1 V c).leavesExact 15 t := by
  subst hY
  by_cases h : t.val = 19
  · rw [if_pos h, show (dat1 V c).leavesExact 15 t = owns (c : Thread nD τ) (st1_15 t) fullShare ((dat1 V c).after 15 t) from by
      unfold Dat.leavesExact; rw [liveAt1_15 t h], after1_15]
  · rw [if_neg h, Dat.leavesExact_idle (dat1 V c) 15 t (idleAt1_15 t h).1 (idleAt1_15 t h).2]
    iintro H; iexists _; iexact H

set_option maxHeartbeats 4000000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d))
      ∗ (∃ d, owns (c : Thread nD τ) (st1_9 t) fullShare ((dat1 V c).before 9 t d))
      ∗ (∃ d, owns (c : Thread nD τ) (st1_10 t) fullShare ((dat1 V c).before 10 t d))
      ∗ (∃ d, owns (c : Thread nD τ) (st1_11 t) fullShare ((dat1 V c).before 11 t d))
      ∗ (∃ d, owns (c : Thread nD τ) (st1_12 t) fullShare ((dat1 V c).before 12 t d))
      ∗ (∃ d, owns (c : Thread nD τ) (st1_13 t) fullShare ((dat1 V c).before 13 t d))
      ∗ (∃ d, owns (c : Thread nD τ) (st1_14 t) fullShare ((dat1 V c).before 14 t d))
      ∗ (∃ d, owns (c : Thread nD τ) (st1_15 t) fullShare ((dat1 V c).before 15 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ owns (c : Thread nD τ) (st1_3 t) fullShare (iblk1 V c 3 t)
        ∗ owns (c : Thread nD τ) (st1_4 t) fullShare (iblk1 V c 4 t) ∗ owns (c : Thread nD τ) (st1_5 t) fullShare (iblk1 V c 5 t)
        ∗ owns (c : Thread nD τ) (st1_6 t) fullShare (iblk1 V c 6 t) ∗ owns (c : Thread nD τ) (st1_7 t) fullShare (iblk1 V c 7 t)
        ∗ owns (c : Thread nD τ) (st1_8 t) fullShare (iblk1 V c 8 t) ∗ owns (c : Thread nD τ) (st1_9 t) fullShare (iblk1 V c 9 t)
        ∗ owns (c : Thread nD τ) (st1_10 t) fullShare (iblk1 V c 10 t) ∗ owns (c : Thread nD τ) (st1_11 t) fullShare (iblk1 V c 11 t)
        ∗ owns (c : Thread nD τ) (st1_12 t) fullShare (iblk1 V c 12 t)
        ∗ owns (c : Thread nD τ) (st1_13 t) fullShare (hnew1 V c t) ∗ owns (c : Thread nD τ) (st1_14 t) fullShare (npool1 V c t)
        ∗ (dat1 V c).leavesExact 15 t)) := by
  unfold bodyAt1
  simp only [before1_in V c t]
  rw [show (dat1 V c).owesAt () t.succ = (dat1 V c).owesAt () t.castSucc from rfl,
    show (dat1 V c).Φ t.succ = _ from Phi1_succ V c t.val _]
  refine (sep_mono_left (Phi1_at V c t)).trans ?_
  unfold PhiS1 hnew1 npool1
  iintro ⟨⟨%X, %hX, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  unfold act1 at hX ⊢; rw [hX]
  iapply (sound_kernel1 c Set.univ (grid1.coords t) _ _ _ _ _ _ _ _ _ _ _ _ _ _ _ _ _ _ _ _ _ _ _ _ _ _ _ _ _ _ _ _ _ _ (t.val = 0) (t.val = 19) (hcond1_0 t) (hcond1_1 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 15 t d15) X _)
  iframe
  isplitl [H13]; · iexists _; iexact H13
  isplitl [H14]; · iexists _; iexact H14
  iintro ⟨H0, H1, H2, H3, H4, H5, H6, H7, H8, H9, H10, H11, H12, H13, H14, H15, HS⟩
  iframe
  iapply (leaves1_15 V c t d15 _ hX); iexact H15

theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Stats2.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def pt2 (n : ℕ) : Fin cfg2.N := ⟨n % 20, by have h : cfg2.N = 20 := N_2; omega⟩

theorem pt2_val (t : Fin cfg2.N) : pt2 t.val = t := by
  have h : cfg2.N = 20 := N_2
  apply Fin.ext; show t.val % 20 = t.val; have := t.isLt; omega

def scr2_0 (c : Dev nD) : ℕ → FVec F S1x64 .f32
  | 0 => k2_pay4 (iblk2 V c 0 (pt2 0)) (iblk2 V c 1 (pt2 0)) (iblk2 V c 2 (pt2 0)) (iblk2 V c 3 (pt2 0)) (k2_pay1 (F := F))
  | n + 1 => k2_pay4 (iblk2 V c 0 (pt2 (n + 1))) (iblk2 V c 1 (pt2 (n + 1))) (iblk2 V c 2 (pt2 (n + 1))) (iblk2 V c 3 (pt2 (n + 1))) (scr2_0 c n)

def scr2_1 (c : Dev nD) : ℕ → FVec F S1x64 .f32
  | 0 => k2_pay5 (iblk2 V c 0 (pt2 0)) (iblk2 V c 1 (pt2 0)) (iblk2 V c 2 (pt2 0)) (iblk2 V c 3 (pt2 0)) (k2_pay2 (F := F))
  | n + 1 => k2_pay5 (iblk2 V c 0 (pt2 (n + 1))) (iblk2 V c 1 (pt2 (n + 1))) (iblk2 V c 2 (pt2 (n + 1))) (iblk2 V c 3 (pt2 (n + 1))) (scr2_1 c n)

def Phi2 (c : Dev nD) : ℕ → sProp 𝕄
  | 0 => iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1])
  | n + 1 => iprop(iprop(owns (c : Thread nD τ) (Memref.whole cc2_scratch0) fullShare (scr2_0 V c n) ∗ owns (c : Thread nD τ) (Memref.whole cc2_scratch1) fullShare (scr2_1 V c n))
          ∗ Pipeline.scopedRestBut (Ix := Unit) (Name := ℕ) (U := UR sig nD τ) (Lvl := ℕ) (Val := Elt F) spec2 c [cc2_scratch0, cc2_scratch1])

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => scr2_0 V c t.val
    | ⟨5, _⟩ => scr2_1 V c t.val
  Φ t := Phi2 V c t.val
  q _ := fullShare
  owed _ := 0

theorem A_eq2 (c : Dev nD) (w : Fin cfg2.W) : (dat2 V c).A w = V c (Pipeline.arrRef spec2 w) := rfl

theorem after2_4 (c : Dev nD) (t : Fin cfg2.N) : (dat2 V c).after 4 t = scr2_0 V c t.val := rfl
theorem after2_5 (c : Dev nD) (t : Fin cfg2.N) : (dat2 V c).after 5 t = scr2_1 V c t.val := rfl

theorem hin2 (c : Dev nD) : (Pipeline.scopedRest (Ix := Unit) (Name := ℕ) (U := UR sig nD τ) (Lvl := ℕ) (Val := Elt F) spec2 c : sProp 𝕄) ⊢ (dat2 V c).Φ 0 := by
  rw [scopedRest2_split]; exact .rfl

theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  show (_ ∗ _) ∗ _ ⊢ _
  rw [scopedRest2_split, owns_whole, owns_whole]
  iintro ⟨⟨H0, H1⟩, Hr⟩
  iframe Hr
  isplitl [H0] <;> iexists _ <;> iassumption

abbrev cond2_0 (i : grid2.Coords) : Prop := (Scalar.cmpi .ne (Scalar.extui (Scalar.cmpi .eq (BitVec.ofNat 32 (i 0).val) 0#32)) 0#32) = 1#1

theorem hcond2_0 : ∀ t : Fin grid2.N, cond2_0 (grid2.coords t) ↔ t.val = 0 := by decide +kernel

theorem off00_2 : (![0, 0] : Fin 2 → ℕ) = fun _ => 0 := by funext a; fin_cases a <;> rfl

theorem run2 {c : Dev nD} {E : Set ℕ} {i : grid2.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond2_0 i ∧ r0 = k2_pay1 ∧ r1 = k2_pay2 ∨ ¬ cond2_0 i ∧ r0 = s0 ∧ r1 = s1) :
    iprop(owns c arg1 fullShare x0 ∗ owns c arg2 fullShare x1 ∗ owns c arg3 fullShare x2 ∗ owns c arg4 fullShare x3
        ∗ (∃ d, owns c arg5 fullShare d) ∗ (∃ d, owns c arg6 fullShare d)
        ∗ owns c arg7 fullShare s0 ∗ owns c arg8 fullShare s1
        ∗ (iprop(owns c arg1 fullShare x0 ∗ owns c arg2 fullShare x1 ∗ owns c arg3 fullShare x2 ∗ owns c arg4 fullShare x3
            ∗ owns c arg5 fullShare (k2_pay4 x0 x1 x2 x3 r0) ∗ owns c arg6 fullShare (k2_pay5 x0 x1 x2 x3 r1)
            ∗ owns c arg7 fullShare (k2_pay4 x0 x1 x2 x3 r0) ∗ owns c arg8 fullShare (k2_pay5 x0 x1 x2 x3 r1)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc2__stats_kernel_eq_skeleton, cc2__stats_kernel_skel, k2_part1_eq_skeleton, k2_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) off00_2, View.ld_unit_zero (S := S64x64) off00_2, View.ld_unit_zero (S := S1x64) off00_2, View.readCov_cons_toLoadRect]; exact Eq.trans (View.read_writes_eq_canon _ _ _ fun y => ⟨_, List.mem_cons_self, View.mem_set_unit_zero off00_2 inb_S1x64_S1x64_0_0 y⟩) (View.canon_cons_unit_zero off00_2 _ _ _)))

theorem body_obligation2 (c : Dev nD) : BodyObligation (dat2 (F := F) V c) (defs₀ (F := F)) Variants.none () Set.univ := fun t => by
  rw [bigSep_W2, bigSep_W2]
  simp only [(dat2 V c).before_in_eq_fetched 0 rfl (fun _ => rfl) (fun _ _ _ => rfl) (fun _ => rfl) t,
    (dat2 V c).before_in_eq_fetched 1 rfl (fun _ => rfl) (fun _ _ _ => rfl) (fun _ => rfl) t,
    (dat2 V c).before_in_eq_fetched 2 rfl (fun _ => rfl) (fun _ _ _ => rfl) (fun _ => rfl) t,
    (dat2 V c).before_in_eq_fetched 3 rfl (fun _ => rfl) (fun _ _ _ => rfl) (fun _ => rfl) t]
  show _ ⊢ wp _ _ _ _ fun _ => iprop(((_ ∗ _) ∗ _) ∗ _)
  rw [after2_4, after2_5]
  obtain ⟨_ | n, hn⟩ := t <;> rw [scr2_0, scr2_1, pt2_val ⟨_, hn⟩] <;> show ((_ ∗ _) ∗ _) ∗ _ ⊢ _
  on_goal 2 =>
    iintro ⟨⟨⟨HS0, HS1⟩, Hr⟩, Ho, ⟨%d0, H0⟩, ⟨%d1, H1⟩, ⟨%d2, H2⟩, ⟨%d3, H3⟩, ⟨%d4, H4⟩, ⟨%d5, H5⟩⟩
    iapply (run2 (.inr ⟨mt (hcond2_0 ⟨n + 1, hn⟩).1 n.succ_ne_zero, rfl, rfl⟩))
  on_goal 1 =>
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run2 (.inl ⟨(hcond2_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    iexact H5

end Cert.Kernel.Hand

end
-- ==== Proof.K.Update3.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points

noncomputable section

namespace Cert.Kernel.Hand

open Idealize.ShloMosaic Idealize.ShloMosaic.TcCoe
open Idealize.SL.RA Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def act3 (c : Dev nD) (t : Fin cfg3.N) : FVec F S5000x64 .f32 :=
  Gen.k3_pay5 (iblk3 V c 0 t) (iblk3 V c 1 t) (iblk3 V c 2 t) (iblk3 V c 3 t) (iblk3 V c 5 t) (iblk3 V c 4 t) (iblk3 V c 6 t) (iblk3 V c 7 t)

def scr3_0 (c : Dev nD) : ℕ → FVec F S128x64 .f32
  | 0 => Gen.k3_pay3 (act3 V c ⟨0, by decide⟩) Gen.k3_pay6 (iblk3 V c 8 ⟨0, by decide⟩) (iblk3 V c 9 ⟨0, by decide⟩) (iblk3 V c 11 ⟨0, by decide⟩)
          (Gen.k3_pay4 (iblk3 V c 12 ⟨0, by decide⟩))
  | n + 1 =>
    if h : n + 1 < cfg3.N then
      Gen.k3_pay3 (act3 V c ⟨n + 1, h⟩) Gen.k3_pay6 (iblk3 V c 8 ⟨n + 1, h⟩) (iblk3 V c 9 ⟨n + 1, h⟩) (iblk3 V c 11 ⟨n + 1, h⟩) (scr3_0 c n)
    else scr3_0 c n

theorem scr3_0_zero (c : Dev nD) :
    scr3_0 V c 0 = Gen.k3_pay3 (act3 V c ⟨0, by decide⟩) Gen.k3_pay6 (iblk3 V c 8 ⟨0, by decide⟩) (iblk3 V c 9 ⟨0, by decide⟩) (iblk3 V c 11 ⟨0, by decide⟩)
          (Gen.k3_pay4 (iblk3 V c 12 ⟨0, by decide⟩)) := rfl

theorem scr3_0_succ (c : Dev nD) (n : ℕ) (h : n + 1 < cfg3.N) :
    scr3_0 V c (n + 1) = Gen.k3_pay3 (act3 V c ⟨n + 1, h⟩) Gen.k3_pay6 (iblk3 V c 8 ⟨n + 1, h⟩) (iblk3 V c 9 ⟨n + 1, h⟩) (iblk3 V c 11 ⟨n + 1, h⟩) (scr3_0 V c n) := by
  rw [scr3_0]; exact dif_pos h

-- The invariant before point `n`: the accumulator is the sum over the points before `n`, if there is one.
def Phi3 (c : Dev nD) (n : ℕ) : sProp 𝕄 :=
  iprop((∃ s, ⌜∀ m, n = m + 1 → s = scr3_0 V c m⌝ ∗ owns (c : Thread nD τ) (Memref.whole cc3_scratch0) fullShare s)
    ∗ Pipeline.scopedRestBut (Ix := Unit) (Name := ℕ) (U := UR sig nD τ) (Lvl := ℕ) (Val := Elt F) spec3 c [cc3_scratch0])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => Gen.k3_pay1 (act3 V c t) Gen.k3_pay6 (iblk3 V c 8 t) (iblk3 V c 9 t)
    | ⟨14, _⟩ => Gen.k3_pay2 (act3 V c t) Gen.k3_pay6 (iblk3 V c 8 t) (iblk3 V c 9 t) (iblk3 V c 10 t)
    | ⟨15, _⟩ => scr3_0 V c t.val
    | ⟨_ + 16, h⟩ => absurd h (Nat.not_lt.2 (Nat.le_add_left _ _))
  Φ t := Phi3 V c t.val
  q _ := fullShare
  owed _ := 0

theorem A_eq3 (c : Dev nD) (w : Fin cfg3.W) : (dat3 V c).A w = V c (Pipeline.arrRef spec3 w) := by
  dsimp only [dat3]

theorem after3_13 (c : Dev nD) (t : Fin cfg3.N) :
    (dat3 V c).after 13 t = Gen.k3_pay1 (act3 V c t) Gen.k3_pay6 (iblk3 V c 8 t) (iblk3 V c 9 t) := by dsimp only [dat3]
theorem after3_14 (c : Dev nD) (t : Fin cfg3.N) :
    (dat3 V c).after 14 t = Gen.k3_pay2 (act3 V c t) Gen.k3_pay6 (iblk3 V c 8 t) (iblk3 V c 9 t) (iblk3 V c 10 t) := by dsimp only [dat3]
theorem after3_15 (c : Dev nD) (t : Fin cfg3.N) : (dat3 V c).after 15 t = scr3_0 V c t.val := by dsimp only [dat3]

end Cert.Kernel.Hand

end
-- ==== Proof.ViewLaws.lean ====
import Idealize.ShloMosaic.Lib.Pipeline.FrameBody
import Idealize.ShloMosaic.Lib.Pipeline.Frame
import Idealize.ShloMosaic.Lib.Pipeline.Value
import Idealize.ShloMosaic.Lib.Tactic

namespace Cert

open Idealize.ShloMosaic

theorem zero2 : (![0, 0] : Fin 2 → ℕ) = fun _ => 0 := by
  funext a; fin_cases a <;> rfl

-- A store through the rectangle of the whole shape, the last one made, is what the view reads back.
theorem read_store_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩), View.canon_cons_unit_zero h]

theorem readAt_whole {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Cert
-- ==== Proof.K.Update3Run.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import proofs.«416827_j50268297232946_2_alg».proof.Proof.ViewLaws
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first3 (i : grid3.Coords) : Prop := (Scalar.cmpi .ne (Scalar.extui (Scalar.cmpi .eq (BitVec.ofNat 32 (i 0).val) 0#32)) 0#32) = 1#1
abbrev last3 (i : grid3.Coords) : Prop := k3_cond2 i = 1#1

theorem hfirst3 : ∀ t : Fin cfg3.N, first3 (grid3.coords t) ↔ t.val = 0 :=
  (by decide +kernel : ∀ t : Fin grid3.N, first3 (grid3.coords t) ↔ t.val = 0)
theorem hlast3 : ∀ t : Fin cfg3.N, last3 (grid3.coords t) ↔ t.val = 19 :=
  (by decide +kernel : ∀ t : Fin grid3.N, last3 (grid3.coords t) ↔ t.val = 19)

set_option maxHeartbeats 4000000 in
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (d15 s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ owns (c : Thread nD τ) arg16 fullShare d15 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (Gen.k3_pay1 (Gen.k3_pay5 x0 x1 x2 x3 x5 x4 x6 x7) Gen.k3_pay6 x8 x9)
            ∗ owns (c : Thread nD τ) arg15 fullShare (Gen.k3_pay2 (Gen.k3_pay5 x0 x1 x2 x3 x5 x4 x6 x7) Gen.k3_pay6 x8 x9 x10)
            ∗ owns (c : Thread nD τ) arg16 fullShare (if last3 i then (Gen.k3_pay3 (Gen.k3_pay5 x0 x1 x2 x3 x5 x4 x6 x7) Gen.k3_pay6 x8 x9 x11 (if first3 i then Gen.k3_pay4 x12 else s)) else d15)
            ∗ owns (c : Thread nD τ) arg17 fullShare (Gen.k3_pay3 (Gen.k3_pay5 x0 x1 x2 x3 x5 x4 x6 x7) Gen.k3_pay6 x8 x9 x11 (if first3 i then Gen.k3_pay4 x12 else s))) -∗ K ⟨⟩))
      ⊢ wp frame (wpE (defs₀ (F := F)) Variants.none c none) E (cc3__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [Gen.cc3__update_kernel_eq_skeleton]; unfold Gen.cc3__update_kernel_skel
  simp only [Gen.k3_part1_eq_skeleton]; unfold Gen.k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, Hk⟩
  subst hf0; subst hf1; subst hf2; subst hf3; subst hf4; subst hf5; subst hf6; subst hf7; subst hf8; subst hf9; subst hf10; subst hf11; subst hf12; subst hf15; subst hf16
  by_cases hc1 : first3 i <;> by_cases hc2 : last3 i
  on_goal 1 => simp only [if_pos hc1, if_pos hc2]
  on_goal 2 => simp only [if_pos hc1, if_neg hc2]
  on_goal 3 => simp only [if_neg hc1, if_pos hc2]
  on_goal 4 => simp only [if_neg hc1, if_neg hc2]
  all_goals
    sl_exec (disch := first | exact hc1 | exact hc2)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists f11; isplitr
      · ipureintro; rfl
      iexact H11
    isplitl [H12]
    · iexists f12; isplitr
      · ipureintro; rfl
      iexact H12
    isplitl [H13]
    iexists _; isplitr; swap; iexact H13; ipureintro; rotate_left
    isplitl [H14]
    iexists _; isplitr; swap; iexact H14; ipureintro; rotate_left
    isplitl [H15]
    iexists _; isplitr; swap; iexact H15; ipureintro; rotate_left
    iexists _; isplitr; swap; iexact H16; ipureintro
    all_goals first
      | (try sl_unfold_run_names
         first | rw [read_store_whole (S := S5000x64) _ _ zero2 Gen.inb_S5000x64_S5000x64_0_0] | rw [read_store_whole (S := S128x64) _ _ zero2 Gen.inb_S128x64_S128x64_0_0]
         try sl_unfold_run_names
         dsimp only
         simp only [View.readCov_cons_toLoadRect, readAt_whole (S := S5000x64) _ _ zero2 Gen.inb_S5000x64_S5000x64_0_0, readAt_whole (S := S64x64) _ _ zero2 Gen.inb_S64x64_S64x64_0_0, readAt_whole (S := S1x64) _ _ zero2 Gen.inb_S1x64_S1x64_0_0, readAt_whole (S := S5000x1) _ _ zero2 Gen.inb_S5000x1_S5000x1_0_0, readAt_whole (S := S128x64) _ _ zero2 Gen.inb_S128x64_S128x64_0_0])
      | rfl

end Cert.Kernel.Hand

end
-- ==== Proof.K.Update3Body.lean ====
import proofs.«416827_j50268297232946_2_alg».proof.Proof.K.Update3
import proofs.«416827_j50268297232946_2_alg».proof.Proof.K.Update3Run
import Idealize.ShloMosaic.Lib.Pipeline.FrameBody

noncomputable section

namespace Cert.Kernel.Hand

open Idealize.ShloMosaic Idealize.ShloMosaic.TcCoe
open Idealize.SL.RA Idealize.SL.BI Idealize.SL.BI.BIBase
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3 (c : Dev nD) (t : Fin cfg3.N) : ∀ (w : Fin cfg3.W), w.val < 13 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ => fun d =>
    ((dat3 V c).before_in_eq_fetched _ rfl (fun _ => rfl) (fun _ _ _ => rfl) (fun _ => rfl) t d).trans rfl
  | ⟨_ + 13, _⟩, h => absurd h (Nat.not_lt.2 (Nat.le_add_left _ _))

theorem sched3_15 : ∀ t : Fin cfg3.N, cfg3.idle 15 (grid3.coords t) = !decide (t.val = 19) ∧ (cfg3.win 15).flush t = decide (t.val = 19) :=
  (by decide +kernel : ∀ t : Fin grid3.N, idle3 15 (grid3.coords t) = !decide (t.val = 19) ∧ win3_15.flush t = decide (t.val = 19))

theorem scr3_step (c : Dev nD) (t : Fin cfg3.N) (s) (hs : ∀ m, t.val = m + 1 → s = scr3_0 V c m) (m) (hm : t.val + 1 = m + 1) :
    Gen.k3_pay3 (act3 V c t) Gen.k3_pay6 (iblk3 V c 8 t) (iblk3 V c 9 t) (iblk3 V c 11 t)
      (if first3 (grid3.coords t) then Gen.k3_pay4 (iblk3 V c 12 t) else s) = scr3_0 V c m := by
  obtain rfl := Nat.succ.inj hm
  obtain ⟨n, hn⟩ := t
  cases n with
  | zero => rw [if_pos ((hfirst3 ⟨0, hn⟩).2 rfl)]; rfl
  | succ n => rw [if_neg (mt (hfirst3 ⟨n + 1, hn⟩).1 n.succ_ne_zero), hs n rfl, scr3_0_succ V c n hn]

theorem leaves3_15 (c : Dev nD) (t : Fin cfg3.N) (d) {X} (hX : X = scr3_0 V c t.val) :
    owns (c : Thread nD τ) (Gen.st3_15 t) fullShare (if last3 (grid3.coords t) then X else (dat3 V c).before 15 t d)
      ⊢ ((dat3 V c).leavesExact 15 t : sProp 𝕄) := by
  subst hX
  unfold Dat.leavesExact
  rw [(sched3_15 t).1, (sched3_15 t).2]
  by_cases hl : t.val = 19
  · rw [if_pos ((hlast3 t).2 hl), decide_eq_true hl]; exact .rfl
  · rw [if_neg (mt (hlast3 t).1 hl), decide_eq_false hl]
    show _ ⊢ iprop(∃ d, _)
    iintro H; iexists d; iexact H

theorem body_obligation3 (c : Dev nD) : BodyObligation (dat3 (F := F) V c) (defs₀ (F := F)) Variants.none () Set.univ := fun t => by
  rw [Gen.bigSep_W3, Gen.bigSep_W3]
  simp +decide only [before3 V c t, show ∀ n, (dat3 V c).Φ n = Phi3 V c n.val from fun _ => rfl, Phi3]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hX := scr3_step V c t s hs
  iapply sound_kernel3
  iframe
  isplitl [H13]
  · iexists _; iexact H13
  isplitl [H14]
  · iexists _; iexact H14
  iintro ⟨H0, H1, H2, H3, H4, H5, H6, H7, H8, H9, H10, H11, H12, H13, H14, H15, HS⟩
  iframe
  isplitl [HS]
  · iexists _; isplitr
    · ipureintro; exact hX
    iapply HS
  isplitl [Ho]
  · iapply Ho
  isplitl [H13]
  · iapply H13
  isplitl [H14]
  · iapply H14
  iapply leaves3_15 V c t d15 (hX _ rfl)
  iapply H15

theorem hin3 (c : Dev nD) : (Pipeline.scopedRest (Ix := Unit) (Name := ℕ) (U := UR sig nD τ) (Lvl := ℕ) (Val := Elt F) spec3 c : sProp 𝕄) ⊢ (dat3 V c).Φ 0 := by
  rw [Gen.scopedRest3_split]
  show _ ⊢ Phi3 V c 0
  unfold Phi3
  simp only [owns_whole]
  iintro ⟨⟨%f, HS⟩, HR⟩
  sl_close

theorem hout3 (c : Dev nD) : (dat3 V c).Φ (Fin.last cfg3.N) ⊢ (Pipeline.scopedRest (Ix := Unit) (Name := ℕ) (U := UR sig nD τ) (Lvl := ℕ) (Val := Elt F) spec3 c : sProp 𝕄) := by
  rw [Gen.scopedRest3_split]
  show Phi3 V c cfg3.N ⊢ _
  unfold Phi3
  simp only [owns_whole]
  iintro ⟨⟨%f, -, HS⟩, HR⟩
  sl_close

end Cert.Kernel.Hand

end
-- ==== Proof.K.Stats4.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : ℕ) : Fin cfg4.N := ⟨n % 20, by have h : cfg4.N = 20 := N_4; omega⟩

theorem pt4_val (t : Fin cfg4.N) : pt4 t.val = t := by
  have h : cfg4.N = 20 := N_4
  apply Fin.ext; show t.val % 20 = t.val; have := t.isLt; omega

def scr4_0 (c : Dev nD) : ℕ → FVec F S1x64 .f32
  | 0 => k4_pay4 (iblk4 V c 0 (pt4 0)) (iblk4 V c 1 (pt4 0)) (iblk4 V c 2 (pt4 0)) (iblk4 V c 3 (pt4 0)) (k4_pay1 (F := F))
  | n + 1 => k4_pay4 (iblk4 V c 0 (pt4 (n + 1))) (iblk4 V c 1 (pt4 (n + 1))) (iblk4 V c 2 (pt4 (n + 1))) (iblk4 V c 3 (pt4 (n + 1))) (scr4_0 c n)

def scr4_1 (c : Dev nD) : ℕ → FVec F S1x64 .f32
  | 0 => k4_pay5 (iblk4 V c 0 (pt4 0)) (iblk4 V c 1 (pt4 0)) (iblk4 V c 2 (pt4 0)) (iblk4 V c 3 (pt4 0)) (k4_pay2 (F := F))
  | n + 1 => k4_pay5 (iblk4 V c 0 (pt4 (n + 1))) (iblk4 V c 1 (pt4 (n + 1))) (iblk4 V c 2 (pt4 (n + 1))) (iblk4 V c 3 (pt4 (n + 1))) (scr4_1 c n)

def Phi4 (c : Dev nD) : ℕ → sProp 𝕄
  | 0 => iprop(iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f))
          ∗ Pipeline.scopedRestBut (Ix := Unit) (Name := ℕ) (U := UR sig nD τ) (Lvl := ℕ) (Val := Elt F) spec4 c [cc4_scratch0, cc4_scratch1])
  | n + 1 => iprop(iprop(owns (c : Thread nD τ) (Memref.whole cc4_scratch0) fullShare (scr4_0 V c n) ∗ owns (c : Thread nD τ) (Memref.whole cc4_scratch1) fullShare (scr4_1 V c n))
          ∗ Pipeline.scopedRestBut (Ix := Unit) (Name := ℕ) (U := UR sig nD τ) (Lvl := ℕ) (Val := Elt F) spec4 c [cc4_scratch0, cc4_scratch1])

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => scr4_0 V c t.val
    | ⟨5, _⟩ => scr4_1 V c t.val
  Φ t := Phi4 V c t.val
  q _ := fullShare
  owed _ := 0

theorem A_eq4 (c : Dev nD) (w : Fin cfg4.W) : (dat4 V c).A w = V c (Pipeline.arrRef spec4 w) := rfl

theorem after4_4 (c : Dev nD) (t : Fin cfg4.N) : (dat4 V c).after 4 t = scr4_0 V c t.val := rfl
theorem after4_5 (c : Dev nD) (t : Fin cfg4.N) : (dat4 V c).after 5 t = scr4_1 V c t.val := rfl

theorem hin4 (c : Dev nD) : (Pipeline.scopedRest (Ix := Unit) (Name := ℕ) (U := UR sig nD τ) (Lvl := ℕ) (Val := Elt F) spec4 c : sProp 𝕄) ⊢ (dat4 V c).Φ 0 := by
  rw [scopedRest4_split]; exact .rfl

theorem hout4 (c : Dev nD) : (dat4 V c).Φ (Fin.last cfg4.N) ⊢ (Pipeline.scopedRest (Ix := Unit) (Name := ℕ) (U := UR sig nD τ) (Lvl := ℕ) (Val := Elt F) spec4 c : sProp 𝕄) := by
  show (_ ∗ _) ∗ _ ⊢ _
  rw [scopedRest4_split, owns_whole, owns_whole]
  iintro ⟨⟨H0, H1⟩, Hr⟩
  iframe Hr
  isplitl [H0] <;> iexists _ <;> iassumption

abbrev cond4_0 (i : grid4.Coords) : Prop := (Scalar.cmpi .ne (Scalar.extui (Scalar.cmpi .eq (BitVec.ofNat 32 (i 0).val) 0#32)) 0#32) = 1#1

theorem hcond4_0 : ∀ t : Fin grid4.N, cond4_0 (grid4.coords t) ↔ t.val = 0 := by decide +kernel

theorem off00_4 : (![0, 0] : Fin 2 → ℕ) = fun _ => 0 := by funext a; fin_cases a <;> rfl

theorem run4 {c : Dev nD} {E : Set ℕ} {i : grid4.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond4_0 i ∧ r0 = k4_pay1 ∧ r1 = k4_pay2 ∨ ¬ cond4_0 i ∧ r0 = s0 ∧ r1 = s1) :
    iprop(owns c arg1 fullShare x0 ∗ owns c arg2 fullShare x1 ∗ owns c arg3 fullShare x2 ∗ owns c arg4 fullShare x3
        ∗ (∃ d, owns c arg5 fullShare d) ∗ (∃ d, owns c arg6 fullShare d)
        ∗ owns c arg7 fullShare s0 ∗ owns c arg8 fullShare s1
        ∗ (iprop(owns c arg1 fullShare x0 ∗ owns c arg2 fullShare x1 ∗ owns c arg3 fullShare x2 ∗ owns c arg4 fullShare x3
            ∗ owns c arg5 fullShare (k4_pay4 x0 x1 x2 x3 r0) ∗ owns c arg6 fullShare (k4_pay5 x0 x1 x2 x3 r1)
            ∗ owns c arg7 fullShare (k4_pay4 x0 x1 x2 x3 r0) ∗ owns c arg8 fullShare (k4_pay5 x0 x1 x2 x3 r1)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc4__stats_kernel_eq_skeleton, cc4__stats_kernel_skel, k4_part1_eq_skeleton, k4_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) off00_4, View.ld_unit_zero (S := S64x64) off00_4, View.ld_unit_zero (S := S1x64) off00_4, View.readCov_cons_toLoadRect]; exact Eq.trans (View.read_writes_eq_canon _ _ _ fun y => ⟨_, List.mem_cons_self, View.mem_set_unit_zero off00_4 inb_S1x64_S1x64_0_0 y⟩) (View.canon_cons_unit_zero off00_4 _ _ _)))

theorem body_obligation4 (c : Dev nD) : BodyObligation (dat4 (F := F) V c) (defs₀ (F := F)) Variants.none () Set.univ := fun t => by
  rw [bigSep_W4, bigSep_W4]
  simp only [(dat4 V c).before_in_eq_fetched 0 rfl (fun _ => rfl) (fun _ _ _ => rfl) (fun _ => rfl) t,
    (dat4 V c).before_in_eq_fetched 1 rfl (fun _ => rfl) (fun _ _ _ => rfl) (fun _ => rfl) t,
    (dat4 V c).before_in_eq_fetched 2 rfl (fun _ => rfl) (fun _ _ _ => rfl) (fun _ => rfl) t,
    (dat4 V c).before_in_eq_fetched 3 rfl (fun _ => rfl) (fun _ _ _ => rfl) (fun _ => rfl) t]
  show _ ⊢ wp _ _ _ _ fun _ => iprop(((_ ∗ _) ∗ _) ∗ _)
  rw [after4_4, after4_5]
  obtain ⟨_ | n, hn⟩ := t <;> rw [scr4_0, scr4_1, pt4_val ⟨_, hn⟩] <;> show ((_ ∗ _) ∗ _) ∗ _ ⊢ _
  on_goal 2 =>
    iintro ⟨⟨⟨HS0, HS1⟩, Hr⟩, Ho, ⟨%d0, H0⟩, ⟨%d1, H1⟩, ⟨%d2, H2⟩, ⟨%d3, H3⟩, ⟨%d4, H4⟩, ⟨%d5, H5⟩⟩
    iapply (run4 (.inr ⟨mt (hcond4_0 ⟨n + 1, hn⟩).1 n.succ_ne_zero, rfl, rfl⟩))
  on_goal 1 =>
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run4 (.inl ⟨(hcond4_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    iexact H5

end Cert.Kernel.Hand

end
-- ==== Proof.K.Update5.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points

noncomputable section

namespace Cert.Kernel.Hand

open Idealize.ShloMosaic Idealize.ShloMosaic.TcCoe
open Idealize.SL.RA Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def act5 (c : Dev nD) (t : Fin cfg5.N) : FVec F S5000x64 .f32 :=
  Gen.k5_pay5 (iblk5 V c 0 t) (iblk5 V c 1 t) (iblk5 V c 2 t) (iblk5 V c 3 t) (iblk5 V c 5 t) (iblk5 V c 4 t) (iblk5 V c 6 t) (iblk5 V c 7 t)

def scr5_0 (c : Dev nD) : ℕ → FVec F S128x64 .f32
  | 0 => Gen.k5_pay3 (act5 V c ⟨0, by decide⟩) Gen.k5_pay6 (iblk5 V c 8 ⟨0, by decide⟩) (iblk5 V c 9 ⟨0, by decide⟩) (iblk5 V c 11 ⟨0, by decide⟩)
          (Gen.k5_pay4 (iblk5 V c 12 ⟨0, by decide⟩))
  | n + 1 =>
    if h : n + 1 < cfg5.N then
      Gen.k5_pay3 (act5 V c ⟨n + 1, h⟩) Gen.k5_pay6 (iblk5 V c 8 ⟨n + 1, h⟩) (iblk5 V c 9 ⟨n + 1, h⟩) (iblk5 V c 11 ⟨n + 1, h⟩) (scr5_0 c n)
    else scr5_0 c n

theorem scr5_0_zero (c : Dev nD) :
    scr5_0 V c 0 = Gen.k5_pay3 (act5 V c ⟨0, by decide⟩) Gen.k5_pay6 (iblk5 V c 8 ⟨0, by decide⟩) (iblk5 V c 9 ⟨0, by decide⟩) (iblk5 V c 11 ⟨0, by decide⟩)
          (Gen.k5_pay4 (iblk5 V c 12 ⟨0, by decide⟩)) := rfl

theorem scr5_0_succ (c : Dev nD) (n : ℕ) (h : n + 1 < cfg5.N) :
    scr5_0 V c (n + 1) = Gen.k5_pay3 (act5 V c ⟨n + 1, h⟩) Gen.k5_pay6 (iblk5 V c 8 ⟨n + 1, h⟩) (iblk5 V c 9 ⟨n + 1, h⟩) (iblk5 V c 11 ⟨n + 1, h⟩) (scr5_0 V c n) := by
  rw [scr5_0]; exact dif_pos h

-- The invariant before point `n`: the accumulator is the sum over the points before `n`, if there is one.
def Phi5 (c : Dev nD) (n : ℕ) : sProp 𝕄 :=
  iprop((∃ s, ⌜∀ m, n = m + 1 → s = scr5_0 V c m⌝ ∗ owns (c : Thread nD τ) (Memref.whole cc5_scratch0) fullShare s)
    ∗ Pipeline.scopedRestBut (Ix := Unit) (Name := ℕ) (U := UR sig nD τ) (Lvl := ℕ) (Val := Elt F) spec5 c [cc5_scratch0])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => Gen.k5_pay1 (act5 V c t) Gen.k5_pay6 (iblk5 V c 8 t) (iblk5 V c 9 t)
    | ⟨14, _⟩ => Gen.k5_pay2 (act5 V c t) Gen.k5_pay6 (iblk5 V c 8 t) (iblk5 V c 9 t) (iblk5 V c 10 t)
    | ⟨15, _⟩ => scr5_0 V c t.val
    | ⟨_ + 16, h⟩ => absurd h (Nat.not_lt.2 (Nat.le_add_left _ _))
  Φ t := Phi5 V c t.val
  q _ := fullShare
  owed _ := 0

theorem A_eq5 (c : Dev nD) (w : Fin cfg5.W) : (dat5 V c).A w = V c (Pipeline.arrRef spec5 w) := by
  dsimp only [dat5]

theorem after5_13 (c : Dev nD) (t : Fin cfg5.N) :
    (dat5 V c).after 13 t = Gen.k5_pay1 (act5 V c t) Gen.k5_pay6 (iblk5 V c 8 t) (iblk5 V c 9 t) := by dsimp only [dat5]
theorem after5_14 (c : Dev nD) (t : Fin cfg5.N) :
    (dat5 V c).after 14 t = Gen.k5_pay2 (act5 V c t) Gen.k5_pay6 (iblk5 V c 8 t) (iblk5 V c 9 t) (iblk5 V c 10 t) := by dsimp only [dat5]
theorem after5_15 (c : Dev nD) (t : Fin cfg5.N) : (dat5 V c).after 15 t = scr5_0 V c t.val := by dsimp only [dat5]

end Cert.Kernel.Hand

end
-- ==== Proof.K.Update5Run.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import proofs.«416827_j50268297232946_2_alg».proof.Proof.ViewLaws
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first5 (i : grid5.Coords) : Prop := (Scalar.cmpi .ne (Scalar.extui (Scalar.cmpi .eq (BitVec.ofNat 32 (i 0).val) 0#32)) 0#32) = 1#1
abbrev last5 (i : grid5.Coords) : Prop := k5_cond2 i = 1#1

theorem hfirst5 : ∀ t : Fin cfg5.N, first5 (grid5.coords t) ↔ t.val = 0 :=
  (by decide +kernel : ∀ t : Fin grid5.N, first5 (grid5.coords t) ↔ t.val = 0)
theorem hlast5 : ∀ t : Fin cfg5.N, last5 (grid5.coords t) ↔ t.val = 19 :=
  (by decide +kernel : ∀ t : Fin grid5.N, last5 (grid5.coords t) ↔ t.val = 19)

set_option maxHeartbeats 4000000 in
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (d15 s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ owns (c : Thread nD τ) arg16 fullShare d15 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (Gen.k5_pay1 (Gen.k5_pay5 x0 x1 x2 x3 x5 x4 x6 x7) Gen.k5_pay6 x8 x9)
            ∗ owns (c : Thread nD τ) arg15 fullShare (Gen.k5_pay2 (Gen.k5_pay5 x0 x1 x2 x3 x5 x4 x6 x7) Gen.k5_pay6 x8 x9 x10)
            ∗ owns (c : Thread nD τ) arg16 fullShare (if last5 i then (Gen.k5_pay3 (Gen.k5_pay5 x0 x1 x2 x3 x5 x4 x6 x7) Gen.k5_pay6 x8 x9 x11 (if first5 i then Gen.k5_pay4 x12 else s)) else d15)
            ∗ owns (c : Thread nD τ) arg17 fullShare (Gen.k5_pay3 (Gen.k5_pay5 x0 x1 x2 x3 x5 x4 x6 x7) Gen.k5_pay6 x8 x9 x11 (if first5 i then Gen.k5_pay4 x12 else s))) -∗ K ⟨⟩))
      ⊢ wp frame (wpE (defs₀ (F := F)) Variants.none c none) E (cc5__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [Gen.cc5__update_kernel_eq_skeleton]; unfold Gen.cc5__update_kernel_skel
  simp only [Gen.k5_part1_eq_skeleton]; unfold Gen.k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, Hk⟩
  subst hf0; subst hf1; subst hf2; subst hf3; subst hf4; subst hf5; subst hf6; subst hf7; subst hf8; subst hf9; subst hf10; subst hf11; subst hf12; subst hf15; subst hf16
  by_cases hc1 : first5 i <;> by_cases hc2 : last5 i
  on_goal 1 => simp only [if_pos hc1, if_pos hc2]
  on_goal 2 => simp only [if_pos hc1, if_neg hc2]
  on_goal 3 => simp only [if_neg hc1, if_pos hc2]
  on_goal 4 => simp only [if_neg hc1, if_neg hc2]
  all_goals
    sl_exec (disch := first | exact hc1 | exact hc2)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists f11; isplitr
      · ipureintro; rfl
      iexact H11
    isplitl [H12]
    · iexists f12; isplitr
      · ipureintro; rfl
      iexact H12
    isplitl [H13]
    iexists _; isplitr; swap; iexact H13; ipureintro; rotate_left
    isplitl [H14]
    iexists _; isplitr; swap; iexact H14; ipureintro; rotate_left
    isplitl [H15]
    iexists _; isplitr; swap; iexact H15; ipureintro; rotate_left
    iexists _; isplitr; swap; iexact H16; ipureintro
    all_goals first
      | (try sl_unfold_run_names
         first | rw [read_store_whole (S := S5000x64) _ _ zero2 Gen.inb_S5000x64_S5000x64_0_0] | rw [read_store_whole (S := S128x64) _ _ zero2 Gen.inb_S128x64_S128x64_0_0]
         try sl_unfold_run_names
         dsimp only
         simp only [View.readCov_cons_toLoadRect, readAt_whole (S := S5000x64) _ _ zero2 Gen.inb_S5000x64_S5000x64_0_0, readAt_whole (S := S64x64) _ _ zero2 Gen.inb_S64x64_S64x64_0_0, readAt_whole (S := S1x64) _ _ zero2 Gen.inb_S1x64_S1x64_0_0, readAt_whole (S := S5000x1) _ _ zero2 Gen.inb_S5000x1_S5000x1_0_0, readAt_whole (S := S128x64) _ _ zero2 Gen.inb_S128x64_S128x64_0_0])
      | rfl

end Cert.Kernel.Hand

end
-- ==== Proof.K.Update5Body.lean ====
import proofs.«416827_j50268297232946_2_alg».proof.Proof.K.Update5
import proofs.«416827_j50268297232946_2_alg».proof.Proof.K.Update5Run
import Idealize.ShloMosaic.Lib.Pipeline.FrameBody

noncomputable section

namespace Cert.Kernel.Hand

open Idealize.ShloMosaic Idealize.ShloMosaic.TcCoe
open Idealize.SL.RA Idealize.SL.BI Idealize.SL.BI.BIBase
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5 (c : Dev nD) (t : Fin cfg5.N) : ∀ (w : Fin cfg5.W), w.val < 13 → ∀ d, (dat5 V c).before w t d = (dat5 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ => fun d =>
    ((dat5 V c).before_in_eq_fetched _ rfl (fun _ => rfl) (fun _ _ _ => rfl) (fun _ => rfl) t d).trans rfl
  | ⟨_ + 13, _⟩, h => absurd h (Nat.not_lt.2 (Nat.le_add_left _ _))

theorem sched5_15 : ∀ t : Fin cfg5.N, cfg5.idle 15 (grid5.coords t) = !decide (t.val = 19) ∧ (cfg5.win 15).flush t = decide (t.val = 19) :=
  (by decide +kernel : ∀ t : Fin grid5.N, idle5 15 (grid5.coords t) = !decide (t.val = 19) ∧ win5_15.flush t = decide (t.val = 19))

theorem scr5_step (c : Dev nD) (t : Fin cfg5.N) (s) (hs : ∀ m, t.val = m + 1 → s = scr5_0 V c m) (m) (hm : t.val + 1 = m + 1) :
    Gen.k5_pay3 (act5 V c t) Gen.k5_pay6 (iblk5 V c 8 t) (iblk5 V c 9 t) (iblk5 V c 11 t)
      (if first5 (grid5.coords t) then Gen.k5_pay4 (iblk5 V c 12 t) else s) = scr5_0 V c m := by
  obtain rfl := Nat.succ.inj hm
  obtain ⟨n, hn⟩ := t
  cases n with
  | zero => rw [if_pos ((hfirst5 ⟨0, hn⟩).2 rfl)]; rfl
  | succ n => rw [if_neg (mt (hfirst5 ⟨n + 1, hn⟩).1 n.succ_ne_zero), hs n rfl, scr5_0_succ V c n hn]

theorem leaves5_15 (c : Dev nD) (t : Fin cfg5.N) (d) {X} (hX : X = scr5_0 V c t.val) :
    owns (c : Thread nD τ) (Gen.st5_15 t) fullShare (if last5 (grid5.coords t) then X else (dat5 V c).before 15 t d)
      ⊢ ((dat5 V c).leavesExact 15 t : sProp 𝕄) := by
  subst hX
  unfold Dat.leavesExact
  rw [(sched5_15 t).1, (sched5_15 t).2]
  by_cases hl : t.val = 19
  · rw [if_pos ((hlast5 t).2 hl), decide_eq_true hl]; exact .rfl
  · rw [if_neg (mt (hlast5 t).1 hl), decide_eq_false hl]
    show _ ⊢ iprop(∃ d, _)
    iintro H; iexists d; iexact H

theorem body_obligation5 (c : Dev nD) : BodyObligation (dat5 (F := F) V c) (defs₀ (F := F)) Variants.none () Set.univ := fun t => by
  rw [Gen.bigSep_W5, Gen.bigSep_W5]
  simp +decide only [before5 V c t, show ∀ n, (dat5 V c).Φ n = Phi5 V c n.val from fun _ => rfl, Phi5]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hX := scr5_step V c t s hs
  iapply sound_kernel5
  iframe
  isplitl [H13]
  · iexists _; iexact H13
  isplitl [H14]
  · iexists _; iexact H14
  iintro ⟨H0, H1, H2, H3, H4, H5, H6, H7, H8, H9, H10, H11, H12, H13, H14, H15, HS⟩
  iframe
  isplitl [HS]
  · iexists _; isplitr
    · ipureintro; exact hX
    iapply HS
  isplitl [Ho]
  · iapply Ho
  isplitl [H13]
  · iapply H13
  isplitl [H14]
  · iapply H14
  iapply leaves5_15 V c t d15 (hX _ rfl)
  iapply H15

theorem hin5 (c : Dev nD) : (Pipeline.scopedRest (Ix := Unit) (Name := ℕ) (U := UR sig nD τ) (Lvl := ℕ) (Val := Elt F) spec5 c : sProp 𝕄) ⊢ (dat5 V c).Φ 0 := by
  rw [Gen.scopedRest5_split]
  show _ ⊢ Phi5 V c 0
  unfold Phi5
  simp only [owns_whole]
  iintro ⟨⟨%f, HS⟩, HR⟩
  sl_close

theorem hout5 (c : Dev nD) : (dat5 V c).Φ (Fin.last cfg5.N) ⊢ (Pipeline.scopedRest (Ix := Unit) (Name := ℕ) (U := UR sig nD τ) (Lvl := ℕ) (Val := Elt F) spec5 c : sProp 𝕄) := by
  rw [Gen.scopedRest5_split]
  show Phi5 V c cfg5.N ⊢ _
  unfold Phi5
  simp only [owns_whole]
  iintro ⟨⟨%f, -, HS⟩, HR⟩
  sl_close

end Cert.Kernel.Hand

end
-- ==== Proof.K.Stats6.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.Kernel.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := ⟨n % 20, by have h : cfg6.N = 20 := N_6; omega⟩

theorem pt6_val (t : Fin cfg6.N) : pt6 t.val = t := by
  have h : cfg6.N = 20 := N_6
  apply Fin.ext; show t.val % 20 = t.val; have := t.isLt; omega

def scr6_0 (c : Dev nD) : ℕ → FVec F S1x64 .f32
  | 0 => k6_pay4 (iblk6 V c 0 (pt6 0)) (iblk6 V c 1 (pt6 0)) (iblk6 V c 2 (pt6 0)) (iblk6 V c 3 (pt6 0)) (k6_pay1 (F := F))
  | n + 1 => k6_pay4 (iblk6 V c 0 (pt6 (n + 1))) (iblk6 V c 1 (pt6 (n + 1))) (iblk6 V c 2 (pt6 (n + 1))) (iblk6 V c 3 (pt6 (n + 1))) (scr6_0 c n)

def scr6_1 (c : Dev nD) : ℕ → FVec F S1x64 .f32
  | 0 => k6_pay5 (iblk6 V c 0 (pt6 0)) (iblk6 V c 1 (pt6 0)) (iblk6 V c 2 (pt6 0)) (iblk6 V c 3 (pt6 0)) (k6_pay2 (F := F))
  | n + 1 => k6_pay5 (iblk6 V c 0 (pt6 (n + 1))) (iblk6 V c 1 (pt6 (n + 1))) (iblk6 V c 2 (pt6 (n + 1))) (iblk6 V c 3 (pt6 (n + 1))) (scr6_1 c n)

def Phi6 (c : Dev nD) : ℕ → sProp 𝕄
  | 0 => iprop(iprop((∃ f : Buf (Elt F) ((c : Thread nD τ).loc cc6_scratch0), ((c : Thread nD τ).loc cc6_scratch0) ↦{fullShare} f) ∗ (∃ f : Buf (Elt F) ((c : Thread nD τ).loc cc6_scratch1), ((c : Thread nD τ).loc cc6_scratch1) ↦{fullShare} f))
          ∗ Pipeline.scopedRestBut (Ix := Unit) (Name := ℕ) (U := UR sig nD τ) (Lvl := ℕ) (Val := Elt F) spec6 c [cc6_scratch0, cc6_scratch1])
  | n + 1 => iprop(iprop(owns (c : Thread nD τ) (Memref.whole cc6_scratch0) fullShare (scr6_0 V c n) ∗ owns (c : Thread nD τ) (Memref.whole cc6_scratch1) fullShare (scr6_1 V c n))
          ∗ Pipeline.scopedRestBut (Ix := Unit) (Name := ℕ) (U := UR sig nD τ) (Lvl := ℕ) (Val := Elt F) spec6 c [cc6_scratch0, cc6_scratch1])

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => scr6_0 V c t.val
    | ⟨5, _⟩ => scr6_1 V c t.val
  Φ t := Phi6 V c t.val
  q _ := fullShare
  owed _ := 0

theorem A_eq6 (c : Dev nD) (w : Fin cfg6.W) : (dat6 V c).A w = V c (Pipeline.arrRef spec6 w) := rfl

theorem after6_4 (c : Dev nD) (t : Fin cfg6.N) : (dat6 V c).after 4 t = scr6_0 V c t.val := rfl
theorem after6_5 (c : Dev nD) (t : Fin cfg6.N) : (dat6 V c).after 5 t = scr6_1 V c t.val := rfl

theorem hin6 (c : Dev nD) : (Pipeline.scopedRest (Ix := Unit) (Name := ℕ) (U := UR sig nD τ) (Lvl := ℕ) (Val := Elt F) spec6 c : sProp 𝕄) ⊢ (dat6 V c).Φ 0 := by
  rw [scopedRest6_split]; exact .rfl

theorem hout6 (c : Dev nD) : (dat6 V c).Φ (Fin.last cfg6.N) ⊢ (Pipeline.scopedRest (Ix := Unit) (Name := ℕ) (U := UR sig nD τ) (Lvl := ℕ) (Val := Elt F) spec6 c : sProp 𝕄) := by
  show (_ ∗ _) ∗ _ ⊢ _
  rw [scopedRest6_split, owns_whole, owns_whole]
  iintro ⟨⟨H0, H1⟩, Hr⟩
  iframe Hr
  isplitl [H0] <;> iexists _ <;> iassumption

abbrev cond6_0 (i : grid6.Coords) : Prop := (Scalar.cmpi .ne (Scalar.extui (Scalar.cmpi .eq (BitVec.ofNat 32 (i 0).val) 0#32)) 0#32) = 1#1

theorem hcond6_0 : ∀ t : Fin grid6.N, cond6_0 (grid6.coords t) ↔ t.val = 0 := by decide +kernel

theorem off00_6 : (![0, 0] : Fin 2 → ℕ) = fun _ => 0 := by funext a; fin_cases a <;> rfl

theorem run6 {c : Dev nD} {E : Set ℕ} {i : grid6.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond6_0 i ∧ r0 = k6_pay1 ∧ r1 = k6_pay2 ∨ ¬ cond6_0 i ∧ r0 = s0 ∧ r1 = s1) :
    iprop(owns c arg1 fullShare x0 ∗ owns c arg2 fullShare x1 ∗ owns c arg3 fullShare x2 ∗ owns c arg4 fullShare x3
        ∗ (∃ d, owns c arg5 fullShare d) ∗ (∃ d, owns c arg6 fullShare d)
        ∗ owns c arg7 fullShare s0 ∗ owns c arg8 fullShare s1
        ∗ (iprop(owns c arg1 fullShare x0 ∗ owns c arg2 fullShare x1 ∗ owns c arg3 fullShare x2 ∗ owns c arg4 fullShare x3
            ∗ owns c arg5 fullShare (k6_pay4 x0 x1 x2 x3 r0) ∗ owns c arg6 fullShare (k6_pay5 x0 x1 x2 x3 r1)
            ∗ owns c arg7 fullShare (k6_pay4 x0 x1 x2 x3 r0) ∗ owns c arg8 fullShare (k6_pay5 x0 x1 x2 x3 r1)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc6__stats_kernel_eq_skeleton, cc6__stats_kernel_skel, k6_part1_eq_skeleton, k6_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) off00_6, View.ld_unit_zero (S := S64x64) off00_6, View.ld_unit_zero (S := S1x64) off00_6, View.readCov_cons_toLoadRect]; exact Eq.trans (View.read_writes_eq_canon _ _ _ fun y => ⟨_, List.mem_cons_self, View.mem_set_unit_zero off00_6 inb_S1x64_S1x64_0_0 y⟩) (View.canon_cons_unit_zero off00_6 _ _ _)))

theorem body_obligation6 (c : Dev nD) : BodyObligation (dat6 (F := F) V c) (defs₀ (F := F)) Variants.none () Set.univ := fun t => by
  rw [bigSep_W6, bigSep_W6]
  simp only [(dat6 V c).before_in_eq_fetched 0 rfl (fun _ => rfl) (fun _ _ _ => rfl) (fun _ => rfl) t,
    (dat6 V c).before_in_eq_fetched 1 rfl (fun _ => rfl) (fun _ _ _ => rfl) (fun _ => rfl) t,
    (dat6 V c).before_in_eq_fetched 2 rfl (fun _ => rfl) (fun _ _ _ => rfl) (fun _ => rfl) t,
    (dat6 V c).before_in_eq_fetched 3 rfl (fun _ => rfl) (fun _ _ _ => rfl) (fun _ => rfl) t]
  show _ ⊢ wp _ _ _ _ fun _ => iprop(((_ ∗ _) ∗ _) ∗ _)
  rw [after6_4, after6_5]
  obtain ⟨_ | n, hn⟩ := t <;> rw [scr6_0, scr6_1, pt6_val ⟨_, hn⟩] <;> show ((_ ∗ _) ∗ _) ∗ _ ⊢ _
  on_goal 2 =>
    iintro ⟨⟨⟨HS0, HS1⟩, Hr⟩, Ho, ⟨%d0, H0⟩, ⟨%d1, H1⟩, ⟨%d2, H2⟩, ⟨%d3, H3⟩, ⟨%d4, H4⟩, ⟨%d5, H5⟩⟩
    iapply (run6 (.inr ⟨mt (hcond6_0 ⟨n + 1, hn⟩).1 n.succ_ne_zero, rfl, rfl⟩))
  on_goal 1 =>
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run6 (.inl ⟨(hcond6_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    iexact H5

end Cert.Kernel.Hand

end
-- ==== Proof.K.Update7.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points

noncomputable section

namespace Cert.Kernel.Hand

open Idealize.ShloMosaic Idealize.ShloMosaic.TcCoe
open Idealize.SL.RA Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def act7 (c : Dev nD) (t : Fin cfg7.N) : FVec F S5000x64 .f32 :=
  Gen.k7_pay5 (iblk7 V c 0 t) (iblk7 V c 1 t) (iblk7 V c 2 t) (iblk7 V c 3 t) (iblk7 V c 5 t) (iblk7 V c 4 t) (iblk7 V c 6 t) (iblk7 V c 7 t)

def scr7_0 (c : Dev nD) : ℕ → FVec F S128x64 .f32
  | 0 => Gen.k7_pay3 (act7 V c ⟨0, by decide⟩) Gen.k7_pay6 (iblk7 V c 8 ⟨0, by decide⟩) (iblk7 V c 9 ⟨0, by decide⟩) (iblk7 V c 11 ⟨0, by decide⟩)
          (Gen.k7_pay4 (iblk7 V c 12 ⟨0, by decide⟩))
  | n + 1 =>
    if h : n + 1 < cfg7.N then
      Gen.k7_pay3 (act7 V c ⟨n + 1, h⟩) Gen.k7_pay6 (iblk7 V c 8 ⟨n + 1, h⟩) (iblk7 V c 9 ⟨n + 1, h⟩) (iblk7 V c 11 ⟨n + 1, h⟩) (scr7_0 c n)
    else scr7_0 c n

theorem scr7_0_zero (c : Dev nD) :
    scr7_0 V c 0 = Gen.k7_pay3 (act7 V c ⟨0, by decide⟩) Gen.k7_pay6 (iblk7 V c 8 ⟨0, by decide⟩) (iblk7 V c 9 ⟨0, by decide⟩) (iblk7 V c 11 ⟨0, by decide⟩)
          (Gen.k7_pay4 (iblk7 V c 12 ⟨0, by decide⟩)) := rfl

theorem scr7_0_succ (c : Dev nD) (n : ℕ) (h : n + 1 < cfg7.N) :
    scr7_0 V c (n + 1) = Gen.k7_pay3 (act7 V c ⟨n + 1, h⟩) Gen.k7_pay6 (iblk7 V c 8 ⟨n + 1, h⟩) (iblk7 V c 9 ⟨n + 1, h⟩) (iblk7 V c 11 ⟨n + 1, h⟩) (scr7_0 V c n) := by
  rw [scr7_0]; exact dif_pos h

-- The invariant before point `n`: the accumulator is the sum over the points before `n`, if there is one.
def Phi7 (c : Dev nD) (n : ℕ) : sProp 𝕄 :=
  iprop((∃ s, ⌜∀ m, n = m + 1 → s = scr7_0 V c m⌝ ∗ owns (c : Thread nD τ) (Memref.whole cc7_scratch0) fullShare s)
    ∗ Pipeline.scopedRestBut (Ix := Unit) (Name := ℕ) (U := UR sig nD τ) (Lvl := ℕ) (Val := Elt F) spec7 c [cc7_scratch0])

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => Gen.k7_pay1 (act7 V c t) Gen.k7_pay6 (iblk7 V c 8 t) (iblk7 V c 9 t)
    | ⟨14, _⟩ => Gen.k7_pay2 (act7 V c t) Gen.k7_pay6 (iblk7 V c 8 t) (iblk7 V c 9 t) (iblk7 V c 10 t)
    | ⟨15, _⟩ => scr7_0 V c t.val
    | ⟨_ + 16, h⟩ => absurd h (Nat.not_lt.2 (Nat.le_add_left _ _))
  Φ t := Phi7 V c t.val
  q _ := fullShare
  owed _ := 0

theorem A_eq7 (c : Dev nD) (w : Fin cfg7.W) : (dat7 V c).A w = V c (Pipeline.arrRef spec7 w) := by
  dsimp only [dat7]

theorem after7_13 (c : Dev nD) (t : Fin cfg7.N) :
    (dat7 V c).after 13 t = Gen.k7_pay1 (act7 V c t) Gen.k7_pay6 (iblk7 V c 8 t) (iblk7 V c 9 t) := by dsimp only [dat7]
theorem after7_14 (c : Dev nD) (t : Fin cfg7.N) :
    (dat7 V c).after 14 t = Gen.k7_pay2 (act7 V c t) Gen.k7_pay6 (iblk7 V c 8 t) (iblk7 V c 9 t) (iblk7 V c 10 t) := by dsimp only [dat7]
theorem after7_15 (c : Dev nD) (t : Fin cfg7.N) : (dat7 V c).after 15 t = scr7_0 V c t.val := by dsimp only [dat7]

end Cert.Kernel.Hand

end
-- ==== Proof.K.Update7Run.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import proofs.«416827_j50268297232946_2_alg».proof.Proof.ViewLaws
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first7 (i : grid7.Coords) : Prop := (Scalar.cmpi .ne (Scalar.extui (Scalar.cmpi .eq (BitVec.ofNat 32 (i 0).val) 0#32)) 0#32) = 1#1
abbrev last7 (i : grid7.Coords) : Prop := k7_cond2 i = 1#1

theorem hfirst7 : ∀ t : Fin cfg7.N, first7 (grid7.coords t) ↔ t.val = 0 :=
  (by decide +kernel : ∀ t : Fin grid7.N, first7 (grid7.coords t) ↔ t.val = 0)
theorem hlast7 : ∀ t : Fin cfg7.N, last7 (grid7.coords t) ↔ t.val = 19 :=
  (by decide +kernel : ∀ t : Fin grid7.N, last7 (grid7.coords t) ↔ t.val = 19)

set_option maxHeartbeats 4000000 in
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (d15 s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ owns (c : Thread nD τ) arg16 fullShare d15 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (Gen.k7_pay1 (Gen.k7_pay5 x0 x1 x2 x3 x5 x4 x6 x7) Gen.k7_pay6 x8 x9)
            ∗ owns (c : Thread nD τ) arg15 fullShare (Gen.k7_pay2 (Gen.k7_pay5 x0 x1 x2 x3 x5 x4 x6 x7) Gen.k7_pay6 x8 x9 x10)
            ∗ owns (c : Thread nD τ) arg16 fullShare (if last7 i then (Gen.k7_pay3 (Gen.k7_pay5 x0 x1 x2 x3 x5 x4 x6 x7) Gen.k7_pay6 x8 x9 x11 (if first7 i then Gen.k7_pay4 x12 else s)) else d15)
            ∗ owns (c : Thread nD τ) arg17 fullShare (Gen.k7_pay3 (Gen.k7_pay5 x0 x1 x2 x3 x5 x4 x6 x7) Gen.k7_pay6 x8 x9 x11 (if first7 i then Gen.k7_pay4 x12 else s))) -∗ K ⟨⟩))
      ⊢ wp frame (wpE (defs₀ (F := F)) Variants.none c none) E (cc7__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [Gen.cc7__update_kernel_eq_skeleton]; unfold Gen.cc7__update_kernel_skel
  simp only [Gen.k7_part1_eq_skeleton]; unfold Gen.k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, Hk⟩
  subst hf0; subst hf1; subst hf2; subst hf3; subst hf4; subst hf5; subst hf6; subst hf7; subst hf8; subst hf9; subst hf10; subst hf11; subst hf12; subst hf15; subst hf16
  by_cases hc1 : first7 i <;> by_cases hc2 : last7 i
  on_goal 1 => simp only [if_pos hc1, if_pos hc2]
  on_goal 2 => simp only [if_pos hc1, if_neg hc2]
  on_goal 3 => simp only [if_neg hc1, if_pos hc2]
  on_goal 4 => simp only [if_neg hc1, if_neg hc2]
  all_goals
    sl_exec (disch := first | exact hc1 | exact hc2)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists f11; isplitr
      · ipureintro; rfl
      iexact H11
    isplitl [H12]
    · iexists f12; isplitr
      · ipureintro; rfl
      iexact H12
    isplitl [H13]
    iexists _; isplitr; swap; iexact H13; ipureintro; rotate_left
    isplitl [H14]
    iexists _; isplitr; swap; iexact H14; ipureintro; rotate_left
    isplitl [H15]
    iexists _; isplitr; swap; iexact H15; ipureintro; rotate_left
    iexists _; isplitr; swap; iexact H16; ipureintro
    all_goals first
      | (try sl_unfold_run_names
         first | rw [read_store_whole (S := S5000x64) _ _ zero2 Gen.inb_S5000x64_S5000x64_0_0] | rw [read_store_whole (S := S128x64) _ _ zero2 Gen.inb_S128x64_S128x64_0_0]
         try sl_unfold_run_names
         dsimp only
         simp only [View.readCov_cons_toLoadRect, readAt_whole (S := S5000x64) _ _ zero2 Gen.inb_S5000x64_S5000x64_0_0, readAt_whole (S := S64x64) _ _ zero2 Gen.inb_S64x64_S64x64_0_0, readAt_whole (S := S1x64) _ _ zero2 Gen.inb_S1x64_S1x64_0_0, readAt_whole (S := S5000x1) _ _ zero2 Gen.inb_S5000x1_S5000x1_0_0, readAt_whole (S := S128x64) _ _ zero2 Gen.inb_S128x64_S128x64_0_0])
      | rfl

end Cert.Kernel.Hand

end
-- ==== Proof.K.Update7Body.lean ====
import proofs.«416827_j50268297232946_2_alg».proof.Proof.K.Update7
import proofs.«416827_j50268297232946_2_alg».proof.Proof.K.Update7Run
import Idealize.ShloMosaic.Lib.Pipeline.FrameBody

noncomputable section

namespace Cert.Kernel.Hand

open Idealize.ShloMosaic Idealize.ShloMosaic.TcCoe
open Idealize.SL.RA Idealize.SL.BI Idealize.SL.BI.BIBase
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7 (c : Dev nD) (t : Fin cfg7.N) : ∀ (w : Fin cfg7.W), w.val < 13 → ∀ d, (dat7 V c).before w t d = (dat7 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ => fun d =>
    ((dat7 V c).before_in_eq_fetched _ rfl (fun _ => rfl) (fun _ _ _ => rfl) (fun _ => rfl) t d).trans rfl
  | ⟨_ + 13, _⟩, h => absurd h (Nat.not_lt.2 (Nat.le_add_left _ _))

theorem sched7_15 : ∀ t : Fin cfg7.N, cfg7.idle 15 (grid7.coords t) = !decide (t.val = 19) ∧ (cfg7.win 15).flush t = decide (t.val = 19) :=
  (by decide +kernel : ∀ t : Fin grid7.N, idle7 15 (grid7.coords t) = !decide (t.val = 19) ∧ win7_15.flush t = decide (t.val = 19))

theorem scr7_step (c : Dev nD) (t : Fin cfg7.N) (s) (hs : ∀ m, t.val = m + 1 → s = scr7_0 V c m) (m) (hm : t.val + 1 = m + 1) :
    Gen.k7_pay3 (act7 V c t) Gen.k7_pay6 (iblk7 V c 8 t) (iblk7 V c 9 t) (iblk7 V c 11 t)
      (if first7 (grid7.coords t) then Gen.k7_pay4 (iblk7 V c 12 t) else s) = scr7_0 V c m := by
  obtain rfl := Nat.succ.inj hm
  obtain ⟨n, hn⟩ := t
  cases n with
  | zero => rw [if_pos ((hfirst7 ⟨0, hn⟩).2 rfl)]; rfl
  | succ n => rw [if_neg (mt (hfirst7 ⟨n + 1, hn⟩).1 n.succ_ne_zero), hs n rfl, scr7_0_succ V c n hn]

theorem leaves7_15 (c : Dev nD) (t : Fin cfg7.N) (d) {X} (hX : X = scr7_0 V c t.val) :
    owns (c : Thread nD τ) (Gen.st7_15 t) fullShare (if last7 (grid7.coords t) then X else (dat7 V c).before 15 t d)
      ⊢ ((dat7 V c).leavesExact 15 t : sProp 𝕄) := by
  subst hX
  unfold Dat.leavesExact
  rw [(sched7_15 t).1, (sched7_15 t).2]
  by_cases hl : t.val = 19
  · rw [if_pos ((hlast7 t).2 hl), decide_eq_true hl]; exact .rfl
  · rw [if_neg (mt (hlast7 t).1 hl), decide_eq_false hl]
    show _ ⊢ iprop(∃ d, _)
    iintro H; iexists d; iexact H

theorem body_obligation7 (c : Dev nD) : BodyObligation (dat7 (F := F) V c) (defs₀ (F := F)) Variants.none () Set.univ := fun t => by
  rw [Gen.bigSep_W7, Gen.bigSep_W7]
  simp +decide only [before7 V c t, show ∀ n, (dat7 V c).Φ n = Phi7 V c n.val from fun _ => rfl, Phi7]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hX := scr7_step V c t s hs
  iapply sound_kernel7
  iframe
  isplitl [H13]
  · iexists _; iexact H13
  isplitl [H14]
  · iexists _; iexact H14
  iintro ⟨H0, H1, H2, H3, H4, H5, H6, H7, H8, H9, H10, H11, H12, H13, H14, H15, HS⟩
  iframe
  isplitl [HS]
  · iexists _; isplitr
    · ipureintro; exact hX
    iapply HS
  isplitl [Ho]
  · iapply Ho
  isplitl [H13]
  · iapply H13
  isplitl [H14]
  · iapply H14
  iapply leaves7_15 V c t d15 (hX _ rfl)
  iapply H15

theorem hin7 (c : Dev nD) : (Pipeline.scopedRest (Ix := Unit) (Name := ℕ) (U := UR sig nD τ) (Lvl := ℕ) (Val := Elt F) spec7 c : sProp 𝕄) ⊢ (dat7 V c).Φ 0 := by
  rw [Gen.scopedRest7_split]
  show _ ⊢ Phi7 V c 0
  unfold Phi7
  simp only [owns_whole]
  iintro ⟨⟨%f, HS⟩, HR⟩
  sl_close

theorem hout7 (c : Dev nD) : (dat7 V c).Φ (Fin.last cfg7.N) ⊢ (Pipeline.scopedRest (Ix := Unit) (Name := ℕ) (U := UR sig nD τ) (Lvl := ℕ) (Val := Elt F) spec7 c : sProp 𝕄) := by
  rw [Gen.scopedRest7_split]
  show Phi7 V c cfg7.N ⊢ _
  unfold Phi7
  simp only [owns_whole]
  iintro ⟨⟨%f, -, HS⟩, HR⟩
  sl_close

end Cert.Kernel.Hand

end
-- ==== Proof.K.Fold.lean ====
import proofs.«416827_j50268297232946_2_alg».proof.Proof.Gen.Kernel.Launch
import proofs.«416827_j50268297232946_2_alg».proof.Proof.Gen.Kernel.Skeleton
import proofs.«416827_j50268297232946_2_alg».proof.Proof.Gen.Kernel.Points
import proofs.«416827_j50268297232946_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic
import proofs.«416827_j50268297232946_2_alg».proof.Proof.K.Stats0
import proofs.«416827_j50268297232946_2_alg».proof.Proof.K.Update1
import proofs.«416827_j50268297232946_2_alg».proof.Proof.K.Stats2
import proofs.«416827_j50268297232946_2_alg».proof.Proof.K.Update3Body
import proofs.«416827_j50268297232946_2_alg».proof.Proof.K.Stats4
import proofs.«416827_j50268297232946_2_alg».proof.Proof.K.Update5Body
import proofs.«416827_j50268297232946_2_alg».proof.Proof.K.Stats6
import proofs.«416827_j50268297232946_2_alg».proof.Proof.K.Update7Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def outsOf (U2 U4 U6 U8 U10 U12 U14 U16 : Dev nD → Valuation τ sig (Elt F)) : Outs (F := F) := fun n r c =>
  if n = 2 then U2 c r else if n = 4 then U4 c r else if n = 6 then U6 c r else if n = 8 then U8 c r
  else if n = 10 then U10 c r else if n = 12 then U12 c r else if n = 14 then U14 c r else U16 c r

abbrev D0 : Dev nD → Valuation τ sig (Elt F) := fun c => V0 m c

abbrev Vin0 : Dev nD → Valuation τ sig (Elt F) := fun c => V1 m c
def U2 (c : Dev nD) : Valuation τ sig (Elt F) :=
  Pipeline.withArrays spec0 c (Vin0 m c) fun w => (dat0 (atRefs (Vin0 m)) c).arrAt w cfg0.N
abbrev o2 : Outs (F := F) := outsOf (U2 m) (D0 m) (D0 m) (D0 m) (D0 m) (D0 m) (D0 m) (D0 m)

abbrev Vin1 : Dev nD → Valuation τ sig (Elt F) := fun c => V3 m (o2 m) c
def U4 (c : Dev nD) : Valuation τ sig (Elt F) :=
  Pipeline.withArrays spec1 c (Vin1 m c) fun w => (dat1 (atRefs (Vin1 m)) c).arrAt w cfg1.N
abbrev o4 : Outs (F := F) := outsOf (U2 m) (U4 m) (D0 m) (D0 m) (D0 m) (D0 m) (D0 m) (D0 m)

abbrev Vin2 : Dev nD → Valuation τ sig (Elt F) := fun c => V5 m (o4 m) c
def U6 (c : Dev nD) : Valuation τ sig (Elt F) :=
  Pipeline.withArrays spec2 c (Vin2 m c) fun w => (dat2 (atRefs (Vin2 m)) c).arrAt w cfg2.N
abbrev o6 : Outs (F := F) := outsOf (U2 m) (U4 m) (U6 m) (D0 m) (D0 m) (D0 m) (D0 m) (D0 m)

abbrev Vin3 : Dev nD → Valuation τ sig (Elt F) := fun c => V7 m (o6 m) c
def U8 (c : Dev nD) : Valuation τ sig (Elt F) :=
  Pipeline.withArrays spec3 c (Vin3 m c) fun w => (dat3 (atRefs (Vin3 m)) c).arrAt w cfg3.N
abbrev o8 : Outs (F := F) := outsOf (U2 m) (U4 m) (U6 m) (U8 m) (D0 m) (D0 m) (D0 m) (D0 m)

abbrev Vin4 : Dev nD → Valuation τ sig (Elt F) := fun c => V9 m (o8 m) c
def U10 (c : Dev nD) : Valuation τ sig (Elt F) :=
  Pipeline.withArrays spec4 c (Vin4 m c) fun w => (dat4 (atRefs (Vin4 m)) c).arrAt w cfg4.N
abbrev o10 : Outs (F := F) := outsOf (U2 m) (U4 m) (U6 m) (U8 m) (U10 m) (D0 m) (D0 m) (D0 m)

abbrev Vin5 : Dev nD → Valuation τ sig (Elt F) := fun c => V11 m (o10 m) c
def U12 (c : Dev nD) : Valuation τ sig (Elt F) :=
  Pipeline.withArrays spec5 c (Vin5 m c) fun w => (dat5 (atRefs (Vin5 m)) c).arrAt w cfg5.N
abbrev o12 : Outs (F := F) := outsOf (U2 m) (U4 m) (U6 m) (U8 m) (U10 m) (U12 m) (D0 m) (D0 m)

abbrev Vin6 : Dev nD → Valuation τ sig (Elt F) := fun c => V13 m (o12 m) c
def U14 (c : Dev nD) : Valuation τ sig (Elt F) :=
  Pipeline.withArrays spec6 c (Vin6 m c) fun w => (dat6 (atRefs (Vin6 m)) c).arrAt w cfg6.N
abbrev o14 : Outs (F := F) := outsOf (U2 m) (U4 m) (U6 m) (U8 m) (U10 m) (U12 m) (U14 m) (D0 m)

abbrev Vin7 : Dev nD → Valuation τ sig (Elt F) := fun c => V15 m (o14 m) c
def U16 (c : Dev nD) : Valuation τ sig (Elt F) :=
  Pipeline.withArrays spec7 c (Vin7 m c) fun w => (dat7 (atRefs (Vin7 m)) c).arrAt w cfg7.N
abbrev o16 : Outs (F := F) := outsOf (U2 m) (U4 m) (U6 m) (U8 m) (U10 m) (U12 m) (U14 m) (U16 m)

abbrev outs : Outs (F := F) := o16 m

def pdats : (p : Fin 8) → (c : Dev nD) → Dat τ (Elt F) Unit ℕ (UR sig nD τ) ℕ (cfgs p) c
  | ⟨0, _⟩ => fun c => dat0 (atRefs (Vin0 m)) c
  | ⟨1, _⟩ => fun c => dat1 (atRefs (Vin1 m)) c
  | ⟨2, _⟩ => fun c => dat2 (atRefs (Vin2 m)) c
  | ⟨3, _⟩ => fun c => dat3 (atRefs (Vin3 m)) c
  | ⟨4, _⟩ => fun c => dat4 (atRefs (Vin4 m)) c
  | ⟨5, _⟩ => fun c => dat5 (atRefs (Vin5 m)) c
  | ⟨6, _⟩ => fun c => dat6 (atRefs (Vin6 m)) c
  | ⟨7, _⟩ => fun c => dat7 (atRefs (Vin7 m)) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 9 → Dev nD → sProp 𝕄 := fun _ c => R c

/-- `V` with `g`'s values written at the references of `l`, in order. -/
def over (g : Valuation τ sig (Elt F)) (l : List (Ref sig .tc)) (V : Valuation τ sig (Elt F)) : Valuation τ sig (Elt F) :=
  l.foldl (fun V' r => Function.update V' (r : DevRef τ sig) (g r)) V

theorem over_apply (g : Valuation τ sig (Elt F)) (l : List (Ref sig .tc)) (V : Valuation τ sig (Elt F)) (b : Ref sig .tc) :
    (b ∈ l → over g l V b = g b) ∧ (b ∉ l → over g l V b = V b) := by
  induction l generalizing V with
  | nil => exact ⟨nofun, fun _ => rfl⟩
  | cons r l ih =>
    obtain ⟨h1, h2⟩ := ih (Function.update V r (g r))
    refine ⟨fun h => ?_, fun h => ?_⟩ <;> change over g l (Function.update V r (g r)) b = _
    · by_cases hb : b ∈ l
      · exact h1 hb
      · obtain rfl : b = r := (List.mem_cons.mp h).resolve_right hb
        rw [h2 hb, Function.update_self]
    · rw [h2 (List.not_mem_of_not_mem_cons h), Function.update_of_ne (StableHlo.devRef_ne_of_ne (List.ne_of_not_mem_cons h))]

/-- On `l` both sides are `withArrays`' value; off `l` both are `V`, an array off `l` being an input. -/
theorem fold_eq {cfg : Cfg sig Λ₀} {c : Dev nD} (D : Dat τ (Elt F) Unit ℕ (UR sig nD τ) ℕ cfg c)
    (hinj : Function.Injective (Pipeline.arrRef cfg.spec)) {V Vout : Valuation τ sig (Elt F)} (l : List (Ref sig .tc)) (b : Ref sig .tc)
    (hA : ∀ w, D.A w = V (Pipeline.arrRef cfg.spec w)) (hl : ∀ w, Pipeline.arrRef cfg.spec w ∉ l → (cfg.win w).isOut = false)
    (hV : Vout = over (Pipeline.withArrays cfg.spec c V (D.arrAt · cfg.N)) l V) :
    Vout b = Pipeline.withArrays cfg.spec c V (D.arrAt · cfg.N) b := by
  subst hV
  by_cases hb : b ∈ l
  · exact (over_apply _ l V b).1 hb
  rw [(over_apply _ l V b).2 hb]
  by_cases hw : ∃ w, Pipeline.arrRef cfg.spec w = b
  · obtain ⟨w, rfl⟩ := hw
    rw [Pipeline.withArrays_arr cfg.spec hinj, D.arrAt_in w (hl w hb), hA]
  · rw [Pipeline.withArrays_of_ne cfg.spec c V _ b fun w e => hw ⟨w, e⟩]

theorem Vin_eq0 (c : Dev nD) : V1 m c = Vin0 m c := rfl

theorem Vout_eq0 (c : Dev nD) (b : Ref sig .tc) : V2 m (outs m) c b = U2 m c b :=
  fold_eq (dat0 (atRefs (Vin0 m)) c) launch0.win.arr_inj [main_v41_0, main_v41_1] b (A_eq0 _ c) (by decide) rfl

theorem regOut0 (c : Dev nD) (w : Fin cfg0.W) :
    atRefs (V2 m (outs m)) c (Pipeline.arrRef spec0 w) = (dat0 (atRefs (V1 m)) c).arrAt w cfg0.N :=
  (Vout_eq0 m c _).trans (Pipeline.withArrays_arr spec0 launch0.win.arr_inj c _ _ w)

theorem Vin_eq1 (c : Dev nD) : V3 m (outs m) c = Vin1 m c := rfl

theorem Vout_eq1 (c : Dev nD) (b : Ref sig .tc) : V4 m (outs m) c b = U4 m c b :=
  fold_eq (dat1 (atRefs (Vin1 m)) c) launch1.win.arr_inj [main_v70_0, main_v70_1, main_v70_2] b (A_eq1 _ c) (by decide) rfl

theorem regOut1 (c : Dev nD) (w : Fin cfg1.W) :
    atRefs (V4 m (outs m)) c (Pipeline.arrRef spec1 w) = (dat1 (atRefs (V3 m (outs m))) c).arrAt w cfg1.N :=
  (Vout_eq1 m c _).trans (Pipeline.withArrays_arr spec1 launch1.win.arr_inj c _ _ w)

theorem Vin_eq2 (c : Dev nD) : V5 m (outs m) c = Vin2 m c := rfl

theorem Vout_eq2 (c : Dev nD) (b : Ref sig .tc) : V6 m (outs m) c b = U6 m c b :=
  fold_eq (dat2 (atRefs (Vin2 m)) c) launch2.win.arr_inj [main_v89_0, main_v89_1] b (A_eq2 _ c) (by decide) rfl

theorem regOut2 (c : Dev nD) (w : Fin cfg2.W) :
    atRefs (V6 m (outs m)) c (Pipeline.arrRef spec2 w) = (dat2 (atRefs (V5 m (outs m))) c).arrAt w cfg2.N :=
  (Vout_eq2 m c _).trans (Pipeline.withArrays_arr spec2 launch2.win.arr_inj c _ _ w)

theorem Vin_eq3 (c : Dev nD) : V7 m (outs m) c = Vin3 m c := rfl

theorem Vout_eq3 (c : Dev nD) (b : Ref sig .tc) : V8 m (outs m) c b = U8 m c b :=
  fold_eq (dat3 (atRefs (Vin3 m)) c) launch3.win.arr_inj [main_v118_0, main_v118_1, main_v118_2] b (A_eq3 _ c) (by decide) rfl

theorem regOut3 (c : Dev nD) (w : Fin cfg3.W) :
    atRefs (V8 m (outs m)) c (Pipeline.arrRef spec3 w) = (dat3 (atRefs (V7 m (outs m))) c).arrAt w cfg3.N :=
  (Vout_eq3 m c _).trans (Pipeline.withArrays_arr spec3 launch3.win.arr_inj c _ _ w)

theorem Vin_eq4 (c : Dev nD) : V9 m (outs m) c = Vin4 m c := rfl

theorem Vout_eq4 (c : Dev nD) (b : Ref sig .tc) : V10 m (outs m) c b = U10 m c b :=
  fold_eq (dat4 (atRefs (Vin4 m)) c) launch4.win.arr_inj [main_v137_0, main_v137_1] b (A_eq4 _ c) (by decide) rfl

theorem regOut4 (c : Dev nD) (w : Fin cfg4.W) :
    atRefs (V10 m (outs m)) c (Pipeline.arrRef spec4 w) = (dat4 (atRefs (V9 m (outs m))) c).arrAt w cfg4.N :=
  (Vout_eq4 m c _).trans (Pipeline.withArrays_arr spec4 launch4.win.arr_inj c _ _ w)

theorem Vin_eq5 (c : Dev nD) : V11 m (outs m) c = Vin5 m c := rfl

theorem Vout_eq5 (c : Dev nD) (b : Ref sig .tc) : V12 m (outs m) c b = U12 m c b :=
  fold_eq (dat5 (atRefs (Vin5 m)) c) launch5.win.arr_inj [main_v166_0, main_v166_1, main_v166_2] b (A_eq5 _ c) (by decide) rfl

theorem regOut5 (c : Dev nD) (w : Fin cfg5.W) :
    atRefs (V12 m (outs m)) c (Pipeline.arrRef spec5 w) = (dat5 (atRefs (V11 m (outs m))) c).arrAt w cfg5.N :=
  (Vout_eq5 m c _).trans (Pipeline.withArrays_arr spec5 launch5.win.arr_inj c _ _ w)

theorem Vin_eq6 (c : Dev nD) : V13 m (outs m) c = Vin6 m c := rfl

theorem Vout_eq6 (c : Dev nD) (b : Ref sig .tc) : V14 m (outs m) c b = U14 m c b :=
  fold_eq (dat6 (atRefs (Vin6 m)) c) launch6.win.arr_inj [main_v185_0, main_v185_1] b (A_eq6 _ c) (by decide) rfl

theorem regOut6 (c : Dev nD) (w : Fin cfg6.W) :
    atRefs (V14 m (outs m)) c (Pipeline.arrRef spec6 w) = (dat6 (atRefs (V13 m (outs m))) c).arrAt w cfg6.N :=
  (Vout_eq6 m c _).trans (Pipeline.withArrays_arr spec6 launch6.win.arr_inj c _ _ w)

theorem Vin_eq7 (c : Dev nD) : V15 m (outs m) c = Vin7 m c := rfl

theorem Vout_eq7 (c : Dev nD) (b : Ref sig .tc) : V16 m (outs m) c b = U16 m c b :=
  fold_eq (dat7 (atRefs (Vin7 m)) c) launch7.win.arr_inj [main_v214_0, main_v214_1, main_v214_2] b (A_eq7 _ c) (by decide) rfl

theorem regOut7 (c : Dev nD) (w : Fin cfg7.W) :
    atRefs (V16 m (outs m)) c (Pipeline.arrRef spec7 w) = (dat7 (atRefs (V15 m (outs m))) c).arrAt w cfg7.N :=
  (Vout_eq7 m c _).trans (Pipeline.withArrays_arr spec7 launch7.win.arr_inj c _ _ w)

end Cert.Kernel.Hand

end
-- ==== Proof.K.Regs.lean ====
import proofs.«416827_j50268297232946_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false

theorem pdats_facts (p : Fin 8) (c : Dev nD) : (∀ t, (pdats m p c).owed t = 0) ∧ (∀ w, (pdats m p c).q w = fullShare)
    ∧ ∀ x, x ∈ (pdats m p c).recorded 0 := by
  fin_cases p <;> exact ⟨fun _ => rfl, fun _ => rfl, fun _ => trivial⟩

/-- One record for all eight regions; `Vpre` and `Vin` are the same entry contents written two ways (`hpre`). -/
def regOf (p : Fin 8) (lf : Pipeline.LaunchFacts (nD := nD) (τ := τ) cfgs p) (Vpre Vin Vout : Dev nD → Valuation τ sig (Elt F))
    (hpre : ∀ c, Vpre c = Vin c)
    (hb : ∀ c, BodyObligation (pdats m p c) defs₀ Variants.none () Set.univ)
    (hi : ∀ c, (Pipeline.scopedRest (cfgs p).spec c : sProp 𝕄) ⊢ (pdats m p c).Φ 0)
    (ho : ∀ c, (pdats m p c).Φ (Fin.last (cfgs p).N) ⊢ (Pipeline.scopedRest (cfgs p).spec c : sProp 𝕄))
    (hA : ∀ c w, (pdats m p c).A w = Vin c (Pipeline.arrRef (cfgs p).spec w))
    (hV : ∀ c (b : Ref sig .tc), Vout c b = Pipeline.withArrays (cfgs p).spec c (Vin c) ((pdats m p c).arrAt · (cfgs p).N) b) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_facts m p c).1
  pre c := iprop(StableHlo.held (c : Thread nD τ) (Pipeline.ucRefs τ sig) (Vpre c) ∗ R c)
  post c := iprop(StableHlo.held (c : Thread nD τ) (Pipeline.ucRefs τ sig) (Vout c) ∗ R c)
  X c := iprop(emp)
  Y c := iprop(emp)
  Z c := iprop(Pipeline.unscopedRest (Ix := Unit) (Name := ℕ) (U := UR sig nD τ) (Lvl := ℕ) (cfgs p).spec c (atRefs Vin c) ∗ ∃ r, prngReg c r)
  hentry c := by
    rw [Pipeline.ownSems0_none, hpre c]
    have hsplit := Pipeline.arrays_of_unscopedBufs (p := p) (pcfgs (F := F)) adm (pdats m) lf.win lf.arr_whole c
      ((pdats m p c).share_full (pdats_facts m p c).2.1) (atRefs Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_facts m p c).1]
      icases HO with ⟨%W, HO⟩; iexists W; isplitr; · ipureintro; exact fun x _ => Or.inl ((pdats_facts m p c).2.2 x)
      iexact HO
    isplitr; · iempintro
    isplitl [Hrest]; · iexact Hrest
    iexact Hp
  hin c := by
    iintro ⟨-, -, Hr⟩
    iapply (hi c)
    iexact Hr
  hout c := by
    rw [Pipeline.ownSems0_none]
    iintro HΦ
    isplitr; · iempintro
    isplitr; · iempintro
    iapply (ho c)
    iexact HΦ
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_facts m p c).2.1)
      (atRefs Vin c) (atRefs Vout c) ((pdats m p c).arrAt · (cfgs p).N)
      (fun w => ((hV c _).trans (Pipeline.withArrays_arr _ lf.win.arr_inj c _ _ w)).symm)
      fun b hb => (hV c b).trans (Pipeline.withArrays_of_ne _ c _ _ b fun w e => hb (Finset.mem_image.mpr ⟨w, Finset.mem_univ _, e⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [(pdats_facts m p c).1]
    icases HO with ⟨%W, -, HO⟩; iexists W; iexact HO

def reg0 := regOf m 0 launch0 (V1 m) (Vin0 m) (V2 m (outs m)) (Vin_eq0 m) (body_obligation0 _) (hin0 _) (hout0 _) (A_eq0 _) (Vout_eq0 m)
def reg1 := regOf m 1 launch1 (V3 m (outs m)) (Vin1 m) (V4 m (outs m)) (Vin_eq1 m) (body_obligation1 _) (hin1 _) (hout1 _) (A_eq1 _) (Vout_eq1 m)
def reg2 := regOf m 2 launch2 (V5 m (outs m)) (Vin2 m) (V6 m (outs m)) (Vin_eq2 m) (body_obligation2 _) (hin2 _) (hout2 _) (A_eq2 _) (Vout_eq2 m)
def reg3 := regOf m 3 launch3 (V7 m (outs m)) (Vin3 m) (V8 m (outs m)) (Vin_eq3 m) (body_obligation3 _) (hin3 _) (hout3 _) (A_eq3 _) (Vout_eq3 m)
def reg4 := regOf m 4 launch4 (V9 m (outs m)) (Vin4 m) (V10 m (outs m)) (Vin_eq4 m) (body_obligation4 _) (hin4 _) (hout4 _) (A_eq4 _) (Vout_eq4 m)
def reg5 := regOf m 5 launch5 (V11 m (outs m)) (Vin5 m) (V12 m (outs m)) (Vin_eq5 m) (body_obligation5 _) (hin5 _) (hout5 _) (A_eq5 _) (Vout_eq5 m)
def reg6 := regOf m 6 launch6 (V13 m (outs m)) (Vin6 m) (V14 m (outs m)) (Vin_eq6 m) (body_obligation6 _) (hin6 _) (hout6 _) (A_eq6 _) (Vout_eq6 m)
def reg7 := regOf m 7 launch7 (V15 m (outs m)) (Vin7 m) (V16 m (outs m)) (Vin_eq7 m) (body_obligation7 _) (hin7 _) (hout7 _) (A_eq7 _) (Vout_eq7 m)

end Cert.Kernel.Hand

end
-- ==== Proof.K.Run.lean ====
import proofs.«416827_j50268297232946_2_alg».proof.Proof.K.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev rest0 (c : Dev nD) : sProp 𝕄 :=
  iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))

abbrev u₀ : UR sig nD τ := initOf (Pipeline.cells cfgs cellOf_inj) (Pipeline.launchToks cfgs cellOf_inj)

theorem hu₀ : (ownU (u₀) : sProp 𝕄) ⊢ |={Set.univ}=> iprop(BI.own (emb₁ (u₀)) ∗ bigSep Finset.univ (fun _ : Dev nD => (BI.emp : sProp 𝕄))) := by
  iintro Hu; imodintro
  isplitl [Hu]
  · iapply (show (ownU (u₀) : sProp 𝕄) ⊢ BI.own (emb₁ (u₀)) from .rfl)
    iexact Hu
  iapply (show (BI.emp : sProp 𝕄) ⊢ bigSep Finset.univ (fun _ : Dev nD => (BI.emp : sProp 𝕄)) from by rw [BI.bigSep_emp_const])
  iempintro

theorem hE0_core (c : Dev nD) : rest0 (F := F) ρ c
    ⊢ (E (F := F) 0 c : sProp 𝕄) := by
  iintro ⟨-, HO, -, Hp, -⟩
  isplitl [Hp]; · iexists _; iexact Hp
  iexists ∅; iexact HO

theorem hE0 : iprop((bigSep Finset.univ (rest0 (F := F) ρ)) ∗ levAts L lv)
    ⊢ (|={Set.univ}=> bigSep Finset.univ (E (F := F) 0) : sProp 𝕄) := by
  iintro ⟨H, -⟩
  imodintro
  have hmono : (bigSep Finset.univ (rest0 (F := F) ρ))
      ⊢ (bigSep Finset.univ (E (F := F) 0) : sProp 𝕄) :=
    bigSep_mono fun c _ => hE0_core (F := F) ρ c
  iapply hmono
  iexact H

theorem hE8 (c : Dev nD) : (E (F := F) 8 c : sProp 𝕄) ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (F := F) (m := m) emb₁ () Variants.none L lv (fun _ _ => rfl) ρ (outs m) (pdats m) 0 (fun _ => iprop(emp)) u₀ (hu₀ (F := F)) (E (F := F)) (hE0 (F := F) ρ) (hE8 (F := F))
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl) (reg7 m) (fun _ => .rfl) (fun _ => .rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ Variants.none L lv m ρ main
    (segs m (outs m) Variants.none L lv (E (F := F)) () (pdats m) (reg0 m) (reg1 m) (reg2 m) (reg3 m) (reg4 m) (reg5 m) (reg6 m) (reg7 m))
    (fun c Q => by
      rewrite [main_chain c, Pipeline.Seg.run_eq_chain,
        show (segs m (outs m) Variants.none L lv (E (F := F)) () (pdats m) (reg0 m) (reg1 m) (reg2 m) (reg3 m) (reg4 m) (reg5 m) (reg6 m) (reg7 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Pipeline.Seg.pipes_host, Pipeline.Seg.pipes_region, Pipeline.Seg.pipes_nil]; decide) 0 (fun _ _ => rfl)
    (fun _ => iprop(emp)) u₀ (hu₀ (F := F))
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl, sep_mono .rfl (hE8 (F := F) c)⟩)
    (hinit := ?_) (QY := fun c s => ∀ b ∈ Pipeline.ucRefs τ sig, s.mem (((c : Thread nD τ)).1, b) = V17 m (outs m) c b)
    (hfin := fun c s' => ?_) (hQ := fun _ h => h)
  ·
    have hsplit : (bigSep Finset.univ fun c : Dev nD => iprop(unscopedBufs c (fun b => m ((c.tc : Thread nD τ).loc b)) ∗ rest0 (F := F) ρ c))
        ⊢ (iprop((bigSep Finset.univ fun c : Dev nD => StableHlo.held (c : Thread nD τ) (Pipeline.ucRefs τ sig) (V0 m c))
            ∗ bigSep Finset.univ (rest0 (F := F) ρ))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    have hE0' := hE0 (F := F) ρ
    imod hE0' $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  ·
    unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact h
    · iexact HSI

end Cert.Kernel.Hand

end
-- ==== Proof.KI.Stats0.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def pt0 (n : ℕ) : Fin cfg0.N := if h : n < cfg0.N then ⟨n, h⟩ else ⟨0, by decide⟩

theorem pt0_val (t : Fin cfg0.N) : pt0 t.val = t := dif_pos t.isLt

def scr0_0 (c : Dev nD) : ℕ → FVec F S1x64 .f32
  | 0 => k0_pay4 (iblk0 V c 0 (pt0 0)) (iblk0 V c 1 (pt0 0)) (iblk0 V c 2 (pt0 0)) (iblk0 V c 3 (pt0 0)) (k0_pay1 (F := F))
  | n + 1 => k0_pay4 (iblk0 V c 0 (pt0 (n + 1))) (iblk0 V c 1 (pt0 (n + 1))) (iblk0 V c 2 (pt0 (n + 1))) (iblk0 V c 3 (pt0 (n + 1))) (scr0_0 c n)

def scr0_1 (c : Dev nD) : ℕ → FVec F S1x64 .f32
  | 0 => k0_pay5 (iblk0 V c 0 (pt0 0)) (iblk0 V c 1 (pt0 0)) (iblk0 V c 2 (pt0 0)) (iblk0 V c 3 (pt0 0)) (k0_pay2 (F := F))
  | n + 1 => k0_pay5 (iblk0 V c 0 (pt0 (n + 1))) (iblk0 V c 1 (pt0 (n + 1))) (iblk0 V c 2 (pt0 (n + 1))) (iblk0 V c 3 (pt0 (n + 1))) (scr0_1 c n)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => scr0_0 V c t.val
    | ⟨5, _⟩ => scr0_1 V c t.val
  Φ t := match t with
    | ⟨0, _⟩ => Pipeline.scopedRest (Ix := Unit) (Name := ℕ) (U := UR sig nD τ) (Lvl := ℕ) (Val := Elt F) spec0 c
    | ⟨n + 1, _⟩ => iprop(owns (c : Thread nD τ) (Memref.whole cc0_scratch0) fullShare (scr0_0 V c n)
        ∗ owns (c : Thread nD τ) (Memref.whole cc0_scratch1) fullShare (scr0_1 V c n)
        ∗ Pipeline.scopedRestBut (Ix := Unit) (Name := ℕ) (U := UR sig nD τ) (Lvl := ℕ) (Val := Elt F) spec0 c [cc0_scratch0, cc0_scratch1])
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = scr0_0 V c t.val := rfl
theorem after0_5 (c : Dev nD) (t : Fin cfg0.N) : (dat0 V c).after 5 t = scr0_1 V c t.val := rfl

theorem hin0 (c : Dev nD) : (Pipeline.scopedRest (Ix := Unit) (Name := ℕ) (U := UR sig nD τ) (Lvl := ℕ) (Val := Elt F) spec0 c : sProp 𝕄) ⊢ (dat0 V c).Φ 0 := .rfl

theorem hout0 (c : Dev nD) : (dat0 V c).Φ (Fin.last cfg0.N) ⊢ (Pipeline.scopedRest (Ix := Unit) (Name := ℕ) (U := UR sig nD τ) (Lvl := ℕ) (Val := Elt F) spec0 c : sProp 𝕄) := by
  show _ ∗ _ ∗ _ ⊢ _
  rw [scopedRest0_split, owns_whole, owns_whole]
  iintro ⟨H0, H1, Hr⟩
  iframe Hr
  isplitl [H0] <;> iexists _ <;> iassumption

abbrev cond0_0 (i : grid0.Coords) : Prop := (Scalar.cmpi .ne (Scalar.extui (Scalar.cmpi .eq (BitVec.ofNat 32 (i 0).val) 0#32)) 0#32) = 1#1

theorem hcond0_0 : ∀ t : Fin grid0.N, cond0_0 (grid0.coords t) ↔ t.val = 0 := by decide +kernel

private theorem hz2 : (![0, 0] : Fin 2 → ℕ) = fun _ => 0 := by
  funext a; fin_cases a <;> rfl

theorem run0 {c : Dev nD} {E : Set ℕ} {i : grid0.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond0_0 i ∧ r0 = k0_pay1 ∧ r1 = k0_pay2 ∨ ¬ cond0_0 i ∧ r0 = s0 ∧ r1 = s1) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 x0 x1 x2 x3 r0) ∗ owns (c : Thread nD τ) arg6 fullShare (k0_pay5 x0 x1 x2 x3 r1)
            ∗ owns (c : Thread nD τ) arg7 fullShare (k0_pay4 x0 x1 x2 x3 r0) ∗ owns (c : Thread nD τ) arg8 fullShare (k0_pay5 x0 x1 x2 x3 r1)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc0__stats_kernel_eq_skeleton, cc0__stats_kernel_skel, k0_part1_eq_skeleton, k0_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) hz2, View.ld_unit_zero (S := S64x64) hz2, View.ld_unit_zero (S := S1x64) hz2, View.readCov_cons_toLoadRect]; exact Eq.trans (View.read_writes_eq_canon _ _ _ fun y => ⟨_, List.mem_cons_self, View.mem_set_unit_zero hz2 inb_S1x64_S1x64_0_0 y⟩) (View.canon_cons_unit_zero hz2 _ _ _)))

theorem body_obligation0 (c : Dev nD) : BodyObligation (dat0 (F := F) V c) (defs₀ (F := F)) Variants.none () Set.univ := fun t => by
  rw [bigSep_W0, bigSep_W0]
  simp only [(dat0 V c).before_in_eq_fetched 0 rfl (fun _ => rfl) (fun _ _ _ => rfl) (fun _ => rfl) t,
    (dat0 V c).before_in_eq_fetched 1 rfl (fun _ => rfl) (fun _ _ _ => rfl) (fun _ => rfl) t,
    (dat0 V c).before_in_eq_fetched 2 rfl (fun _ => rfl) (fun _ _ _ => rfl) (fun _ => rfl) t,
    (dat0 V c).before_in_eq_fetched 3 rfl (fun _ => rfl) (fun _ _ _ => rfl) (fun _ => rfl) t]
  show _ ⊢ wp _ _ _ _ fun _ => iprop((_ ∗ _ ∗ _) ∗ _)
  rw [after0_4, after0_5]
  obtain ⟨_ | n, hn⟩ := t <;> rw [scr0_0, scr0_1, pt0_val ⟨_, hn⟩]
  on_goal 2 =>
    show (_ ∗ _ ∗ _) ∗ _ ⊢ _
    iintro ⟨⟨HS0, HS1, Hr⟩, Ho, ⟨%d0, H0⟩, ⟨%d1, H1⟩, ⟨%d2, H2⟩, ⟨%d3, H3⟩, ⟨%d4, H4⟩, ⟨%d5, H5⟩⟩
    iapply (run0 (.inr ⟨mt (hcond0_0 ⟨n + 1, hn⟩).1 n.succ_ne_zero, rfl, rfl⟩))
  on_goal 1 =>
    show Pipeline.scopedRest spec0 c ∗ _ ⊢ _
    rw [scopedRest0_split]
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run0 (.inl ⟨(hcond0_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Hand

end
-- ==== Proof.KI.Update1Data.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨n % 20, lt_of_lt_of_eq (Nat.mod_lt _ (by decide)) N_1.symm⟩

theorem pt1_val (t : Fin cfg1.N) : pt1 t.val = t :=
  Fin.ext (Nat.mod_eq_of_lt (lt_of_lt_of_eq t.isLt N_1))

def act1 (c : Dev nD) (t : Fin cfg1.N) : FVec F S5000x64 .f32 :=
  k1_pay5 (iblk1 V c 0 t) (iblk1 V c 1 t) (iblk1 V c 2 t) (iblk1 V c 3 t) (iblk1 V c 5 t) (iblk1 V c 4 t) (iblk1 V c 6 t) (iblk1 V c 7 t)

def hnew1 (c : Dev nD) (t : Fin cfg1.N) : FVec F S5000x64 .f32 :=
  k1_pay1 (act1 V c t) (iblk1 V c 8 t) (iblk1 V c 9 t)

def npool1 (c : Dev nD) (t : Fin cfg1.N) : FVec F S5000x64 .f32 :=
  k1_pay2 (act1 V c t) (iblk1 V c 8 t) (iblk1 V c 9 t) (iblk1 V c 10 t)

def scr1_0 (c : Dev nD) : ℕ → FVec F S128x64 .f32
  | 0 => k1_pay3 (act1 V c (pt1 0)) (iblk1 V c 8 (pt1 0)) (iblk1 V c 9 (pt1 0)) (iblk1 V c 11 (pt1 0)) (k1_pay4 (iblk1 V c 12 (pt1 0)))
  | n + 1 => k1_pay3 (act1 V c (pt1 (n + 1))) (iblk1 V c 8 (pt1 (n + 1))) (iblk1 V c 9 (pt1 (n + 1))) (iblk1 V c 11 (pt1 (n + 1))) (scr1_0 c n)

theorem scr1_0_zero (c : Dev nD) : scr1_0 V c 0 = k1_pay3 (act1 V c (pt1 0)) (iblk1 V c 8 (pt1 0)) (iblk1 V c 9 (pt1 0)) (iblk1 V c 11 (pt1 0)) (k1_pay4 (iblk1 V c 12 (pt1 0))) := rfl

theorem scr1_0_succ (c : Dev nD) (n : ℕ) : scr1_0 V c (n + 1) = k1_pay3 (act1 V c (pt1 (n + 1))) (iblk1 V c 8 (pt1 (n + 1))) (iblk1 V c 9 (pt1 (n + 1))) (iblk1 V c 11 (pt1 (n + 1))) (scr1_0 V c n) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => hnew1 V c t
    | ⟨14, _⟩ => npool1 V c t
    | ⟨15, _⟩ => scr1_0 V c t.val
    | ⟨_ + 16, h⟩ => absurd h (Nat.not_lt.2 (Nat.le_add_left _ _))
  Φ t := match t with
    | ⟨0, _⟩ => Pipeline.scopedRest (Ix := Unit) (Name := ℕ) (U := UR sig nD τ) (Lvl := ℕ) (Val := Elt F) spec1 c
    | ⟨n + 1, _⟩ => iprop(owns (c : Thread nD τ) (Memref.whole cc1_scratch0) fullShare (scr1_0 V c n)
        ∗ Pipeline.scopedRestBut (Ix := Unit) (Name := ℕ) (U := UR sig nD τ) (Lvl := ℕ) (Val := Elt F) spec1 c [cc1_scratch0])
  q _ := fullShare
  owed _ := 0

theorem A_eq1 (c : Dev nD) (w : Fin cfg1.W) : (dat1 V c).A w = V c (Pipeline.arrRef spec1 w) := by
  dsimp only [dat1]

theorem after1_13 (c : Dev nD) (t : Fin cfg1.N) : (dat1 V c).after 13 t = hnew1 V c t := by dsimp only [dat1]
theorem after1_14 (c : Dev nD) (t : Fin cfg1.N) : (dat1 V c).after 14 t = npool1 V c t := by dsimp only [dat1]
theorem after1_15 (c : Dev nD) (t : Fin cfg1.N) : (dat1 V c).after 15 t = scr1_0 V c t.val := by dsimp only [dat1]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) ∧ (∀ d, (dat1 V c).before 8 t d = iblk1 V c 8 t)
    ∧ (∀ d, (dat1 V c).before 9 t d = iblk1 V c 9 t) ∧ (∀ d, (dat1 V c).before 10 t d = iblk1 V c 10 t) ∧ (∀ d, (dat1 V c).before 11 t d = iblk1 V c 11 t)
    ∧ (∀ d, (dat1 V c).before 12 t d = iblk1 V c 12 t) := by
  refine ⟨?_, ?_, ?_, ?_, ?_, ?_, ?_, ?_, ?_, ?_, ?_, ?_, ?_⟩ <;>
    refine fun d => Dat.before_in_eq_fetched (dat1 V c) _ ?_ ?_ ?_ ?_ t d <;> intros <;> rfl

-- The invariant as a function of the accumulated value.
def PhiS1 (c : Dev nD) (X : FVec F S128x64 .f32) : sProp 𝕄 :=
  iprop(owns (c : Thread nD τ) (Memref.whole cc1_scratch0) fullShare X ∗ Pipeline.scopedRestBut (Ix := Unit) (Name := ℕ) (U := UR sig nD τ) (Lvl := ℕ) (Val := Elt F) spec1 c [cc1_scratch0])

theorem Phi1_succ (c : Dev nD) (n : ℕ) (h : n + 1 < cfg1.N + 1) : (dat1 V c).Φ ⟨n + 1, h⟩ = PhiS1 c (scr1_0 V c n) := rfl

-- The recurrence of `scr1_0`, read at a grid point.
theorem Phi1_at (c : Dev nD) (t : Fin cfg1.N) :
    (dat1 V c).Φ t.castSucc ⊢ iprop(∃ X, ⌜scr1_0 V c t.val = k1_pay3 (act1 V c t) (iblk1 V c 8 t) (iblk1 V c 9 t) (iblk1 V c 11 t) (if t.val = 0 then k1_pay4 (iblk1 V c 12 t) else X)⌝ ∗ PhiS1 c X) := by
  obtain ⟨n, hn⟩ := t
  cases n with
  | zero =>
    have e : pt1 0 = ⟨0, hn⟩ := pt1_val ⟨0, hn⟩
    rw [show (dat1 V c).Φ (Fin.castSucc ⟨0, hn⟩) = _ from scopedRest1_split c]
    unfold PhiS1; simp only [owns_whole]
    iintro ⟨⟨%X, HS⟩, HR⟩; iexists X; isplitr; swap
    · isplitl [HS]; · iexact HS
      iexact HR
    ipureintro; show scr1_0 V c 0 = _; rw [scr1_0_zero, e] <;> rfl
  | succ n =>
    have e : pt1 (n + 1) = ⟨n + 1, hn⟩ := pt1_val ⟨n + 1, hn⟩
    rw [show (dat1 V c).Φ (Fin.castSucc ⟨n + 1, hn⟩) = _ from Phi1_succ V c n _]
    iintro H; iexists _; isplitr; swap; iexact H
    ipureintro; show scr1_0 V c (n + 1) = _; rw [scr1_0_succ, e] <;> rfl

theorem hin1 (c : Dev nD) : (Pipeline.scopedRest (Ix := Unit) (Name := ℕ) (U := UR sig nD τ) (Lvl := ℕ) (Val := Elt F) spec1 c : sProp 𝕄) ⊢ (dat1 V c).Φ 0 := .rfl

theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  have e : Fin.last cfg1.N = ⟨19 + 1, by have h : cfg1.N = 20 := N_1; omega⟩ :=
    Fin.ext (by rw [Fin.val_last]; exact N_1)
  rw [e, Phi1_succ, scopedRest1_split]; unfold PhiS1; simp only [owns_whole]
  iintro ⟨HS, HR⟩
  isplitl [HS]; · iexists _; iexact HS
  iexact HR

end Cert.KernelIdeal.Hand
-- ==== Proof.KI.Update1Cond.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

theorem idleAt1_15 : ∀ t : Fin cfg1.N, t.val ≠ 19 → cfg1.idle 15 (grid1.coords t) = true ∧ (cfg1.win 15).flush t = false :=
  (by decide +kernel : ∀ t : Fin grid1.N, t.val ≠ 19 → cfg1.idle 15 (grid1.coords t) = true ∧ (cfg1.win 15).flush t = false)
theorem liveAt1_15 : ∀ t : Fin cfg1.N, t.val = 19 → cfg1.idle 15 (grid1.coords t) = false :=
  (by decide +kernel : ∀ t : Fin grid1.N, t.val = 19 → cfg1.idle 15 (grid1.coords t) = false)

theorem zoff1 : (![0, 0] : Fin 2 → ℕ) = fun _ => 0 := by funext a; fin_cases a <;> rfl

theorem read_store_whole1 {Val : EltTy → Type} {S : Shape} {e : EltTy} [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h]

end Cert.KernelIdeal.Hand
-- ==== Proof.KI.Update1RunA.lean ====
import proofs.«416827_j50268297232946_2_alg».proof.Proof.KI.Update1Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
-- One statement for the four outcomes of the two tests, read through equivalent decidable propositions `p0`, `p1`.
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (p0 p1 : Prop) [Decidable p0] [Decidable p1] (h0 : cond1_0 i ↔ p0) (h1 : cond1_1 i ↔ p1) (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (xi15 xs : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ owns (c : Thread nD τ) arg16 fullShare xi15 ∗ owns (c : Thread nD τ) arg17 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (k1_pay1 (k1_pay5 x0 x1 x2 x3 x5 x4 x6 x7) x8 x9)
            ∗ owns (c : Thread nD τ) arg15 fullShare (k1_pay2 (k1_pay5 x0 x1 x2 x3 x5 x4 x6 x7) x8 x9 x10)
            ∗ owns (c : Thread nD τ) arg16 fullShare (if p1 then k1_pay3 (k1_pay5 x0 x1 x2 x3 x5 x4 x6 x7) x8 x9 x11 (if p0 then k1_pay4 x12 else xs) else xi15)
            ∗ owns (c : Thread nD τ) arg17 fullShare (k1_pay3 (k1_pay5 x0 x1 x2 x3 x5 x4 x6 x7) x8 x9 x11 (if p0 then k1_pay4 x12 else xs))) -∗ K ⟨⟩))
      ⊢ wp frame (wpE (defs₀ (F := F)) Variants.none c none) E (cc1__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg17.eq_unread hfs
  by_cases hp0 : p0 <;> by_cases hp1 : p1
  on_goal 1 => simp only [if_pos hp0, if_pos hp1]
  on_goal 2 => simp only [if_pos hp0, if_neg hp1]
  on_goal 3 => simp only [if_neg hp0, if_pos hp1]
  on_goal 4 => simp only [if_neg hp0, if_neg hp1]
  all_goals
    sl_exec (disch := first | exact h0.mpr hp0 | exact mt h0.mp hp0 | exact h1.mpr hp1 | exact mt h1.mp hp1)
    sl_step
    iapply Hk
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]; · iexists _; isplitr; swap; iexact H4; ipureintro; exact hf4
    isplitl [H5]; · iexists _; isplitr; swap; iexact H5; ipureintro; exact hf5
    isplitl [H6]; · iexists _; isplitr; swap; iexact H6; ipureintro; exact hf6
    isplitl [H7]; · iexists _; isplitr; swap; iexact H7; ipureintro; exact hf7
    isplitl [H8]; · iexists _; isplitr; swap; iexact H8; ipureintro; exact hf8
    isplitl [H9]; · iexists _; isplitr; swap; iexact H9; ipureintro; exact hf9
    isplitl [H10]; · iexists _; isplitr; swap; iexact H10; ipureintro; exact hf10
    isplitl [H11]; · iexists _; isplitr; swap; iexact H11; ipureintro; exact hf11
    isplitl [H12]; · iexists _; isplitr; swap; iexact H12; ipureintro; exact hf12
    isplitl [H13]; iexists _; isplitr; swap; iexact H13; ipureintro; rotate_left
    isplitl [H14]; iexists _; isplitr; swap; iexact H14; ipureintro; rotate_left
    isplitl [H15]; iexists _; isplitr; swap; iexact H15; ipureintro; rotate_left
    iexists _; isplitr; swap; iexact HS; ipureintro
    all_goals first
      | (try sl_unfold_run_names
         rw [read_store_whole1 _ _ zoff1]; try sl_unfold_run_names
         simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S5000x64) zoff1, View.ld_unit_zero (S := S64x64) zoff1, View.ld_unit_zero (S := S1x64) zoff1, View.ld_unit_zero (S := S5000x1) zoff1, View.ld_unit_zero (S := S128x64) zoff1])
      | exact hf15

end Cert.KernelIdeal.Hand
-- ==== Proof.KI.Update1.lean ====
import proofs.«416827_j50268297232946_2_alg».proof.Proof.KI.Update1Data
import proofs.«416827_j50268297232946_2_alg».proof.Proof.KI.Update1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves1_15 (c : Dev nD) (t : Fin cfg1.N) (d) (Y) (hY : scr1_0 V c t.val = Y) :
    owns (c : Thread nD τ) (st1_15 t) fullShare (if t.val = 19 then Y else (dat1 V c).before 15 t d) ⊢ (dat1 V c).leavesExact 15 t := by
  subst hY
  by_cases h : t.val = 19
  · rw [if_pos h, show (dat1 V c).leavesExact 15 t = owns (c : Thread nD τ) (st1_15 t) fullShare ((dat1 V c).after 15 t) from by
      unfold Dat.leavesExact; rw [liveAt1_15 t h], after1_15]
  · rw [if_neg h, Dat.leavesExact_idle (dat1 V c) 15 t (idleAt1_15 t h).1 (idleAt1_15 t h).2]
    iintro H; iexists _; iexact H

set_option maxHeartbeats 4000000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d))
      ∗ (∃ d, owns (c : Thread nD τ) (st1_9 t) fullShare ((dat1 V c).before 9 t d))
      ∗ (∃ d, owns (c : Thread nD τ) (st1_10 t) fullShare ((dat1 V c).before 10 t d))
      ∗ (∃ d, owns (c : Thread nD τ) (st1_11 t) fullShare ((dat1 V c).before 11 t d))
      ∗ (∃ d, owns (c : Thread nD τ) (st1_12 t) fullShare ((dat1 V c).before 12 t d))
      ∗ (∃ d, owns (c : Thread nD τ) (st1_13 t) fullShare ((dat1 V c).before 13 t d))
      ∗ (∃ d, owns (c : Thread nD τ) (st1_14 t) fullShare ((dat1 V c).before 14 t d))
      ∗ (∃ d, owns (c : Thread nD τ) (st1_15 t) fullShare ((dat1 V c).before 15 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ owns (c : Thread nD τ) (st1_3 t) fullShare (iblk1 V c 3 t)
        ∗ owns (c : Thread nD τ) (st1_4 t) fullShare (iblk1 V c 4 t) ∗ owns (c : Thread nD τ) (st1_5 t) fullShare (iblk1 V c 5 t)
        ∗ owns (c : Thread nD τ) (st1_6 t) fullShare (iblk1 V c 6 t) ∗ owns (c : Thread nD τ) (st1_7 t) fullShare (iblk1 V c 7 t)
        ∗ owns (c : Thread nD τ) (st1_8 t) fullShare (iblk1 V c 8 t) ∗ owns (c : Thread nD τ) (st1_9 t) fullShare (iblk1 V c 9 t)
        ∗ owns (c : Thread nD τ) (st1_10 t) fullShare (iblk1 V c 10 t) ∗ owns (c : Thread nD τ) (st1_11 t) fullShare (iblk1 V c 11 t)
        ∗ owns (c : Thread nD τ) (st1_12 t) fullShare (iblk1 V c 12 t)
        ∗ owns (c : Thread nD τ) (st1_13 t) fullShare (hnew1 V c t) ∗ owns (c : Thread nD τ) (st1_14 t) fullShare (npool1 V c t)
        ∗ (dat1 V c).leavesExact 15 t)) := by
  unfold bodyAt1
  simp only [before1_in V c t]
  rw [show (dat1 V c).owesAt () t.succ = (dat1 V c).owesAt () t.castSucc from rfl,
    show (dat1 V c).Φ t.succ = _ from Phi1_succ V c t.val _]
  refine (sep_mono_left (Phi1_at V c t)).trans ?_
  unfold PhiS1 hnew1 npool1
  iintro ⟨⟨%X, %hX, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  unfold act1 at hX ⊢; rw [hX]
  iapply (sound_kernel1 c Set.univ (grid1.coords t) _ _ _ _ _ _ _ _ _ _ _ _ _ _ _ _ _ _ _ _ _ _ _ _ _ _ _ _ _ _ _ _ _ _ (t.val = 0) (t.val = 19) (hcond1_0 t) (hcond1_1 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 15 t d15) X _)
  iframe
  isplitl [H13]; · iexists _; iexact H13
  isplitl [H14]; · iexists _; iexact H14
  iintro ⟨H0, H1, H2, H3, H4, H5, H6, H7, H8, H9, H10, H11, H12, H13, H14, H15, HS⟩
  iframe
  iapply (leaves1_15 V c t d15 _ hX); iexact H15

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Stats2.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def pt2 (n : ℕ) : Fin cfg2.N := ⟨n % 20, by have h : cfg2.N = 20 := N_2; omega⟩

theorem pt2_val (t : Fin cfg2.N) : pt2 t.val = t := by
  have h : cfg2.N = 20 := N_2
  apply Fin.ext; show t.val % 20 = t.val; have := t.isLt; omega

def scr2_0 (c : Dev nD) : ℕ → FVec F S1x64 .f32
  | 0 => k2_pay4 (iblk2 V c 0 (pt2 0)) (iblk2 V c 1 (pt2 0)) (iblk2 V c 2 (pt2 0)) (iblk2 V c 3 (pt2 0)) (k2_pay1 (F := F))
  | n + 1 => k2_pay4 (iblk2 V c 0 (pt2 (n + 1))) (iblk2 V c 1 (pt2 (n + 1))) (iblk2 V c 2 (pt2 (n + 1))) (iblk2 V c 3 (pt2 (n + 1))) (scr2_0 c n)

def scr2_1 (c : Dev nD) : ℕ → FVec F S1x64 .f32
  | 0 => k2_pay5 (iblk2 V c 0 (pt2 0)) (iblk2 V c 1 (pt2 0)) (iblk2 V c 2 (pt2 0)) (iblk2 V c 3 (pt2 0)) (k2_pay2 (F := F))
  | n + 1 => k2_pay5 (iblk2 V c 0 (pt2 (n + 1))) (iblk2 V c 1 (pt2 (n + 1))) (iblk2 V c 2 (pt2 (n + 1))) (iblk2 V c 3 (pt2 (n + 1))) (scr2_1 c n)

def Phi2 (c : Dev nD) : ℕ → sProp 𝕄
  | 0 => iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1])
  | n + 1 => iprop(iprop(owns (c : Thread nD τ) (Memref.whole cc2_scratch0) fullShare (scr2_0 V c n) ∗ owns (c : Thread nD τ) (Memref.whole cc2_scratch1) fullShare (scr2_1 V c n))
          ∗ Pipeline.scopedRestBut (Ix := Unit) (Name := ℕ) (U := UR sig nD τ) (Lvl := ℕ) (Val := Elt F) spec2 c [cc2_scratch0, cc2_scratch1])

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => scr2_0 V c t.val
    | ⟨5, _⟩ => scr2_1 V c t.val
  Φ t := Phi2 V c t.val
  q _ := fullShare
  owed _ := 0

theorem A_eq2 (c : Dev nD) (w : Fin cfg2.W) : (dat2 V c).A w = V c (Pipeline.arrRef spec2 w) := rfl

theorem after2_4 (c : Dev nD) (t : Fin cfg2.N) : (dat2 V c).after 4 t = scr2_0 V c t.val := rfl
theorem after2_5 (c : Dev nD) (t : Fin cfg2.N) : (dat2 V c).after 5 t = scr2_1 V c t.val := rfl

theorem hin2 (c : Dev nD) : (Pipeline.scopedRest (Ix := Unit) (Name := ℕ) (U := UR sig nD τ) (Lvl := ℕ) (Val := Elt F) spec2 c : sProp 𝕄) ⊢ (dat2 V c).Φ 0 := by
  rw [scopedRest2_split]; exact .rfl

theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  show (_ ∗ _) ∗ _ ⊢ _
  rw [scopedRest2_split, owns_whole, owns_whole]
  iintro ⟨⟨H0, H1⟩, Hr⟩
  iframe Hr
  isplitl [H0] <;> iexists _ <;> iassumption

abbrev cond2_0 (i : grid2.Coords) : Prop := (Scalar.cmpi .ne (Scalar.extui (Scalar.cmpi .eq (BitVec.ofNat 32 (i 0).val) 0#32)) 0#32) = 1#1

theorem hcond2_0 : ∀ t : Fin grid2.N, cond2_0 (grid2.coords t) ↔ t.val = 0 := by decide +kernel

theorem off00_2 : (![0, 0] : Fin 2 → ℕ) = fun _ => 0 := by funext a; fin_cases a <;> rfl

theorem run2 {c : Dev nD} {E : Set ℕ} {i : grid2.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond2_0 i ∧ r0 = k2_pay1 ∧ r1 = k2_pay2 ∨ ¬ cond2_0 i ∧ r0 = s0 ∧ r1 = s1) :
    iprop(owns c arg1 fullShare x0 ∗ owns c arg2 fullShare x1 ∗ owns c arg3 fullShare x2 ∗ owns c arg4 fullShare x3
        ∗ (∃ d, owns c arg5 fullShare d) ∗ (∃ d, owns c arg6 fullShare d)
        ∗ owns c arg7 fullShare s0 ∗ owns c arg8 fullShare s1
        ∗ (iprop(owns c arg1 fullShare x0 ∗ owns c arg2 fullShare x1 ∗ owns c arg3 fullShare x2 ∗ owns c arg4 fullShare x3
            ∗ owns c arg5 fullShare (k2_pay4 x0 x1 x2 x3 r0) ∗ owns c arg6 fullShare (k2_pay5 x0 x1 x2 x3 r1)
            ∗ owns c arg7 fullShare (k2_pay4 x0 x1 x2 x3 r0) ∗ owns c arg8 fullShare (k2_pay5 x0 x1 x2 x3 r1)) -∗ K ⟨⟩))
      ⊢ wp frame (wpE (defs₀ (F := F)) Variants.none c none) E (cc2__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc2__stats_kernel_eq_skeleton, cc2__stats_kernel_skel, k2_part1_eq_skeleton, k2_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) off00_2, View.ld_unit_zero (S := S64x64) off00_2, View.ld_unit_zero (S := S1x64) off00_2, View.readCov_cons_toLoadRect]; exact Eq.trans (View.read_writes_eq_canon _ _ _ fun y => ⟨_, List.mem_cons_self, View.mem_set_unit_zero off00_2 inb_S1x64_S1x64_0_0 y⟩) (View.canon_cons_unit_zero off00_2 _ _ _)))

theorem body_obligation2 (c : Dev nD) : BodyObligation (dat2 (F := F) V c) (defs₀ (F := F)) Variants.none () Set.univ := fun t => by
  rw [bigSep_W2, bigSep_W2]
  simp only [(dat2 V c).before_in_eq_fetched 0 rfl (fun _ => rfl) (fun _ _ _ => rfl) (fun _ => rfl) t,
    (dat2 V c).before_in_eq_fetched 1 rfl (fun _ => rfl) (fun _ _ _ => rfl) (fun _ => rfl) t,
    (dat2 V c).before_in_eq_fetched 2 rfl (fun _ => rfl) (fun _ _ _ => rfl) (fun _ => rfl) t,
    (dat2 V c).before_in_eq_fetched 3 rfl (fun _ => rfl) (fun _ _ _ => rfl) (fun _ => rfl) t]
  show _ ⊢ wp _ _ _ _ fun _ => iprop(((_ ∗ _) ∗ _) ∗ _)
  rw [after2_4, after2_5]
  obtain ⟨_ | n, hn⟩ := t <;> rw [scr2_0, scr2_1, pt2_val ⟨_, hn⟩] <;> show ((_ ∗ _) ∗ _) ∗ _ ⊢ _
  on_goal 2 =>
    iintro ⟨⟨⟨HS0, HS1⟩, Hr⟩, Ho, ⟨%d0, H0⟩, ⟨%d1, H1⟩, ⟨%d2, H2⟩, ⟨%d3, H3⟩, ⟨%d4, H4⟩, ⟨%d5, H5⟩⟩
    iapply (run2 (.inr ⟨mt (hcond2_0 ⟨n + 1, hn⟩).1 n.succ_ne_zero, rfl, rfl⟩))
  on_goal 1 =>
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run2 (.inl ⟨(hcond2_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Hand

end
-- ==== Proof.KI.Update3.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points

noncomputable section

namespace Cert.KernelIdeal.Hand

open Idealize.ShloMosaic Idealize.ShloMosaic.TcCoe
open Idealize.SL.RA Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def act3 (c : Dev nD) (t : Fin cfg3.N) : FVec F S5000x64 .f32 :=
  Gen.k3_pay5 (iblk3 V c 0 t) (iblk3 V c 1 t) (iblk3 V c 2 t) (iblk3 V c 3 t) (iblk3 V c 5 t) (iblk3 V c 4 t) (iblk3 V c 6 t) (iblk3 V c 7 t)

def scr3_0 (c : Dev nD) : ℕ → FVec F S128x64 .f32
  | 0 => Gen.k3_pay3 (act3 V c ⟨0, by decide⟩) Gen.k3_pay6 (iblk3 V c 8 ⟨0, by decide⟩) (iblk3 V c 9 ⟨0, by decide⟩) (iblk3 V c 11 ⟨0, by decide⟩)
          (Gen.k3_pay4 (iblk3 V c 12 ⟨0, by decide⟩))
  | n + 1 =>
    if h : n + 1 < cfg3.N then
      Gen.k3_pay3 (act3 V c ⟨n + 1, h⟩) Gen.k3_pay6 (iblk3 V c 8 ⟨n + 1, h⟩) (iblk3 V c 9 ⟨n + 1, h⟩) (iblk3 V c 11 ⟨n + 1, h⟩) (scr3_0 c n)
    else scr3_0 c n

theorem scr3_0_zero (c : Dev nD) :
    scr3_0 V c 0 = Gen.k3_pay3 (act3 V c ⟨0, by decide⟩) Gen.k3_pay6 (iblk3 V c 8 ⟨0, by decide⟩) (iblk3 V c 9 ⟨0, by decide⟩) (iblk3 V c 11 ⟨0, by decide⟩)
          (Gen.k3_pay4 (iblk3 V c 12 ⟨0, by decide⟩)) := rfl

theorem scr3_0_succ (c : Dev nD) (n : ℕ) (h : n + 1 < cfg3.N) :
    scr3_0 V c (n + 1) = Gen.k3_pay3 (act3 V c ⟨n + 1, h⟩) Gen.k3_pay6 (iblk3 V c 8 ⟨n + 1, h⟩) (iblk3 V c 9 ⟨n + 1, h⟩) (iblk3 V c 11 ⟨n + 1, h⟩) (scr3_0 V c n) := by
  rw [scr3_0]; exact dif_pos h

-- The invariant before point `n`: the accumulator is the sum over the points before `n`, if there is one.
def Phi3 (c : Dev nD) (n : ℕ) : sProp 𝕄 :=
  iprop((∃ s, ⌜∀ m, n = m + 1 → s = scr3_0 V c m⌝ ∗ owns (c : Thread nD τ) (Memref.whole cc3_scratch0) fullShare s)
    ∗ Pipeline.scopedRestBut (Ix := Unit) (Name := ℕ) (U := UR sig nD τ) (Lvl := ℕ) (Val := Elt F) spec3 c [cc3_scratch0])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => Gen.k3_pay1 (act3 V c t) Gen.k3_pay6 (iblk3 V c 8 t) (iblk3 V c 9 t)
    | ⟨14, _⟩ => Gen.k3_pay2 (act3 V c t) Gen.k3_pay6 (iblk3 V c 8 t) (iblk3 V c 9 t) (iblk3 V c 10 t)
    | ⟨15, _⟩ => scr3_0 V c t.val
    | ⟨_ + 16, h⟩ => absurd h (Nat.not_lt.2 (Nat.le_add_left _ _))
  Φ t := Phi3 V c t.val
  q _ := fullShare
  owed _ := 0

theorem A_eq3 (c : Dev nD) (w : Fin cfg3.W) : (dat3 V c).A w = V c (Pipeline.arrRef spec3 w) := by
  dsimp only [dat3]

theorem after3_13 (c : Dev nD) (t : Fin cfg3.N) :
    (dat3 V c).after 13 t = Gen.k3_pay1 (act3 V c t) Gen.k3_pay6 (iblk3 V c 8 t) (iblk3 V c 9 t) := by dsimp only [dat3]
theorem after3_14 (c : Dev nD) (t : Fin cfg3.N) :
    (dat3 V c).after 14 t = Gen.k3_pay2 (act3 V c t) Gen.k3_pay6 (iblk3 V c 8 t) (iblk3 V c 9 t) (iblk3 V c 10 t) := by dsimp only [dat3]
theorem after3_15 (c : Dev nD) (t : Fin cfg3.N) : (dat3 V c).after 15 t = scr3_0 V c t.val := by dsimp only [dat3]

end Cert.KernelIdeal.Hand

end
-- ==== Proof.KI.Update3Run.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import proofs.«416827_j50268297232946_2_alg».proof.Proof.ViewLaws
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first3 (i : grid3.Coords) : Prop := (Scalar.cmpi .ne (Scalar.extui (Scalar.cmpi .eq (BitVec.ofNat 32 (i 0).val) 0#32)) 0#32) = 1#1
abbrev last3 (i : grid3.Coords) : Prop := k3_cond2 i = 1#1

theorem hfirst3 : ∀ t : Fin cfg3.N, first3 (grid3.coords t) ↔ t.val = 0 :=
  (by decide +kernel : ∀ t : Fin grid3.N, first3 (grid3.coords t) ↔ t.val = 0)
theorem hlast3 : ∀ t : Fin cfg3.N, last3 (grid3.coords t) ↔ t.val = 19 :=
  (by decide +kernel : ∀ t : Fin grid3.N, last3 (grid3.coords t) ↔ t.val = 19)

set_option maxHeartbeats 4000000 in
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (d15 s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ owns (c : Thread nD τ) arg16 fullShare d15 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (Gen.k3_pay1 (Gen.k3_pay5 x0 x1 x2 x3 x5 x4 x6 x7) Gen.k3_pay6 x8 x9)
            ∗ owns (c : Thread nD τ) arg15 fullShare (Gen.k3_pay2 (Gen.k3_pay5 x0 x1 x2 x3 x5 x4 x6 x7) Gen.k3_pay6 x8 x9 x10)
            ∗ owns (c : Thread nD τ) arg16 fullShare (if last3 i then (Gen.k3_pay3 (Gen.k3_pay5 x0 x1 x2 x3 x5 x4 x6 x7) Gen.k3_pay6 x8 x9 x11 (if first3 i then Gen.k3_pay4 x12 else s)) else d15)
            ∗ owns (c : Thread nD τ) arg17 fullShare (Gen.k3_pay3 (Gen.k3_pay5 x0 x1 x2 x3 x5 x4 x6 x7) Gen.k3_pay6 x8 x9 x11 (if first3 i then Gen.k3_pay4 x12 else s))) -∗ K ⟨⟩))
      ⊢ wp frame (wpE (defs₀ (F := F)) Variants.none c none) E (cc3__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [Gen.cc3__update_kernel_eq_skeleton]; unfold Gen.cc3__update_kernel_skel
  simp only [Gen.k3_part1_eq_skeleton]; unfold Gen.k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, Hk⟩
  subst hf0; subst hf1; subst hf2; subst hf3; subst hf4; subst hf5; subst hf6; subst hf7; subst hf8; subst hf9; subst hf10; subst hf11; subst hf12; subst hf15; subst hf16
  by_cases hc1 : first3 i <;> by_cases hc2 : last3 i
  on_goal 1 => simp only [if_pos hc1, if_pos hc2]
  on_goal 2 => simp only [if_pos hc1, if_neg hc2]
  on_goal 3 => simp only [if_neg hc1, if_pos hc2]
  on_goal 4 => simp only [if_neg hc1, if_neg hc2]
  all_goals
    sl_exec (disch := first | exact hc1 | exact hc2)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists f11; isplitr
      · ipureintro; rfl
      iexact H11
    isplitl [H12]
    · iexists f12; isplitr
      · ipureintro; rfl
      iexact H12
    isplitl [H13]
    iexists _; isplitr; swap; iexact H13; ipureintro; rotate_left
    isplitl [H14]
    iexists _; isplitr; swap; iexact H14; ipureintro; rotate_left
    isplitl [H15]
    iexists _; isplitr; swap; iexact H15; ipureintro; rotate_left
    iexists _; isplitr; swap; iexact H16; ipureintro
    all_goals first
      | (try sl_unfold_run_names
         first | rw [read_store_whole (S := S5000x64) _ _ zero2 Gen.inb_S5000x64_S5000x64_0_0] | rw [read_store_whole (S := S128x64) _ _ zero2 Gen.inb_S128x64_S128x64_0_0]
         try sl_unfold_run_names
         dsimp only
         simp only [View.readCov_cons_toLoadRect, readAt_whole (S := S5000x64) _ _ zero2 Gen.inb_S5000x64_S5000x64_0_0, readAt_whole (S := S64x64) _ _ zero2 Gen.inb_S64x64_S64x64_0_0, readAt_whole (S := S1x64) _ _ zero2 Gen.inb_S1x64_S1x64_0_0, readAt_whole (S := S5000x1) _ _ zero2 Gen.inb_S5000x1_S5000x1_0_0, readAt_whole (S := S128x64) _ _ zero2 Gen.inb_S128x64_S128x64_0_0])
      | rfl

end Cert.KernelIdeal.Hand

end
-- ==== Proof.KI.Update3Body.lean ====
import proofs.«416827_j50268297232946_2_alg».proof.Proof.KI.Update3
import proofs.«416827_j50268297232946_2_alg».proof.Proof.KI.Update3Run
import Idealize.ShloMosaic.Lib.Pipeline.FrameBody

noncomputable section

namespace Cert.KernelIdeal.Hand

open Idealize.ShloMosaic Idealize.ShloMosaic.TcCoe
open Idealize.SL.RA Idealize.SL.BI Idealize.SL.BI.BIBase
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3 (c : Dev nD) (t : Fin cfg3.N) : ∀ (w : Fin cfg3.W), w.val < 13 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ => fun d =>
    ((dat3 V c).before_in_eq_fetched _ rfl (fun _ => rfl) (fun _ _ _ => rfl) (fun _ => rfl) t d).trans rfl
  | ⟨_ + 13, _⟩, h => absurd h (Nat.not_lt.2 (Nat.le_add_left _ _))

theorem sched3_15 : ∀ t : Fin cfg3.N, cfg3.idle 15 (grid3.coords t) = !decide (t.val = 19) ∧ (cfg3.win 15).flush t = decide (t.val = 19) :=
  (by decide +kernel : ∀ t : Fin grid3.N, idle3 15 (grid3.coords t) = !decide (t.val = 19) ∧ win3_15.flush t = decide (t.val = 19))

theorem scr3_step (c : Dev nD) (t : Fin cfg3.N) (s) (hs : ∀ m, t.val = m + 1 → s = scr3_0 V c m) (m) (hm : t.val + 1 = m + 1) :
    Gen.k3_pay3 (act3 V c t) Gen.k3_pay6 (iblk3 V c 8 t) (iblk3 V c 9 t) (iblk3 V c 11 t)
      (if first3 (grid3.coords t) then Gen.k3_pay4 (iblk3 V c 12 t) else s) = scr3_0 V c m := by
  obtain rfl := Nat.succ.inj hm
  obtain ⟨n, hn⟩ := t
  cases n with
  | zero => rw [if_pos ((hfirst3 ⟨0, hn⟩).2 rfl)]; rfl
  | succ n => rw [if_neg (mt (hfirst3 ⟨n + 1, hn⟩).1 n.succ_ne_zero), hs n rfl, scr3_0_succ V c n hn]

theorem leaves3_15 (c : Dev nD) (t : Fin cfg3.N) (d) {X} (hX : X = scr3_0 V c t.val) :
    owns (c : Thread nD τ) (Gen.st3_15 t) fullShare (if last3 (grid3.coords t) then X else (dat3 V c).before 15 t d)
      ⊢ ((dat3 V c).leavesExact 15 t : sProp 𝕄) := by
  subst hX
  unfold Dat.leavesExact
  rw [(sched3_15 t).1, (sched3_15 t).2]
  by_cases hl : t.val = 19
  · rw [if_pos ((hlast3 t).2 hl), decide_eq_true hl]; exact .rfl
  · rw [if_neg (mt (hlast3 t).1 hl), decide_eq_false hl]
    show _ ⊢ iprop(∃ d, _)
    iintro H; iexists d; iexact H

theorem body_obligation3 (c : Dev nD) : BodyObligation (dat3 (F := F) V c) (defs₀ (F := F)) Variants.none () Set.univ := fun t => by
  rw [Gen.bigSep_W3, Gen.bigSep_W3]
  simp +decide only [before3 V c t, show ∀ n, (dat3 V c).Φ n = Phi3 V c n.val from fun _ => rfl, Phi3]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hX := scr3_step V c t s hs
  iapply sound_kernel3
  iframe
  isplitl [H13]
  · iexists _; iexact H13
  isplitl [H14]
  · iexists _; iexact H14
  iintro ⟨H0, H1, H2, H3, H4, H5, H6, H7, H8, H9, H10, H11, H12, H13, H14, H15, HS⟩
  iframe
  isplitl [HS]
  · iexists _; isplitr
    · ipureintro; exact hX
    iapply HS
  isplitl [Ho]
  · iapply Ho
  isplitl [H13]
  · iapply H13
  isplitl [H14]
  · iapply H14
  iapply leaves3_15 V c t d15 (hX _ rfl)
  iapply H15

theorem hin3 (c : Dev nD) : (Pipeline.scopedRest (Ix := Unit) (Name := ℕ) (U := UR sig nD τ) (Lvl := ℕ) (Val := Elt F) spec3 c : sProp 𝕄) ⊢ (dat3 V c).Φ 0 := by
  rw [Gen.scopedRest3_split]
  show _ ⊢ Phi3 V c 0
  unfold Phi3
  simp only [owns_whole]
  iintro ⟨⟨%f, HS⟩, HR⟩
  sl_close

theorem hout3 (c : Dev nD) : (dat3 V c).Φ (Fin.last cfg3.N) ⊢ (Pipeline.scopedRest (Ix := Unit) (Name := ℕ) (U := UR sig nD τ) (Lvl := ℕ) (Val := Elt F) spec3 c : sProp 𝕄) := by
  rw [Gen.scopedRest3_split]
  show Phi3 V c cfg3.N ⊢ _
  unfold Phi3
  simp only [owns_whole]
  iintro ⟨⟨%f, -, HS⟩, HR⟩
  sl_close

end Cert.KernelIdeal.Hand

end
-- ==== Proof.KI.Stats4.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : ℕ) : Fin cfg4.N := ⟨n % 20, by have h : cfg4.N = 20 := N_4; omega⟩

theorem pt4_val (t : Fin cfg4.N) : pt4 t.val = t := by
  have h : cfg4.N = 20 := N_4
  apply Fin.ext; show t.val % 20 = t.val; have := t.isLt; omega

def scr4_0 (c : Dev nD) : ℕ → FVec F S1x64 .f32
  | 0 => k4_pay4 (iblk4 V c 0 (pt4 0)) (iblk4 V c 1 (pt4 0)) (iblk4 V c 2 (pt4 0)) (iblk4 V c 3 (pt4 0)) (k4_pay1 (F := F))
  | n + 1 => k4_pay4 (iblk4 V c 0 (pt4 (n + 1))) (iblk4 V c 1 (pt4 (n + 1))) (iblk4 V c 2 (pt4 (n + 1))) (iblk4 V c 3 (pt4 (n + 1))) (scr4_0 c n)

def scr4_1 (c : Dev nD) : ℕ → FVec F S1x64 .f32
  | 0 => k4_pay5 (iblk4 V c 0 (pt4 0)) (iblk4 V c 1 (pt4 0)) (iblk4 V c 2 (pt4 0)) (iblk4 V c 3 (pt4 0)) (k4_pay2 (F := F))
  | n + 1 => k4_pay5 (iblk4 V c 0 (pt4 (n + 1))) (iblk4 V c 1 (pt4 (n + 1))) (iblk4 V c 2 (pt4 (n + 1))) (iblk4 V c 3 (pt4 (n + 1))) (scr4_1 c n)

def Phi4 (c : Dev nD) : ℕ → sProp 𝕄
  | 0 => iprop(iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f))
          ∗ Pipeline.scopedRestBut (Ix := Unit) (Name := ℕ) (U := UR sig nD τ) (Lvl := ℕ) (Val := Elt F) spec4 c [cc4_scratch0, cc4_scratch1])
  | n + 1 => iprop(iprop(owns (c : Thread nD τ) (Memref.whole cc4_scratch0) fullShare (scr4_0 V c n) ∗ owns (c : Thread nD τ) (Memref.whole cc4_scratch1) fullShare (scr4_1 V c n))
          ∗ Pipeline.scopedRestBut (Ix := Unit) (Name := ℕ) (U := UR sig nD τ) (Lvl := ℕ) (Val := Elt F) spec4 c [cc4_scratch0, cc4_scratch1])

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => scr4_0 V c t.val
    | ⟨5, _⟩ => scr4_1 V c t.val
  Φ t := Phi4 V c t.val
  q _ := fullShare
  owed _ := 0

theorem A_eq4 (c : Dev nD) (w : Fin cfg4.W) : (dat4 V c).A w = V c (Pipeline.arrRef spec4 w) := rfl

theorem after4_4 (c : Dev nD) (t : Fin cfg4.N) : (dat4 V c).after 4 t = scr4_0 V c t.val := rfl
theorem after4_5 (c : Dev nD) (t : Fin cfg4.N) : (dat4 V c).after 5 t = scr4_1 V c t.val := rfl

theorem hin4 (c : Dev nD) : (Pipeline.scopedRest (Ix := Unit) (Name := ℕ) (U := UR sig nD τ) (Lvl := ℕ) (Val := Elt F) spec4 c : sProp 𝕄) ⊢ (dat4 V c).Φ 0 := by
  rw [scopedRest4_split]; exact .rfl

theorem hout4 (c : Dev nD) : (dat4 V c).Φ (Fin.last cfg4.N) ⊢ (Pipeline.scopedRest (Ix := Unit) (Name := ℕ) (U := UR sig nD τ) (Lvl := ℕ) (Val := Elt F) spec4 c : sProp 𝕄) := by
  show (_ ∗ _) ∗ _ ⊢ _
  rw [scopedRest4_split, owns_whole, owns_whole]
  iintro ⟨⟨H0, H1⟩, Hr⟩
  iframe Hr
  isplitl [H0] <;> iexists _ <;> iassumption

abbrev cond4_0 (i : grid4.Coords) : Prop := (Scalar.cmpi .ne (Scalar.extui (Scalar.cmpi .eq (BitVec.ofNat 32 (i 0).val) 0#32)) 0#32) = 1#1

theorem hcond4_0 : ∀ t : Fin grid4.N, cond4_0 (grid4.coords t) ↔ t.val = 0 := by decide +kernel

theorem off00_4 : (![0, 0] : Fin 2 → ℕ) = fun _ => 0 := by funext a; fin_cases a <;> rfl

theorem run4 {c : Dev nD} {E : Set ℕ} {i : grid4.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond4_0 i ∧ r0 = k4_pay1 ∧ r1 = k4_pay2 ∨ ¬ cond4_0 i ∧ r0 = s0 ∧ r1 = s1) :
    iprop(owns c arg1 fullShare x0 ∗ owns c arg2 fullShare x1 ∗ owns c arg3 fullShare x2 ∗ owns c arg4 fullShare x3
        ∗ (∃ d, owns c arg5 fullShare d) ∗ (∃ d, owns c arg6 fullShare d)
        ∗ owns c arg7 fullShare s0 ∗ owns c arg8 fullShare s1
        ∗ (iprop(owns c arg1 fullShare x0 ∗ owns c arg2 fullShare x1 ∗ owns c arg3 fullShare x2 ∗ owns c arg4 fullShare x3
            ∗ owns c arg5 fullShare (k4_pay4 x0 x1 x2 x3 r0) ∗ owns c arg6 fullShare (k4_pay5 x0 x1 x2 x3 r1)
            ∗ owns c arg7 fullShare (k4_pay4 x0 x1 x2 x3 r0) ∗ owns c arg8 fullShare (k4_pay5 x0 x1 x2 x3 r1)) -∗ K ⟨⟩))
      ⊢ wp frame (wpE (defs₀ (F := F)) Variants.none c none) E (cc4__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc4__stats_kernel_eq_skeleton, cc4__stats_kernel_skel, k4_part1_eq_skeleton, k4_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) off00_4, View.ld_unit_zero (S := S64x64) off00_4, View.ld_unit_zero (S := S1x64) off00_4, View.readCov_cons_toLoadRect]; exact Eq.trans (View.read_writes_eq_canon _ _ _ fun y => ⟨_, List.mem_cons_self, View.mem_set_unit_zero off00_4 inb_S1x64_S1x64_0_0 y⟩) (View.canon_cons_unit_zero off00_4 _ _ _)))

theorem body_obligation4 (c : Dev nD) : BodyObligation (dat4 (F := F) V c) (defs₀ (F := F)) Variants.none () Set.univ := fun t => by
  rw [bigSep_W4, bigSep_W4]
  simp only [(dat4 V c).before_in_eq_fetched 0 rfl (fun _ => rfl) (fun _ _ _ => rfl) (fun _ => rfl) t,
    (dat4 V c).before_in_eq_fetched 1 rfl (fun _ => rfl) (fun _ _ _ => rfl) (fun _ => rfl) t,
    (dat4 V c).before_in_eq_fetched 2 rfl (fun _ => rfl) (fun _ _ _ => rfl) (fun _ => rfl) t,
    (dat4 V c).before_in_eq_fetched 3 rfl (fun _ => rfl) (fun _ _ _ => rfl) (fun _ => rfl) t]
  show _ ⊢ wp _ _ _ _ fun _ => iprop(((_ ∗ _) ∗ _) ∗ _)
  rw [after4_4, after4_5]
  obtain ⟨_ | n, hn⟩ := t <;> rw [scr4_0, scr4_1, pt4_val ⟨_, hn⟩] <;> show ((_ ∗ _) ∗ _) ∗ _ ⊢ _
  on_goal 2 =>
    iintro ⟨⟨⟨HS0, HS1⟩, Hr⟩, Ho, ⟨%d0, H0⟩, ⟨%d1, H1⟩, ⟨%d2, H2⟩, ⟨%d3, H3⟩, ⟨%d4, H4⟩, ⟨%d5, H5⟩⟩
    iapply (run4 (.inr ⟨mt (hcond4_0 ⟨n + 1, hn⟩).1 n.succ_ne_zero, rfl, rfl⟩))
  on_goal 1 =>
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run4 (.inl ⟨(hcond4_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Hand

end
-- ==== Proof.KI.Update5.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points

noncomputable section

namespace Cert.KernelIdeal.Hand

open Idealize.ShloMosaic Idealize.ShloMosaic.TcCoe
open Idealize.SL.RA Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def act5 (c : Dev nD) (t : Fin cfg5.N) : FVec F S5000x64 .f32 :=
  Gen.k5_pay5 (iblk5 V c 0 t) (iblk5 V c 1 t) (iblk5 V c 2 t) (iblk5 V c 3 t) (iblk5 V c 5 t) (iblk5 V c 4 t) (iblk5 V c 6 t) (iblk5 V c 7 t)

def scr5_0 (c : Dev nD) : ℕ → FVec F S128x64 .f32
  | 0 => Gen.k5_pay3 (act5 V c ⟨0, by decide⟩) Gen.k5_pay6 (iblk5 V c 8 ⟨0, by decide⟩) (iblk5 V c 9 ⟨0, by decide⟩) (iblk5 V c 11 ⟨0, by decide⟩)
          (Gen.k5_pay4 (iblk5 V c 12 ⟨0, by decide⟩))
  | n + 1 =>
    if h : n + 1 < cfg5.N then
      Gen.k5_pay3 (act5 V c ⟨n + 1, h⟩) Gen.k5_pay6 (iblk5 V c 8 ⟨n + 1, h⟩) (iblk5 V c 9 ⟨n + 1, h⟩) (iblk5 V c 11 ⟨n + 1, h⟩) (scr5_0 c n)
    else scr5_0 c n

theorem scr5_0_zero (c : Dev nD) :
    scr5_0 V c 0 = Gen.k5_pay3 (act5 V c ⟨0, by decide⟩) Gen.k5_pay6 (iblk5 V c 8 ⟨0, by decide⟩) (iblk5 V c 9 ⟨0, by decide⟩) (iblk5 V c 11 ⟨0, by decide⟩)
          (Gen.k5_pay4 (iblk5 V c 12 ⟨0, by decide⟩)) := rfl

theorem scr5_0_succ (c : Dev nD) (n : ℕ) (h : n + 1 < cfg5.N) :
    scr5_0 V c (n + 1) = Gen.k5_pay3 (act5 V c ⟨n + 1, h⟩) Gen.k5_pay6 (iblk5 V c 8 ⟨n + 1, h⟩) (iblk5 V c 9 ⟨n + 1, h⟩) (iblk5 V c 11 ⟨n + 1, h⟩) (scr5_0 V c n) := by
  rw [scr5_0]; exact dif_pos h

-- The invariant before point `n`: the accumulator is the sum over the points before `n`, if there is one.
def Phi5 (c : Dev nD) (n : ℕ) : sProp 𝕄 :=
  iprop((∃ s, ⌜∀ m, n = m + 1 → s = scr5_0 V c m⌝ ∗ owns (c : Thread nD τ) (Memref.whole cc5_scratch0) fullShare s)
    ∗ Pipeline.scopedRestBut (Ix := Unit) (Name := ℕ) (U := UR sig nD τ) (Lvl := ℕ) (Val := Elt F) spec5 c [cc5_scratch0])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => Gen.k5_pay1 (act5 V c t) Gen.k5_pay6 (iblk5 V c 8 t) (iblk5 V c 9 t)
    | ⟨14, _⟩ => Gen.k5_pay2 (act5 V c t) Gen.k5_pay6 (iblk5 V c 8 t) (iblk5 V c 9 t) (iblk5 V c 10 t)
    | ⟨15, _⟩ => scr5_0 V c t.val
    | ⟨_ + 16, h⟩ => absurd h (Nat.not_lt.2 (Nat.le_add_left _ _))
  Φ t := Phi5 V c t.val
  q _ := fullShare
  owed _ := 0

theorem A_eq5 (c : Dev nD) (w : Fin cfg5.W) : (dat5 V c).A w = V c (Pipeline.arrRef spec5 w) := by
  dsimp only [dat5]

theorem after5_13 (c : Dev nD) (t : Fin cfg5.N) :
    (dat5 V c).after 13 t = Gen.k5_pay1 (act5 V c t) Gen.k5_pay6 (iblk5 V c 8 t) (iblk5 V c 9 t) := by dsimp only [dat5]
theorem after5_14 (c : Dev nD) (t : Fin cfg5.N) :
    (dat5 V c).after 14 t = Gen.k5_pay2 (act5 V c t) Gen.k5_pay6 (iblk5 V c 8 t) (iblk5 V c 9 t) (iblk5 V c 10 t) := by dsimp only [dat5]
theorem after5_15 (c : Dev nD) (t : Fin cfg5.N) : (dat5 V c).after 15 t = scr5_0 V c t.val := by dsimp only [dat5]

end Cert.KernelIdeal.Hand

end
-- ==== Proof.KI.Update5Run.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import proofs.«416827_j50268297232946_2_alg».proof.Proof.ViewLaws
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first5 (i : grid5.Coords) : Prop := (Scalar.cmpi .ne (Scalar.extui (Scalar.cmpi .eq (BitVec.ofNat 32 (i 0).val) 0#32)) 0#32) = 1#1
abbrev last5 (i : grid5.Coords) : Prop := k5_cond2 i = 1#1

theorem hfirst5 : ∀ t : Fin cfg5.N, first5 (grid5.coords t) ↔ t.val = 0 :=
  (by decide +kernel : ∀ t : Fin grid5.N, first5 (grid5.coords t) ↔ t.val = 0)
theorem hlast5 : ∀ t : Fin cfg5.N, last5 (grid5.coords t) ↔ t.val = 19 :=
  (by decide +kernel : ∀ t : Fin grid5.N, last5 (grid5.coords t) ↔ t.val = 19)

set_option maxHeartbeats 4000000 in
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (d15 s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ owns (c : Thread nD τ) arg16 fullShare d15 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (Gen.k5_pay1 (Gen.k5_pay5 x0 x1 x2 x3 x5 x4 x6 x7) Gen.k5_pay6 x8 x9)
            ∗ owns (c : Thread nD τ) arg15 fullShare (Gen.k5_pay2 (Gen.k5_pay5 x0 x1 x2 x3 x5 x4 x6 x7) Gen.k5_pay6 x8 x9 x10)
            ∗ owns (c : Thread nD τ) arg16 fullShare (if last5 i then (Gen.k5_pay3 (Gen.k5_pay5 x0 x1 x2 x3 x5 x4 x6 x7) Gen.k5_pay6 x8 x9 x11 (if first5 i then Gen.k5_pay4 x12 else s)) else d15)
            ∗ owns (c : Thread nD τ) arg17 fullShare (Gen.k5_pay3 (Gen.k5_pay5 x0 x1 x2 x3 x5 x4 x6 x7) Gen.k5_pay6 x8 x9 x11 (if first5 i then Gen.k5_pay4 x12 else s))) -∗ K ⟨⟩))
      ⊢ wp frame (wpE (defs₀ (F := F)) Variants.none c none) E (cc5__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [Gen.cc5__update_kernel_eq_skeleton]; unfold Gen.cc5__update_kernel_skel
  simp only [Gen.k5_part1_eq_skeleton]; unfold Gen.k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, Hk⟩
  subst hf0; subst hf1; subst hf2; subst hf3; subst hf4; subst hf5; subst hf6; subst hf7; subst hf8; subst hf9; subst hf10; subst hf11; subst hf12; subst hf15; subst hf16
  by_cases hc1 : first5 i <;> by_cases hc2 : last5 i
  on_goal 1 => simp only [if_pos hc1, if_pos hc2]
  on_goal 2 => simp only [if_pos hc1, if_neg hc2]
  on_goal 3 => simp only [if_neg hc1, if_pos hc2]
  on_goal 4 => simp only [if_neg hc1, if_neg hc2]
  all_goals
    sl_exec (disch := first | exact hc1 | exact hc2)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists f11; isplitr
      · ipureintro; rfl
      iexact H11
    isplitl [H12]
    · iexists f12; isplitr
      · ipureintro; rfl
      iexact H12
    isplitl [H13]
    iexists _; isplitr; swap; iexact H13; ipureintro; rotate_left
    isplitl [H14]
    iexists _; isplitr; swap; iexact H14; ipureintro; rotate_left
    isplitl [H15]
    iexists _; isplitr; swap; iexact H15; ipureintro; rotate_left
    iexists _; isplitr; swap; iexact H16; ipureintro
    all_goals first
      | (try sl_unfold_run_names
         first | rw [read_store_whole (S := S5000x64) _ _ zero2 Gen.inb_S5000x64_S5000x64_0_0] | rw [read_store_whole (S := S128x64) _ _ zero2 Gen.inb_S128x64_S128x64_0_0]
         try sl_unfold_run_names
         dsimp only
         simp only [View.readCov_cons_toLoadRect, readAt_whole (S := S5000x64) _ _ zero2 Gen.inb_S5000x64_S5000x64_0_0, readAt_whole (S := S64x64) _ _ zero2 Gen.inb_S64x64_S64x64_0_0, readAt_whole (S := S1x64) _ _ zero2 Gen.inb_S1x64_S1x64_0_0, readAt_whole (S := S5000x1) _ _ zero2 Gen.inb_S5000x1_S5000x1_0_0, readAt_whole (S := S128x64) _ _ zero2 Gen.inb_S128x64_S128x64_0_0])
      | rfl

end Cert.KernelIdeal.Hand

end
-- ==== Proof.KI.Update5Body.lean ====
import proofs.«416827_j50268297232946_2_alg».proof.Proof.KI.Update5
import proofs.«416827_j50268297232946_2_alg».proof.Proof.KI.Update5Run
import Idealize.ShloMosaic.Lib.Pipeline.FrameBody

noncomputable section

namespace Cert.KernelIdeal.Hand

open Idealize.ShloMosaic Idealize.ShloMosaic.TcCoe
open Idealize.SL.RA Idealize.SL.BI Idealize.SL.BI.BIBase
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5 (c : Dev nD) (t : Fin cfg5.N) : ∀ (w : Fin cfg5.W), w.val < 13 → ∀ d, (dat5 V c).before w t d = (dat5 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ => fun d =>
    ((dat5 V c).before_in_eq_fetched _ rfl (fun _ => rfl) (fun _ _ _ => rfl) (fun _ => rfl) t d).trans rfl
  | ⟨_ + 13, _⟩, h => absurd h (Nat.not_lt.2 (Nat.le_add_left _ _))

theorem sched5_15 : ∀ t : Fin cfg5.N, cfg5.idle 15 (grid5.coords t) = !decide (t.val = 19) ∧ (cfg5.win 15).flush t = decide (t.val = 19) :=
  (by decide +kernel : ∀ t : Fin grid5.N, idle5 15 (grid5.coords t) = !decide (t.val = 19) ∧ win5_15.flush t = decide (t.val = 19))

theorem scr5_step (c : Dev nD) (t : Fin cfg5.N) (s) (hs : ∀ m, t.val = m + 1 → s = scr5_0 V c m) (m) (hm : t.val + 1 = m + 1) :
    Gen.k5_pay3 (act5 V c t) Gen.k5_pay6 (iblk5 V c 8 t) (iblk5 V c 9 t) (iblk5 V c 11 t)
      (if first5 (grid5.coords t) then Gen.k5_pay4 (iblk5 V c 12 t) else s) = scr5_0 V c m := by
  obtain rfl := Nat.succ.inj hm
  obtain ⟨n, hn⟩ := t
  cases n with
  | zero => rw [if_pos ((hfirst5 ⟨0, hn⟩).2 rfl)]; rfl
  | succ n => rw [if_neg (mt (hfirst5 ⟨n + 1, hn⟩).1 n.succ_ne_zero), hs n rfl, scr5_0_succ V c n hn]

theorem leaves5_15 (c : Dev nD) (t : Fin cfg5.N) (d) {X} (hX : X = scr5_0 V c t.val) :
    owns (c : Thread nD τ) (Gen.st5_15 t) fullShare (if last5 (grid5.coords t) then X else (dat5 V c).before 15 t d)
      ⊢ ((dat5 V c).leavesExact 15 t : sProp 𝕄) := by
  subst hX
  unfold Dat.leavesExact
  rw [(sched5_15 t).1, (sched5_15 t).2]
  by_cases hl : t.val = 19
  · rw [if_pos ((hlast5 t).2 hl), decide_eq_true hl]; exact .rfl
  · rw [if_neg (mt (hlast5 t).1 hl), decide_eq_false hl]
    show _ ⊢ iprop(∃ d, _)
    iintro H; iexists d; iexact H

theorem body_obligation5 (c : Dev nD) : BodyObligation (dat5 (F := F) V c) (defs₀ (F := F)) Variants.none () Set.univ := fun t => by
  rw [Gen.bigSep_W5, Gen.bigSep_W5]
  simp +decide only [before5 V c t, show ∀ n, (dat5 V c).Φ n = Phi5 V c n.val from fun _ => rfl, Phi5]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hX := scr5_step V c t s hs
  iapply sound_kernel5
  iframe
  isplitl [H13]
  · iexists _; iexact H13
  isplitl [H14]
  · iexists _; iexact H14
  iintro ⟨H0, H1, H2, H3, H4, H5, H6, H7, H8, H9, H10, H11, H12, H13, H14, H15, HS⟩
  iframe
  isplitl [HS]
  · iexists _; isplitr
    · ipureintro; exact hX
    iapply HS
  isplitl [Ho]
  · iapply Ho
  isplitl [H13]
  · iapply H13
  isplitl [H14]
  · iapply H14
  iapply leaves5_15 V c t d15 (hX _ rfl)
  iapply H15

theorem hin5 (c : Dev nD) : (Pipeline.scopedRest (Ix := Unit) (Name := ℕ) (U := UR sig nD τ) (Lvl := ℕ) (Val := Elt F) spec5 c : sProp 𝕄) ⊢ (dat5 V c).Φ 0 := by
  rw [Gen.scopedRest5_split]
  show _ ⊢ Phi5 V c 0
  unfold Phi5
  simp only [owns_whole]
  iintro ⟨⟨%f, HS⟩, HR⟩
  sl_close

theorem hout5 (c : Dev nD) : (dat5 V c).Φ (Fin.last cfg5.N) ⊢ (Pipeline.scopedRest (Ix := Unit) (Name := ℕ) (U := UR sig nD τ) (Lvl := ℕ) (Val := Elt F) spec5 c : sProp 𝕄) := by
  rw [Gen.scopedRest5_split]
  show Phi5 V c cfg5.N ⊢ _
  unfold Phi5
  simp only [owns_whole]
  iintro ⟨⟨%f, -, HS⟩, HR⟩
  sl_close

end Cert.KernelIdeal.Hand

end
-- ==== Proof.KI.Stats6.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.KernelIdeal.Hand

open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def pt6 (n : ℕ) : Fin cfg6.N := ⟨n % 20, by have h : cfg6.N = 20 := N_6; omega⟩

theorem pt6_val (t : Fin cfg6.N) : pt6 t.val = t := by
  have h : cfg6.N = 20 := N_6
  apply Fin.ext; show t.val % 20 = t.val; have := t.isLt; omega

def scr6_0 (c : Dev nD) : ℕ → FVec F S1x64 .f32
  | 0 => k6_pay4 (iblk6 V c 0 (pt6 0)) (iblk6 V c 1 (pt6 0)) (iblk6 V c 2 (pt6 0)) (iblk6 V c 3 (pt6 0)) (k6_pay1 (F := F))
  | n + 1 => k6_pay4 (iblk6 V c 0 (pt6 (n + 1))) (iblk6 V c 1 (pt6 (n + 1))) (iblk6 V c 2 (pt6 (n + 1))) (iblk6 V c 3 (pt6 (n + 1))) (scr6_0 c n)

def scr6_1 (c : Dev nD) : ℕ → FVec F S1x64 .f32
  | 0 => k6_pay5 (iblk6 V c 0 (pt6 0)) (iblk6 V c 1 (pt6 0)) (iblk6 V c 2 (pt6 0)) (iblk6 V c 3 (pt6 0)) (k6_pay2 (F := F))
  | n + 1 => k6_pay5 (iblk6 V c 0 (pt6 (n + 1))) (iblk6 V c 1 (pt6 (n + 1))) (iblk6 V c 2 (pt6 (n + 1))) (iblk6 V c 3 (pt6 (n + 1))) (scr6_1 c n)

def Phi6 (c : Dev nD) : ℕ → sProp 𝕄
  | 0 => iprop(iprop((∃ f : Buf (Elt F) ((c : Thread nD τ).loc cc6_scratch0), ((c : Thread nD τ).loc cc6_scratch0) ↦{fullShare} f) ∗ (∃ f : Buf (Elt F) ((c : Thread nD τ).loc cc6_scratch1), ((c : Thread nD τ).loc cc6_scratch1) ↦{fullShare} f))
          ∗ Pipeline.scopedRestBut (Ix := Unit) (Name := ℕ) (U := UR sig nD τ) (Lvl := ℕ) (Val := Elt F) spec6 c [cc6_scratch0, cc6_scratch1])
  | n + 1 => iprop(iprop(owns (c : Thread nD τ) (Memref.whole cc6_scratch0) fullShare (scr6_0 V c n) ∗ owns (c : Thread nD τ) (Memref.whole cc6_scratch1) fullShare (scr6_1 V c n))
          ∗ Pipeline.scopedRestBut (Ix := Unit) (Name := ℕ) (U := UR sig nD τ) (Lvl := ℕ) (Val := Elt F) spec6 c [cc6_scratch0, cc6_scratch1])

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => scr6_0 V c t.val
    | ⟨5, _⟩ => scr6_1 V c t.val
  Φ t := Phi6 V c t.val
  q _ := fullShare
  owed _ := 0

theorem A_eq6 (c : Dev nD) (w : Fin cfg6.W) : (dat6 V c).A w = V c (Pipeline.arrRef spec6 w) := rfl

theorem after6_4 (c : Dev nD) (t : Fin cfg6.N) : (dat6 V c).after 4 t = scr6_0 V c t.val := rfl
theorem after6_5 (c : Dev nD) (t : Fin cfg6.N) : (dat6 V c).after 5 t = scr6_1 V c t.val := rfl

theorem hin6 (c : Dev nD) : (Pipeline.scopedRest (Ix := Unit) (Name := ℕ) (U := UR sig nD τ) (Lvl := ℕ) (Val := Elt F) spec6 c : sProp 𝕄) ⊢ (dat6 V c).Φ 0 := by
  rw [scopedRest6_split]; exact .rfl

theorem hout6 (c : Dev nD) : (dat6 V c).Φ (Fin.last cfg6.N) ⊢ (Pipeline.scopedRest (Ix := Unit) (Name := ℕ) (U := UR sig nD τ) (Lvl := ℕ) (Val := Elt F) spec6 c : sProp 𝕄) := by
  show (_ ∗ _) ∗ _ ⊢ _
  rw [scopedRest6_split, owns_whole, owns_whole]
  iintro ⟨⟨H0, H1⟩, Hr⟩
  iframe Hr
  isplitl [H0] <;> iexists _ <;> iassumption

abbrev cond6_0 (i : grid6.Coords) : Prop := (Scalar.cmpi .ne (Scalar.extui (Scalar.cmpi .eq (BitVec.ofNat 32 (i 0).val) 0#32)) 0#32) = 1#1

theorem hcond6_0 : ∀ t : Fin grid6.N, cond6_0 (grid6.coords t) ↔ t.val = 0 := by decide +kernel

theorem off00_6 : (![0, 0] : Fin 2 → ℕ) = fun _ => 0 := by funext a; fin_cases a <;> rfl

theorem run6 {c : Dev nD} {E : Set ℕ} {i : grid6.Coords} {arg1 arg2 : Memref sig .tc .vmem S5000x64 .f32} {arg3 : Memref sig .tc .vmem S64x64 .f32}
    {arg4 arg5 arg6 arg7 arg8 : Memref sig .tc .vmem S1x64 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole}
    {x0 x1 : Vec F S5000x64 .f32} {x2 : Vec F S64x64 .f32} {x3 s0 s1 r0 r1 : Vec F S1x64 .f32} {K : PUnit → sProp 𝕄}
    (h : cond6_0 i ∧ r0 = k6_pay1 ∧ r1 = k6_pay2 ∨ ¬ cond6_0 i ∧ r0 = s0 ∧ r1 = s1) :
    iprop(owns c arg1 fullShare x0 ∗ owns c arg2 fullShare x1 ∗ owns c arg3 fullShare x2 ∗ owns c arg4 fullShare x3
        ∗ (∃ d, owns c arg5 fullShare d) ∗ (∃ d, owns c arg6 fullShare d)
        ∗ owns c arg7 fullShare s0 ∗ owns c arg8 fullShare s1
        ∗ (iprop(owns c arg1 fullShare x0 ∗ owns c arg2 fullShare x1 ∗ owns c arg3 fullShare x2 ∗ owns c arg4 fullShare x3
            ∗ owns c arg5 fullShare (k6_pay4 x0 x1 x2 x3 r0) ∗ owns c arg6 fullShare (k6_pay5 x0 x1 x2 x3 r1)
            ∗ owns c arg7 fullShare (k6_pay4 x0 x1 x2 x3 r0) ∗ owns c arg8 fullShare (k6_pay5 x0 x1 x2 x3 r1)) -∗ K ⟨⟩))
      ⊢ wp frame (wpE (defs₀ (F := F)) Variants.none c none) E (cc6__stats_kernel i arg1 harg1 arg2 harg2 arg3 harg3 arg4 harg4 arg5 harg5 arg6 harg6 arg7 harg7 arg8 harg8) K := by
  obtain ⟨hc, rfl, rfl⟩ | ⟨hc, rfl, rfl⟩ := h <;> (
    rw [cc6__stats_kernel_eq_skeleton, cc6__stats_kernel_skel, k6_part1_eq_skeleton, k6_part1_skel]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    subst hf0 hf1 hf2 hf3 hf6 hf7
    sl_exec (disch := first | exact hc)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals ipureintro
    all_goals first | with_reducible rfl | (sl_unfold_run_names; simp only [View.readAt_eq_ld, View.ld_unit_zero (S := S5000x64) off00_6, View.ld_unit_zero (S := S64x64) off00_6, View.ld_unit_zero (S := S1x64) off00_6, View.readCov_cons_toLoadRect]; exact Eq.trans (View.read_writes_eq_canon _ _ _ fun y => ⟨_, List.mem_cons_self, View.mem_set_unit_zero off00_6 inb_S1x64_S1x64_0_0 y⟩) (View.canon_cons_unit_zero off00_6 _ _ _)))

theorem body_obligation6 (c : Dev nD) : BodyObligation (dat6 (F := F) V c) (defs₀ (F := F)) Variants.none () Set.univ := fun t => by
  rw [bigSep_W6, bigSep_W6]
  simp only [(dat6 V c).before_in_eq_fetched 0 rfl (fun _ => rfl) (fun _ _ _ => rfl) (fun _ => rfl) t,
    (dat6 V c).before_in_eq_fetched 1 rfl (fun _ => rfl) (fun _ _ _ => rfl) (fun _ => rfl) t,
    (dat6 V c).before_in_eq_fetched 2 rfl (fun _ => rfl) (fun _ _ _ => rfl) (fun _ => rfl) t,
    (dat6 V c).before_in_eq_fetched 3 rfl (fun _ => rfl) (fun _ _ _ => rfl) (fun _ => rfl) t]
  show _ ⊢ wp _ _ _ _ fun _ => iprop(((_ ∗ _) ∗ _) ∗ _)
  rw [after6_4, after6_5]
  obtain ⟨_ | n, hn⟩ := t <;> rw [scr6_0, scr6_1, pt6_val ⟨_, hn⟩] <;> show ((_ ∗ _) ∗ _) ∗ _ ⊢ _
  on_goal 2 =>
    iintro ⟨⟨⟨HS0, HS1⟩, Hr⟩, Ho, ⟨%d0, H0⟩, ⟨%d1, H1⟩, ⟨%d2, H2⟩, ⟨%d3, H3⟩, ⟨%d4, H4⟩, ⟨%d5, H5⟩⟩
    iapply (run6 (.inr ⟨mt (hcond6_0 ⟨n + 1, hn⟩).1 n.succ_ne_zero, rfl, rfl⟩))
  on_goal 1 =>
    iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩, ⟨%d5, H5⟩⟩
    iapply (run6 (.inl ⟨(hcond6_0 ⟨0, hn⟩).2 rfl, rfl, rfl⟩))
  any_goals
    iframe H0 H1 H2 H3
    isplitl [H4]; · iexists _; iexact H4
    isplitl [H5]; · iexists _; iexact H5
    isplitl [HS0]; · first | iexact HS0 | (rw [owns_whole]; iexact HS0)
    isplitl [HS1]; · first | iexact HS1 | (rw [owns_whole]; iexact HS1)
    iintro ⟨H0, H1, H2, H3, H4, H5, HS0, HS1⟩
    isplitl [HS0 HS1 Hr]
    · isplitr [Hr]
      · isplitl [HS0]; · iexact HS0
        iexact HS1
      · iexact Hr
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Hand

end
-- ==== Proof.KI.Update7.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points

noncomputable section

namespace Cert.KernelIdeal.Hand

open Idealize.ShloMosaic Idealize.ShloMosaic.TcCoe
open Idealize.SL.RA Idealize.SL.BI Idealize.SL.BI.BIBase
open scoped Idealize.SL.BI
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def act7 (c : Dev nD) (t : Fin cfg7.N) : FVec F S5000x64 .f32 :=
  Gen.k7_pay5 (iblk7 V c 0 t) (iblk7 V c 1 t) (iblk7 V c 2 t) (iblk7 V c 3 t) (iblk7 V c 5 t) (iblk7 V c 4 t) (iblk7 V c 6 t) (iblk7 V c 7 t)

def scr7_0 (c : Dev nD) : ℕ → FVec F S128x64 .f32
  | 0 => Gen.k7_pay3 (act7 V c ⟨0, by decide⟩) Gen.k7_pay6 (iblk7 V c 8 ⟨0, by decide⟩) (iblk7 V c 9 ⟨0, by decide⟩) (iblk7 V c 11 ⟨0, by decide⟩)
          (Gen.k7_pay4 (iblk7 V c 12 ⟨0, by decide⟩))
  | n + 1 =>
    if h : n + 1 < cfg7.N then
      Gen.k7_pay3 (act7 V c ⟨n + 1, h⟩) Gen.k7_pay6 (iblk7 V c 8 ⟨n + 1, h⟩) (iblk7 V c 9 ⟨n + 1, h⟩) (iblk7 V c 11 ⟨n + 1, h⟩) (scr7_0 c n)
    else scr7_0 c n

theorem scr7_0_zero (c : Dev nD) :
    scr7_0 V c 0 = Gen.k7_pay3 (act7 V c ⟨0, by decide⟩) Gen.k7_pay6 (iblk7 V c 8 ⟨0, by decide⟩) (iblk7 V c 9 ⟨0, by decide⟩) (iblk7 V c 11 ⟨0, by decide⟩)
          (Gen.k7_pay4 (iblk7 V c 12 ⟨0, by decide⟩)) := rfl

theorem scr7_0_succ (c : Dev nD) (n : ℕ) (h : n + 1 < cfg7.N) :
    scr7_0 V c (n + 1) = Gen.k7_pay3 (act7 V c ⟨n + 1, h⟩) Gen.k7_pay6 (iblk7 V c 8 ⟨n + 1, h⟩) (iblk7 V c 9 ⟨n + 1, h⟩) (iblk7 V c 11 ⟨n + 1, h⟩) (scr7_0 V c n) := by
  rw [scr7_0]; exact dif_pos h

-- The invariant before point `n`: the accumulator is the sum over the points before `n`, if there is one.
def Phi7 (c : Dev nD) (n : ℕ) : sProp 𝕄 :=
  iprop((∃ s, ⌜∀ m, n = m + 1 → s = scr7_0 V c m⌝ ∗ owns (c : Thread nD τ) (Memref.whole cc7_scratch0) fullShare s)
    ∗ Pipeline.scopedRestBut (Ix := Unit) (Name := ℕ) (U := UR sig nD τ) (Lvl := ℕ) (Val := Elt F) spec7 c [cc7_scratch0])

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => Gen.k7_pay1 (act7 V c t) Gen.k7_pay6 (iblk7 V c 8 t) (iblk7 V c 9 t)
    | ⟨14, _⟩ => Gen.k7_pay2 (act7 V c t) Gen.k7_pay6 (iblk7 V c 8 t) (iblk7 V c 9 t) (iblk7 V c 10 t)
    | ⟨15, _⟩ => scr7_0 V c t.val
    | ⟨_ + 16, h⟩ => absurd h (Nat.not_lt.2 (Nat.le_add_left _ _))
  Φ t := Phi7 V c t.val
  q _ := fullShare
  owed _ := 0

theorem A_eq7 (c : Dev nD) (w : Fin cfg7.W) : (dat7 V c).A w = V c (Pipeline.arrRef spec7 w) := by
  dsimp only [dat7]

theorem after7_13 (c : Dev nD) (t : Fin cfg7.N) :
    (dat7 V c).after 13 t = Gen.k7_pay1 (act7 V c t) Gen.k7_pay6 (iblk7 V c 8 t) (iblk7 V c 9 t) := by dsimp only [dat7]
theorem after7_14 (c : Dev nD) (t : Fin cfg7.N) :
    (dat7 V c).after 14 t = Gen.k7_pay2 (act7 V c t) Gen.k7_pay6 (iblk7 V c 8 t) (iblk7 V c 9 t) (iblk7 V c 10 t) := by dsimp only [dat7]
theorem after7_15 (c : Dev nD) (t : Fin cfg7.N) : (dat7 V c).after 15 t = scr7_0 V c t.val := by dsimp only [dat7]

end Cert.KernelIdeal.Hand

end
-- ==== Proof.KI.Update7Run.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import proofs.«416827_j50268297232946_2_alg».proof.Proof.ViewLaws
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first7 (i : grid7.Coords) : Prop := (Scalar.cmpi .ne (Scalar.extui (Scalar.cmpi .eq (BitVec.ofNat 32 (i 0).val) 0#32)) 0#32) = 1#1
abbrev last7 (i : grid7.Coords) : Prop := k7_cond2 i = 1#1

theorem hfirst7 : ∀ t : Fin cfg7.N, first7 (grid7.coords t) ↔ t.val = 0 :=
  (by decide +kernel : ∀ t : Fin grid7.N, first7 (grid7.coords t) ↔ t.val = 0)
theorem hlast7 : ∀ t : Fin cfg7.N, last7 (grid7.coords t) ↔ t.val = 19 :=
  (by decide +kernel : ∀ t : Fin grid7.N, last7 (grid7.coords t) ↔ t.val = 19)

set_option maxHeartbeats 4000000 in
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole) (arg12 : Memref sig .tc .vmem S5000x1 .i32) (harg12 : arg12.IsWhole) (arg13 : Memref sig .tc .vmem S128x64 .f32) (harg13 : arg13.IsWhole) (arg14 : Memref sig .tc .vmem S5000x64 .f32) (harg14 : arg14.IsWhole) (arg15 : Memref sig .tc .vmem S5000x64 .f32) (harg15 : arg15.IsWhole) (arg16 : Memref sig .tc .vmem S128x64 .f32) (harg16 : arg16.IsWhole) (arg17 : Memref sig .tc .vmem S128x64 .f32) (harg17 : arg17.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S5000x64 .f32) (x11 : Vec F S5000x1 .i32) (x12 : Vec F S128x64 .f32) (d15 s : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ owns (c : Thread nD τ) arg16 fullShare d15 ∗ owns (c : Thread nD τ) arg17 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (Gen.k7_pay1 (Gen.k7_pay5 x0 x1 x2 x3 x5 x4 x6 x7) Gen.k7_pay6 x8 x9)
            ∗ owns (c : Thread nD τ) arg15 fullShare (Gen.k7_pay2 (Gen.k7_pay5 x0 x1 x2 x3 x5 x4 x6 x7) Gen.k7_pay6 x8 x9 x10)
            ∗ owns (c : Thread nD τ) arg16 fullShare (if last7 i then (Gen.k7_pay3 (Gen.k7_pay5 x0 x1 x2 x3 x5 x4 x6 x7) Gen.k7_pay6 x8 x9 x11 (if first7 i then Gen.k7_pay4 x12 else s)) else d15)
            ∗ owns (c : Thread nD τ) arg17 fullShare (Gen.k7_pay3 (Gen.k7_pay5 x0 x1 x2 x3 x5 x4 x6 x7) Gen.k7_pay6 x8 x9 x11 (if first7 i then Gen.k7_pay4 x12 else s))) -∗ K ⟨⟩))
      ⊢ wp frame (wpE (defs₀ (F := F)) Variants.none c none) E (cc7__update_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [Gen.cc7__update_kernel_eq_skeleton]; unfold Gen.cc7__update_kernel_skel
  simp only [Gen.k7_part1_eq_skeleton]; unfold Gen.k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, Hk⟩
  subst hf0; subst hf1; subst hf2; subst hf3; subst hf4; subst hf5; subst hf6; subst hf7; subst hf8; subst hf9; subst hf10; subst hf11; subst hf12; subst hf15; subst hf16
  by_cases hc1 : first7 i <;> by_cases hc2 : last7 i
  on_goal 1 => simp only [if_pos hc1, if_pos hc2]
  on_goal 2 => simp only [if_pos hc1, if_neg hc2]
  on_goal 3 => simp only [if_neg hc1, if_pos hc2]
  on_goal 4 => simp only [if_neg hc1, if_neg hc2]
  all_goals
    sl_exec (disch := first | exact hc1 | exact hc2)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists f11; isplitr
      · ipureintro; rfl
      iexact H11
    isplitl [H12]
    · iexists f12; isplitr
      · ipureintro; rfl
      iexact H12
    isplitl [H13]
    iexists _; isplitr; swap; iexact H13; ipureintro; rotate_left
    isplitl [H14]
    iexists _; isplitr; swap; iexact H14; ipureintro; rotate_left
    isplitl [H15]
    iexists _; isplitr; swap; iexact H15; ipureintro; rotate_left
    iexists _; isplitr; swap; iexact H16; ipureintro
    all_goals first
      | (try sl_unfold_run_names
         first | rw [read_store_whole (S := S5000x64) _ _ zero2 Gen.inb_S5000x64_S5000x64_0_0] | rw [read_store_whole (S := S128x64) _ _ zero2 Gen.inb_S128x64_S128x64_0_0]
         try sl_unfold_run_names
         dsimp only
         simp only [View.readCov_cons_toLoadRect, readAt_whole (S := S5000x64) _ _ zero2 Gen.inb_S5000x64_S5000x64_0_0, readAt_whole (S := S64x64) _ _ zero2 Gen.inb_S64x64_S64x64_0_0, readAt_whole (S := S1x64) _ _ zero2 Gen.inb_S1x64_S1x64_0_0, readAt_whole (S := S5000x1) _ _ zero2 Gen.inb_S5000x1_S5000x1_0_0, readAt_whole (S := S128x64) _ _ zero2 Gen.inb_S128x64_S128x64_0_0])
      | rfl

end Cert.KernelIdeal.Hand

end
-- ==== Proof.KI.Update7Body.lean ====
import proofs.«416827_j50268297232946_2_alg».proof.Proof.KI.Update7
import proofs.«416827_j50268297232946_2_alg».proof.Proof.KI.Update7Run
import Idealize.ShloMosaic.Lib.Pipeline.FrameBody

noncomputable section

namespace Cert.KernelIdeal.Hand

open Idealize.ShloMosaic Idealize.ShloMosaic.TcCoe
open Idealize.SL.RA Idealize.SL.BI Idealize.SL.BI.BIBase
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7 (c : Dev nD) (t : Fin cfg7.N) : ∀ (w : Fin cfg7.W), w.val < 13 → ∀ d, (dat7 V c).before w t d = (dat7 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ => fun d =>
    ((dat7 V c).before_in_eq_fetched _ rfl (fun _ => rfl) (fun _ _ _ => rfl) (fun _ => rfl) t d).trans rfl
  | ⟨_ + 13, _⟩, h => absurd h (Nat.not_lt.2 (Nat.le_add_left _ _))

theorem sched7_15 : ∀ t : Fin cfg7.N, cfg7.idle 15 (grid7.coords t) = !decide (t.val = 19) ∧ (cfg7.win 15).flush t = decide (t.val = 19) :=
  (by decide +kernel : ∀ t : Fin grid7.N, idle7 15 (grid7.coords t) = !decide (t.val = 19) ∧ win7_15.flush t = decide (t.val = 19))

theorem scr7_step (c : Dev nD) (t : Fin cfg7.N) (s) (hs : ∀ m, t.val = m + 1 → s = scr7_0 V c m) (m) (hm : t.val + 1 = m + 1) :
    Gen.k7_pay3 (act7 V c t) Gen.k7_pay6 (iblk7 V c 8 t) (iblk7 V c 9 t) (iblk7 V c 11 t)
      (if first7 (grid7.coords t) then Gen.k7_pay4 (iblk7 V c 12 t) else s) = scr7_0 V c m := by
  obtain rfl := Nat.succ.inj hm
  obtain ⟨n, hn⟩ := t
  cases n with
  | zero => rw [if_pos ((hfirst7 ⟨0, hn⟩).2 rfl)]; rfl
  | succ n => rw [if_neg (mt (hfirst7 ⟨n + 1, hn⟩).1 n.succ_ne_zero), hs n rfl, scr7_0_succ V c n hn]

theorem leaves7_15 (c : Dev nD) (t : Fin cfg7.N) (d) {X} (hX : X = scr7_0 V c t.val) :
    owns (c : Thread nD τ) (Gen.st7_15 t) fullShare (if last7 (grid7.coords t) then X else (dat7 V c).before 15 t d)
      ⊢ ((dat7 V c).leavesExact 15 t : sProp 𝕄) := by
  subst hX
  unfold Dat.leavesExact
  rw [(sched7_15 t).1, (sched7_15 t).2]
  by_cases hl : t.val = 19
  · rw [if_pos ((hlast7 t).2 hl), decide_eq_true hl]; exact .rfl
  · rw [if_neg (mt (hlast7 t).1 hl), decide_eq_false hl]
    show _ ⊢ iprop(∃ d, _)
    iintro H; iexists d; iexact H

theorem body_obligation7 (c : Dev nD) : BodyObligation (dat7 (F := F) V c) (defs₀ (F := F)) Variants.none () Set.univ := fun t => by
  rw [Gen.bigSep_W7, Gen.bigSep_W7]
  simp +decide only [before7 V c t, show ∀ n, (dat7 V c).Φ n = Phi7 V c n.val from fun _ => rfl, Phi7]
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hX := scr7_step V c t s hs
  iapply sound_kernel7
  iframe
  isplitl [H13]
  · iexists _; iexact H13
  isplitl [H14]
  · iexists _; iexact H14
  iintro ⟨H0, H1, H2, H3, H4, H5, H6, H7, H8, H9, H10, H11, H12, H13, H14, H15, HS⟩
  iframe
  isplitl [HS]
  · iexists _; isplitr
    · ipureintro; exact hX
    iapply HS
  isplitl [Ho]
  · iapply Ho
  isplitl [H13]
  · iapply H13
  isplitl [H14]
  · iapply H14
  iapply leaves7_15 V c t d15 (hX _ rfl)
  iapply H15

theorem hin7 (c : Dev nD) : (Pipeline.scopedRest (Ix := Unit) (Name := ℕ) (U := UR sig nD τ) (Lvl := ℕ) (Val := Elt F) spec7 c : sProp 𝕄) ⊢ (dat7 V c).Φ 0 := by
  rw [Gen.scopedRest7_split]
  show _ ⊢ Phi7 V c 0
  unfold Phi7
  simp only [owns_whole]
  iintro ⟨⟨%f, HS⟩, HR⟩
  sl_close

theorem hout7 (c : Dev nD) : (dat7 V c).Φ (Fin.last cfg7.N) ⊢ (Pipeline.scopedRest (Ix := Unit) (Name := ℕ) (U := UR sig nD τ) (Lvl := ℕ) (Val := Elt F) spec7 c : sProp 𝕄) := by
  rw [Gen.scopedRest7_split]
  show Phi7 V c cfg7.N ⊢ _
  unfold Phi7
  simp only [owns_whole]
  iintro ⟨⟨%f, -, HS⟩, HR⟩
  sl_close

end Cert.KernelIdeal.Hand

end
-- ==== Proof.KI.Fold.lean ====
import proofs.«416827_j50268297232946_2_alg».proof.Proof.Gen.KernelIdeal.Launch
import proofs.«416827_j50268297232946_2_alg».proof.Proof.Gen.KernelIdeal.Skeleton
import proofs.«416827_j50268297232946_2_alg».proof.Proof.Gen.KernelIdeal.Points
import proofs.«416827_j50268297232946_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic
import proofs.«416827_j50268297232946_2_alg».proof.Proof.KI.Stats0
import proofs.«416827_j50268297232946_2_alg».proof.Proof.KI.Update1
import proofs.«416827_j50268297232946_2_alg».proof.Proof.KI.Stats2
import proofs.«416827_j50268297232946_2_alg».proof.Proof.KI.Update3Body
import proofs.«416827_j50268297232946_2_alg».proof.Proof.KI.Stats4
import proofs.«416827_j50268297232946_2_alg».proof.Proof.KI.Update5Body
import proofs.«416827_j50268297232946_2_alg».proof.Proof.KI.Stats6
import proofs.«416827_j50268297232946_2_alg».proof.Proof.KI.Update7Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

def outsOf (U2 U4 U6 U8 U10 U12 U14 U16 : Dev nD → Valuation τ sig (Elt F)) : Outs (F := F) := fun n r c =>
  if n = 2 then U2 c r else if n = 4 then U4 c r else if n = 6 then U6 c r else if n = 8 then U8 c r
  else if n = 10 then U10 c r else if n = 12 then U12 c r else if n = 14 then U14 c r else U16 c r

abbrev D0 : Dev nD → Valuation τ sig (Elt F) := fun c => V0 m c

abbrev Vin0 : Dev nD → Valuation τ sig (Elt F) := fun c => V1 m c
def U2 (c : Dev nD) : Valuation τ sig (Elt F) :=
  Pipeline.withArrays spec0 c (Vin0 m c) fun w => (dat0 (atRefs (Vin0 m)) c).arrAt w cfg0.N
abbrev o2 : Outs (F := F) := outsOf (U2 m) (D0 m) (D0 m) (D0 m) (D0 m) (D0 m) (D0 m) (D0 m)

abbrev Vin1 : Dev nD → Valuation τ sig (Elt F) := fun c => V3 m (o2 m) c
def U4 (c : Dev nD) : Valuation τ sig (Elt F) :=
  Pipeline.withArrays spec1 c (Vin1 m c) fun w => (dat1 (atRefs (Vin1 m)) c).arrAt w cfg1.N
abbrev o4 : Outs (F := F) := outsOf (U2 m) (U4 m) (D0 m) (D0 m) (D0 m) (D0 m) (D0 m) (D0 m)

abbrev Vin2 : Dev nD → Valuation τ sig (Elt F) := fun c => V5 m (o4 m) c
def U6 (c : Dev nD) : Valuation τ sig (Elt F) :=
  Pipeline.withArrays spec2 c (Vin2 m c) fun w => (dat2 (atRefs (Vin2 m)) c).arrAt w cfg2.N
abbrev o6 : Outs (F := F) := outsOf (U2 m) (U4 m) (U6 m) (D0 m) (D0 m) (D0 m) (D0 m) (D0 m)

abbrev Vin3 : Dev nD → Valuation τ sig (Elt F) := fun c => V7 m (o6 m) c
def U8 (c : Dev nD) : Valuation τ sig (Elt F) :=
  Pipeline.withArrays spec3 c (Vin3 m c) fun w => (dat3 (atRefs (Vin3 m)) c).arrAt w cfg3.N
abbrev o8 : Outs (F := F) := outsOf (U2 m) (U4 m) (U6 m) (U8 m) (D0 m) (D0 m) (D0 m) (D0 m)

abbrev Vin4 : Dev nD → Valuation τ sig (Elt F) := fun c => V9 m (o8 m) c
def U10 (c : Dev nD) : Valuation τ sig (Elt F) :=
  Pipeline.withArrays spec4 c (Vin4 m c) fun w => (dat4 (atRefs (Vin4 m)) c).arrAt w cfg4.N
abbrev o10 : Outs (F := F) := outsOf (U2 m) (U4 m) (U6 m) (U8 m) (U10 m) (D0 m) (D0 m) (D0 m)

abbrev Vin5 : Dev nD → Valuation τ sig (Elt F) := fun c => V11 m (o10 m) c
def U12 (c : Dev nD) : Valuation τ sig (Elt F) :=
  Pipeline.withArrays spec5 c (Vin5 m c) fun w => (dat5 (atRefs (Vin5 m)) c).arrAt w cfg5.N
abbrev o12 : Outs (F := F) := outsOf (U2 m) (U4 m) (U6 m) (U8 m) (U10 m) (U12 m) (D0 m) (D0 m)

abbrev Vin6 : Dev nD → Valuation τ sig (Elt F) := fun c => V13 m (o12 m) c
def U14 (c : Dev nD) : Valuation τ sig (Elt F) :=
  Pipeline.withArrays spec6 c (Vin6 m c) fun w => (dat6 (atRefs (Vin6 m)) c).arrAt w cfg6.N
abbrev o14 : Outs (F := F) := outsOf (U2 m) (U4 m) (U6 m) (U8 m) (U10 m) (U12 m) (U14 m) (D0 m)

abbrev Vin7 : Dev nD → Valuation τ sig (Elt F) := fun c => V15 m (o14 m) c
def U16 (c : Dev nD) : Valuation τ sig (Elt F) :=
  Pipeline.withArrays spec7 c (Vin7 m c) fun w => (dat7 (atRefs (Vin7 m)) c).arrAt w cfg7.N
abbrev o16 : Outs (F := F) := outsOf (U2 m) (U4 m) (U6 m) (U8 m) (U10 m) (U12 m) (U14 m) (U16 m)

abbrev outs : Outs (F := F) := o16 m

def pdats : (p : Fin 8) → (c : Dev nD) → Dat τ (Elt F) Unit ℕ (UR sig nD τ) ℕ (cfgs p) c
  | ⟨0, _⟩ => fun c => dat0 (atRefs (Vin0 m)) c
  | ⟨1, _⟩ => fun c => dat1 (atRefs (Vin1 m)) c
  | ⟨2, _⟩ => fun c => dat2 (atRefs (Vin2 m)) c
  | ⟨3, _⟩ => fun c => dat3 (atRefs (Vin3 m)) c
  | ⟨4, _⟩ => fun c => dat4 (atRefs (Vin4 m)) c
  | ⟨5, _⟩ => fun c => dat5 (atRefs (Vin5 m)) c
  | ⟨6, _⟩ => fun c => dat6 (atRefs (Vin6 m)) c
  | ⟨7, _⟩ => fun c => dat7 (atRefs (Vin7 m)) c

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 9 → Dev nD → sProp 𝕄 := fun _ c => R c

/-- `V` with `g`'s values written at the references of `l`, in order. -/
def over (g : Valuation τ sig (Elt F)) (l : List (Ref sig .tc)) (V : Valuation τ sig (Elt F)) : Valuation τ sig (Elt F) :=
  l.foldl (fun V' r => Function.update V' (r : DevRef τ sig) (g r)) V

theorem over_apply (g : Valuation τ sig (Elt F)) (l : List (Ref sig .tc)) (V : Valuation τ sig (Elt F)) (b : Ref sig .tc) :
    (b ∈ l → over g l V b = g b) ∧ (b ∉ l → over g l V b = V b) := by
  induction l generalizing V with
  | nil => exact ⟨nofun, fun _ => rfl⟩
  | cons r l ih =>
    obtain ⟨h1, h2⟩ := ih (Function.update V r (g r))
    refine ⟨fun h => ?_, fun h => ?_⟩ <;> change over g l (Function.update V r (g r)) b = _
    · by_cases hb : b ∈ l
      · exact h1 hb
      · obtain rfl : b = r := (List.mem_cons.mp h).resolve_right hb
        rw [h2 hb, Function.update_self]
    · rw [h2 (List.not_mem_of_not_mem_cons h), Function.update_of_ne (StableHlo.devRef_ne_of_ne (List.ne_of_not_mem_cons h))]

/-- On `l` both sides are `withArrays`' value; off `l` both are `V`, an array off `l` being an input. -/
theorem fold_eq {cfg : Cfg sig Λ₀} {c : Dev nD} (D : Dat τ (Elt F) Unit ℕ (UR sig nD τ) ℕ cfg c)
    (hinj : Function.Injective (Pipeline.arrRef cfg.spec)) {V Vout : Valuation τ sig (Elt F)} (l : List (Ref sig .tc)) (b : Ref sig .tc)
    (hA : ∀ w, D.A w = V (Pipeline.arrRef cfg.spec w)) (hl : ∀ w, Pipeline.arrRef cfg.spec w ∉ l → (cfg.win w).isOut = false)
    (hV : Vout = over (Pipeline.withArrays cfg.spec c V (D.arrAt · cfg.N)) l V) :
    Vout b = Pipeline.withArrays cfg.spec c V (D.arrAt · cfg.N) b := by
  subst hV
  by_cases hb : b ∈ l
  · exact (over_apply _ l V b).1 hb
  rw [(over_apply _ l V b).2 hb]
  by_cases hw : ∃ w, Pipeline.arrRef cfg.spec w = b
  · obtain ⟨w, rfl⟩ := hw
    rw [Pipeline.withArrays_arr cfg.spec hinj, D.arrAt_in w (hl w hb), hA]
  · rw [Pipeline.withArrays_of_ne cfg.spec c V _ b fun w e => hw ⟨w, e⟩]

theorem Vin_eq0 (c : Dev nD) : V1 m c = Vin0 m c := rfl

theorem Vout_eq0 (c : Dev nD) (b : Ref sig .tc) : V2 m (outs m) c b = U2 m c b :=
  fold_eq (dat0 (atRefs (Vin0 m)) c) launch0.win.arr_inj [main_v41_0, main_v41_1] b (A_eq0 _ c) (by decide) rfl

theorem regOut0 (c : Dev nD) (w : Fin cfg0.W) :
    atRefs (V2 m (outs m)) c (Pipeline.arrRef spec0 w) = (dat0 (atRefs (V1 m)) c).arrAt w cfg0.N :=
  (Vout_eq0 m c _).trans (Pipeline.withArrays_arr spec0 launch0.win.arr_inj c _ _ w)

theorem Vin_eq1 (c : Dev nD) : V3 m (outs m) c = Vin1 m c := rfl

theorem Vout_eq1 (c : Dev nD) (b : Ref sig .tc) : V4 m (outs m) c b = U4 m c b :=
  fold_eq (dat1 (atRefs (Vin1 m)) c) launch1.win.arr_inj [main_v70_0, main_v70_1, main_v70_2] b (A_eq1 _ c) (by decide) rfl

theorem regOut1 (c : Dev nD) (w : Fin cfg1.W) :
    atRefs (V4 m (outs m)) c (Pipeline.arrRef spec1 w) = (dat1 (atRefs (V3 m (outs m))) c).arrAt w cfg1.N :=
  (Vout_eq1 m c _).trans (Pipeline.withArrays_arr spec1 launch1.win.arr_inj c _ _ w)

theorem Vin_eq2 (c : Dev nD) : V5 m (outs m) c = Vin2 m c := rfl

theorem Vout_eq2 (c : Dev nD) (b : Ref sig .tc) : V6 m (outs m) c b = U6 m c b :=
  fold_eq (dat2 (atRefs (Vin2 m)) c) launch2.win.arr_inj [main_v89_0, main_v89_1] b (A_eq2 _ c) (by decide) rfl

theorem regOut2 (c : Dev nD) (w : Fin cfg2.W) :
    atRefs (V6 m (outs m)) c (Pipeline.arrRef spec2 w) = (dat2 (atRefs (V5 m (outs m))) c).arrAt w cfg2.N :=
  (Vout_eq2 m c _).trans (Pipeline.withArrays_arr spec2 launch2.win.arr_inj c _ _ w)

theorem Vin_eq3 (c : Dev nD) : V7 m (outs m) c = Vin3 m c := rfl

theorem Vout_eq3 (c : Dev nD) (b : Ref sig .tc) : V8 m (outs m) c b = U8 m c b :=
  fold_eq (dat3 (atRefs (Vin3 m)) c) launch3.win.arr_inj [main_v118_0, main_v118_1, main_v118_2] b (A_eq3 _ c) (by decide) rfl

theorem regOut3 (c : Dev nD) (w : Fin cfg3.W) :
    atRefs (V8 m (outs m)) c (Pipeline.arrRef spec3 w) = (dat3 (atRefs (V7 m (outs m))) c).arrAt w cfg3.N :=
  (Vout_eq3 m c _).trans (Pipeline.withArrays_arr spec3 launch3.win.arr_inj c _ _ w)

theorem Vin_eq4 (c : Dev nD) : V9 m (outs m) c = Vin4 m c := rfl

theorem Vout_eq4 (c : Dev nD) (b : Ref sig .tc) : V10 m (outs m) c b = U10 m c b :=
  fold_eq (dat4 (atRefs (Vin4 m)) c) launch4.win.arr_inj [main_v137_0, main_v137_1] b (A_eq4 _ c) (by decide) rfl

theorem regOut4 (c : Dev nD) (w : Fin cfg4.W) :
    atRefs (V10 m (outs m)) c (Pipeline.arrRef spec4 w) = (dat4 (atRefs (V9 m (outs m))) c).arrAt w cfg4.N :=
  (Vout_eq4 m c _).trans (Pipeline.withArrays_arr spec4 launch4.win.arr_inj c _ _ w)

theorem Vin_eq5 (c : Dev nD) : V11 m (outs m) c = Vin5 m c := rfl

theorem Vout_eq5 (c : Dev nD) (b : Ref sig .tc) : V12 m (outs m) c b = U12 m c b :=
  fold_eq (dat5 (atRefs (Vin5 m)) c) launch5.win.arr_inj [main_v166_0, main_v166_1, main_v166_2] b (A_eq5 _ c) (by decide) rfl

theorem regOut5 (c : Dev nD) (w : Fin cfg5.W) :
    atRefs (V12 m (outs m)) c (Pipeline.arrRef spec5 w) = (dat5 (atRefs (V11 m (outs m))) c).arrAt w cfg5.N :=
  (Vout_eq5 m c _).trans (Pipeline.withArrays_arr spec5 launch5.win.arr_inj c _ _ w)

theorem Vin_eq6 (c : Dev nD) : V13 m (outs m) c = Vin6 m c := rfl

theorem Vout_eq6 (c : Dev nD) (b : Ref sig .tc) : V14 m (outs m) c b = U14 m c b :=
  fold_eq (dat6 (atRefs (Vin6 m)) c) launch6.win.arr_inj [main_v185_0, main_v185_1] b (A_eq6 _ c) (by decide) rfl

theorem regOut6 (c : Dev nD) (w : Fin cfg6.W) :
    atRefs (V14 m (outs m)) c (Pipeline.arrRef spec6 w) = (dat6 (atRefs (V13 m (outs m))) c).arrAt w cfg6.N :=
  (Vout_eq6 m c _).trans (Pipeline.withArrays_arr spec6 launch6.win.arr_inj c _ _ w)

theorem Vin_eq7 (c : Dev nD) : V15 m (outs m) c = Vin7 m c := rfl

theorem Vout_eq7 (c : Dev nD) (b : Ref sig .tc) : V16 m (outs m) c b = U16 m c b :=
  fold_eq (dat7 (atRefs (Vin7 m)) c) launch7.win.arr_inj [main_v214_0, main_v214_1, main_v214_2] b (A_eq7 _ c) (by decide) rfl

theorem regOut7 (c : Dev nD) (w : Fin cfg7.W) :
    atRefs (V16 m (outs m)) c (Pipeline.arrRef spec7 w) = (dat7 (atRefs (V15 m (outs m))) c).arrAt w cfg7.N :=
  (Vout_eq7 m c _).trans (Pipeline.withArrays_arr spec7 launch7.win.arr_inj c _ _ w)

end Cert.KernelIdeal.Hand

end
-- ==== Proof.KI.Regs.lean ====
import proofs.«416827_j50268297232946_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false

theorem pdats_facts (p : Fin 8) (c : Dev nD) : (∀ t, (pdats m p c).owed t = 0) ∧ (∀ w, (pdats m p c).q w = fullShare)
    ∧ ∀ x, x ∈ (pdats m p c).recorded 0 := by
  fin_cases p <;> exact ⟨fun _ => rfl, fun _ => rfl, fun _ => trivial⟩

/-- One record for all eight regions; `Vpre` and `Vin` are the same entry contents written two ways (`hpre`). -/
def regOf (p : Fin 8) (lf : Pipeline.LaunchFacts (nD := nD) (τ := τ) cfgs p) (Vpre Vin Vout : Dev nD → Valuation τ sig (Elt F))
    (hpre : ∀ c, Vpre c = Vin c)
    (hb : ∀ c, BodyObligation (pdats m p c) defs₀ Variants.none () Set.univ)
    (hi : ∀ c, (Pipeline.scopedRest (cfgs p).spec c : sProp 𝕄) ⊢ (pdats m p c).Φ 0)
    (ho : ∀ c, (pdats m p c).Φ (Fin.last (cfgs p).N) ⊢ (Pipeline.scopedRest (cfgs p).spec c : sProp 𝕄))
    (hA : ∀ c w, (pdats m p c).A w = Vin c (Pipeline.arrRef (cfgs p).spec w))
    (hV : ∀ c (b : Ref sig .tc), Vout c b = Pipeline.withArrays (cfgs p).spec c (Vin c) ((pdats m p c).arrAt · (cfgs p).N) b) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_facts m p c).1
  pre c := iprop(StableHlo.held (c : Thread nD τ) (Pipeline.ucRefs τ sig) (Vpre c) ∗ R c)
  post c := iprop(StableHlo.held (c : Thread nD τ) (Pipeline.ucRefs τ sig) (Vout c) ∗ R c)
  X c := iprop(emp)
  Y c := iprop(emp)
  Z c := iprop(Pipeline.unscopedRest (Ix := Unit) (Name := ℕ) (U := UR sig nD τ) (Lvl := ℕ) (cfgs p).spec c (atRefs Vin c) ∗ ∃ r, prngReg c r)
  hentry c := by
    rw [Pipeline.ownSems0_none, hpre c]
    have hsplit := Pipeline.arrays_of_unscopedBufs (p := p) (pcfgs (F := F)) adm (pdats m) lf.win lf.arr_whole c
      ((pdats m p c).share_full (pdats_facts m p c).2.1) (atRefs Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_facts m p c).1]
      icases HO with ⟨%W, HO⟩; iexists W; isplitr; · ipureintro; exact fun x _ => Or.inl ((pdats_facts m p c).2.2 x)
      iexact HO
    isplitr; · iempintro
    isplitl [Hrest]; · iexact Hrest
    iexact Hp
  hin c := by
    iintro ⟨-, -, Hr⟩
    iapply (hi c)
    iexact Hr
  hout c := by
    rw [Pipeline.ownSems0_none]
    iintro HΦ
    isplitr; · iempintro
    isplitr; · iempintro
    iapply (ho c)
    iexact HΦ
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_facts m p c).2.1)
      (atRefs Vin c) (atRefs Vout c) ((pdats m p c).arrAt · (cfgs p).N)
      (fun w => ((hV c _).trans (Pipeline.withArrays_arr _ lf.win.arr_inj c _ _ w)).symm)
      fun b hb => (hV c b).trans (Pipeline.withArrays_of_ne _ c _ _ b fun w e => hb (Finset.mem_image.mpr ⟨w, Finset.mem_univ _, e⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [(pdats_facts m p c).1]
    icases HO with ⟨%W, -, HO⟩; iexists W; iexact HO

def reg0 := regOf m 0 launch0 (V1 m) (Vin0 m) (V2 m (outs m)) (Vin_eq0 m) (body_obligation0 _) (hin0 _) (hout0 _) (A_eq0 _) (Vout_eq0 m)
def reg1 := regOf m 1 launch1 (V3 m (outs m)) (Vin1 m) (V4 m (outs m)) (Vin_eq1 m) (body_obligation1 _) (hin1 _) (hout1 _) (A_eq1 _) (Vout_eq1 m)
def reg2 := regOf m 2 launch2 (V5 m (outs m)) (Vin2 m) (V6 m (outs m)) (Vin_eq2 m) (body_obligation2 _) (hin2 _) (hout2 _) (A_eq2 _) (Vout_eq2 m)
def reg3 := regOf m 3 launch3 (V7 m (outs m)) (Vin3 m) (V8 m (outs m)) (Vin_eq3 m) (body_obligation3 _) (hin3 _) (hout3 _) (A_eq3 _) (Vout_eq3 m)
def reg4 := regOf m 4 launch4 (V9 m (outs m)) (Vin4 m) (V10 m (outs m)) (Vin_eq4 m) (body_obligation4 _) (hin4 _) (hout4 _) (A_eq4 _) (Vout_eq4 m)
def reg5 := regOf m 5 launch5 (V11 m (outs m)) (Vin5 m) (V12 m (outs m)) (Vin_eq5 m) (body_obligation5 _) (hin5 _) (hout5 _) (A_eq5 _) (Vout_eq5 m)
def reg6 := regOf m 6 launch6 (V13 m (outs m)) (Vin6 m) (V14 m (outs m)) (Vin_eq6 m) (body_obligation6 _) (hin6 _) (hout6 _) (A_eq6 _) (Vout_eq6 m)
def reg7 := regOf m 7 launch7 (V15 m (outs m)) (Vin7 m) (V16 m (outs m)) (Vin_eq7 m) (body_obligation7 _) (hin7 _) (hout7 _) (A_eq7 _) (Vout_eq7 m)

end Cert.KernelIdeal.Hand

end
-- ==== Proof.KI.Run.lean ====
import proofs.«416827_j50268297232946_2_alg».proof.Proof.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev rest0 (c : Dev nD) : sProp 𝕄 :=
  iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))

abbrev u₀ : UR sig nD τ := initOf (Pipeline.cells cfgs cellOf_inj) (Pipeline.launchToks cfgs cellOf_inj)

theorem hu₀ : (ownU (u₀) : sProp 𝕄) ⊢ |={Set.univ}=> iprop(BI.own (emb₁ (u₀)) ∗ bigSep Finset.univ (fun _ : Dev nD => (BI.emp : sProp 𝕄))) := by
  iintro Hu; imodintro
  isplitl [Hu]
  · iapply (show (ownU (u₀) : sProp 𝕄) ⊢ BI.own (emb₁ (u₀)) from .rfl)
    iexact Hu
  iapply (show (BI.emp : sProp 𝕄) ⊢ bigSep Finset.univ (fun _ : Dev nD => (BI.emp : sProp 𝕄)) from by rw [BI.bigSep_emp_const])
  iempintro

theorem hE0_core (c : Dev nD) : rest0 (F := F) ρ c
    ⊢ (E (F := F) 0 c : sProp 𝕄) := by
  iintro ⟨-, HO, -, Hp, -⟩
  isplitl [Hp]; · iexists _; iexact Hp
  iexists ∅; iexact HO

theorem hE0 : iprop((bigSep Finset.univ (rest0 (F := F) ρ)) ∗ levAts L lv)
    ⊢ (|={Set.univ}=> bigSep Finset.univ (E (F := F) 0) : sProp 𝕄) := by
  iintro ⟨H, -⟩
  imodintro
  have hmono : (bigSep Finset.univ (rest0 (F := F) ρ))
      ⊢ (bigSep Finset.univ (E (F := F) 0) : sProp 𝕄) :=
    bigSep_mono fun c _ => hE0_core (F := F) ρ c
  iapply hmono
  iexact H

theorem hE8 (c : Dev nD) : (E (F := F) 8 c : sProp 𝕄) ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (F := F) (m := m) emb₁ () Variants.none L lv (fun _ _ => rfl) ρ (outs m) (pdats m) 0 (fun _ => iprop(emp)) u₀ (hu₀ (F := F)) (E (F := F)) (hE0 (F := F) ρ) (hE8 (F := F))
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl) (reg7 m) (fun _ => .rfl) (fun _ => .rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ Variants.none L lv m ρ main
    (segs m (outs m) Variants.none L lv (E (F := F)) () (pdats m) (reg0 m) (reg1 m) (reg2 m) (reg3 m) (reg4 m) (reg5 m) (reg6 m) (reg7 m))
    (fun c Q => by
      rewrite [main_chain c, Pipeline.Seg.run_eq_chain,
        show (segs m (outs m) Variants.none L lv (E (F := F)) () (pdats m) (reg0 m) (reg1 m) (reg2 m) (reg3 m) (reg4 m) (reg5 m) (reg6 m) (reg7 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Pipeline.Seg.pipes_host, Pipeline.Seg.pipes_region, Pipeline.Seg.pipes_nil]; decide) 0 (fun _ _ => rfl)
    (fun _ => iprop(emp)) u₀ (hu₀ (F := F))
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl, sep_mono .rfl (hE8 (F := F) c)⟩)
    (hinit := ?_) (QY := fun c s => ∀ b ∈ Pipeline.ucRefs τ sig, s.mem (((c : Thread nD τ)).1, b) = V17 m (outs m) c b)
    (hfin := fun c s' => ?_) (hQ := fun _ h => h)
  ·
    have hsplit : (bigSep Finset.univ fun c : Dev nD => iprop(unscopedBufs c (fun b => m ((c.tc : Thread nD τ).loc b)) ∗ rest0 (F := F) ρ c))
        ⊢ (iprop((bigSep Finset.univ fun c : Dev nD => StableHlo.held (c : Thread nD τ) (Pipeline.ucRefs τ sig) (V0 m c))
            ∗ bigSep Finset.univ (rest0 (F := F) ρ))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    have hE0' := hE0 (F := F) ρ
    imod hE0' $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  ·
    unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact h
    · iexact HSI

end Cert.KernelIdeal.Hand

end
-- ==== Proof.Ref.Ops.lean ====
/- A table and nothing else: the 404 host operations of the reference's @main in program order, each call of
   @_var, @_where and @relu replaced by the callee's operations over that call's own buffers, cut into 18 consecutive
   segments (at operations 32, 57, 60, 85, 125, 143, 150, 178, 218, 226, 243, 271, 309, 311, 336, 364, 392), and beside each segment the list of the buffers it writes. No theorem is stated here. -/
import proofs.«416827_j50268297232946_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 31 of @main. -/
abbrev seg0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x3F800000#32),
    StableHlo.unary main_cst_3 main_v12 (broadcastInDim S100000 ![] bcast_S_S100000 : (⟨S_, .f32⟩ : BufTy).Contents (Elt F) → (⟨S100000, .f32⟩ : BufTy).Contents (Elt F)),
    StableHlo.nullary main_cst_4 (constant S_ .f32 0x00000000#32),
    StableHlo.unary main_cst_4 main_v13 (broadcastInDim S128 ![] bcast_S_S128 : (⟨S_, .f32⟩ : BufTy).Contents (Elt F) → (⟨S128, .f32⟩ : BufTy).Contents (Elt F)),
    StableHlo.unary main_arg2 main_v14 (broadcastInDim S100000x1 ![0] bcast_S100000_S100000x1_0 : (⟨S100000, .i32⟩ : BufTy).Contents (Elt F) → (⟨S100000x1, .i32⟩ : BufTy).Contents (Elt F)),
    StableHlo.ternary main_v13 main_v14 main_v12 main_v15 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    StableHlo.nullary main_cst_5 (constant S_ .f32 0x3F800000#32),
    StableHlo.unary main_cst_5 main_v16 (broadcastInDim S128 ![] bcast_S_S128 : (⟨S_, .f32⟩ : BufTy).Contents (Elt F) → (⟨S128, .f32⟩ : BufTy).Contents (Elt F)),
    StableHlo.binary main_v15 main_v16 main_v17 (maximumf : (⟨S128, .f32⟩ : BufTy).Contents (Elt F) → (⟨S128, .f32⟩ : BufTy).Contents (Elt F) → (⟨S128, .f32⟩ : BufTy).Contents (Elt F)),
    StableHlo.nullary main_cst_6 (constant S_ .f32 0x3F800000#32),
    StableHlo.unary main_cst_6 main_v18 (broadcastInDim S128 ![] bcast_S_S128 : (⟨S_, .f32⟩ : BufTy).Contents (Elt F) → (⟨S128, .f32⟩ : BufTy).Contents (Elt F)),
    StableHlo.binary main_v18 main_v17 main_v19 (Host.divf : (⟨S128, .f32⟩ : BufTy).Contents (Elt F) → (⟨S128, .f32⟩ : BufTy).Contents (Elt F) → (⟨S128, .f32⟩ : BufTy).Contents (Elt F)),
    StableHlo.nullary main_cst_7 (constant S_ .f32 0x00000000#32),
    StableHlo.unary main_cst_7 main_v20 (broadcastInDim S100000x64 ![] bcast_S_S100000x64 : (⟨S_, .f32⟩ : BufTy).Contents (Elt F) → (⟨S100000x64, .f32⟩ : BufTy).Contents (Elt F)),
    StableHlo.nullary main_cst_8 (constant S_ .f32 0x00000000#32),
    StableHlo.unary main_cst_8 main_v21 (broadcastInDim S128x64 ![] bcast_S_S128x64 : (⟨S_, .f32⟩ : BufTy).Contents (Elt F) → (⟨S128x64, .f32⟩ : BufTy).Contents (Elt F)) ]
/-- The buffers those operations write, in order. -/
abbrev seg0_W : List (Ref sig .tc) := [main_v0, main_v1, main_v2, main_v3, main_cst, main_v4, main_cst_0, main_v5, main_v6, main_v7, main_cst_1, main_v8, main_v9, main_cst_2, main_v10, main_v11, main_cst_3, main_v12, main_cst_4, main_v13, main_v14, main_v15, main_cst_5, main_v16, main_v17, main_cst_6, main_v18, main_v19, main_cst_7, main_v20, main_cst_8, main_v21]

/-- Operations 32 … 56 of @main. -/
abbrev seg1 : List (HloOp τ sig (Elt F)) :=
  [ StableHlo.nullary main_c (constantI S_ 32 0#32),
    StableHlo.unary main_c main_v22 (broadcastInDim S1600000 ![] bcast_S_S1600000 : (⟨S_, .i32⟩ : BufTy).Contents (Elt F) → (⟨S1600000, .i32⟩ : BufTy).Contents (Elt F)),
    StableHlo.binary main_v1 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v24 (broadcastInDim S1600000 ![] bcast_S_S1600000 : (⟨S_, .i32⟩ : BufTy).Contents (Elt F) → (⟨S1600000, .i32⟩ : BufTy).Contents (Elt F)),
    StableHlo.binary main_v1 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_arg0 main_v27 main_v28 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_10 (constant S_ .f32 0x00000000#32),
    StableHlo.unary main_cst_10 main_v29 (broadcastInDim S100000x64 ![] bcast_S_S100000x64 : (⟨S_, .f32⟩ : BufTy).Contents (Elt F) → (⟨S100000x64, .f32⟩ : BufTy).Contents (Elt F)),
    StableHlo.unary main_v3 main_v30 (broadcastInDim S1600000x1 ![0] bcast_S1600000_S1600000x1_0 : (⟨S1600000, .i32⟩ : BufTy).Contents (Elt F) → (⟨S1600000x1, .i32⟩ : BufTy).Contents (Elt F)),
    StableHlo.ternary main_v29 main_v30 main_v28 main_v31 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v11 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x64 ![0, 1] bcast_S100000x1_S100000x64_0_1 : (⟨S100000x1, .f32⟩ : BufTy).Contents (Elt F) → (⟨S100000x64, .f32⟩ : BufTy).Contents (Elt F)),
    StableHlo.binary main_v31 main_v33 main_v34 (mulf : (⟨S100000x64, .f32⟩ : BufTy).Contents (Elt F) → (⟨S100000x64, .f32⟩ : BufTy).Contents (Elt F) → (⟨S100000x64, .f32⟩ : BufTy).Contents (Elt F)),
    StableHlo.binary main_arg0 main_v34 main_v35 (addf : (⟨S100000x64, .f32⟩ : BufTy).Contents (Elt F) → (⟨S100000x64, .f32⟩ : BufTy).Contents (Elt F) → (⟨S100000x64, .f32⟩ : BufTy).Contents (Elt F)),
    StableHlo.unary main_arg3 main_v36 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v36 main_v37 rfl shapeCasts_S1x64x64_S64x64,
    StableHlo.binary main_v35 main_v37 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v39 ((extractStridedSlice S1x64 ![0, 0] · slices_S4x64_S1x64_0_0) : (⟨S4x64, .f32⟩ : BufTy).Contents (Elt F) → (⟨S1x64, .f32⟩ : BufTy).Contents (Elt F)),
    StableHlo.reshape main_v39 main_v40 rfl shapeCasts_S1x64_S64,
    StableHlo.unary main_v40 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v42 main_v43 (addf : (⟨S100000x64, .f32⟩ : BufTy).Contents (Elt F) → (⟨S100000x64, .f32⟩ : BufTy).Contents (Elt F) → (⟨S100000x64, .f32⟩ : BufTy).Contents (Elt F)) ]
/-- The buffers those operations write, in order. -/
abbrev seg1_W : List (Ref sig .tc) := [main_c, main_v22, main_v23, main_c_9, main_v24, main_v25, main_v26, main_v27, main_v28, main_cst_10, main_v29, main_v30, main_v31, main_v32, main_v33, main_v34, main_v35, main_v36, main_v37, main_v38, main_v39, main_v40, main_v41, main_v42, main_v43]

/-- Operations 57 … 59 of @main. -/
abbrev seg2 : List (HloOp τ sig (Elt F)) :=
  [ StableHlo.nullary main_cst_11 (constant S_ .f32 0x00000000#32),
    StableHlo.binary main_v43 main_cst_11 main_v44 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32) ]
/-- The buffers those operations write, in order. -/
abbrev seg2_W : List (Ref sig .tc) := [main_cst_11, main_v44, main_cst_12]

/-- Operations 60 … 84 of @main. -/
abbrev seg3 : List (HloOp τ sig (Elt F)) :=
  [ StableHlo.unary main_cst_12 main_v45 (broadcastInDim S64 ![] bcast_S_S64 : (⟨S_, .f32⟩ : BufTy).Contents (Elt F) → (⟨S64, .f32⟩ : BufTy).Contents (Elt F)),
    StableHlo.binary main_v44 main_v45 main_v46 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call0.cst (constant S_ .f32 0x00000000#32),
    StableHlo.TRef.binary (StableHlo.TRef.of main_v43 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (StableHlo.TRef.of main_v43 : StableHlo.TRef sig ⟨S100000x64, .f32⟩) main_call0.v4 main_call0.v5 subf,
    StableHlo.TRef.binary main_call0.v5 main_call0.v5 main_call0.v6 mulf,
    StableHlo.TRef.unary (StableHlo.TRef.of main_c_13 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]
/-- The buffers those operations write, in order. -/
abbrev seg3_W : List (Ref sig .tc) := [main_v45, main_v46, main_c_13, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]

/-- Operations 85 … 124 of @main. -/
abbrev seg4 : List (HloOp τ sig (Elt F)) :=
  [ StableHlo.unary main_v46 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v49 main_v50 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v51 (broadcastInDim S64 ![] bcast_S_S64 : (⟨S_, .f32⟩ : BufTy).Contents (Elt F) → (⟨S64, .f32⟩ : BufTy).Contents (Elt F)),
    StableHlo.binary main_v47 main_v51 main_v52 (addf : (⟨S64, .f32⟩ : BufTy).Contents (Elt F) → (⟨S64, .f32⟩ : BufTy).Contents (Elt F) → (⟨S64, .f32⟩ : BufTy).Contents (Elt F)),
    StableHlo.unary main_v52 main_v53 (Host.rsqrt : (⟨S64, .f32⟩ : BufTy).Contents (Elt F) → (⟨S64, .f32⟩ : BufTy).Contents (Elt F)),
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v55 main_v56 (mulf : (⟨S100000x64, .f32⟩ : BufTy).Contents (Elt F) → (⟨S100000x64, .f32⟩ : BufTy).Contents (Elt F) → (⟨S100000x64, .f32⟩ : BufTy).Contents (Elt F)),
    StableHlo.unary main_arg5 main_v57 ((extractStridedSlice S1x64 ![0, 0] · slices_S4x64_S1x64_0_0) : (⟨S4x64, .f32⟩ : BufTy).Contents (Elt F) → (⟨S1x64, .f32⟩ : BufTy).Contents (Elt F)),
    StableHlo.reshape main_v57 main_v58 rfl shapeCasts_S1x64_S64,
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v60 main_v61 (mulf : (⟨S100000x64, .f32⟩ : BufTy).Contents (Elt F) → (⟨S100000x64, .f32⟩ : BufTy).Contents (Elt F) → (⟨S100000x64, .f32⟩ : BufTy).Contents (Elt F)),
    StableHlo.unary main_arg6 main_v62 ((extractStridedSlice S1x64 ![0, 0] · slices_S4x64_S1x64_0_0) : (⟨S4x64, .f32⟩ : BufTy).Contents (Elt F) → (⟨S1x64, .f32⟩ : BufTy).Contents (Elt F)),
    StableHlo.reshape main_v62 main_v63 rfl shapeCasts_S1x64_S64,
    StableHlo.unary main_v63 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v65 main_v66 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (StableHlo.TRef.of main_v66 : StableHlo.TRef sig ⟨S100000x64, .f32⟩) main_call1.v0 main_call1.v1 maximumf,
    StableHlo.unary main_arg7 main_v68 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v68 main_v69 rfl shapeCasts_S1x64x64_S64x64,
    StableHlo.binary main_v67 main_v69 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v71 ((extractStridedSlice S1x64 ![0, 0] · slices_S4x64_S1x64_0_0) : (⟨S4x64, .f32⟩ : BufTy).Contents (Elt F) → (⟨S1x64, .f32⟩ : BufTy).Contents (Elt F)),
    StableHlo.reshape main_v71 main_v72 rfl shapeCasts_S1x64_S64,
    StableHlo.unary main_v72 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S100000x64 ![0, 1] bcast_S1x64_S100000x64_0_1 : (⟨S1x64, .f32⟩ : BufTy).Contents (Elt F) → (⟨S100000x64, .f32⟩ : BufTy).Contents (Elt F)),
    StableHlo.binary main_v70 main_v74 main_v75 (addf : (⟨S100000x64, .f32⟩ : BufTy).Contents (Elt F) → (⟨S100000x64, .f32⟩ : BufTy).Contents (Elt F) → (⟨S100000x64, .f32⟩ : BufTy).Contents (Elt F)),
    StableHlo.binary main_v20 main_v75 main_v76 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.unary main_cst_15 main_v77 (broadcastInDim S128x64 ![] bcast_S_S128x64 : (⟨S_, .f32⟩ : BufTy).Contents (Elt F) → (⟨S128x64, .f32⟩ : BufTy).Contents (Elt F)),
    StableHlo.unary main_arg2 main_v78 (broadcastInDim S100000x1 ![0] bcast_S100000_S100000x1_0 : (⟨S100000, .i32⟩ : BufTy).Contents (Elt F) → (⟨S100000x1, .i32⟩ : BufTy).Contents (Elt F)),
    StableHlo.ternary main_v77 main_v78 main_v75 main_v79 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_v19 main_v80 (broadcastInDim S128x1 ![0] bcast_S128_S128x1_0 : (⟨S128, .f32⟩ : BufTy).Contents (Elt F) → (⟨S128x1, .f32⟩ : BufTy).Contents (Elt F)),
    StableHlo.unary main_v80 main_v81 (broadcastInDim S128x64 ![0, 1] bcast_S128x1_S128x64_0_1 : (⟨S128x1, .f32⟩ : BufTy).Contents (Elt F) → (⟨S128x64, .f32⟩ : BufTy).Contents (Elt F)),
    StableHlo.binary main_v79 main_v81 main_v82 (mulf : (⟨S128x64, .f32⟩ : BufTy).Contents (Elt F) → (⟨S128x64, .f32⟩ : BufTy).Contents (Elt F) → (⟨S128x64, .f32⟩ : BufTy).Contents (Elt F)),
    StableHlo.binary main_v21 main_v82 main_v83 (addf : (⟨S128x64, .f32⟩ : BufTy).Contents (Elt F) → (⟨S128x64, .f32⟩ : BufTy).Contents (Elt F) → (⟨S128x64, .f32⟩ : BufTy).Contents (Elt F)) ]
/-- The buffers those operations write, in order. -/
abbrev seg4_W : List (Ref sig .tc) := [main_v48, main_v49, main_v50, main_cst_14, main_v51, main_v52, main_v53, main_v54, main_v55, main_v56, main_v57, main_v58, main_v59, main_v60, main_v61, main_v62, main_v63, main_v64, main_v65, main_v66, main_call1_cst, main_call1_v0, main_v67, main_v68, main_v69, main_v70, main_v71, main_v72, main_v73, main_v74, main_v75, main_v76, main_cst_15, main_v77, main_v78, main_v79, main_v80, main_v81, main_v82, main_v83]

/-- Operations 125 … 142 of @main. -/
abbrev seg5 : List (HloOp τ sig (Elt F)) :=
  [ StableHlo.nullary main_c_16 (constantI S_ 32 0#32),
    StableHlo.unary main_c_16 main_v84 (broadcastInDim S1600000 ![] bcast_S_S1600000 : (⟨S_, .i32⟩ : BufTy).Contents (Elt F) → (⟨S1600000, .i32⟩ : BufTy).Contents (Elt F)),
    StableHlo.binary main_v1 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v86 (broadcastInDim S1600000 ![] bcast_S_S1600000 : (⟨S_, .i32⟩ : BufTy).Contents (Elt F) → (⟨S1600000, .i32⟩ : BufTy).Contents (Elt F)),
    StableHlo.binary main_v1 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v75 main_v89 main_v90 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_18 (constant S_ .f32 0x00000000#32),
    StableHlo.unary main_cst_18 main_v91 (broadcastInDim S100000x64 ![] bcast_S_S100000x64 : (⟨S_, .f32⟩ : BufTy).Contents (Elt F) → (⟨S100000x64, .f32⟩ : BufTy).Contents (Elt F)),
    StableHlo.unary main_v3 main_v92 (broadcastInDim S1600000x1 ![0] bcast_S1600000_S1600000x1_0 : (⟨S1600000, .i32⟩ : BufTy).Contents (Elt F) → (⟨S1600000x1, .i32⟩ : BufTy).Contents (Elt F)),
    StableHlo.ternary main_v91 main_v92 main_v90 main_v93 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v11 main_v94 (broadcastInDim S100000x1 ![0] bcast_S100000_S100000x1_0 : (⟨S100000, .f32⟩ : BufTy).Contents (Elt F) → (⟨S100000x1, .f32⟩ : BufTy).Contents (Elt F)),
    StableHlo.unary main_v94 main_v95 (broadcastInDim S100000x64 ![0, 1] bcast_S100000x1_S100000x64_0_1 : (⟨S100000x1, .f32⟩ : BufTy).Contents (Elt F) → (⟨S100000x64, .f32⟩ : BufTy).Contents (Elt F)),
    StableHlo.binary main_v93 main_v95 main_v96 (mulf : (⟨S100000x64, .f32⟩ : BufTy).Contents (Elt F) → (⟨S100000x64, .f32⟩ : BufTy).Contents (Elt F) → (⟨S100000x64, .f32⟩ : BufTy).Contents (Elt F)),
    StableHlo.binary main_v75 main_v96 main_v97 (addf : (⟨S100000x64, .f32⟩ : BufTy).Contents (Elt F) → (⟨S100000x64, .f32⟩ : BufTy).Contents (Elt F) → (⟨S100000x64, .f32⟩ : BufTy).Contents (Elt F)),
    StableHlo.unary main_arg3 main_v98 ((extractStridedSlice S1x64x64 ![1, 0, 0] · slices_S4x64x64_S1x64x64_1_0_0) : (⟨S4x64x64, .f32⟩ : BufTy).Contents (Elt F) → (⟨S1x64x64, .f32⟩ : BufTy).Contents (Elt F)) ]
/-- The buffers those operations write, in order. -/
abbrev seg5_W : List (Ref sig .tc) := [main_c_16, main_v84, main_v85, main_c_17, main_v86, main_v87, main_v88, main_v89, main_v90, main_cst_18, main_v91, main_v92, main_v93, main_v94, main_v95, main_v96, main_v97, main_v98]

/-- Operations 143 … 149 of @main. -/
abbrev seg6 : List (HloOp τ sig (Elt F)) :=
  [ StableHlo.reshape main_v98 main_v99 rfl shapeCasts_S1x64x64_S64x64,
    StableHlo.binary main_v97 main_v99 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v101 ((extractStridedSlice S1x64 ![1, 0] · slices_S4x64_S1x64_1_0) : (⟨S4x64, .f32⟩ : BufTy).Contents (Elt F) → (⟨S1x64, .f32⟩ : BufTy).Contents (Elt F)),
    StableHlo.reshape main_v101 main_v102 rfl shapeCasts_S1x64_S64,
    StableHlo.unary main_v102 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v104 main_v105 (addf : (⟨S100000x64, .f32⟩ : BufTy).Contents (Elt F) → (⟨S100000x64, .f32⟩ : BufTy).Contents (Elt F) → (⟨S100000x64, .f32⟩ : BufTy).Contents (Elt F)) ]
/-- The buffers those operations write, in order. -/
abbrev seg6_W : List (Ref sig .tc) := [main_v99, main_v100, main_v101, main_v102, main_v103, main_v104, main_v105]

/-- Operations 150 … 177 of @main. -/
abbrev seg7 : List (HloOp τ sig (Elt F)) :=
  [ StableHlo.nullary main_cst_19 (constant S_ .f32 0x00000000#32),
    StableHlo.binary main_v105 main_cst_19 main_v106 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_20 (constant S_ .f32 0x47C35000#32),
    StableHlo.unary main_cst_20 main_v107 (broadcastInDim S64 ![] bcast_S_S64 : (⟨S_, .f32⟩ : BufTy).Contents (Elt F) → (⟨S64, .f32⟩ : BufTy).Contents (Elt F)),
    StableHlo.binary main_v106 main_v107 main_v108 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32),
    StableHlo.TRef.nullary main_call2.cst (constant S_ .f32 0x00000000#32),
    StableHlo.TRef.binary (StableHlo.TRef.of main_v105 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (StableHlo.TRef.of main_v105 : StableHlo.TRef sig ⟨S100000x64, .f32⟩) main_call2.v4 main_call2.v5 subf,
    StableHlo.TRef.binary main_call2.v5 main_call2.v5 main_call2.v6 mulf,
    StableHlo.TRef.unary (StableHlo.TRef.of main_c_21 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]
/-- The buffers those operations write, in order. -/
abbrev seg7_W : List (Ref sig .tc) := [main_cst_19, main_v106, main_cst_20, main_v107, main_v108, main_c_21, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v109]

/-- Operations 178 … 217 of @main. -/
abbrev seg8 : List (HloOp τ sig (Elt F)) :=
  [ StableHlo.unary main_v108 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v111 main_v112 (subf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3727C5AC#32),
    StableHlo.unary main_cst_22 main_v113 (broadcastInDim S64 ![] bcast_S_S64 : (⟨S_, .f32⟩ : BufTy).Contents (Elt F) → (⟨S64, .f32⟩ : BufTy).Contents (Elt F)),
    StableHlo.binary main_v109 main_v113 main_v114 (addf : (⟨S64, .f32⟩ : BufTy).Contents (Elt F) → (⟨S64, .f32⟩ : BufTy).Contents (Elt F) → (⟨S64, .f32⟩ : BufTy).Contents (Elt F)),
    StableHlo.unary main_v114 main_v115 (Host.rsqrt : (⟨S64, .f32⟩ : BufTy).Contents (Elt F) → (⟨S64, .f32⟩ : BufTy).Contents (Elt F)),
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S100000x64 ![0, 1] bcast_S1x64_S100000x64_0_1 : (⟨S1x64, .f32⟩ : BufTy).Contents (Elt F) → (⟨S100000x64, .f32⟩ : BufTy).Contents (Elt F)),
    StableHlo.binary main_v112 main_v117 main_v118 (mulf : (⟨S100000x64, .f32⟩ : BufTy).Contents (Elt F) → (⟨S100000x64, .f32⟩ : BufTy).Contents (Elt F) → (⟨S100000x64, .f32⟩ : BufTy).Contents (Elt F)),
    StableHlo.unary main_arg5 main_v119 ((extractStridedSlice S1x64 ![1, 0] · slices_S4x64_S1x64_1_0) : (⟨S4x64, .f32⟩ : BufTy).Contents (Elt F) → (⟨S1x64, .f32⟩ : BufTy).Contents (Elt F)),
    StableHlo.reshape main_v119 main_v120 rfl shapeCasts_S1x64_S64,
    StableHlo.unary main_v120 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v122 main_v123 (mulf : (⟨S100000x64, .f32⟩ : BufTy).Contents (Elt F) → (⟨S100000x64, .f32⟩ : BufTy).Contents (Elt F) → (⟨S100000x64, .f32⟩ : BufTy).Contents (Elt F)),
    StableHlo.unary main_arg6 main_v124 ((extractStridedSlice S1x64 ![1, 0] · slices_S4x64_S1x64_1_0) : (⟨S4x64, .f32⟩ : BufTy).Contents (Elt F) → (⟨S1x64, .f32⟩ : BufTy).Contents (Elt F)),
    StableHlo.reshape main_v124 main_v125 rfl shapeCasts_S1x64_S64,
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v123 main_v127 main_v128 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (StableHlo.TRef.of main_v128 : StableHlo.TRef sig ⟨S100000x64, .f32⟩) main_call3.v0 main_call3.v1 maximumf,
    StableHlo.unary main_arg7 main_v130 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v130 main_v131 rfl shapeCasts_S1x64x64_S64x64,
    StableHlo.binary main_v129 main_v131 main_v132 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v133 ((extractStridedSlice S1x64 ![1, 0] · slices_S4x64_S1x64_1_0) : (⟨S4x64, .f32⟩ : BufTy).Contents (Elt F) → (⟨S1x64, .f32⟩ : BufTy).Contents (Elt F)),
    StableHlo.reshape main_v133 main_v134 rfl shapeCasts_S1x64_S64,
    StableHlo.unary main_v134 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v132 main_v136 main_v137 (addf : (⟨S100000x64, .f32⟩ : BufTy).Contents (Elt F) → (⟨S100000x64, .f32⟩ : BufTy).Contents (Elt F) → (⟨S100000x64, .f32⟩ : BufTy).Contents (Elt F)),
    StableHlo.binary main_v76 main_v137 main_v138 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x00000000#32),
    StableHlo.unary main_cst_23 main_v139 (broadcastInDim S128x64 ![] bcast_S_S128x64 : (⟨S_, .f32⟩ : BufTy).Contents (Elt F) → (⟨S128x64, .f32⟩ : BufTy).Contents (Elt F)),
    StableHlo.unary main_arg2 main_v140 (broadcastInDim S100000x1 ![0] bcast_S100000_S100000x1_0 : (⟨S100000, .i32⟩ : BufTy).Contents (Elt F) → (⟨S100000x1, .i32⟩ : BufTy).Contents (Elt F)),
    StableHlo.ternary main_v139 main_v140 main_v137 main_v141 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_v19 main_v142 (broadcastInDim S128x1 ![0] bcast_S128_S128x1_0 : (⟨S128, .f32⟩ : BufTy).Contents (Elt F) → (⟨S128x1, .f32⟩ : BufTy).Contents (Elt F)),
    StableHlo.unary main_v142 main_v143 (broadcastInDim S128x64 ![0, 1] bcast_S128x1_S128x64_0_1 : (⟨S128x1, .f32⟩ : BufTy).Contents (Elt F) → (⟨S128x64, .f32⟩ : BufTy).Contents (Elt F)),
    StableHlo.binary main_v141 main_v143 main_v144 (mulf : (⟨S128x64, .f32⟩ : BufTy).Contents (Elt F) → (⟨S128x64, .f32⟩ : BufTy).Contents (Elt F) → (⟨S128x64, .f32⟩ : BufTy).Contents (Elt F)),
    StableHlo.binary main_v83 main_v144 main_v145 (addf : (⟨S128x64, .f32⟩ : BufTy).Contents (Elt F) → (⟨S128x64, .f32⟩ : BufTy).Contents (Elt F) → (⟨S128x64, .f32⟩ : BufTy).Contents (Elt F)) ]
/-- The buffers those operations write, in order. -/
abbrev seg8_W : List (Ref sig .tc) := [main_v110, main_v111, main_v112, main_cst_22, main_v113, main_v114, main_v115, main_v116, main_v117, main_v118, main_v119, main_v120, main_v121, main_v122, main_v123, main_v124, main_v125, main_v126, main_v127, main_v128, main_call3_cst, main_call3_v0, main_v129, main_v130, main_v131, main_v132, main_v133, main_v134, main_v135, main_v136, main_v137, main_v138, main_cst_23, main_v139, main_v140, main_v141, main_v142, main_v143, main_v144, main_v145]

/-- Operations 218 … 225 of @main. -/
abbrev seg9 : List (HloOp τ sig (Elt F)) :=
  [ StableHlo.nullary main_c_24 (constantI S_ 32 0#32),
    StableHlo.unary main_c_24 main_v146 (broadcastInDim S1600000 ![] bcast_S_S1600000 : (⟨S_, .i32⟩ : BufTy).Contents (Elt F) → (⟨S1600000, .i32⟩ : BufTy).Contents (Elt F)),
    StableHlo.binary main_v1 main_v146 main_v147 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v148 (broadcastInDim S1600000 ![] bcast_S_S1600000 : (⟨S_, .i32⟩ : BufTy).Contents (Elt F) → (⟨S1600000, .i32⟩ : BufTy).Contents (Elt F)),
    StableHlo.binary main_v1 main_v148 main_v149 (addi : (⟨S1600000, .i32⟩ : BufTy).Contents (Elt F) → (⟨S1600000, .i32⟩ : BufTy).Contents (Elt F) → (⟨S1600000, .i32⟩ : BufTy).Contents (Elt F)),
    StableHlo.ternary main_v147 main_v149 main_v1 main_v150 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v150 main_v151 (broadcastInDim S1600000x1 ![0] bcast_S1600000_S1600000x1_0 : (⟨S1600000, .i32⟩ : BufTy).Contents (Elt F) → (⟨S1600000x1, .i32⟩ : BufTy).Contents (Elt F)) ]
/-- The buffers those operations write, in order. -/
abbrev seg9_W : List (Ref sig .tc) := [main_c_24, main_v146, main_v147, main_c_25, main_v148, main_v149, main_v150, main_v151]

/-- Operations 226 … 242 of @main. -/
abbrev seg10 : List (HloOp τ sig (Elt F)) :=
  [ StableHlo.binary main_v137 main_v151 main_v152 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_26 (constant S_ .f32 0x00000000#32),
    StableHlo.unary main_cst_26 main_v153 (broadcastInDim S100000x64 ![] bcast_S_S100000x64 : (⟨S_, .f32⟩ : BufTy).Contents (Elt F) → (⟨S100000x64, .f32⟩ : BufTy).Contents (Elt F)),
    StableHlo.unary main_v3 main_v154 (broadcastInDim S1600000x1 ![0] bcast_S1600000_S1600000x1_0 : (⟨S1600000, .i32⟩ : BufTy).Contents (Elt F) → (⟨S1600000x1, .i32⟩ : BufTy).Contents (Elt F)),
    StableHlo.ternary main_v153 main_v154 main_v152 main_v155 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v11 main_v156 (broadcastInDim S100000x1 ![0] bcast_S100000_S100000x1_0 : (⟨S100000, .f32⟩ : BufTy).Contents (Elt F) → (⟨S100000x1, .f32⟩ : BufTy).Contents (Elt F)),
    StableHlo.unary main_v156 main_v157 (broadcastInDim S100000x64 ![0, 1] bcast_S100000x1_S100000x64_0_1 : (⟨S100000x1, .f32⟩ : BufTy).Contents (Elt F) → (⟨S100000x64, .f32⟩ : BufTy).Contents (Elt F)),
    StableHlo.binary main_v155 main_v157 main_v158 (mulf : (⟨S100000x64, .f32⟩ : BufTy).Contents (Elt F) → (⟨S100000x64, .f32⟩ : BufTy).Contents (Elt F) → (⟨S100000x64, .f32⟩ : BufTy).Contents (Elt F)),
    StableHlo.binary main_v137 main_v158 main_v159 (addf : (⟨S100000x64, .f32⟩ : BufTy).Contents (Elt F) → (⟨S100000x64, .f32⟩ : BufTy).Contents (Elt F) → (⟨S100000x64, .f32⟩ : BufTy).Contents (Elt F)),
    StableHlo.unary main_arg3 main_v160 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v160 main_v161 rfl shapeCasts_S1x64x64_S64x64,
    StableHlo.binary main_v159 main_v161 main_v162 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v163 ((extractStridedSlice S1x64 ![2, 0] · slices_S4x64_S1x64_2_0) : (⟨S4x64, .f32⟩ : BufTy).Contents (Elt F) → (⟨S1x64, .f32⟩ : BufTy).Contents (Elt F)),
    StableHlo.reshape main_v163 main_v164 rfl shapeCasts_S1x64_S64,
    StableHlo.unary main_v164 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S100000x64 ![0, 1] bcast_S1x64_S100000x64_0_1 : (⟨S1x64, .f32⟩ : BufTy).Contents (Elt F) → (⟨S100000x64, .f32⟩ : BufTy).Contents (Elt F)),
    StableHlo.binary main_v162 main_v166 main_v167 (addf : (⟨S100000x64, .f32⟩ : BufTy).Contents (Elt F) → (⟨S100000x64, .f32⟩ : BufTy).Contents (Elt F) → (⟨S100000x64, .f32⟩ : BufTy).Contents (Elt F)) ]
/-- The buffers those operations write, in order. -/
abbrev seg10_W : List (Ref sig .tc) := [main_v152, main_cst_26, main_v153, main_v154, main_v155, main_v156, main_v157, main_v158, main_v159, main_v160, main_v161, main_v162, main_v163, main_v164, main_v165, main_v166, main_v167]

/-- Operations 243 … 270 of @main. -/
abbrev seg11 : List (HloOp τ sig (Elt F)) :=
  [ StableHlo.nullary main_cst_27 (constant S_ .f32 0x00000000#32),
    StableHlo.binary main_v167 main_cst_27 main_v168 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_28 (constant S_ .f32 0x47C35000#32),
    StableHlo.unary main_cst_28 main_v169 (broadcastInDim S64 ![] bcast_S_S64 : (⟨S_, .f32⟩ : BufTy).Contents (Elt F) → (⟨S64, .f32⟩ : BufTy).Contents (Elt F)),
    StableHlo.binary main_v168 main_v169 main_v170 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call4.cst (constant S_ .f32 0x00000000#32),
    StableHlo.TRef.binary (StableHlo.TRef.of main_v167 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (StableHlo.TRef.of main_v167 : StableHlo.TRef sig ⟨S100000x64, .f32⟩) main_call4.v4 main_call4.v5 subf,
    StableHlo.TRef.binary main_call4.v5 main_call4.v5 main_call4.v6 mulf,
    StableHlo.TRef.unary (StableHlo.TRef.of main_c_29 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]
/-- The buffers those operations write, in order. -/
abbrev seg11_W : List (Ref sig .tc) := [main_cst_27, main_v168, main_cst_28, main_v169, main_v170, main_c_29, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v171]

/-- Operations 271 … 308 of @main. -/
abbrev seg12 : List (HloOp τ sig (Elt F)) :=
  [ StableHlo.unary main_v170 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S100000x64 ![0, 1] bcast_S1x64_S100000x64_0_1 : (⟨S1x64, .f32⟩ : BufTy).Contents (Elt F) → (⟨S100000x64, .f32⟩ : BufTy).Contents (Elt F)),
    StableHlo.binary main_v167 main_v173 main_v174 (subf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3727C5AC#32),
    StableHlo.unary main_cst_30 main_v175 (broadcastInDim S64 ![] bcast_S_S64 : (⟨S_, .f32⟩ : BufTy).Contents (Elt F) → (⟨S64, .f32⟩ : BufTy).Contents (Elt F)),
    StableHlo.binary main_v171 main_v175 main_v176 (addf : (⟨S64, .f32⟩ : BufTy).Contents (Elt F) → (⟨S64, .f32⟩ : BufTy).Contents (Elt F) → (⟨S64, .f32⟩ : BufTy).Contents (Elt F)),
    StableHlo.unary main_v176 main_v177 (Host.rsqrt : (⟨S64, .f32⟩ : BufTy).Contents (Elt F) → (⟨S64, .f32⟩ : BufTy).Contents (Elt F)),
    StableHlo.unary main_v177 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S100000x64 ![0, 1] bcast_S1x64_S100000x64_0_1 : (⟨S1x64, .f32⟩ : BufTy).Contents (Elt F) → (⟨S100000x64, .f32⟩ : BufTy).Contents (Elt F)),
    StableHlo.binary main_v174 main_v179 main_v180 (mulf : (⟨S100000x64, .f32⟩ : BufTy).Contents (Elt F) → (⟨S100000x64, .f32⟩ : BufTy).Contents (Elt F) → (⟨S100000x64, .f32⟩ : BufTy).Contents (Elt F)),
    StableHlo.unary main_arg5 main_v181 ((extractStridedSlice S1x64 ![2, 0] · slices_S4x64_S1x64_2_0) : (⟨S4x64, .f32⟩ : BufTy).Contents (Elt F) → (⟨S1x64, .f32⟩ : BufTy).Contents (Elt F)),
    StableHlo.reshape main_v181 main_v182 rfl shapeCasts_S1x64_S64,
    StableHlo.unary main_v182 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S100000x64 ![0, 1] bcast_S1x64_S100000x64_0_1 : (⟨S1x64, .f32⟩ : BufTy).Contents (Elt F) → (⟨S100000x64, .f32⟩ : BufTy).Contents (Elt F)),
    StableHlo.binary main_v180 main_v184 main_v185 (mulf : (⟨S100000x64, .f32⟩ : BufTy).Contents (Elt F) → (⟨S100000x64, .f32⟩ : BufTy).Contents (Elt F) → (⟨S100000x64, .f32⟩ : BufTy).Contents (Elt F)),
    StableHlo.unary main_arg6 main_v186 ((extractStridedSlice S1x64 ![2, 0] · slices_S4x64_S1x64_2_0) : (⟨S4x64, .f32⟩ : BufTy).Contents (Elt F) → (⟨S1x64, .f32⟩ : BufTy).Contents (Elt F)),
    StableHlo.reshape main_v186 main_v187 rfl shapeCasts_S1x64_S64,
    StableHlo.unary main_v187 main_v188 (broadcastInDim S1x64 ![1] bcast_S64_S1x64_1 : (⟨S64, .f32⟩ : BufTy).Contents (Elt F) → (⟨S1x64, .f32⟩ : BufTy).Contents (Elt F)),
    StableHlo.unary main_v188 main_v189 (broadcastInDim S100000x64 ![0, 1] bcast_S1x64_S100000x64_0_1 : (⟨S1x64, .f32⟩ : BufTy).Contents (Elt F) → (⟨S100000x64, .f32⟩ : BufTy).Contents (Elt F)),
    StableHlo.binary main_v185 main_v189 main_v190 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (StableHlo.TRef.of main_v190 : StableHlo.TRef sig ⟨S100000x64, .f32⟩) main_call5.v0 main_call5.v1 maximumf,
    StableHlo.unary main_arg7 main_v192 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v192 main_v193 rfl shapeCasts_S1x64x64_S64x64,
    StableHlo.binary main_v191 main_v193 main_v194 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v195 ((extractStridedSlice S1x64 ![2, 0] · slices_S4x64_S1x64_2_0) : (⟨S4x64, .f32⟩ : BufTy).Contents (Elt F) → (⟨S1x64, .f32⟩ : BufTy).Contents (Elt F)),
    StableHlo.reshape main_v195 main_v196 rfl shapeCasts_S1x64_S64,
    StableHlo.unary main_v196 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S100000x64 ![0, 1] bcast_S1x64_S100000x64_0_1 : (⟨S1x64, .f32⟩ : BufTy).Contents (Elt F) → (⟨S100000x64, .f32⟩ : BufTy).Contents (Elt F)),
    StableHlo.binary main_v194 main_v198 main_v199 (addf : (⟨S100000x64, .f32⟩ : BufTy).Contents (Elt F) → (⟨S100000x64, .f32⟩ : BufTy).Contents (Elt F) → (⟨S100000x64, .f32⟩ : BufTy).Contents (Elt F)),
    StableHlo.binary main_v138 main_v199 main_v200 (addf : (⟨S100000x64, .f32⟩ : BufTy).Contents (Elt F) → (⟨S100000x64, .f32⟩ : BufTy).Contents (Elt F) → (⟨S100000x64, .f32⟩ : BufTy).Contents (Elt F)),
    StableHlo.nullary main_cst_31 (constant S_ .f32 0x00000000#32),
    StableHlo.unary main_cst_31 main_v201 (broadcastInDim S128x64 ![] bcast_S_S128x64 : (⟨S_, .f32⟩ : BufTy).Contents (Elt F) → (⟨S128x64, .f32⟩ : BufTy).Contents (Elt F)),
    StableHlo.unary main_arg2 main_v202 (broadcastInDim S100000x1 ![0] bcast_S100000_S100000x1_0 : (⟨S100000, .i32⟩ : BufTy).Contents (Elt F) → (⟨S100000x1, .i32⟩ : BufTy).Contents (Elt F)),
    StableHlo.ternary main_v201 main_v202 main_v199 main_v203 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_v19 main_v204 (broadcastInDim S128x1 ![0] bcast_S128_S128x1_0 : (⟨S128, .f32⟩ : BufTy).Contents (Elt F) → (⟨S128x1, .f32⟩ : BufTy).Contents (Elt F)),
    StableHlo.unary main_v204 main_v205 (broadcastInDim S128x64 ![0, 1] bcast_S128x1_S128x64_0_1 : (⟨S128x1, .f32⟩ : BufTy).Contents (Elt F) → (⟨S128x64, .f32⟩ : BufTy).Contents (Elt F)) ]
/-- The buffers those operations write, in order. -/
abbrev seg12_W : List (Ref sig .tc) := [main_v172, main_v173, main_v174, main_cst_30, main_v175, main_v176, main_v177, main_v178, main_v179, main_v180, main_v181, main_v182, main_v183, main_v184, main_v185, main_v186, main_v187, main_v188, main_v189, main_v190, main_call5_cst, main_call5_v0, main_v191, main_v192, main_v193, main_v194, main_v195, main_v196, main_v197, main_v198, main_v199, main_v200, main_cst_31, main_v201, main_v202, main_v203, main_v204, main_v205]

/-- Operations 309 … 310 of @main. -/
abbrev seg13 : List (HloOp τ sig (Elt F)) :=
  [ StableHlo.binary main_v203 main_v205 main_v206 (mulf : (⟨S128x64, .f32⟩ : BufTy).Contents (Elt F) → (⟨S128x64, .f32⟩ : BufTy).Contents (Elt F) → (⟨S128x64, .f32⟩ : BufTy).Contents (Elt F)),
    StableHlo.binary main_v145 main_v206 main_v207 (addf : (⟨S128x64, .f32⟩ : BufTy).Contents (Elt F) → (⟨S128x64, .f32⟩ : BufTy).Contents (Elt F) → (⟨S128x64, .f32⟩ : BufTy).Contents (Elt F)) ]
/-- The buffers those operations write, in order. -/
abbrev seg13_W : List (Ref sig .tc) := [main_v206, main_v207]

/-- Operations 311 … 335 of @main. -/
abbrev seg14 : List (HloOp τ sig (Elt F)) :=
  [ StableHlo.nullary main_c_32 (constantI S_ 32 0#32),
    StableHlo.unary main_c_32 main_v208 (broadcastInDim S1600000 ![] bcast_S_S1600000 : (⟨S_, .i32⟩ : BufTy).Contents (Elt F) → (⟨S1600000, .i32⟩ : BufTy).Contents (Elt F)),
    StableHlo.binary main_v1 main_v208 main_v209 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 100000#32),
    StableHlo.unary main_c_33 main_v210 (broadcastInDim S1600000 ![] bcast_S_S1600000 : (⟨S_, .i32⟩ : BufTy).Contents (Elt F) → (⟨S1600000, .i32⟩ : BufTy).Contents (Elt F)),
    StableHlo.binary main_v1 main_v210 main_v211 (addi : (⟨S1600000, .i32⟩ : BufTy).Contents (Elt F) → (⟨S1600000, .i32⟩ : BufTy).Contents (Elt F) → (⟨S1600000, .i32⟩ : BufTy).Contents (Elt F)),
    StableHlo.ternary main_v209 main_v211 main_v1 main_v212 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v212 main_v213 (broadcastInDim S1600000x1 ![0] bcast_S1600000_S1600000x1_0 : (⟨S1600000, .i32⟩ : BufTy).Contents (Elt F) → (⟨S1600000x1, .i32⟩ : BufTy).Contents (Elt F)),
    StableHlo.binary main_v199 main_v213 main_v214 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_34 (constant S_ .f32 0x00000000#32),
    StableHlo.unary main_cst_34 main_v215 (broadcastInDim S100000x64 ![] bcast_S_S100000x64 : (⟨S_, .f32⟩ : BufTy).Contents (Elt F) → (⟨S100000x64, .f32⟩ : BufTy).Contents (Elt F)),
    StableHlo.unary main_v3 main_v216 (broadcastInDim S1600000x1 ![0] bcast_S1600000_S1600000x1_0 : (⟨S1600000, .i32⟩ : BufTy).Contents (Elt F) → (⟨S1600000x1, .i32⟩ : BufTy).Contents (Elt F)),
    StableHlo.ternary main_v215 main_v216 main_v214 main_v217 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v11 main_v218 (broadcastInDim S100000x1 ![0] bcast_S100000_S100000x1_0 : (⟨S100000, .f32⟩ : BufTy).Contents (Elt F) → (⟨S100000x1, .f32⟩ : BufTy).Contents (Elt F)),
    StableHlo.unary main_v218 main_v219 (broadcastInDim S100000x64 ![0, 1] bcast_S100000x1_S100000x64_0_1 : (⟨S100000x1, .f32⟩ : BufTy).Contents (Elt F) → (⟨S100000x64, .f32⟩ : BufTy).Contents (Elt F)),
    StableHlo.binary main_v217 main_v219 main_v220 (mulf : (⟨S100000x64, .f32⟩ : BufTy).Contents (Elt F) → (⟨S100000x64, .f32⟩ : BufTy).Contents (Elt F) → (⟨S100000x64, .f32⟩ : BufTy).Contents (Elt F)),
    StableHlo.binary main_v199 main_v220 main_v221 (addf : (⟨S100000x64, .f32⟩ : BufTy).Contents (Elt F) → (⟨S100000x64, .f32⟩ : BufTy).Contents (Elt F) → (⟨S100000x64, .f32⟩ : BufTy).Contents (Elt F)),
    StableHlo.unary main_arg3 main_v222 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v222 main_v223 rfl shapeCasts_S1x64x64_S64x64,
    StableHlo.binary main_v221 main_v223 main_v224 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v225 ((extractStridedSlice S1x64 ![3, 0] · slices_S4x64_S1x64_3_0) : (⟨S4x64, .f32⟩ : BufTy).Contents (Elt F) → (⟨S1x64, .f32⟩ : BufTy).Contents (Elt F)),
    StableHlo.reshape main_v225 main_v226 rfl shapeCasts_S1x64_S64,
    StableHlo.unary main_v226 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S100000x64 ![0, 1] bcast_S1x64_S100000x64_0_1 : (⟨S1x64, .f32⟩ : BufTy).Contents (Elt F) → (⟨S100000x64, .f32⟩ : BufTy).Contents (Elt F)),
    StableHlo.binary main_v224 main_v228 main_v229 (addf : (⟨S100000x64, .f32⟩ : BufTy).Contents (Elt F) → (⟨S100000x64, .f32⟩ : BufTy).Contents (Elt F) → (⟨S100000x64, .f32⟩ : BufTy).Contents (Elt F)) ]
/-- The buffers those operations write, in order. -/
abbrev seg14_W : List (Ref sig .tc) := [main_c_32, main_v208, main_v209, main_c_33, main_v210, main_v211, main_v212, main_v213, main_v214, main_cst_34, main_v215, main_v216, main_v217, main_v218, main_v219, main_v220, main_v221, main_v222, main_v223, main_v224, main_v225, main_v226, main_v227, main_v228, main_v229]

/-- Operations 336 … 363 of @main. -/
abbrev seg15 : List (HloOp τ sig (Elt F)) :=
  [ StableHlo.nullary main_cst_35 (constant S_ .f32 0x00000000#32),
    StableHlo.binary main_v229 main_cst_35 main_v230 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_36 (constant S_ .f32 0x47C35000#32),
    StableHlo.unary main_cst_36 main_v231 (broadcastInDim S64 ![] bcast_S_S64 : (⟨S_, .f32⟩ : BufTy).Contents (Elt F) → (⟨S64, .f32⟩ : BufTy).Contents (Elt F)),
    StableHlo.binary main_v230 main_v231 main_v232 (Host.divf : (⟨S64, .f32⟩ : BufTy).Contents (Elt F) → (⟨S64, .f32⟩ : BufTy).Contents (Elt F) → (⟨S64, .f32⟩ : BufTy).Contents (Elt F)),
    StableHlo.nullary main_c_37 (constantI S_ 32 0#32),
    StableHlo.TRef.nullary main_call6.cst (constant S_ .f32 0x00000000#32),
    StableHlo.TRef.binary (StableHlo.TRef.of main_v229 : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (StableHlo.TRef.of main_v229 : StableHlo.TRef sig ⟨S100000x64, .f32⟩) main_call6.v4 main_call6.v5 subf,
    StableHlo.TRef.binary main_call6.v5 main_call6.v5 main_call6.v6 mulf,
    StableHlo.TRef.unary (StableHlo.TRef.of main_c_37 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]
/-- The buffers those operations write, in order. -/
abbrev seg15_W : List (Ref sig .tc) := [main_cst_35, main_v230, main_cst_36, main_v231, main_v232, main_c_37, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v233]

/-- Operations 364 … 391 of @main. -/
abbrev seg16 : List (HloOp τ sig (Elt F)) :=
  [ StableHlo.unary main_v232 main_v234 (broadcastInDim S1x64 ![1] bcast_S64_S1x64_1 : (⟨S64, .f32⟩ : BufTy).Contents (Elt F) → (⟨S1x64, .f32⟩ : BufTy).Contents (Elt F)),
    StableHlo.unary main_v234 main_v235 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v235 main_v236 (subf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x3727C5AC#32),
    StableHlo.unary main_cst_38 main_v237 (broadcastInDim S64 ![] bcast_S_S64 : (⟨S_, .f32⟩ : BufTy).Contents (Elt F) → (⟨S64, .f32⟩ : BufTy).Contents (Elt F)),
    StableHlo.binary main_v233 main_v237 main_v238 (addf : (⟨S64, .f32⟩ : BufTy).Contents (Elt F) → (⟨S64, .f32⟩ : BufTy).Contents (Elt F) → (⟨S64, .f32⟩ : BufTy).Contents (Elt F)),
    StableHlo.unary main_v238 main_v239 (Host.rsqrt : (⟨S64, .f32⟩ : BufTy).Contents (Elt F) → (⟨S64, .f32⟩ : BufTy).Contents (Elt F)),
    StableHlo.unary main_v239 main_v240 (broadcastInDim S1x64 ![1] bcast_S64_S1x64_1 : (⟨S64, .f32⟩ : BufTy).Contents (Elt F) → (⟨S1x64, .f32⟩ : BufTy).Contents (Elt F)),
    StableHlo.unary main_v240 main_v241 (broadcastInDim S100000x64 ![0, 1] bcast_S1x64_S100000x64_0_1 : (⟨S1x64, .f32⟩ : BufTy).Contents (Elt F) → (⟨S100000x64, .f32⟩ : BufTy).Contents (Elt F)),
    StableHlo.binary main_v236 main_v241 main_v242 (mulf : (⟨S100000x64, .f32⟩ : BufTy).Contents (Elt F) → (⟨S100000x64, .f32⟩ : BufTy).Contents (Elt F) → (⟨S100000x64, .f32⟩ : BufTy).Contents (Elt F)),
    StableHlo.unary main_arg5 main_v243 ((extractStridedSlice S1x64 ![3, 0] · slices_S4x64_S1x64_3_0) : (⟨S4x64, .f32⟩ : BufTy).Contents (Elt F) → (⟨S1x64, .f32⟩ : BufTy).Contents (Elt F)),
    StableHlo.reshape main_v243 main_v244 rfl shapeCasts_S1x64_S64,
    StableHlo.unary main_v244 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S100000x64 ![0, 1] bcast_S1x64_S100000x64_0_1 : (⟨S1x64, .f32⟩ : BufTy).Contents (Elt F) → (⟨S100000x64, .f32⟩ : BufTy).Contents (Elt F)),
    StableHlo.binary main_v242 main_v246 main_v247 (mulf : (⟨S100000x64, .f32⟩ : BufTy).Contents (Elt F) → (⟨S100000x64, .f32⟩ : BufTy).Contents (Elt F) → (⟨S100000x64, .f32⟩ : BufTy).Contents (Elt F)),
    StableHlo.unary main_arg6 main_v248 ((extractStridedSlice S1x64 ![3, 0] · slices_S4x64_S1x64_3_0) : (⟨S4x64, .f32⟩ : BufTy).Contents (Elt F) → (⟨S1x64, .f32⟩ : BufTy).Contents (Elt F)),
    StableHlo.reshape main_v248 main_v249 rfl shapeCasts_S1x64_S64,
    StableHlo.unary main_v249 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S100000x64 ![0, 1] bcast_S1x64_S100000x64_0_1 : (⟨S1x64, .f32⟩ : BufTy).Contents (Elt F) → (⟨S100000x64, .f32⟩ : BufTy).Contents (Elt F)),
    StableHlo.binary main_v247 main_v251 main_v252 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (StableHlo.TRef.of main_v252 : StableHlo.TRef sig ⟨S100000x64, .f32⟩) main_call7.v0 main_call7.v1 maximumf,
    StableHlo.unary main_arg7 main_v254 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v254 main_v255 rfl shapeCasts_S1x64x64_S64x64,
    StableHlo.binary main_v253 main_v255 main_v256 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v257 ((extractStridedSlice S1x64 ![3, 0] · slices_S4x64_S1x64_3_0) : (⟨S4x64, .f32⟩ : BufTy).Contents (Elt F) → (⟨S1x64, .f32⟩ : BufTy).Contents (Elt F)),
    StableHlo.reshape main_v257 main_v258 rfl shapeCasts_S1x64_S64 ]
/-- The buffers those operations write, in order. -/
abbrev seg16_W : List (Ref sig .tc) := [main_v234, main_v235, main_v236, main_cst_38, main_v237, main_v238, main_v239, main_v240, main_v241, main_v242, main_v243, main_v244, main_v245, main_v246, main_v247, main_v248, main_v249, main_v250, main_v251, main_v252, main_call7_cst, main_call7_v0, main_v253, main_v254, main_v255, main_v256, main_v257, main_v258]

/-- Operations 392 … 403 of @main. -/
abbrev seg17 : List (HloOp τ sig (Elt F)) :=
  [ StableHlo.unary main_v258 main_v259 (broadcastInDim S1x64 ![1] bcast_S64_S1x64_1 : (⟨S64, .f32⟩ : BufTy).Contents (Elt F) → (⟨S1x64, .f32⟩ : BufTy).Contents (Elt F)),
    StableHlo.unary main_v259 main_v260 (broadcastInDim S100000x64 ![0, 1] bcast_S1x64_S100000x64_0_1 : (⟨S1x64, .f32⟩ : BufTy).Contents (Elt F) → (⟨S100000x64, .f32⟩ : BufTy).Contents (Elt F)),
    StableHlo.binary main_v256 main_v260 main_v261 (addf : (⟨S100000x64, .f32⟩ : BufTy).Contents (Elt F) → (⟨S100000x64, .f32⟩ : BufTy).Contents (Elt F) → (⟨S100000x64, .f32⟩ : BufTy).Contents (Elt F)),
    StableHlo.binary main_v200 main_v261 main_v262 (addf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x00000000#32),
    StableHlo.unary main_cst_39 main_v263 (broadcastInDim S128x64 ![] bcast_S_S128x64 : (⟨S_, .f32⟩ : BufTy).Contents (Elt F) → (⟨S128x64, .f32⟩ : BufTy).Contents (Elt F)),
    StableHlo.unary main_arg2 main_v264 (broadcastInDim S100000x1 ![0] bcast_S100000_S100000x1_0 : (⟨S100000, .i32⟩ : BufTy).Contents (Elt F) → (⟨S100000x1, .i32⟩ : BufTy).Contents (Elt F)),
    StableHlo.ternary main_v263 main_v264 main_v261 main_v265 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_v19 main_v266 (broadcastInDim S128x1 ![0] bcast_S128_S128x1_0 : (⟨S128, .f32⟩ : BufTy).Contents (Elt F) → (⟨S128x1, .f32⟩ : BufTy).Contents (Elt F)),
    StableHlo.unary main_v266 main_v267 (broadcastInDim S128x64 ![0, 1] bcast_S128x1_S128x64_0_1 : (⟨S128x1, .f32⟩ : BufTy).Contents (Elt F) → (⟨S128x64, .f32⟩ : BufTy).Contents (Elt F)),
    StableHlo.binary main_v265 main_v267 main_v268 (mulf : (⟨S128x64, .f32⟩ : BufTy).Contents (Elt F) → (⟨S128x64, .f32⟩ : BufTy).Contents (Elt F) → (⟨S128x64, .f32⟩ : BufTy).Contents (Elt F)),
    StableHlo.binary main_v207 main_v268 main_v269 (addf : (⟨S128x64, .f32⟩ : BufTy).Contents (Elt F) → (⟨S128x64, .f32⟩ : BufTy).Contents (Elt F) → (⟨S128x64, .f32⟩ : BufTy).Contents (Elt F)) ]
/-- The buffers those operations write, in order. -/
abbrev seg17_W : List (Ref sig .tc) := [main_v259, main_v260, main_v261, main_v262, main_cst_39, main_v263, main_v264, main_v265, main_v266, main_v267, main_v268, main_v269]

end Cert.ReferenceIdeal.HandRun

end
-- ==== Proof.Ref.Run.lean ====
import proofs.«416827_j50268297232946_2_alg».proof.Proof.Ref.Ops
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) := seg0 ++ (seg1 ++ seg2)
abbrev ops_part1 : List (HloOp τ sig (Elt F)) := seg3 ++ (seg4 ++ seg5)
abbrev ops_part2 : List (HloOp τ sig (Elt F)) := seg6 ++ (seg7 ++ (seg8 ++ seg9))
abbrev ops_part3 : List (HloOp τ sig (Elt F)) := seg10 ++ (seg11 ++ seg12)
abbrev ops_part4 : List (HloOp τ sig (Elt F)) := seg13 ++ (seg14 ++ (seg15 ++ seg16))
abbrev ops_part5 : List (HloOp τ sig (Elt F)) := seg17

abbrev ops : List (HloOp τ sig (Elt F)) :=
  ops_part0 ++ (ops_part1 ++ (ops_part2 ++ (ops_part3 ++ (ops_part4 ++ ops_part5))))

set_option maxRecDepth 8192 in
theorem main_part0_eq (c : Dev nD) : main_part0 (F := F) c = seq ops_part0 := rfl

set_option maxRecDepth 8192 in
set_option maxHeartbeats 4000000 in
theorem main_part1_eq (c : Dev nD) : main_part1 (F := F) c = seq ops_part1 := by
  simp only [main_part1, fn_var.body, fn_where.body, fn_relu.body, bind_assoc, pure_bind]
  rfl

set_option maxRecDepth 8192 in
set_option maxHeartbeats 4000000 in
theorem main_part2_eq (c : Dev nD) : main_part2 (F := F) c = seq ops_part2 := by
  simp only [main_part2, fn_var.body, fn_where.body, fn_relu.body, bind_assoc, pure_bind]
  rfl

set_option maxRecDepth 8192 in
set_option maxHeartbeats 4000000 in
theorem main_part3_eq (c : Dev nD) : main_part3 (F := F) c = seq ops_part3 := by
  simp only [main_part3, fn_var.body, fn_where.body, fn_relu.body, bind_assoc, pure_bind]
  rfl

set_option maxRecDepth 8192 in
set_option maxHeartbeats 4000000 in
theorem main_part4_eq (c : Dev nD) : main_part4 (F := F) c = seq ops_part4 := by
  simp only [main_part4, fn_var.body, fn_where.body, fn_relu.body, bind_assoc, pure_bind]
  rfl

set_option maxRecDepth 8192 in
theorem main_part5_eq (c : Dev nD) : main_part5 (F := F) c = seq ops_part5 := rfl

theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

macro "each_op" t:tactic : tactic => `(tactic| (simp only [List.Forall]; (repeat' apply And.intro) <;> $t))

macro "bufs_sub_all" : tactic =>
  `(tactic| simp only [List.Forall, nullary_bufs_sub, unary_bufs_sub, binary_bufs_sub, ternary_bufs_sub, reshape_bufs_sub, and_self])

macro "writes_op" : tactic =>
  `(tactic| (simp only [nullary_writes, unary_writes, binary_writes, ternary_writes, reshape_writes,
               Finset.singleton_subset_iff, List.mem_toFinset]; exact List.mem_map_of_mem (by decide)))

theorem ops_sub : (ops : List (HloOp τ sig (Elt F))).Forall fun op => op.bufs ⊆ tcRefs τ sig := by
  simp only [List.forall_append]
  bufs_sub_all

theorem ops_fresh : (ops : List (HloOp τ sig (Elt F))).Forall fun op => op.fresh = ∅ := by
  simp only [List.forall_append]
  each_op rfl

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

section Values

def srcOf (e : IVec S2x1600000 32) : IVec S1600000 32 :=
  fun i => shapeCast S1600000 (extractStridedSlice S1x1600000 ![0, 0] e slices_S2x1600000_S1x1600000_0_0) shapeCasts_S1x1600000_S1600000 i
def dstOf (e : IVec S2x1600000 32) : IVec S1600000 32 :=
  fun i => shapeCast S1600000 (extractStridedSlice S1x1600000 ![1, 0] e slices_S2x1600000_S1x1600000_1_0) shapeCasts_S1x1600000_S1600000 i

def invDeg (dst : IVec S1600000 32) : FVec F S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

def invCnt (batch : IVec S100000 32) : FVec F S128 .f32 :=
  Host.divf (broadcastInDim S128 ![] bcast_S_S128 (constant S_ .f32 0x3F800000#32))
    (maximumf
      (Host.scatterAdd scatter_S128_S100000x1_S100000_n_0_0_1
        (broadcastInDim S128 ![] bcast_S_S128 (constant S_ .f32 0x00000000#32))
        (broadcastInDim S100000x1 ![0] bcast_S100000_S100000x1_0 batch)
        (broadcastInDim S100000 ![] bcast_S_S100000 (constant S_ .f32 0x3F800000#32)))
      (broadcastInDim S128 ![] bcast_S_S128 (constant S_ .f32 0x3F800000#32)))

def zerosN : FVec F S100000x64 .f32 := broadcastInDim S100000x64 ![] bcast_S_S100000x64 (constant S_ .f32 0x00000000#32)
def zerosG : FVec F S128x64 .f32 := broadcastInDim S128x64 ![] bcast_S_S128x64 (constant S_ .f32 0x00000000#32)

def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def aggOf (h : FVec F S100000x64 .f32) (src dst : IVec S1600000 32) (invdeg : FVec F S100000 .f32) : FVec F S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h (wrapIdx src)))
    (broadcastInDim S100000x64 ![0, 1] bcast_S100000x1_S100000x64_0_1 (broadcastInDim S100000x1 ![0] bcast_S100000_S100000x1_0 invdeg))

def matRow (k : ℕ) (hk : S4x64x64.Slices ![k, 0, 0] S1x64x64) (W : FVec F S4x64x64 .f32) : FVec F S64x64 .f32 :=
  fun i => shapeCast S64x64 (extractStridedSlice S1x64x64 ![k, 0, 0] W hk) shapeCasts_S1x64x64_S64x64 i
def vecRow (k : ℕ) (hk : S4x64.Slices ![k, 0] S1x64) (b : FVec F S4x64 .f32) : FVec F S64 .f32 :=
  fun i => shapeCast S64 (extractStridedSlice S1x64 ![k, 0] b hk) shapeCasts_S1x64_S64 i

def rowBcast (v : FVec F S64 .f32) : FVec F S100000x64 .f32 :=
  broadcastInDim S100000x64 ![0, 1] bcast_S1x64_S100000x64_0_1 (broadcastInDim S1x64 ![1] bcast_S64_S1x64_1 v)

def stepZ (k : ℕ) (hk3 : S4x64x64.Slices ![k, 0, 0] S1x64x64) (hk2 : S4x64.Slices ![k, 0] S1x64)
    (h : FVec F S100000x64 .f32) (src dst : IVec S1600000 32) (invdeg : FVec F S100000 .f32)
    (W1 : FVec F S4x64x64 .f32) (b1 : FVec F S4x64 .f32) : FVec F S100000x64 .f32 :=
  addf (Host.dotGeneral dot_S100000x64_S64x64_S100000x64_1_0_0_1_n_n none (addf h (aggOf h src dst invdeg)) (matRow k hk3 W1))
    (rowBcast (vecRow k hk2 b1))

def stepMu (z : FVec F S100000x64 .f32) : FVec F S64 .f32 :=
  Host.divf (Host.reduceAdd z (constant S_ .f32 0x00000000#32) reducesTo_S100000x64_S64_d0 h_S_)
    (broadcastInDim S64 ![] bcast_S_S64 (constant S_ .f32 0x47C35000#32))

def dofN : FVec F S_ .f32 := subf (constant S_ .f32 0x47C35000#32) (sitofp .f32 (constantI S_ 32 0#32))

def devOf (z : FVec F S100000x64 .f32) : FVec F S100000x64 .f32 :=
  subf z (broadcastInDim S100000x64 ![0, 1] bcast_S1x64_S100000x64_0_1
    (Host.divf (broadcastInDim S1x64 ![1] bcast_S64_S1x64_1 (Host.reduceAdd z (constant S_ .f32 0x00000000#32) reducesTo_S100000x64_S64_d0 h_S_))
      (broadcastInDim S1x64 ![] bcast_S_S1x64 (constant S_ .f32 0x47C35000#32))))

def stepVar (z : FVec F S100000x64 .f32) : FVec F S64 .f32 :=
  select (broadcastInDim S64 ![] bcast_S_S64 (cmpf .ogt (dofN (F := F)) (constant S_ .f32 0x00000000#32)))
    (Host.divf (Host.reduceAdd (mulf (devOf z) (devOf z)) (constant S_ .f32 0x00000000#32) reducesTo_S100000x64_S64_d0 h_S_)
      (broadcastInDim S64 ![] bcast_S_S64 (dofN (F := F))))
    (broadcastInDim S64 ![] bcast_S_S64 (id (constant S_ .f32 0x7FC00000#32)))

def stepH (k : ℕ) (hk3 : S4x64x64.Slices ![k, 0, 0] S1x64x64) (hk2 : S4x64.Slices ![k, 0] S1x64)
    (z : FVec F S100000x64 .f32) (mu var : FVec F S64 .f32) (g be : FVec F S4x64 .f32)
    (W2 : FVec F S4x64x64 .f32) (b2 : FVec F S4x64 .f32) : FVec F S100000x64 .f32 :=
  addf
    (Host.dotGeneral dot_S100000x64_S64x64_S100000x64_1_0_0_1_n_n none
      (maximumf
        (addf
          (mulf
            (mulf (subf z (rowBcast mu))
              (rowBcast (Host.rsqrt (addf var (broadcastInDim S64 ![] bcast_S_S64 (constant S_ .f32 0x3727C5AC#32))))))
            (rowBcast (vecRow k hk2 g)))
          (rowBcast (vecRow k hk2 be)))
        (broadcastInDim S100000x64 ![] bcast_S_S100000x64 (constant S_ .f32 0x00000000#32)))
      (matRow k hk3 W2))
    (rowBcast (vecRow k hk2 b2))

def stepGP (gp : FVec F S128x64 .f32) (h : FVec F S100000x64 .f32) (batch : IVec S100000 32) (invcnt : FVec F S128 .f32) :
    FVec F S128x64 .f32 :=
  addf gp
    (mulf
      (Host.scatterAdd scatter_S128x64_S100000x1_S100000x64_1_0_0_1
        (broadcastInDim S128x64 ![] bcast_S_S128x64 (constant S_ .f32 0x00000000#32))
        (broadcastInDim S100000x1 ![0] bcast_S100000_S100000x1_0 batch) h)
      (broadcastInDim S128x64 ![0, 1] bcast_S128x1_S128x64_0_1 (broadcastInDim S128x1 ![0] bcast_S128_S128x1_0 invcnt)))

def layerOf (k : ℕ) (hk3 : S4x64x64.Slices ![k, 0, 0] S1x64x64) (hk2 : S4x64.Slices ![k, 0] S1x64)
    (h : FVec F S100000x64 .f32) (src dst : IVec S1600000 32) (invdeg : FVec F S100000 .f32)
    (W1 : FVec F S4x64x64 .f32) (b1 g be : FVec F S4x64 .f32) (W2 : FVec F S4x64x64 .f32) (b2 : FVec F S4x64 .f32) :
    FVec F S100000x64 .f32 :=
  stepH k hk3 hk2 (stepZ k hk3 hk2 h src dst invdeg W1 b1) (stepMu (stepZ k hk3 hk2 h src dst invdeg W1 b1))
    (stepVar (stepZ k hk3 hk2 h src dst invdeg W1 b1)) g be W2 b2

end Values

section Named

variable (V : Valuation τ sig (Elt F))

def vSrc : IVec S1600000 32 := srcOf (V (Proc.devRef .tc main_arg1))
def vDst : IVec S1600000 32 := dstOf (V (Proc.devRef .tc main_arg1))
def vInvDeg : FVec F S100000 .f32 := invDeg (vDst V)
def vInvCnt : FVec F S128 .f32 := invCnt (V (Proc.devRef .tc main_arg2))

def vH0 : FVec F S100000x64 .f32 := V (Proc.devRef .tc main_arg0)

def vZ1 : FVec F S100000x64 .f32 :=
  stepZ 0 slices_S4x64x64_S1x64x64_0_0_0 slices_S4x64_S1x64_0_0 (vH0 V) (vSrc V) (vDst V) (vInvDeg V)
    (V (Proc.devRef .tc main_arg3)) (V (Proc.devRef .tc main_arg4))
def vH1 : FVec F S100000x64 .f32 :=
  layerOf 0 slices_S4x64x64_S1x64x64_0_0_0 slices_S4x64_S1x64_0_0 (vH0 V) (vSrc V) (vDst V) (vInvDeg V) (V (Proc.devRef .tc main_arg3))
    (V (Proc.devRef .tc main_arg4)) (V (Proc.devRef .tc main_arg5)) (V (Proc.devRef .tc main_arg6)) (V (Proc.devRef .tc main_arg7))
    (V (Proc.devRef .tc main_arg8))
def vZ2 : FVec F S100000x64 .f32 :=
  stepZ 1 slices_S4x64x64_S1x64x64_1_0_0 slices_S4x64_S1x64_1_0 (vH1 V) (vSrc V) (vDst V) (vInvDeg V)
    (V (Proc.devRef .tc main_arg3)) (V (Proc.devRef .tc main_arg4))
def vH2 : FVec F S100000x64 .f32 :=
  layerOf 1 slices_S4x64x64_S1x64x64_1_0_0 slices_S4x64_S1x64_1_0 (vH1 V) (vSrc V) (vDst V) (vInvDeg V) (V (Proc.devRef .tc main_arg3))
    (V (Proc.devRef .tc main_arg4)) (V (Proc.devRef .tc main_arg5)) (V (Proc.devRef .tc main_arg6)) (V (Proc.devRef .tc main_arg7))
    (V (Proc.devRef .tc main_arg8))
def vZ3 : FVec F S100000x64 .f32 :=
  stepZ 2 slices_S4x64x64_S1x64x64_2_0_0 slices_S4x64_S1x64_2_0 (vH2 V) (vSrc V) (vDst V) (vInvDeg V)
    (V (Proc.devRef .tc main_arg3)) (V (Proc.devRef .tc main_arg4))
def vH3 : FVec F S100000x64 .f32 :=
  layerOf 2 slices_S4x64x64_S1x64x64_2_0_0 slices_S4x64_S1x64_2_0 (vH2 V) (vSrc V) (vDst V) (vInvDeg V) (V (Proc.devRef .tc main_arg3))
    (V (Proc.devRef .tc main_arg4)) (V (Proc.devRef .tc main_arg5)) (V (Proc.devRef .tc main_arg6)) (V (Proc.devRef .tc main_arg7))
    (V (Proc.devRef .tc main_arg8))
def vZ4 : FVec F S100000x64 .f32 :=
  stepZ 3 slices_S4x64x64_S1x64x64_3_0_0 slices_S4x64_S1x64_3_0 (vH3 V) (vSrc V) (vDst V) (vInvDeg V)
    (V (Proc.devRef .tc main_arg3)) (V (Proc.devRef .tc main_arg4))
def vH4 : FVec F S100000x64 .f32 :=
  layerOf 3 slices_S4x64x64_S1x64x64_3_0_0 slices_S4x64_S1x64_3_0 (vH3 V) (vSrc V) (vDst V) (vInvDeg V) (V (Proc.devRef .tc main_arg3))
    (V (Proc.devRef .tc main_arg4)) (V (Proc.devRef .tc main_arg5)) (V (Proc.devRef .tc main_arg6)) (V (Proc.devRef .tc main_arg7))
    (V (Proc.devRef .tc main_arg8))

def vNP0 : FVec F S100000x64 .f32 := zerosN
def vNP1 : FVec F S100000x64 .f32 := addf (vNP0 (F := F)) (vH1 V)
def vNP2 : FVec F S100000x64 .f32 := addf (vNP1 V) (vH2 V)
def vNP3 : FVec F S100000x64 .f32 := addf (vNP2 V) (vH3 V)
def vNP4 : FVec F S100000x64 .f32 := addf (vNP3 V) (vH4 V)
def vGP0 : FVec F S128x64 .f32 := zerosG
def vGP1 : FVec F S128x64 .f32 := stepGP (vGP0 (F := F)) (vH1 V) (V (Proc.devRef .tc main_arg2)) (vInvCnt V)
def vGP2 : FVec F S128x64 .f32 := stepGP (vGP1 V) (vH2 V) (V (Proc.devRef .tc main_arg2)) (vInvCnt V)
def vGP3 : FVec F S128x64 .f32 := stepGP (vGP2 V) (vH3 V) (V (Proc.devRef .tc main_arg2)) (vInvCnt V)
def vGP4 : FVec F S128x64 .f32 := stepGP (vGP3 V) (vH4 V) (V (Proc.devRef .tc main_arg2)) (vInvCnt V)

end Named

section Exported

variable (m : (ℓ : Loc nD τ sig) → Buf (Elt F) ℓ) (c : Dev nD)

def res262 : FVec F S100000x64 .f32 := after ops (launchContents m c) (Proc.devRef .tc main_v262)
def res269 : FVec F S128x64 .f32 := after ops (launchContents m c) (Proc.devRef .tc main_v269)

def resH1 : FVec F S100000x64 .f32 := vH1 (launchContents m c)
def resH2 : FVec F S100000x64 .f32 := vH2 (launchContents m c)
def resH3 : FVec F S100000x64 .f32 := vH3 (launchContents m c)
def resH4 : FVec F S100000x64 .f32 := vH4 (launchContents m c)
def resNP4 : FVec F S100000x64 .f32 := vNP4 (launchContents m c)
def resGP4 : FVec F S128x64 .f32 := vGP4 (launchContents m c)

end Exported

abbrev WritesIn (seg : List (HloOp τ sig (Elt F))) (Wl : List (Ref sig .tc)) : Prop :=
  seg.Forall fun op => op.writes ⊆ (Wl.map (Proc.devRef (τ := τ) .tc)).toFinset

theorem seg0_writes : WritesIn (F := F) seg0 seg0_W := by each_op writes_op
theorem seg1_writes : WritesIn (F := F) seg1 seg1_W := by each_op writes_op
theorem seg2_writes : WritesIn (F := F) seg2 seg2_W := by each_op writes_op
theorem seg3_writes : WritesIn (F := F) seg3 seg3_W := by each_op writes_op
theorem seg4_writes : WritesIn (F := F) seg4 seg4_W := by each_op writes_op
theorem seg5_writes : WritesIn (F := F) seg5 seg5_W := by each_op writes_op
theorem seg6_writes : WritesIn (F := F) seg6 seg6_W := by each_op writes_op
theorem seg7_writes : WritesIn (F := F) seg7 seg7_W := by each_op writes_op
theorem seg8_writes : WritesIn (F := F) seg8 seg8_W := by each_op writes_op
theorem seg9_writes : WritesIn (F := F) seg9 seg9_W := by each_op writes_op
theorem seg10_writes : WritesIn (F := F) seg10 seg10_W := by each_op writes_op
theorem seg11_writes : WritesIn (F := F) seg11 seg11_W := by each_op writes_op
theorem seg12_writes : WritesIn (F := F) seg12 seg12_W := by each_op writes_op
theorem seg13_writes : WritesIn (F := F) seg13 seg13_W := by each_op writes_op
theorem seg14_writes : WritesIn (F := F) seg14 seg14_W := by each_op writes_op
theorem seg15_writes : WritesIn (F := F) seg15 seg15_W := by each_op writes_op
theorem seg16_writes : WritesIn (F := F) seg16 seg16_W := by each_op writes_op
theorem seg17_writes : WritesIn (F := F) seg17 seg17_W := by each_op writes_op

abbrev sharedRefs : List (Ref sig .tc) :=
  [main_v1, main_v3, main_v11, main_v19, main_arg0, main_arg1, main_arg2, main_arg3, main_arg4, main_arg5, main_arg6, main_arg7, main_arg8]

structure Shared (V W : Valuation τ sig (Elt F)) : Prop where
  src : W (no_index (Proc.devRef .tc main_v1)) = vSrc V
  dst : W (no_index (Proc.devRef .tc main_v3)) = vDst V
  invdeg : W (no_index (Proc.devRef .tc main_v11)) = vInvDeg V
  invcnt : W (no_index (Proc.devRef .tc main_v19)) = vInvCnt V
  a0 : W (no_index (Proc.devRef .tc main_arg0)) = V (Proc.devRef .tc main_arg0)
  a1 : W (no_index (Proc.devRef .tc main_arg1)) = V (Proc.devRef .tc main_arg1)
  a2 : W (no_index (Proc.devRef .tc main_arg2)) = V (Proc.devRef .tc main_arg2)
  a3 : W (no_index (Proc.devRef .tc main_arg3)) = V (Proc.devRef .tc main_arg3)
  a4 : W (no_index (Proc.devRef .tc main_arg4)) = V (Proc.devRef .tc main_arg4)
  a5 : W (no_index (Proc.devRef .tc main_arg5)) = V (Proc.devRef .tc main_arg5)
  a6 : W (no_index (Proc.devRef .tc main_arg6)) = V (Proc.devRef .tc main_arg6)
  a7 : W (no_index (Proc.devRef .tc main_arg7)) = V (Proc.devRef .tc main_arg7)
  a8 : W (no_index (Proc.devRef .tc main_arg8)) = V (Proc.devRef .tc main_arg8)

theorem Shared.keep {V W : Valuation τ sig (Elt F)} (h : Shared V W) (seg : List (HloOp τ sig (Elt F))) (Wl : List (Ref sig .tc))
    (hw : seg.Forall fun op => op.writes ⊆ (Wl.map (Proc.devRef (τ := τ) .tc)).toFinset)
    (hd : ∀ r ∈ sharedRefs, r ∉ Wl) : Shared V (after seg W) := by
  cases h
  constructor <;> refine (after_of_writes_sub seg W hw (hd _ ?_)).trans (by assumption) <;> decide

theorem keep1 {W : Valuation τ sig (Elt F)} {r : Ref sig .tc} {x} (h : W (Proc.devRef .tc r) = x)
    {seg : List (HloOp τ sig (Elt F))} {Wl : List (Ref sig .tc)} (hw : WritesIn seg Wl) (hr : r ∉ Wl) :
    after seg W (Proc.devRef .tc r) = x := (after_of_writes_sub seg W hw hr).trans h

section Stages

variable (V : Valuation τ sig (Elt F))

def valP : Valuation τ sig (Elt F) := after seg0 V
def valA1 : Valuation τ sig (Elt F) := after seg1 (valP V)
def valB1 : Valuation τ sig (Elt F) := after seg3 (after seg2 (valA1 V))
def valC1 : Valuation τ sig (Elt F) := after seg4 (valB1 V)

set_option maxRecDepth 8192 in
theorem sharedP : Shared V (valP V) := by
  constructor <;> first
    | exact after_of_writes_sub seg0 V seg0_writes (by decide)
    | (unfold valP; simp only [seg0]; after_results_simp; rfl)

set_option maxRecDepth 8192 in
theorem valP_np : valP V (no_index (Proc.devRef .tc main_v20)) = vNP0 (F := F) := by
  unfold valP
  simp only [seg0]
  after_results_simp
  rfl
set_option maxRecDepth 8192 in
theorem valP_gp : valP V (no_index (Proc.devRef .tc main_v21)) = vGP0 (F := F) := by
  unfold valP
  simp only [seg0]
  after_results_simp
  rfl

set_option maxRecDepth 8192
set_option maxHeartbeats 2000000

theorem sharedA1 : Shared V (valA1 V) := (sharedP V).keep seg1 seg1_W seg1_writes (by decide)
theorem valA1_np : valA1 V (no_index (Proc.devRef .tc main_v20)) = vNP0 (F := F) :=
  keep1 (valP_np V) seg1_writes (by decide)
theorem valA1_gp : valA1 V (no_index (Proc.devRef .tc main_v21)) = vGP0 (F := F) :=
  keep1 (valP_gp V) seg1_writes (by decide)

theorem valA1_z : valA1 V (no_index (Proc.devRef .tc main_v43)) = vZ1 V := by
  unfold valA1
  simp only [seg1]
  after_results_simp
  simp only [(sharedP V).src, (sharedP V).dst, (sharedP V).invdeg, (sharedP V).a0, (sharedP V).a3, (sharedP V).a4]
  rfl

theorem sharedB1 : Shared V (valB1 V) :=
  ((sharedA1 V).keep seg2 seg2_W seg2_writes (by decide)).keep seg3 seg3_W seg3_writes (by decide)
theorem valB1_np : valB1 V (no_index (Proc.devRef .tc main_v20)) = vNP0 (F := F) :=
  keep1 (keep1 (valA1_np V) seg2_writes (by decide)) seg3_writes (by decide)
theorem valB1_gp : valB1 V (no_index (Proc.devRef .tc main_v21)) = vGP0 (F := F) :=
  keep1 (keep1 (valA1_gp V) seg2_writes (by decide)) seg3_writes (by decide)
theorem valB1_z : valB1 V (no_index (Proc.devRef .tc main_v43)) = vZ1 V :=
  keep1 (keep1 (valA1_z V) seg2_writes (by decide)) seg3_writes (by decide)

theorem valB1_mv : valB1 V (no_index (Proc.devRef .tc main_v46)) = stepMu (vZ1 V)
    ∧ valB1 V (no_index (Proc.devRef .tc main_v47)) = stepVar (vZ1 V) := by
  refine ⟨?_, ?_⟩ <;>
  · unfold valB1
    simp only [seg2, seg3]
    after_results_simp
    simp only [valA1_z]
    rfl

theorem sharedC1 : Shared V (valC1 V) := (sharedB1 V).keep seg4 seg4_W seg4_writes (by decide)

theorem valC1_res : valC1 V (no_index (Proc.devRef .tc main_v75)) = vH1 V
    ∧ valC1 V (no_index (Proc.devRef .tc main_v76)) = vNP1 V
    ∧ valC1 V (no_index (Proc.devRef .tc main_v83)) = vGP1 V := by
  refine ⟨?_, ?_, ?_⟩ <;>
  · unfold valC1
    simp only [seg4]
    after_results_simp
    simp only [valB1_z, (valB1_mv V).1, (valB1_mv V).2, valB1_np, valB1_gp, (sharedB1 V).a5, (sharedB1 V).a6, (sharedB1 V).a7,
      (sharedB1 V).a8, (sharedB1 V).invcnt, (sharedB1 V).a2]
    rfl

def valA2 : Valuation τ sig (Elt F) := after seg6 (after seg5 (valC1 V))
def valB2 : Valuation τ sig (Elt F) := after seg7 (valA2 V)
def valC2 : Valuation τ sig (Elt F) := after seg8 (valB2 V)

theorem sharedA2 : Shared V (valA2 V) :=
  ((sharedC1 V).keep seg5 seg5_W seg5_writes (by decide)).keep seg6 seg6_W seg6_writes (by decide)
theorem valA2_np : valA2 V (no_index (Proc.devRef .tc main_v76)) = vNP1 V :=
  keep1 (keep1 (valC1_res V).2.1 seg5_writes (by decide)) seg6_writes (by decide)
theorem valA2_gp : valA2 V (no_index (Proc.devRef .tc main_v83)) = vGP1 V :=
  keep1 (keep1 (valC1_res V).2.2 seg5_writes (by decide)) seg6_writes (by decide)

theorem valA2_z : valA2 V (no_index (Proc.devRef .tc main_v105)) = vZ2 V := by
  unfold valA2
  simp only [seg5, seg6]
  after_results_simp
  simp only [(valC1_res V).1, (sharedC1 V).src, (sharedC1 V).dst, (sharedC1 V).invdeg, (sharedC1 V).a3, (sharedC1 V).a4]
  rfl

theorem sharedB2 : Shared V (valB2 V) := (sharedA2 V).keep seg7 seg7_W seg7_writes (by decide)
theorem valB2_np : valB2 V (no_index (Proc.devRef .tc main_v76)) = vNP1 V :=
  keep1 (valA2_np V) seg7_writes (by decide)
theorem valB2_gp : valB2 V (no_index (Proc.devRef .tc main_v83)) = vGP1 V :=
  keep1 (valA2_gp V) seg7_writes (by decide)
theorem valB2_z : valB2 V (no_index (Proc.devRef .tc main_v105)) = vZ2 V :=
  keep1 (valA2_z V) seg7_writes (by decide)

theorem valB2_mv : valB2 V (no_index (Proc.devRef .tc main_v108)) = stepMu (vZ2 V)
    ∧ valB2 V (no_index (Proc.devRef .tc main_v109)) = stepVar (vZ2 V) := by
  refine ⟨?_, ?_⟩ <;>
  · unfold valB2
    simp only [seg7]
    after_results_simp
    simp only [valA2_z]
    rfl

theorem sharedC2 : Shared V (valC2 V) := (sharedB2 V).keep seg8 seg8_W seg8_writes (by decide)

theorem valC2_res : valC2 V (no_index (Proc.devRef .tc main_v137)) = vH2 V
    ∧ valC2 V (no_index (Proc.devRef .tc main_v138)) = vNP2 V
    ∧ valC2 V (no_index (Proc.devRef .tc main_v145)) = vGP2 V := by
  refine ⟨?_, ?_, ?_⟩ <;>
  · unfold valC2
    simp only [seg8]
    after_results_simp
    simp only [valB2_z, (valB2_mv V).1, (valB2_mv V).2, valB2_np, valB2_gp, (sharedB2 V).a5, (sharedB2 V).a6, (sharedB2 V).a7,
      (sharedB2 V).a8, (sharedB2 V).invcnt, (sharedB2 V).a2]
    rfl

def valA3 : Valuation τ sig (Elt F) := after seg10 (after seg9 (valC2 V))
def valB3 : Valuation τ sig (Elt F) := after seg11 (valA3 V)
def valC3 : Valuation τ sig (Elt F) := after seg13 (after seg12 (valB3 V))

theorem sharedA3 : Shared V (valA3 V) :=
  ((sharedC2 V).keep seg9 seg9_W seg9_writes (by decide)).keep seg10 seg10_W seg10_writes (by decide)
theorem valA3_np : valA3 V (no_index (Proc.devRef .tc main_v138)) = vNP2 V :=
  keep1 (keep1 (valC2_res V).2.1 seg9_writes (by decide)) seg10_writes (by decide)
theorem valA3_gp : valA3 V (no_index (Proc.devRef .tc main_v145)) = vGP2 V :=
  keep1 (keep1 (valC2_res V).2.2 seg9_writes (by decide)) seg10_writes (by decide)

theorem valA3_z : valA3 V (no_index (Proc.devRef .tc main_v167)) = vZ3 V := by
  unfold valA3
  simp only [seg9, seg10]
  after_results_simp
  simp only [(valC2_res V).1, (sharedC2 V).src, (sharedC2 V).dst, (sharedC2 V).invdeg, (sharedC2 V).a3, (sharedC2 V).a4]
  rfl

theorem sharedB3 : Shared V (valB3 V) := (sharedA3 V).keep seg11 seg11_W seg11_writes (by decide)
theorem valB3_np : valB3 V (no_index (Proc.devRef .tc main_v138)) = vNP2 V :=
  keep1 (valA3_np V) seg11_writes (by decide)
theorem valB3_gp : valB3 V (no_index (Proc.devRef .tc main_v145)) = vGP2 V :=
  keep1 (valA3_gp V) seg11_writes (by decide)
theorem valB3_z : valB3 V (no_index (Proc.devRef .tc main_v167)) = vZ3 V :=
  keep1 (valA3_z V) seg11_writes (by decide)

theorem valB3_mv : valB3 V (no_index (Proc.devRef .tc main_v170)) = stepMu (vZ3 V)
    ∧ valB3 V (no_index (Proc.devRef .tc main_v171)) = stepVar (vZ3 V) := by
  refine ⟨?_, ?_⟩ <;>
  · unfold valB3
    simp only [seg11]
    after_results_simp
    simp only [valA3_z]
    rfl

theorem sharedC3 : Shared V (valC3 V) :=
  ((sharedB3 V).keep seg12 seg12_W seg12_writes (by decide)).keep seg13 seg13_W seg13_writes (by decide)

theorem valC3_res : valC3 V (no_index (Proc.devRef .tc main_v199)) = vH3 V
    ∧ valC3 V (no_index (Proc.devRef .tc main_v200)) = vNP3 V
    ∧ valC3 V (no_index (Proc.devRef .tc main_v207)) = vGP3 V := by
  refine ⟨?_, ?_, ?_⟩ <;>
  · unfold valC3
    simp only [seg12, seg13]
    after_results_simp
    simp only [valB3_z, (valB3_mv V).1, (valB3_mv V).2, valB3_np, valB3_gp, (sharedB3 V).a5, (sharedB3 V).a6, (sharedB3 V).a7,
      (sharedB3 V).a8, (sharedB3 V).invcnt, (sharedB3 V).a2]
    rfl

def valA4 : Valuation τ sig (Elt F) := after seg14 (valC3 V)
def valB4 : Valuation τ sig (Elt F) := after seg15 (valA4 V)
def valC4 : Valuation τ sig (Elt F) := after seg17 (after seg16 (valB4 V))

theorem sharedA4 : Shared V (valA4 V) := (sharedC3 V).keep seg14 seg14_W seg14_writes (by decide)
theorem valA4_np : valA4 V (no_index (Proc.devRef .tc main_v200)) = vNP3 V :=
  keep1 (valC3_res V).2.1 seg14_writes (by decide)
theorem valA4_gp : valA4 V (no_index (Proc.devRef .tc main_v207)) = vGP3 V :=
  keep1 (valC3_res V).2.2 seg14_writes (by decide)

theorem valA4_z : valA4 V (no_index (Proc.devRef .tc main_v229)) = vZ4 V := by
  unfold valA4
  simp only [seg14]
  after_results_simp
  simp only [(valC3_res V).1, (sharedC3 V).src, (sharedC3 V).dst, (sharedC3 V).invdeg, (sharedC3 V).a3, (sharedC3 V).a4]
  rfl

theorem sharedB4 : Shared V (valB4 V) := (sharedA4 V).keep seg15 seg15_W seg15_writes (by decide)
theorem valB4_np : valB4 V (no_index (Proc.devRef .tc main_v200)) = vNP3 V :=
  keep1 (valA4_np V) seg15_writes (by decide)
theorem valB4_gp : valB4 V (no_index (Proc.devRef .tc main_v207)) = vGP3 V :=
  keep1 (valA4_gp V) seg15_writes (by decide)
theorem valB4_z : valB4 V (no_index (Proc.devRef .tc main_v229)) = vZ4 V :=
  keep1 (valA4_z V) seg15_writes (by decide)

theorem valB4_mv : valB4 V (no_index (Proc.devRef .tc main_v232)) = stepMu (vZ4 V)
    ∧ valB4 V (no_index (Proc.devRef .tc main_v233)) = stepVar (vZ4 V) := by
  refine ⟨?_, ?_⟩ <;>
  · unfold valB4
    simp only [seg15]
    after_results_simp
    simp only [valA4_z]
    rfl

theorem sharedC4 : Shared V (valC4 V) :=
  ((sharedB4 V).keep seg16 seg16_W seg16_writes (by decide)).keep seg17 seg17_W seg17_writes (by decide)

theorem valC4_res : valC4 V (no_index (Proc.devRef .tc main_v262)) = vNP4 V
    ∧ valC4 V (no_index (Proc.devRef .tc main_v269)) = vGP4 V := by
  refine ⟨?_, ?_⟩ <;>
  · unfold valC4
    simp only [seg16, seg17]
    after_results_simp
    simp only [valB4_z, (valB4_mv V).1, (valB4_mv V).2, valB4_np, valB4_gp, (sharedB4 V).a5, (sharedB4 V).a6, (sharedB4 V).a7,
      (sharedB4 V).a8, (sharedB4 V).invcnt, (sharedB4 V).a2]
    rfl

end Stages

theorem after_ops (V : Valuation τ sig (Elt F)) : after ops V = valC4 V := by
  simp only [ops, ops_part0, ops_part1, ops_part2, ops_part3, ops_part4, ops_part5, after_append]
  rfl

theorem after_ops_shared (V : Valuation τ sig (Elt F)) : Shared V (after ops V) := by
  rw [after_ops]; exact sharedC4 V

theorem res262_eq (m : (ℓ : Loc nD τ sig) → Buf (Elt F) ℓ) (c : Dev nD) : res262 m c = resNP4 m c :=
  (congrFun (after_ops _) _).trans (valC4_res _).1
theorem res269_eq (m : (ℓ : Loc nD τ sig) → Buf (Elt F) ℓ) (c : Dev nD) : res269 m c = resGP4 m c :=
  (congrFun (after_ops _) _).trans (valC4_res _).2

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v262) = res262 m c
      ∧ r.2.mem ((c.tc : Thread nD τ).loc main_v269) = res269 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    have s := after_ops_shared (launchContents m c)
    exact ⟨h c main_v262, h c main_v269, (h c main_arg0).trans s.a0, (h c main_arg1).trans s.a1, (h c main_arg2).trans s.a2,
      (h c main_arg3).trans s.a3, (h c main_arg4).trans s.a4, (h c main_arg5).trans s.a5, (h c main_arg6).trans s.a6,
      (h c main_arg7).trans s.a7, (h c main_arg8).trans s.a8⟩) (run_all m ρ)

end Cert.ReferenceIdeal.HandRun

end
-- ==== Proof.Spec.lean ====
import Idealize.ShloMosaic.PureOps.Ideal

noncomputable section

open scoped BigOperators

namespace Cert.Spec

open Idealize.ShloMosaic

abbrev Mat (n m : ℕ) := Fin n → Fin m → EReal

def MatFin {n m : ℕ} (a : Mat n m) : Prop := ∀ i j, ∃ r : ℝ, a i j = (r : EReal)
def VecFin {n : ℕ} (a : Fin n → EReal) : Prop := ∀ i, ∃ r : ℝ, a i = (r : EReal)

def lin {n k m : ℕ} (a : Mat n k) (W : Mat k m) (b : Fin m → EReal) : Mat n m :=
  fun i j => (∑ l : Fin k, a i l * W l j) + b j

def colSum {n m : ℕ} (z : Mat n m) : Fin m → EReal := fun j => ∑ i : Fin n, z i j

def mean {n m : ℕ} (N : EReal) (z : Mat n m) : Fin m → EReal := fun j => Ideal.div (colSum z j) N

def varK {n m : ℕ} (N : EReal) (z : Mat n m) : Fin m → EReal :=
  fun j => max (Ideal.div (colSum (fun i j => z i j * z i j) j) N - mean N z j * mean N z j) 0

def varR {n m : ℕ} (N : EReal) (z : Mat n m) : Fin m → EReal :=
  fun j => Ideal.div (colSum (fun i j => (z i j - mean N z j) * (z i j - mean N z j)) j) N

def bn {n m : ℕ} (z : Mat n m) (mu var : Fin m → EReal) (eps : EReal) (g be : Fin m → EReal) : Mat n m :=
  fun i j => (z i j - mu j) * Ideal.rsqrt (var j + eps) * g j + be j

def relu {n m : ℕ} (z : Mat n m) : Mat n m := fun i j => max (z i j) 0

def pre1 {n k m : ℕ} (h agg : Mat n k) (W1 : Mat k m) (b1 : Fin m → EReal) : Mat n m :=
  lin (fun i l => h i l + agg i l) W1 b1

def layerWith {n k m p : ℕ} (var : EReal → Mat n m → Fin m → EReal) (N eps : EReal) (h agg : Mat n k) (W1 : Mat k m)
    (b1 g be : Fin m → EReal) (W2 : Mat m p) (b2 : Fin p → EReal) : Mat n p :=
  lin (relu (bn (pre1 h agg W1 b1) (mean N (pre1 h agg W1 b1)) (var N (pre1 h agg W1 b1)) eps g be)) W2 b2

def layerK {n k m p : ℕ} := @layerWith n k m p varK
def layerR {n k m p : ℕ} := @layerWith n k m p varR

def seg {n G d : ℕ} (sel : Fin n → Fin G → Prop) [∀ i g, Decidable (sel i g)] (h : Mat n d) : Mat G d :=
  fun g j => ∑ i ∈ Finset.univ.filter (fun i => sel i g), h i j

end Cert.Spec

end
-- ==== Proof.SpecLaws.lean ====
import proofs.«416827_j50268297232946_2_alg».proof.Proof.Spec
import Idealize.ShloMosaic.PureOps.Ideal
import Idealize.ShloMosaic.PureOps.Ideal.Laws
import Mathlib.Data.EReal.Operations
import Mathlib.Data.EReal.Inv
import Mathlib.Logic.Equiv.Fin.Basic
import Mathlib.Algebra.BigOperators.Fin
import Mathlib.Data.Fintype.BigOperators

noncomputable section

open scoped BigOperators

namespace Cert.Spec

open Idealize.ShloMosaic

theorem fin_coe (r : ℝ) : ∃ s : ℝ, ((r : ℝ) : EReal) = (s : EReal) := ⟨r, rfl⟩
theorem fin_zero : ∃ s : ℝ, (0 : EReal) = (s : EReal) := ⟨0, rfl⟩
theorem fin_one : ∃ s : ℝ, (1 : EReal) = (s : EReal) := ⟨1, rfl⟩
theorem fin_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩
theorem fin_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩
theorem fin_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩
theorem fin_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha
theorem fin_div_coe {a : EReal} (ha : ∃ r : ℝ, a = (r : EReal)) {y : ℝ} (hy : y ≠ 0) :
    ∃ r : ℝ, Ideal.div a (y : EReal) = (r : EReal) := by
  rw [Ideal.div_coe hy]; exact fin_mul ha (fin_coe _)
theorem fin_rsqrt_pos {x : ℝ} (hx : 0 < x) : ∃ r : ℝ, Ideal.rsqrt (x : EReal) = (r : EReal) :=
  ⟨(Real.sqrt x)⁻¹, by rw [Ideal.rsqrt_coe, if_neg (not_lt.mpr hx.le), if_neg hx.ne']⟩
theorem fin_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact fin_add (hf a (Finset.mem_insert_self a s)) (ih fun i hi => hf i (Finset.mem_insert_of_mem hi))

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem MatFin.exists_real {n m : ℕ} {z : Mat n m} (hz : MatFin z) :
    ∃ r : Fin n → Fin m → ℝ, z = fun i j => (r i j : EReal) := by
  choose r hr using hz
  exact ⟨r, funext fun i => funext fun j => hr i j⟩

theorem MatFin.add {n m : ℕ} {a b : Mat n m} (ha : MatFin a) (hb : MatFin b) : MatFin (fun i j => a i j + b i j) :=
  fun i j => fin_add (ha i j) (hb i j)
theorem MatFin.sub {n m : ℕ} {a b : Mat n m} (ha : MatFin a) (hb : MatFin b) : MatFin (fun i j => a i j - b i j) :=
  fun i j => fin_sub (ha i j) (hb i j)
theorem MatFin.mul {n m : ℕ} {a b : Mat n m} (ha : MatFin a) (hb : MatFin b) : MatFin (fun i j => a i j * b i j) :=
  fun i j => fin_mul (ha i j) (hb i j)
theorem MatFin.mul_col {n m : ℕ} {a : Mat n m} {c : Fin n → EReal} (ha : MatFin a) (hc : VecFin c) :
    MatFin (fun i j => a i j * c i) :=
  fun i j => fin_mul (ha i j) (hc i)
theorem MatFin.zero {n m : ℕ} : MatFin (fun (_ : Fin n) (_ : Fin m) => (0 : EReal)) := fun _ _ => fin_zero

theorem lin_fin {n k m : ℕ} {a : Mat n k} {W : Mat k m} {b : Fin m → EReal} (ha : MatFin a) (hW : MatFin W)
    (hb : VecFin b) : MatFin (lin a W b) :=
  fun i j => fin_add (fin_sum _ _ fun l _ => fin_mul (ha i l) (hW l j)) (hb j)
theorem colSum_fin {n m : ℕ} {z : Mat n m} (hz : MatFin z) : VecFin (colSum z) :=
  fun j => fin_sum _ _ fun i _ => hz i j
theorem seg_fin {n G d : ℕ} (sel : Fin n → Fin G → Prop) [∀ i g, Decidable (sel i g)] {h : Mat n d} (hh : MatFin h) :
    MatFin (seg sel h) :=
  fun _ j => fin_sum _ _ fun i _ => hh i j
theorem mean_fin {n m : ℕ} {N : ℝ} (hN : N ≠ 0) {z : Mat n m} (hz : MatFin z) : VecFin (mean (N : EReal) z) :=
  fun j => fin_div_coe (colSum_fin hz j) hN
theorem pre1_fin {n k m : ℕ} {h agg : Mat n k} {W1 : Mat k m} {b1 : Fin m → EReal} (hh : MatFin h) (hagg : MatFin agg)
    (hW1 : MatFin W1) (hb1 : VecFin b1) : MatFin (pre1 h agg W1 b1) :=
  lin_fin (MatFin.add hh hagg) hW1 hb1
theorem relu_fin {n m : ℕ} {z : Mat n m} (hz : MatFin z) : MatFin (relu z) :=
  fun i j => fin_max (hz i j) fin_zero

theorem mean_coe {n m : ℕ} {N : ℝ} (hN : N ≠ 0) (r : Fin n → Fin m → ℝ) (j : Fin m) :
    mean (N : EReal) (fun i j => (r i j : EReal)) j = (((∑ i, r i j) * (1 / N) : ℝ) : EReal) := by
  unfold mean colSum
  rw [Ideal.div_coe hN, ← coe_sum, ← EReal.coe_mul]

theorem varR_coe {n m : ℕ} {N : ℝ} (hN : N ≠ 0) (r : Fin n → Fin m → ℝ) (j : Fin m) :
    varR (N : EReal) (fun i j => (r i j : EReal)) j
      = (((∑ i, (r i j - (∑ i, r i j) * (1 / N)) * (r i j - (∑ i, r i j) * (1 / N))) * (1 / N) : ℝ) : EReal) := by
  unfold varR
  simp only [mean_coe hN]
  unfold colSum
  rw [Ideal.div_coe hN]
  simp only [← EReal.coe_sub, ← EReal.coe_mul]
  rw [← coe_sum, ← EReal.coe_mul]

theorem meanSq_coe {n m : ℕ} {N : ℝ} (hN : N ≠ 0) (r : Fin n → Fin m → ℝ) (j : Fin m) :
    Ideal.div (colSum (fun i j => (r i j : EReal) * (r i j : EReal)) j) (N : EReal)
      = (((∑ i, r i j * r i j) * (1 / N) : ℝ) : EReal) := by
  unfold colSum
  rw [Ideal.div_coe hN]
  simp only [← EReal.coe_mul]
  rw [← coe_sum, ← EReal.coe_mul]

theorem varR_fin_nonneg {n m : ℕ} {N : ℝ} (hN : 0 < N) {z : Mat n m} (hz : MatFin z) (j : Fin m) :
    ∃ v : ℝ, 0 ≤ v ∧ varR (N : EReal) z j = (v : EReal) := by
  obtain ⟨r, rfl⟩ := hz.exists_real
  exact ⟨_, mul_nonneg (Finset.sum_nonneg fun i _ => mul_self_nonneg _) (by positivity), varR_coe hN.ne' r j⟩
theorem varR_fin {n m : ℕ} {N : ℝ} (hN : 0 < N) {z : Mat n m} (hz : MatFin z) : VecFin (varR (N : EReal) z) :=
  fun j => let ⟨v, _, hv⟩ := varR_fin_nonneg hN hz j; ⟨v, hv⟩

theorem bn_fin {n m : ℕ} {z : Mat n m} {mu var g be : Fin m → EReal} {eps : ℝ} (heps : 0 < eps) (hz : MatFin z)
    (hmu : VecFin mu) (hvar : ∀ j, ∃ v : ℝ, 0 ≤ v ∧ var j = (v : EReal)) (hg : VecFin g) (hbe : VecFin be) :
    MatFin (bn z mu var (eps : EReal) g be) := by
  intro i j
  obtain ⟨v, hv0, hv⟩ := hvar j
  have hr : ∃ r : ℝ, Ideal.rsqrt (var j + (eps : EReal)) = (r : EReal) := by
    rw [hv, ← EReal.coe_add]; exact fin_rsqrt_pos (by linarith)
  exact fin_add (fin_mul (fin_mul (fin_sub (hz i j) (hmu j)) hr) (hg j)) (hbe j)

theorem real_var_identity {n : ℕ} (N : ℝ) (hN : N = n) (hn : 0 < n) (x : Fin n → ℝ) :
    (∑ i, x i * x i) * (1 / N) - (∑ i, x i) * (1 / N) * ((∑ i, x i) * (1 / N))
      = (∑ i, (x i - (∑ i, x i) * (1 / N)) * (x i - (∑ i, x i) * (1 / N))) * (1 / N) := by
  have hN0 : N ≠ 0 := by rw [hN]; exact_mod_cast hn.ne'
  obtain ⟨S, hS⟩ : ∃ S : ℝ, S = ∑ i, x i := ⟨_, rfl⟩
  obtain ⟨μ, hμ⟩ : ∃ μ : ℝ, μ = S * (1 / N) := ⟨_, rfl⟩
  rw [← hS, ← hμ]
  have e1 : ∀ i, (x i - μ) * (x i - μ) = x i * x i - 2 * μ * x i + μ * μ := fun i => by ring
  simp only [e1, Finset.sum_add_distrib, Finset.sum_sub_distrib, ← Finset.mul_sum, Finset.sum_const, Finset.card_univ,
    Fintype.card_fin, nsmul_eq_mul]
  rw [← hS, ← hN, hμ]
  field_simp
  ring

theorem varK_eq_varR {n m : ℕ} (N : ℝ) (hN : N = n) (hn : 0 < n) (z : Mat n m) (hz : MatFin z) :
    varK (N : EReal) z = varR (N : EReal) z := by
  have hNpos : 0 < N := by rw [hN]; exact_mod_cast hn
  obtain ⟨r, rfl⟩ := hz.exists_real
  funext j
  unfold varK
  rw [meanSq_coe hNpos.ne', mean_coe hNpos.ne', varR_coe hNpos.ne', ← EReal.coe_mul, ← EReal.coe_sub,
    real_var_identity N hN hn fun i => r i j]
  apply max_eq_left
  exact_mod_cast mul_nonneg (Finset.sum_nonneg fun i _ => mul_self_nonneg _) (by positivity)

theorem layerK_eq_layerR {n k m p : ℕ} (N : ℝ) (hN : N = n) (hn : 0 < n) (eps : EReal) (h agg : Mat n k) (W1 : Mat k m)
    (b1 g be : Fin m → EReal) (W2 : Mat m p) (b2 : Fin p → EReal) (hh : MatFin h) (hagg : MatFin agg) (hW1 : MatFin W1)
    (hb1 : VecFin b1) :
    layerK (N : EReal) eps h agg W1 b1 g be W2 b2 = layerR (N : EReal) eps h agg W1 b1 g be W2 b2 := by
  unfold layerK layerR layerWith
  rw [varK_eq_varR N hN hn _ (pre1_fin hh hagg hW1 hb1)]

theorem layerR_fin {n k m p : ℕ} {N eps : ℝ} (hN : 0 < N) (heps : 0 < eps) {h agg : Mat n k} {W1 : Mat k m}
    {b1 g be : Fin m → EReal} {W2 : Mat m p} {b2 : Fin p → EReal} (hh : MatFin h) (hagg : MatFin agg) (hW1 : MatFin W1)
    (hb1 : VecFin b1) (hg : VecFin g) (hbe : VecFin be) (hW2 : MatFin W2) (hb2 : VecFin b2) :
    MatFin (layerR (N : EReal) (eps : EReal) h agg W1 b1 g be W2 b2) := by
  unfold layerR layerWith
  have hp := pre1_fin hh hagg hW1 hb1
  exact lin_fin (relu_fin (bn_fin heps hp (mean_fin hN.ne' hp) (varR_fin_nonneg hN hp) hg hbe)) hW2 hb2

theorem add_mul_fin {a b c : EReal} (ha : ∃ r : ℝ, a = (r : EReal)) (hb : ∃ r : ℝ, b = (r : EReal))
    (hc : ∃ r : ℝ, c = (r : EReal)) : (a + b) * c = a * c + b * c := by
  obtain ⟨x, rfl⟩ := ha; obtain ⟨y, rfl⟩ := hb; obtain ⟨w, rfl⟩ := hc
  rw [← EReal.coe_add, ← EReal.coe_mul, ← EReal.coe_mul, ← EReal.coe_mul, ← EReal.coe_add, add_mul]

theorem pool4_zero_mul {a b c d e : EReal} (ha : ∃ r : ℝ, a = (r : EReal)) (hb : ∃ r : ℝ, b = (r : EReal))
    (hc : ∃ r : ℝ, c = (r : EReal)) (hd : ∃ r : ℝ, d = (r : EReal)) (he : ∃ r : ℝ, e = (r : EReal)) :
    ((((0 + a) + b) + c) + d) * e = (((0 + a * e) + b * e) + c * e) + d * e := by
  rw [zero_add, zero_add, add_mul_fin (fin_add (fin_add ha hb) hc) hd he, add_mul_fin (fin_add ha hb) hc he,
    add_mul_fin ha hb he]

theorem pool4_mul {a b c d e : EReal} (ha : ∃ r : ℝ, a = (r : EReal)) (hb : ∃ r : ℝ, b = (r : EReal))
    (hc : ∃ r : ℝ, c = (r : EReal)) (hd : ∃ r : ℝ, d = (r : EReal)) (he : ∃ r : ℝ, e = (r : EReal)) :
    (((a + b) + c) + d) * e = ((a * e + b * e) + c * e) + d * e := by
  rw [add_mul_fin (fin_add (fin_add ha hb) hc) hd he, add_mul_fin (fin_add ha hb) hc he, add_mul_fin ha hb he]

theorem pool4_mul_right {a b c d e : EReal} (ha : ∃ r : ℝ, a = (r : EReal)) (hb : ∃ r : ℝ, b = (r : EReal))
    (hc : ∃ r : ℝ, c = (r : EReal)) (hd : ∃ r : ℝ, d = (r : EReal)) (he : ∃ r : ℝ, e = (r : EReal)) :
    (a + (b + (c + d))) * e = a * e + (b * e + (c * e + d * e)) := by
  rw [add_mul_fin ha (fin_add hb (fin_add hc hd)) he, add_mul_fin hb (fin_add hc hd) he, add_mul_fin hc hd he]

theorem pool4_zero_left (a b c d : EReal) : (((0 + a) + b) + c) + d = ((a + b) + c) + d := by rw [zero_add]

theorem pool4_assoc (a b c d : EReal) : ((a + b) + c) + d = a + (b + (c + d)) := by rw [add_assoc, add_assoc]

theorem pool_mat {G d : ℕ} {s1 s2 s3 s4 : Mat G d} {c : Fin G → EReal} (h1 : MatFin s1) (h2 : MatFin s2) (h3 : MatFin s3)
    (h4 : MatFin s4) (hc : VecFin c) (g : Fin G) (j : Fin d) :
    ((((0 + s1 g j) + s2 g j) + s3 g j) + s4 g j) * c g
      = (((0 + s1 g j * c g) + s2 g j * c g) + s3 g j * c g) + s4 g j * c g :=
  pool4_zero_mul (h1 g j) (h2 g j) (h3 g j) (h4 g j) (hc g)

theorem onehot_sum_eq_seg {n G d : ℕ} (sel : Fin n → Fin G → Prop) [∀ i g, Decidable (sel i g)] (oh : Fin n → Fin G → EReal)
    (hoh : ∀ i g, oh i g = if sel i g then 1 else 0) (h : Mat n d) (g : Fin G) (j : Fin d) :
    ∑ i, oh i g * h i j = seg sel h g j := by
  unfold seg
  rw [Finset.sum_filter]
  refine Finset.sum_congr rfl fun i _ => ?_
  rw [hoh]
  split_ifs
  · rw [one_mul]
  · rw [zero_mul]

def tileIdx {T R : ℕ} (t : Fin T) (r : Fin R) : Fin (T * R) := finProdFinEquiv (t, r)

theorem tileIdx_val {T R : ℕ} (t : Fin T) (r : Fin R) : (tileIdx t r : ℕ) = t * R + r := by
  show (r : ℕ) + R * t = t * R + r
  rw [Nat.add_comm, Nat.mul_comm]

theorem sum_tiles {T R : ℕ} {M : Type*} [AddCommMonoid M] (f : Fin (T * R) → M) :
    ∑ i : Fin (T * R), f i = ∑ t : Fin T, ∑ r : Fin R, f (tileIdx t r) := by
  rw [← (finProdFinEquiv : Fin T × Fin R ≃ Fin (T * R)).sum_comp f, Fintype.sum_prod_type]
  rfl

theorem sum_tiles' {T R : ℕ} {M : Type*} [AddCommMonoid M] (f : Fin (T * R) → M)
    (hlt : ∀ (t : Fin T) (r : Fin R), (t : ℕ) * R + r < T * R) :
    ∑ i : Fin (T * R), f i = ∑ t : Fin T, ∑ r : Fin R, f ⟨t * R + r, hlt t r⟩ := by
  rw [sum_tiles]
  refine Finset.sum_congr rfl fun t _ => Finset.sum_congr rfl fun r _ => ?_
  congr 1
  exact Fin.ext (tileIdx_val t r)

theorem ofBits_100000 : Ideal.ofBits .f32 0x47C35000#32 = ((100000 : ℝ) : EReal) := by
  simp [Ideal.ofBits, Ideal.ieee, -EReal.coe_mul]; norm_num
theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul]; norm_num
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Spec

end
-- ==== Proof.SpecNet.lean ====
import proofs.«416827_j50268297232946_2_alg».proof.Proof.SpecLaws

noncomputable section

namespace Cert.Spec

variable {n d G : ℕ} (N eps : EReal) (agg : Mat n d → Mat n d) (W1 W2 : Fin 4 → Mat d d) (b1 g be b2 : Fin 4 → Fin d → EReal)
  (x : Mat n d)

def stepK (l : Fin 4) (h : Mat n d) : Mat n d := layerK N eps h (agg h) (W1 l) (b1 l) (g l) (be l) (W2 l) (b2 l)

def stepR (l : Fin 4) (h : Mat n d) : Mat n d := layerR N eps h (agg h) (W1 l) (b1 l) (g l) (be l) (W2 l) (b2 l)

def hK1 : Mat n d := stepK N eps agg W1 W2 b1 g be b2 0 x
def hK2 : Mat n d := stepK N eps agg W1 W2 b1 g be b2 1 (hK1 N eps agg W1 W2 b1 g be b2 x)
def hK3 : Mat n d := stepK N eps agg W1 W2 b1 g be b2 2 (hK2 N eps agg W1 W2 b1 g be b2 x)
def hK4 : Mat n d := stepK N eps agg W1 W2 b1 g be b2 3 (hK3 N eps agg W1 W2 b1 g be b2 x)
def hR1 : Mat n d := stepR N eps agg W1 W2 b1 g be b2 0 x
def hR2 : Mat n d := stepR N eps agg W1 W2 b1 g be b2 1 (hR1 N eps agg W1 W2 b1 g be b2 x)
def hR3 : Mat n d := stepR N eps agg W1 W2 b1 g be b2 2 (hR2 N eps agg W1 W2 b1 g be b2 x)
def hR4 : Mat n d := stepR N eps agg W1 W2 b1 g be b2 3 (hR3 N eps agg W1 W2 b1 g be b2 x)

def pool4 (h1 h2 h3 h4 : Mat n d) : Mat n d := fun i j => (((0 + h1 i j) + h2 i j) + h3 i j) + h4 i j

def gpoolK (sel : Fin n → Fin G → Prop) [∀ i g, Decidable (sel i g)] (c : Fin G → EReal) (h1 h2 h3 h4 : Mat n d) : Mat G d :=
  fun g j => ((((0 + seg sel h1 g j) + seg sel h2 g j) + seg sel h3 g j) + seg sel h4 g j) * c g

def gpoolR (sel : Fin n → Fin G → Prop) [∀ i g, Decidable (sel i g)] (c : Fin G → EReal) (h1 h2 h3 h4 : Mat n d) : Mat G d :=
  fun g j => (((0 + seg sel h1 g j * c g) + seg sel h2 g j * c g) + seg sel h3 g j * c g) + seg sel h4 g j * c g

end Cert.Spec

end
-- ==== Proof.SpecNetLaws.lean ====
import proofs.«416827_j50268297232946_2_alg».proof.Proof.SpecNet
import proofs.«416827_j50268297232946_2_alg».proof.Proof.SpecLaws

noncomputable section

namespace Cert.Spec

variable {n d G : ℕ} {Nr e : ℝ} {agg : Mat n d → Mat n d} {W1 W2 : Fin 4 → Mat d d}
  {b1 g be b2 : Fin 4 → Fin d → EReal} {x : Mat n d}

structure NetHyp (Nr e : ℝ) (agg : Mat n d → Mat n d) (W1 W2 : Fin 4 → Mat d d)
    (b1 g be b2 : Fin 4 → Fin d → EReal) (x : Mat n d) : Prop where
  hN : Nr = n
  hn : 0 < n
  he : 0 < e
  hx : MatFin x
  hagg : ∀ h : Mat n d, MatFin h → MatFin (agg h)
  hpar : ∀ l : Fin 4, MatFin (W1 l) ∧ MatFin (W2 l) ∧ VecFin (b1 l) ∧ VecFin (g l) ∧ VecFin (be l) ∧ VecFin (b2 l)

theorem step_eq_fin (H : NetHyp Nr e agg W1 W2 b1 g be b2 x) (l : Fin 4) {hk hr : Mat n d} (heq : hk = hr)
    (hfin : MatFin hr) :
    stepK (Nr : EReal) (e : EReal) agg W1 W2 b1 g be b2 l hk = stepR (Nr : EReal) (e : EReal) agg W1 W2 b1 g be b2 l hr
      ∧ MatFin (stepR (Nr : EReal) (e : EReal) agg W1 W2 b1 g be b2 l hr) := by
  rw [heq]
  obtain ⟨hW1, hW2, hb1, hg, hbe, hb2⟩ := H.hpar l
  have hNpos : 0 < Nr := by rw [H.hN]; exact_mod_cast H.hn
  have ha : MatFin (agg hr) := H.hagg hr hfin
  exact ⟨layerK_eq_layerR Nr H.hN H.hn (e : EReal) hr (agg hr) (W1 l) (b1 l) (g l) (be l) (W2 l) (b2 l) hfin ha hW1 hb1,
    layerR_fin hNpos H.he hfin ha hW1 hb1 hg hbe hW2 hb2⟩

theorem hK_eq_hR (H : NetHyp Nr e agg W1 W2 b1 g be b2 x) :
    (hK1 (Nr : EReal) (e : EReal) agg W1 W2 b1 g be b2 x = hR1 (Nr : EReal) (e : EReal) agg W1 W2 b1 g be b2 x
      ∧ hK2 (Nr : EReal) (e : EReal) agg W1 W2 b1 g be b2 x = hR2 (Nr : EReal) (e : EReal) agg W1 W2 b1 g be b2 x
      ∧ hK3 (Nr : EReal) (e : EReal) agg W1 W2 b1 g be b2 x = hR3 (Nr : EReal) (e : EReal) agg W1 W2 b1 g be b2 x
      ∧ hK4 (Nr : EReal) (e : EReal) agg W1 W2 b1 g be b2 x = hR4 (Nr : EReal) (e : EReal) agg W1 W2 b1 g be b2 x)
    ∧ (MatFin (hR1 (Nr : EReal) (e : EReal) agg W1 W2 b1 g be b2 x)
      ∧ MatFin (hR2 (Nr : EReal) (e : EReal) agg W1 W2 b1 g be b2 x)
      ∧ MatFin (hR3 (Nr : EReal) (e : EReal) agg W1 W2 b1 g be b2 x)
      ∧ MatFin (hR4 (Nr : EReal) (e : EReal) agg W1 W2 b1 g be b2 x)) := by
  obtain ⟨e1, f1⟩ := step_eq_fin H 0 (rfl : x = x) H.hx
  obtain ⟨e2, f2⟩ := step_eq_fin H 1 e1 f1
  obtain ⟨e3, f3⟩ := step_eq_fin H 2 e2 f2
  obtain ⟨e4, f4⟩ := step_eq_fin H 3 e3 f3
  exact ⟨⟨e1, e2, e3, e4⟩, f1, f2, f3, f4⟩

theorem pool4_eq (H : NetHyp Nr e agg W1 W2 b1 g be b2 x) :
    pool4 (hK1 (Nr : EReal) (e : EReal) agg W1 W2 b1 g be b2 x) (hK2 (Nr : EReal) (e : EReal) agg W1 W2 b1 g be b2 x)
        (hK3 (Nr : EReal) (e : EReal) agg W1 W2 b1 g be b2 x) (hK4 (Nr : EReal) (e : EReal) agg W1 W2 b1 g be b2 x)
      = pool4 (hR1 (Nr : EReal) (e : EReal) agg W1 W2 b1 g be b2 x) (hR2 (Nr : EReal) (e : EReal) agg W1 W2 b1 g be b2 x)
        (hR3 (Nr : EReal) (e : EReal) agg W1 W2 b1 g be b2 x) (hR4 (Nr : EReal) (e : EReal) agg W1 W2 b1 g be b2 x) := by
  obtain ⟨⟨e1, e2, e3, e4⟩, -⟩ := hK_eq_hR H
  rw [e1, e2, e3, e4]

theorem gpool_eq (H : NetHyp Nr e agg W1 W2 b1 g be b2 x) (sel : Fin n → Fin G → Prop) [∀ i k, Decidable (sel i k)]
    (c : Fin G → EReal) (hc : VecFin c) :
    gpoolK sel c (hK1 (Nr : EReal) (e : EReal) agg W1 W2 b1 g be b2 x) (hK2 (Nr : EReal) (e : EReal) agg W1 W2 b1 g be b2 x)
        (hK3 (Nr : EReal) (e : EReal) agg W1 W2 b1 g be b2 x) (hK4 (Nr : EReal) (e : EReal) agg W1 W2 b1 g be b2 x)
      = gpoolR sel c (hR1 (Nr : EReal) (e : EReal) agg W1 W2 b1 g be b2 x) (hR2 (Nr : EReal) (e : EReal) agg W1 W2 b1 g be b2 x)
        (hR3 (Nr : EReal) (e : EReal) agg W1 W2 b1 g be b2 x) (hR4 (Nr : EReal) (e : EReal) agg W1 W2 b1 g be b2 x) := by
  obtain ⟨⟨e1, e2, e3, e4⟩, f1, f2, f3, f4⟩ := hK_eq_hR H
  rw [e1, e2, e3, e4]
  funext k j
  exact pool_mat (seg_fin sel f1) (seg_fin sel f2) (seg_fin sel f3) (seg_fin sel f4) hc k j

end Cert.Spec

end
-- ==== Proof.PreFin.lean ====
import proofs.«416827_j50268297232946_2_alg».proof.Pre_finite_inputs
import proofs.«416827_j50268297232946_2_alg».proof.Proof.Gen.Pre_finite_inputs
import proofs.«416827_j50268297232946_2_alg».proof.Defs
import Idealize.ShloMosaic.Lib.ReduceAll
import Idealize.ShloMosaic.Lib.ValueIdx

noncomputable section

namespace Cert.PreFin

open Idealize.ShloMosaic Idealize.SL.Sem Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_top (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [inf_eq_top] at h
  change BitVec.ofBool (decide (max x (-x) < (⊤ : EReal))) = 1#1 at h
  induction x using EReal.rec with
  | bot => simp at h
  | coe r => exact ⟨r, rfl⟩
  | top => simp at h

theorem all_real {s : Shape} {axes : List (Fin s.rank)} (a : FVec Ideal s .f32)
    (hb : S_.BroadcastsInDim s (![] : Fin 0 → Fin s.rank)) (hr : s.ReducesTo axes S_)
    (init : IVec S_ 1) (hu : 0 < S_.numel) (j : S_.Idx)
    (e : Host.reduce IntOp.andi
          (cmpf .olt (Host.absf a) (broadcastInDim s ![] hb (constant S_ .f32 0x7F800000#32))) init hr hu j = 1#1) :
    ∀ i, ∃ r : ℝ, a i = (r : EReal) :=
  fun i => real_of_abs_lt_top _ (Host.reduce_andi_all _ init hr hu j e i)

theorem fin_of_pre
    (a0 : FVec Ideal S100000x64 .f32) (a1 : IVec S2x1600000 32) (a2 : IVec S100000 32)
    (a3 : FVec Ideal S4x64x64 .f32) (a4 : FVec Ideal S4x64 .f32) (a5 : FVec Ideal S4x64 .f32)
    (a6 : FVec Ideal S4x64 .f32) (a7 : FVec Ideal S4x64x64 .f32) (a8 : FVec Ideal S4x64 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) := by
  have h0 := congrFun h ValueIdx.ix0
  dsimp only [fn, fn_part1, andi] at h0
  simp only [IntOp.andi_eq_one] at h0
  obtain ⟨⟨⟨⟨⟨⟨e0, e3⟩, e4⟩, e5⟩, e6⟩, e7⟩, e8⟩ := h0
  exact ⟨all_real a0 _ _ _ _ _ e0, all_real a3 _ _ _ _ _ e3, all_real a4 _ _ _ _ _ e4,
    all_real a5 _ _ _ _ _ e5, all_real a6 _ _ _ _ _ e6, all_real a7 _ _ _ _ _ e7,
    all_real a8 _ _ _ _ _ e8⟩

theorem fin_of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S100000x64.Idx, ∃ r : ℝ, m ((c.tc : Thread Cert.KernelIdeal.nD Cert.KernelIdeal.τ).loc Cert.KernelIdeal.main_arg0) i = (r : EReal)) ∧
    (∀ i : S4x64x64.Idx, ∃ r : ℝ, m ((c.tc : Thread Cert.KernelIdeal.nD Cert.KernelIdeal.τ).loc Cert.KernelIdeal.main_arg3) i = (r : EReal)) ∧
    (∀ i : S4x64.Idx, ∃ r : ℝ, m ((c.tc : Thread Cert.KernelIdeal.nD Cert.KernelIdeal.τ).loc Cert.KernelIdeal.main_arg4) i = (r : EReal)) ∧
    (∀ i : S4x64.Idx, ∃ r : ℝ, m ((c.tc : Thread Cert.KernelIdeal.nD Cert.KernelIdeal.τ).loc Cert.KernelIdeal.main_arg5) i = (r : EReal)) ∧
    (∀ i : S4x64.Idx, ∃ r : ℝ, m ((c.tc : Thread Cert.KernelIdeal.nD Cert.KernelIdeal.τ).loc Cert.KernelIdeal.main_arg6) i = (r : EReal)) ∧
    (∀ i : S4x64x64.Idx, ∃ r : ℝ, m ((c.tc : Thread Cert.KernelIdeal.nD Cert.KernelIdeal.τ).loc Cert.KernelIdeal.main_arg7) i = (r : EReal)) ∧
    (∀ i : S4x64.Idx, ∃ r : ℝ, m ((c.tc : Thread Cert.KernelIdeal.nD Cert.KernelIdeal.τ).loc Cert.KernelIdeal.main_arg8) i = (r : EReal)) :=
  fin_of_pre _ _ _ _ _ _ _ _ _ (h c)

theorem fin_of_pre_referenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i : S100000x64.Idx, ∃ r : ℝ, m ((c.tc : Thread Cert.ReferenceIdeal.nD Cert.ReferenceIdeal.τ).loc Cert.ReferenceIdeal.main_arg0) i = (r : EReal)) ∧
    (∀ i : S4x64x64.Idx, ∃ r : ℝ, m ((c.tc : Thread Cert.ReferenceIdeal.nD Cert.ReferenceIdeal.τ).loc Cert.ReferenceIdeal.main_arg3) i = (r : EReal)) ∧
    (∀ i : S4x64.Idx, ∃ r : ℝ, m ((c.tc : Thread Cert.ReferenceIdeal.nD Cert.ReferenceIdeal.τ).loc Cert.ReferenceIdeal.main_arg4) i = (r : EReal)) ∧
    (∀ i : S4x64.Idx, ∃ r : ℝ, m ((c.tc : Thread Cert.ReferenceIdeal.nD Cert.ReferenceIdeal.τ).loc Cert.ReferenceIdeal.main_arg5) i = (r : EReal)) ∧
    (∀ i : S4x64.Idx, ∃ r : ℝ, m ((c.tc : Thread Cert.ReferenceIdeal.nD Cert.ReferenceIdeal.τ).loc Cert.ReferenceIdeal.main_arg6) i = (r : EReal)) ∧
    (∀ i : S4x64x64.Idx, ∃ r : ℝ, m ((c.tc : Thread Cert.ReferenceIdeal.nD Cert.ReferenceIdeal.τ).loc Cert.ReferenceIdeal.main_arg7) i = (r : EReal)) ∧
    (∀ i : S4x64.Idx, ∃ r : ℝ, m ((c.tc : Thread Cert.ReferenceIdeal.nD Cert.ReferenceIdeal.τ).loc Cert.ReferenceIdeal.main_arg8) i = (r : EReal)) :=
  fin_of_pre _ _ _ _ _ _ _ _ _ (h c)

end Cert.PreFin

end
-- ==== Proof.SpecMV.lean ====
import proofs.«416827_j50268297232946_2_alg».proof.Proof.Spec

noncomputable section

namespace Cert.Spec

def layerMV {n k m p : ℕ} (eps : EReal) (h agg : Mat n k) (W1 : Mat k m) (b1 mu var g be : Fin m → EReal) (W2 : Mat m p)
    (b2 : Fin p → EReal) : Mat n p :=
  lin (relu (bn (pre1 h agg W1 b1) mu var eps g be)) W2 b2

theorem layerWith_eq_layerMV {n k m p : ℕ} (var : EReal → Mat n m → Fin m → EReal) (N eps : EReal) (h agg : Mat n k)
    (W1 : Mat k m) (b1 g be : Fin m → EReal) (W2 : Mat m p) (b2 : Fin p → EReal) :
    layerWith var N eps h agg W1 b1 g be W2 b2
      = layerMV eps h agg W1 b1 (mean N (pre1 h agg W1 b1)) (var N (pre1 h agg W1 b1)) g be W2 b2 := rfl

end Cert.Spec

end
-- ==== Proof.KI.StatsCommon.lean ====
import proofs.«416827_j50268297232946_2_alg».proof.Proof.Gen.KernelIdeal
import Idealize.ShloMosaic.Lib.ValueLayout
import Idealize.ShloMosaic.Lib.StackMember

noncomputable section

namespace Cert.KernelIdeal.Hand

open Idealize.ShloMosaic Idealize.ShloMosaic.ValueIdx
open Cert.KernelIdeal.Gen

theorem acc_row_apply (X : FVec Ideal S5000x64 .f32) (v : FVec Ideal S1x64 .f32) (j : Fin 64) :
    shapeCast S1x64 (addf v (shapeCast S1x64
        (multiReduction .add [0] S64 X 0x00000000#32 reduces_S5000x64_S64 (.inl rfl) rfl) shapeCasts_S64_S1x64))
      shapeCasts_S1x64_S1x64 (ix2 (0 : Fin 1) j)
      = v (ix2 (0 : Fin 1) j) + ∑ r : Fin 5000, X (ix2 r j) := by
  rw [shapeCast_self, addf_apply, shapeCast_a_1a_apply]
  exact congrArg (v _ + ·) ((Ideal.multiReduction_add_single X _ _ _ _ _).trans
    (Finset.sum_congr rfl fun r _ => congrArg X (Shape.idx_ext₂ rfl rfl)))

theorem zero_row_apply (i : S1x64.Idx) :
    shapeCast S1x64 (broadcast S1x64 (Scalar.ofBits (F := Ideal) .f32 0x00000000#32)) shapeCasts_S1x64_S1x64 i = (0 : EReal) := by
  rw [shapeCast_self]
  exact Ideal.ofBits_zero_f32

theorem pre_entry_apply (a b : FVec Ideal S5000x64 .f32) (W : FVec Ideal S64x64 .f32) (bias : FVec Ideal S1x64 .f32)
    (r : Fin 5000) (j : Fin 64) :
    addf (matmul dot_S5000x64_S64x64_S5000x64_1_0_0_1_n_n none (truncf .bf16 (addf a b) bitsLt_bf16_f32)
        (truncf .bf16 W bitsLt_bf16_f32) (constant (F := Ideal) S5000x64 .f32 0x00000000#32))
      (broadcastTo S5000x64 bias broadcasts_S1x64_S5000x64) (ix2 r j)
      = (∑ l : Fin 64, (a (ix2 r l) + b (ix2 r l)) * W (ix2 l j)) + bias (ix2 (0 : Fin 1) j) := by
  rw [addf_apply, matmul_zero_eq_dotGeneral, broadcastTo_1b_ab_apply]
  exact congrArg (· + bias _) (StackMember.dotGeneral_plain_apply none _ _ r j)

end Cert.KernelIdeal.Hand

end
-- ==== Proof.SpecRead.lean ====
import proofs.«416827_j50268297232946_2_alg».proof.Proof.Spec
import Idealize.ShloMosaic.Lib.ValueIdx

noncomputable section

namespace Cert.Spec

open Idealize.ShloMosaic Idealize.ShloMosaic.ValueIdx

def mat {n m : ℕ} (a : (⟨2, ![n, m]⟩ : Shape).Idx → EReal) : Mat n m := fun i j => a (ix2 i j)

def vec {n : ℕ} (a : (⟨1, ![n]⟩ : Shape).Idx → EReal) : Fin n → EReal := fun j => a (ix1 j)

def row {m : ℕ} (a : (⟨2, ![1, m]⟩ : Shape).Idx → EReal) : Fin m → EReal := fun j => a (ix2 0 j)

def mat3 {L n m : ℕ} (a : (⟨3, ![L, n, m]⟩ : Shape).Idx → EReal) (l : Fin L) : Mat n m := fun i j => a (ix3 l i j)
def row2 {L m : ℕ} (a : (⟨2, ![L, m]⟩ : Shape).Idx → EReal) (l : Fin L) : Fin m → EReal := fun j => a (ix2 l j)

theorem mat_fin {n m : ℕ} {a : (⟨2, ![n, m]⟩ : Shape).Idx → EReal} (h : ∀ i, ∃ r : ℝ, a i = (r : EReal)) : MatFin (mat a) :=
  fun i j => h (ix2 i j)
theorem vec_fin {n : ℕ} {a : (⟨1, ![n]⟩ : Shape).Idx → EReal} (h : ∀ i, ∃ r : ℝ, a i = (r : EReal)) : VecFin (vec a) :=
  fun j => h (ix1 j)
theorem row_fin {m : ℕ} {a : (⟨2, ![1, m]⟩ : Shape).Idx → EReal} (h : ∀ i, ∃ r : ℝ, a i = (r : EReal)) : VecFin (row a) :=
  fun j => h (ix2 0 j)
theorem mat3_fin {L n m : ℕ} {a : (⟨3, ![L, n, m]⟩ : Shape).Idx → EReal} (h : ∀ i, ∃ r : ℝ, a i = (r : EReal)) (l : Fin L) :
    MatFin (mat3 a l) := fun i j => h (ix3 l i j)
theorem row2_fin {L m : ℕ} {a : (⟨2, ![L, m]⟩ : Shape).Idx → EReal} (h : ∀ i, ∃ r : ℝ, a i = (r : EReal)) (l : Fin L) :
    VecFin (row2 a l) := fun j => h (ix2 l j)

end Cert.Spec

end
-- ==== Proof.KI.StatsVal0.lean ====
import proofs.«416827_j50268297232946_2_alg».proof.Proof.KI.Stats0
import proofs.«416827_j50268297232946_2_alg».proof.Proof.KI.StatsCommon
import proofs.«416827_j50268297232946_2_alg».proof.Proof.SpecLaws
import proofs.«416827_j50268297232946_2_alg».proof.Proof.SpecRead

noncomputable section

namespace Cert.KernelIdeal.Hand

open Idealize.ShloMosaic Idealize.ShloMosaic.TcCoe Idealize.ShloMosaic.ValueIdx
open Cert.KernelIdeal.Gen

variable (V : (c : Dev nD) → (b : Ref sig .tc) → Buf (Elt Ideal) ((c : Thread nD τ).loc b))

def z0 (c : Dev nD) : Cert.Spec.Mat 100000 64 :=
  Cert.Spec.pre1 (Cert.Spec.mat (V c main_arg0)) (Cert.Spec.mat (V c main_v35)) (Cert.Spec.mat (V c main_v37))
    (Cert.Spec.row (V c main_v40))

theorem pt_lt0 (t : Fin cfg0.N) : t.val < 20 := lt_of_lt_of_eq t.isLt N_0

def tileRow0 (t : Fin cfg0.N) (r : Fin 5000) : Fin 100000 := ⟨t.val * 5000 + r.val, by have := pt_lt0 t; omega⟩

def tile0 (f : EReal → EReal) (c : Dev nD) (t : Fin cfg0.N) (j : Fin 64) : EReal := ∑ r : Fin 5000, f (z0 V c (tileRow0 t r) j)

theorem idx_facts0 : ∀ t : Fin cfg0.N, win0_0.index t (0 : Fin 2) = t.val ∧ win0_1.index t (0 : Fin 2) = t.val :=
  (by decide +kernel : ∀ t : Fin grid0.N, _)

theorem iblk0_0_apply (c : Dev nD) (t : Fin cfg0.N) (r : Fin 5000) (k : Fin 64) :
    iblk0 V c 0 t (ix2 r k) = V c main_arg0 (ix2 (tileRow0 t r) k) :=
  congrArg (V c main_arg0) (Shape.idx_ext₂
    (by show win0_0.index t (0 : Fin 2) * 5000 + 1 * r.val = t.val * 5000 + r.val; rw [(idx_facts0 t).1]; omega)
    (by show 0 * 64 + 1 * k.val = k.val; omega))

theorem iblk0_1_apply (c : Dev nD) (t : Fin cfg0.N) (r : Fin 5000) (k : Fin 64) :
    iblk0 V c 1 t (ix2 r k) = V c main_v35 (ix2 (tileRow0 t r) k) :=
  congrArg (V c main_v35) (Shape.idx_ext₂
    (by show win0_1.index t (0 : Fin 2) * 5000 + 1 * r.val = t.val * 5000 + r.val; rw [(idx_facts0 t).2]; omega)
    (by show 0 * 64 + 1 * k.val = k.val; omega))

theorem iblk0_2_apply (c : Dev nD) (t : Fin cfg0.N) (y : S64x64.Idx) : iblk0 V c 2 t y = V c main_v37 y :=
  congrArg (V c main_v37) (Shape.idx_ext₂ (win0_2.rect_emb_val_of_index_zero t (0 : Fin 2) rfl y)
    (win0_2.rect_emb_val_of_index_zero t (1 : Fin 2) rfl y))

theorem iblk0_3_apply (c : Dev nD) (t : Fin cfg0.N) (y : S1x64.Idx) : iblk0 V c 3 t y = V c main_v40 y :=
  congrArg (V c main_v40) (Shape.idx_ext₂ (win0_3.rect_emb_val_of_index_zero t (0 : Fin 2) rfl y)
    (win0_3.rect_emb_val_of_index_zero t (1 : Fin 2) rfl y))

theorem entry0 (c : Dev nD) (t : Fin cfg0.N) (r : Fin 5000) (j : Fin 64) :
    k0_pay3 (iblk0 V c 0 t) (iblk0 V c 1 t) (iblk0 V c 2 t) (iblk0 V c 3 t) (ix2 r j) = z0 V c (tileRow0 t r) j := by
  unfold k0_pay3
  simp only [shapeCast_self]
  rw [pre_entry_apply]
  simp only [iblk0_0_apply, iblk0_1_apply, iblk0_2_apply, iblk0_3_apply]
  rfl

theorem step_sum0 (c : Dev nD) (t : Fin cfg0.N) (v16 : FVec Ideal S1x64 .f32) (j : Fin 64) :
    k0_pay4 (iblk0 V c 0 t) (iblk0 V c 1 t) (iblk0 V c 2 t) (iblk0 V c 3 t) v16 (ix2 0 j)
      = v16 (ix2 0 j) + tile0 V id c t j :=
  (acc_row_apply _ v16 j).trans (congrArg (v16 _ + ·) (Finset.sum_congr rfl fun r _ => entry0 V c t r j))

theorem step_sq0 (c : Dev nD) (t : Fin cfg0.N) (v23 : FVec Ideal S1x64 .f32) (j : Fin 64) :
    k0_pay5 (iblk0 V c 0 t) (iblk0 V c 1 t) (iblk0 V c 2 t) (iblk0 V c 3 t) v23 (ix2 0 j)
      = v23 (ix2 0 j) + tile0 V (fun x => x * x) c t j :=
  (acc_row_apply _ v23 j).trans (congrArg (v23 _ + ·) (Finset.sum_congr rfl fun r _ =>
    congrArg (fun x => x * x) (entry0 V c t r j)))

theorem pay1_apply0 (i : S1x64.Idx) : (k0_pay1 (F := Ideal)) i = (0 : EReal) := zero_row_apply i
theorem pay2_apply0 (i : S1x64.Idx) : (k0_pay2 (F := Ideal)) i = (0 : EReal) := zero_row_apply i

theorem total0 (c : Dev nD) (j : Fin 64) (f : EReal → EReal) (s : ℕ → EReal) (h0 : s 0 = tile0 V f c (pt0 0) j)
    (hs : ∀ n, s (n + 1) = s n + tile0 V f c (pt0 (n + 1)) j) : s 19 = ∑ i : Fin 100000, f (z0 V c i j) := by
  have e : ∀ n, s n = ∑ t ∈ Finset.range (n + 1), tile0 V f c (pt0 t) j := fun n => by
    induction n with
    | zero => rw [h0, Finset.sum_range_one]
    | succ n ih => rw [hs, ih, Finset.sum_range_succ _ (n + 1)]
  rw [e, Finset.sum_range fun t => tile0 V f c (pt0 t) j]
  exact (Finset.sum_congr rfl fun t _ => congrArg (tile0 V f c · j) (pt0_val t)).trans
    (Cert.Spec.sum_tiles' (T := 20) (R := 5000) (fun i => f (z0 V c i j))
      fun t r => by have := t.isLt; have := r.isLt; omega).symm

def last0 : Fin cfg0.N := ⟨19, by decide⟩

theorem arrAt0_4 (c : Dev nD) : (dat0 V c).arrAt 4 cfg0.N = scr0_0 V c 19 := by
  refine (dat0 V c).arrAt_eq_of_cover 4 _ (fun t hf => ?_) fun i : S1x64.Idx => ⟨last0, (flush0_4 _).mpr rfl, ?_⟩
  · have h19 : t.val = 19 := by have := (flush0_4 t).mp hf; have := pt_lt0 t; omega
    rw [Pipeline.Dat.flushed, after0_4, h19]
    exact funext fun y => congrArg (scr0_0 V c 19) (Shape.idx_ext₂
      (win0_4.rect_emb_val_of_index_zero t (0 : Fin 2) rfl y).symm (win0_4.rect_emb_val_of_index_zero t (1 : Fin 2) rfl y).symm)
  · show i ∈ ((View.whole main_v41_0).slice (win0_4.rect last0)).set
    rw [View.set_slice_whole]
    exact View.mem_set_unit_zero (funext fun | ⟨0, _⟩ => rfl | ⟨1, _⟩ => rfl) _ i

theorem arrAt0_5 (c : Dev nD) : (dat0 V c).arrAt 5 cfg0.N = scr0_1 V c 19 := by
  refine (dat0 V c).arrAt_eq_of_cover 5 _ (fun t hf => ?_) fun i : S1x64.Idx => ⟨last0, (flush0_5 _).mpr rfl, ?_⟩
  · have h19 : t.val = 19 := by have := (flush0_5 t).mp hf; have := pt_lt0 t; omega
    rw [Pipeline.Dat.flushed, after0_5, h19]
    exact funext fun y => congrArg (scr0_1 V c 19) (Shape.idx_ext₂
      (win0_5.rect_emb_val_of_index_zero t (0 : Fin 2) rfl y).symm (win0_5.rect_emb_val_of_index_zero t (1 : Fin 2) rfl y).symm)
  · show i ∈ ((View.whole main_v41_1).slice (win0_5.rect last0)).set
    rw [View.set_slice_whole]
    exact View.mem_set_unit_zero (funext fun | ⟨0, _⟩ => rfl | ⟨1, _⟩ => rfl) _ i

theorem stats_sum0 (c : Dev nD) (j : Fin 64) :
    Cert.Spec.row ((dat0 (F := Ideal) V c).arrAt 4 cfg0.N) j = Cert.Spec.colSum (z0 V c) j := by
  rw [arrAt0_4]
  exact total0 V c j id (scr0_0 V c · (ix2 0 j)) (by rw [scr0_0, step_sum0, pay1_apply0, zero_add])
    fun n => by rw [scr0_0, step_sum0]

theorem stats_sumsq0 (c : Dev nD) (j : Fin 64) :
    Cert.Spec.row ((dat0 (F := Ideal) V c).arrAt 5 cfg0.N) j
      = Cert.Spec.colSum (fun i j => z0 V c i j * z0 V c i j) j := by
  rw [arrAt0_5]
  exact total0 V c j (fun x => x * x) (scr0_1 V c · (ix2 0 j)) (by rw [scr0_1, step_sq0, pay2_apply0, zero_add])
    fun n => by rw [scr0_1, step_sq0]

end Cert.KernelIdeal.Hand

end
-- ==== Proof.KI.StatsVal2.lean ====
import proofs.«416827_j50268297232946_2_alg».proof.Proof.KI.Stats2
import proofs.«416827_j50268297232946_2_alg».proof.Proof.KI.StatsCommon
import proofs.«416827_j50268297232946_2_alg».proof.Proof.SpecLaws
import proofs.«416827_j50268297232946_2_alg».proof.Proof.SpecRead

noncomputable section

namespace Cert.KernelIdeal.Hand

open Idealize.ShloMosaic Idealize.ShloMosaic.TcCoe Idealize.ShloMosaic.ValueIdx
open Cert.KernelIdeal.Gen

variable (V : (c : Dev nD) → (b : Ref sig .tc) → Buf (Elt Ideal) ((c : Thread nD τ).loc b))

def z2 (c : Dev nD) : Cert.Spec.Mat 100000 64 :=
  Cert.Spec.pre1 (Cert.Spec.mat (V c main_v70_0)) (Cert.Spec.mat (V c main_v83)) (Cert.Spec.mat (V c main_v85))
    (Cert.Spec.row (V c main_v88))

theorem pt_lt2 (t : Fin cfg2.N) : t.val < 20 := lt_of_lt_of_eq t.isLt N_2

def tileRow2 (t : Fin cfg2.N) (r : Fin 5000) : Fin 100000 := ⟨t.val * 5000 + r.val, by have := pt_lt2 t; omega⟩

def tile2 (f : EReal → EReal) (c : Dev nD) (t : Fin cfg2.N) (j : Fin 64) : EReal := ∑ r : Fin 5000, f (z2 V c (tileRow2 t r) j)

theorem idx_facts2 : ∀ t : Fin cfg2.N, win2_0.index t (0 : Fin 2) = t.val ∧ win2_1.index t (0 : Fin 2) = t.val :=
  (by decide +kernel : ∀ t : Fin grid2.N, _)

theorem iblk2_0_apply (c : Dev nD) (t : Fin cfg2.N) (r : Fin 5000) (k : Fin 64) :
    iblk2 V c 0 t (ix2 r k) = V c main_v70_0 (ix2 (tileRow2 t r) k) :=
  congrArg (V c main_v70_0) (Shape.idx_ext₂
    (by show win2_0.index t (0 : Fin 2) * 5000 + 1 * r.val = t.val * 5000 + r.val; rw [(idx_facts2 t).1]; omega)
    (by show 0 * 64 + 1 * k.val = k.val; omega))

theorem iblk2_1_apply (c : Dev nD) (t : Fin cfg2.N) (r : Fin 5000) (k : Fin 64) :
    iblk2 V c 1 t (ix2 r k) = V c main_v83 (ix2 (tileRow2 t r) k) :=
  congrArg (V c main_v83) (Shape.idx_ext₂
    (by show win2_1.index t (0 : Fin 2) * 5000 + 1 * r.val = t.val * 5000 + r.val; rw [(idx_facts2 t).2]; omega)
    (by show 0 * 64 + 1 * k.val = k.val; omega))

theorem iblk2_2_apply (c : Dev nD) (t : Fin cfg2.N) (y : S64x64.Idx) : iblk2 V c 2 t y = V c main_v85 y :=
  congrArg (V c main_v85) (Shape.idx_ext₂ (win2_2.rect_emb_val_of_index_zero t (0 : Fin 2) rfl y)
    (win2_2.rect_emb_val_of_index_zero t (1 : Fin 2) rfl y))

theorem iblk2_3_apply (c : Dev nD) (t : Fin cfg2.N) (y : S1x64.Idx) : iblk2 V c 3 t y = V c main_v88 y :=
  congrArg (V c main_v88) (Shape.idx_ext₂ (win2_3.rect_emb_val_of_index_zero t (0 : Fin 2) rfl y)
    (win2_3.rect_emb_val_of_index_zero t (1 : Fin 2) rfl y))

theorem entry2 (c : Dev nD) (t : Fin cfg2.N) (r : Fin 5000) (j : Fin 64) :
    k2_pay3 (iblk2 V c 0 t) (iblk2 V c 1 t) (iblk2 V c 2 t) (iblk2 V c 3 t) (ix2 r j) = z2 V c (tileRow2 t r) j := by
  unfold k2_pay3
  simp only [shapeCast_self]
  rw [pre_entry_apply]
  simp only [iblk2_0_apply, iblk2_1_apply, iblk2_2_apply, iblk2_3_apply]
  rfl

theorem step_sum2 (c : Dev nD) (t : Fin cfg2.N) (v16 : FVec Ideal S1x64 .f32) (j : Fin 64) :
    k2_pay4 (iblk2 V c 0 t) (iblk2 V c 1 t) (iblk2 V c 2 t) (iblk2 V c 3 t) v16 (ix2 0 j)
      = v16 (ix2 0 j) + tile2 V id c t j :=
  (acc_row_apply _ v16 j).trans (congrArg (v16 _ + ·) (Finset.sum_congr rfl fun r _ => entry2 V c t r j))

theorem step_sq2 (c : Dev nD) (t : Fin cfg2.N) (v23 : FVec Ideal S1x64 .f32) (j : Fin 64) :
    k2_pay5 (iblk2 V c 0 t) (iblk2 V c 1 t) (iblk2 V c 2 t) (iblk2 V c 3 t) v23 (ix2 0 j)
      = v23 (ix2 0 j) + tile2 V (fun x => x * x) c t j :=
  (acc_row_apply _ v23 j).trans (congrArg (v23 _ + ·) (Finset.sum_congr rfl fun r _ =>
    congrArg (fun x => x * x) (entry2 V c t r j)))

theorem pay1_apply2 (i : S1x64.Idx) : (k2_pay1 (F := Ideal)) i = (0 : EReal) := zero_row_apply i
theorem pay2_apply2 (i : S1x64.Idx) : (k2_pay2 (F := Ideal)) i = (0 : EReal) := zero_row_apply i

theorem total2 (c : Dev nD) (j : Fin 64) (f : EReal → EReal) (s : ℕ → EReal) (h0 : s 0 = tile2 V f c (pt2 0) j)
    (hs : ∀ n, s (n + 1) = s n + tile2 V f c (pt2 (n + 1)) j) : s 19 = ∑ i : Fin 100000, f (z2 V c i j) := by
  have e : ∀ n, s n = ∑ t ∈ Finset.range (n + 1), tile2 V f c (pt2 t) j := fun n => by
    induction n with
    | zero => rw [h0, Finset.sum_range_one]
    | succ n ih => rw [hs, ih, Finset.sum_range_succ _ (n + 1)]
  rw [e, Finset.sum_range fun t => tile2 V f c (pt2 t) j]
  exact (Finset.sum_congr rfl fun t _ => congrArg (tile2 V f c · j) (pt2_val t)).trans
    (Cert.Spec.sum_tiles' (T := 20) (R := 5000) (fun i => f (z2 V c i j))
      fun t r => by have := t.isLt; have := r.isLt; omega).symm

def last2 : Fin cfg2.N := ⟨19, by decide⟩

theorem arrAt2_4 (c : Dev nD) : (dat2 V c).arrAt 4 cfg2.N = scr2_0 V c 19 := by
  refine (dat2 V c).arrAt_eq_of_cover 4 _ (fun t hf => ?_) fun i : S1x64.Idx => ⟨last2, (flush2_4 _).mpr rfl, ?_⟩
  · have h19 : t.val = 19 := by have := (flush2_4 t).mp hf; have := pt_lt2 t; omega
    rw [Pipeline.Dat.flushed, after2_4, h19]
    exact funext fun y => congrArg (scr2_0 V c 19) (Shape.idx_ext₂
      (win2_4.rect_emb_val_of_index_zero t (0 : Fin 2) rfl y).symm (win2_4.rect_emb_val_of_index_zero t (1 : Fin 2) rfl y).symm)
  · show i ∈ ((View.whole main_v89_0).slice (win2_4.rect last2)).set
    rw [View.set_slice_whole]
    exact View.mem_set_unit_zero (funext fun | ⟨0, _⟩ => rfl | ⟨1, _⟩ => rfl) _ i

theorem arrAt2_5 (c : Dev nD) : (dat2 V c).arrAt 5 cfg2.N = scr2_1 V c 19 := by
  refine (dat2 V c).arrAt_eq_of_cover 5 _ (fun t hf => ?_) fun i : S1x64.Idx => ⟨last2, (flush2_5 _).mpr rfl, ?_⟩
  · have h19 : t.val = 19 := by have := (flush2_5 t).mp hf; have := pt_lt2 t; omega
    rw [Pipeline.Dat.flushed, after2_5, h19]
    exact funext fun y => congrArg (scr2_1 V c 19) (Shape.idx_ext₂
      (win2_5.rect_emb_val_of_index_zero t (0 : Fin 2) rfl y).symm (win2_5.rect_emb_val_of_index_zero t (1 : Fin 2) rfl y).symm)
  · show i ∈ ((View.whole main_v89_1).slice (win2_5.rect last2)).set
    rw [View.set_slice_whole]
    exact View.mem_set_unit_zero (funext fun | ⟨0, _⟩ => rfl | ⟨1, _⟩ => rfl) _ i

theorem stats_sum2 (c : Dev nD) (j : Fin 64) :
    Cert.Spec.row ((dat2 (F := Ideal) V c).arrAt 4 cfg2.N) j = Cert.Spec.colSum (z2 V c) j := by
  rw [arrAt2_4]
  exact total2 V c j id (scr2_0 V c · (ix2 0 j)) (by rw [scr2_0, step_sum2, pay1_apply2, zero_add])
    fun n => by rw [scr2_0, step_sum2]

theorem stats_sumsq2 (c : Dev nD) (j : Fin 64) :
    Cert.Spec.row ((dat2 (F := Ideal) V c).arrAt 5 cfg2.N) j
      = Cert.Spec.colSum (fun i j => z2 V c i j * z2 V c i j) j := by
  rw [arrAt2_5]
  exact total2 V c j (fun x => x * x) (scr2_1 V c · (ix2 0 j)) (by rw [scr2_1, step_sq2, pay2_apply2, zero_add])
    fun n => by rw [scr2_1, step_sq2]

end Cert.KernelIdeal.Hand

end
-- ==== Proof.KI.StatsVal4.lean ====
import proofs.«416827_j50268297232946_2_alg».proof.Proof.KI.Stats4
import proofs.«416827_j50268297232946_2_alg».proof.Proof.KI.StatsCommon
import proofs.«416827_j50268297232946_2_alg».proof.Proof.SpecLaws
import proofs.«416827_j50268297232946_2_alg».proof.Proof.SpecRead

noncomputable section

namespace Cert.KernelIdeal.Hand

open Idealize.ShloMosaic Idealize.ShloMosaic.TcCoe Idealize.ShloMosaic.ValueIdx
open Cert.KernelIdeal.Gen

variable (V : (c : Dev nD) → (b : Ref sig .tc) → Buf (Elt Ideal) ((c : Thread nD τ).loc b))

def z4 (c : Dev nD) : Cert.Spec.Mat 100000 64 :=
  Cert.Spec.pre1 (Cert.Spec.mat (V c main_v118_0)) (Cert.Spec.mat (V c main_v131)) (Cert.Spec.mat (V c main_v133))
    (Cert.Spec.row (V c main_v136))

theorem pt_lt4 (t : Fin cfg4.N) : t.val < 20 := lt_of_lt_of_eq t.isLt N_4

def tileRow4 (t : Fin cfg4.N) (r : Fin 5000) : Fin 100000 := ⟨t.val * 5000 + r.val, by have := pt_lt4 t; omega⟩

def tile4 (f : EReal → EReal) (c : Dev nD) (t : Fin cfg4.N) (j : Fin 64) : EReal := ∑ r : Fin 5000, f (z4 V c (tileRow4 t r) j)

theorem idx_facts4 : ∀ t : Fin cfg4.N, win4_0.index t (0 : Fin 2) = t.val ∧ win4_1.index t (0 : Fin 2) = t.val :=
  (by decide +kernel : ∀ t : Fin grid4.N, _)

theorem iblk4_0_apply (c : Dev nD) (t : Fin cfg4.N) (r : Fin 5000) (k : Fin 64) :
    iblk4 V c 0 t (ix2 r k) = V c main_v118_0 (ix2 (tileRow4 t r) k) :=
  congrArg (V c main_v118_0) (Shape.idx_ext₂
    (by show win4_0.index t (0 : Fin 2) * 5000 + 1 * r.val = t.val * 5000 + r.val; rw [(idx_facts4 t).1]; omega)
    (by show 0 * 64 + 1 * k.val = k.val; omega))

theorem iblk4_1_apply (c : Dev nD) (t : Fin cfg4.N) (r : Fin 5000) (k : Fin 64) :
    iblk4 V c 1 t (ix2 r k) = V c main_v131 (ix2 (tileRow4 t r) k) :=
  congrArg (V c main_v131) (Shape.idx_ext₂
    (by show win4_1.index t (0 : Fin 2) * 5000 + 1 * r.val = t.val * 5000 + r.val; rw [(idx_facts4 t).2]; omega)
    (by show 0 * 64 + 1 * k.val = k.val; omega))

theorem iblk4_2_apply (c : Dev nD) (t : Fin cfg4.N) (y : S64x64.Idx) : iblk4 V c 2 t y = V c main_v133 y :=
  congrArg (V c main_v133) (Shape.idx_ext₂ (win4_2.rect_emb_val_of_index_zero t (0 : Fin 2) rfl y)
    (win4_2.rect_emb_val_of_index_zero t (1 : Fin 2) rfl y))

theorem iblk4_3_apply (c : Dev nD) (t : Fin cfg4.N) (y : S1x64.Idx) : iblk4 V c 3 t y = V c main_v136 y :=
  congrArg (V c main_v136) (Shape.idx_ext₂ (win4_3.rect_emb_val_of_index_zero t (0 : Fin 2) rfl y)
    (win4_3.rect_emb_val_of_index_zero t (1 : Fin 2) rfl y))

theorem entry4 (c : Dev nD) (t : Fin cfg4.N) (r : Fin 5000) (j : Fin 64) :
    k4_pay3 (iblk4 V c 0 t) (iblk4 V c 1 t) (iblk4 V c 2 t) (iblk4 V c 3 t) (ix2 r j) = z4 V c (tileRow4 t r) j := by
  unfold k4_pay3
  simp only [shapeCast_self]
  rw [pre_entry_apply]
  simp only [iblk4_0_apply, iblk4_1_apply, iblk4_2_apply, iblk4_3_apply]
  rfl

theorem step_sum4 (c : Dev nD) (t : Fin cfg4.N) (v16 : FVec Ideal S1x64 .f32) (j : Fin 64) :
    k4_pay4 (iblk4 V c 0 t) (iblk4 V c 1 t) (iblk4 V c 2 t) (iblk4 V c 3 t) v16 (ix2 0 j)
      = v16 (ix2 0 j) + tile4 V id c t j :=
  (acc_row_apply _ v16 j).trans (congrArg (v16 _ + ·) (Finset.sum_congr rfl fun r _ => entry4 V c t r j))

theorem step_sq4 (c : Dev nD) (t : Fin cfg4.N) (v23 : FVec Ideal S1x64 .f32) (j : Fin 64) :
    k4_pay5 (iblk4 V c 0 t) (iblk4 V c 1 t) (iblk4 V c 2 t) (iblk4 V c 3 t) v23 (ix2 0 j)
      = v23 (ix2 0 j) + tile4 V (fun x => x * x) c t j :=
  (acc_row_apply _ v23 j).trans (congrArg (v23 _ + ·) (Finset.sum_congr rfl fun r _ =>
    congrArg (fun x => x * x) (entry4 V c t r j)))

theorem pay1_apply4 (i : S1x64.Idx) : (k4_pay1 (F := Ideal)) i = (0 : EReal) := zero_row_apply i
theorem pay2_apply4 (i : S1x64.Idx) : (k4_pay2 (F := Ideal)) i = (0 : EReal) := zero_row_apply i

theorem total4 (c : Dev nD) (j : Fin 64) (f : EReal → EReal) (s : ℕ → EReal) (h0 : s 0 = tile4 V f c (pt4 0) j)
    (hs : ∀ n, s (n + 1) = s n + tile4 V f c (pt4 (n + 1)) j) : s 19 = ∑ i : Fin 100000, f (z4 V c i j) := by
  have e : ∀ n, s n = ∑ t ∈ Finset.range (n + 1), tile4 V f c (pt4 t) j := fun n => by
    induction n with
    | zero => rw [h0, Finset.sum_range_one]
    | succ n ih => rw [hs, ih, Finset.sum_range_succ _ (n + 1)]
  rw [e, Finset.sum_range fun t => tile4 V f c (pt4 t) j]
  exact (Finset.sum_congr rfl fun t _ => congrArg (tile4 V f c · j) (pt4_val t)).trans
    (Cert.Spec.sum_tiles' (T := 20) (R := 5000) (fun i => f (z4 V c i j))
      fun t r => by have := t.isLt; have := r.isLt; omega).symm

def last4 : Fin cfg4.N := ⟨19, by decide⟩

theorem arrAt4_4 (c : Dev nD) : (dat4 V c).arrAt 4 cfg4.N = scr4_0 V c 19 := by
  refine (dat4 V c).arrAt_eq_of_cover 4 _ (fun t hf => ?_) fun i : S1x64.Idx => ⟨last4, (flush4_4 _).mpr rfl, ?_⟩
  · have h19 : t.val = 19 := by have := (flush4_4 t).mp hf; have := pt_lt4 t; omega
    rw [Pipeline.Dat.flushed, after4_4, h19]
    exact funext fun y => congrArg (scr4_0 V c 19) (Shape.idx_ext₂
      (win4_4.rect_emb_val_of_index_zero t (0 : Fin 2) rfl y).symm (win4_4.rect_emb_val_of_index_zero t (1 : Fin 2) rfl y).symm)
  · show i ∈ ((View.whole main_v137_0).slice (win4_4.rect last4)).set
    rw [View.set_slice_whole]
    exact View.mem_set_unit_zero (funext fun | ⟨0, _⟩ => rfl | ⟨1, _⟩ => rfl) _ i

theorem arrAt4_5 (c : Dev nD) : (dat4 V c).arrAt 5 cfg4.N = scr4_1 V c 19 := by
  refine (dat4 V c).arrAt_eq_of_cover 5 _ (fun t hf => ?_) fun i : S1x64.Idx => ⟨last4, (flush4_5 _).mpr rfl, ?_⟩
  · have h19 : t.val = 19 := by have := (flush4_5 t).mp hf; have := pt_lt4 t; omega
    rw [Pipeline.Dat.flushed, after4_5, h19]
    exact funext fun y => congrArg (scr4_1 V c 19) (Shape.idx_ext₂
      (win4_5.rect_emb_val_of_index_zero t (0 : Fin 2) rfl y).symm (win4_5.rect_emb_val_of_index_zero t (1 : Fin 2) rfl y).symm)
  · show i ∈ ((View.whole main_v137_1).slice (win4_5.rect last4)).set
    rw [View.set_slice_whole]
    exact View.mem_set_unit_zero (funext fun | ⟨0, _⟩ => rfl | ⟨1, _⟩ => rfl) _ i

theorem stats_sum4 (c : Dev nD) (j : Fin 64) :
    Cert.Spec.row ((dat4 (F := Ideal) V c).arrAt 4 cfg4.N) j = Cert.Spec.colSum (z4 V c) j := by
  rw [arrAt4_4]
  exact total4 V c j id (scr4_0 V c · (ix2 0 j)) (by rw [scr4_0, step_sum4, pay1_apply4, zero_add])
    fun n => by rw [scr4_0, step_sum4]

theorem stats_sumsq4 (c : Dev nD) (j : Fin 64) :
    Cert.Spec.row ((dat4 (F := Ideal) V c).arrAt 5 cfg4.N) j
      = Cert.Spec.colSum (fun i j => z4 V c i j * z4 V c i j) j := by
  rw [arrAt4_5]
  exact total4 V c j (fun x => x * x) (scr4_1 V c · (ix2 0 j)) (by rw [scr4_1, step_sq4, pay2_apply4, zero_add])
    fun n => by rw [scr4_1, step_sq4]

end Cert.KernelIdeal.Hand

end
-- ==== Proof.KI.StatsVal6.lean ====
import proofs.«416827_j50268297232946_2_alg».proof.Proof.KI.Stats6
import proofs.«416827_j50268297232946_2_alg».proof.Proof.KI.StatsCommon
import proofs.«416827_j50268297232946_2_alg».proof.Proof.SpecLaws
import proofs.«416827_j50268297232946_2_alg».proof.Proof.SpecRead

noncomputable section

namespace Cert.KernelIdeal.Hand

open Idealize.ShloMosaic Idealize.ShloMosaic.TcCoe Idealize.ShloMosaic.ValueIdx
open Cert.KernelIdeal.Gen

variable (V : (c : Dev nD) → (b : Ref sig .tc) → Buf (Elt Ideal) ((c : Thread nD τ).loc b))

def z6 (c : Dev nD) : Cert.Spec.Mat 100000 64 :=
  Cert.Spec.pre1 (Cert.Spec.mat (V c main_v166_0)) (Cert.Spec.mat (V c main_v179)) (Cert.Spec.mat (V c main_v181))
    (Cert.Spec.row (V c main_v184))

theorem pt_lt6 (t : Fin cfg6.N) : t.val < 20 := lt_of_lt_of_eq t.isLt N_6

def tileRow6 (t : Fin cfg6.N) (r : Fin 5000) : Fin 100000 := ⟨t.val * 5000 + r.val, by have := pt_lt6 t; omega⟩

def tile6 (f : EReal → EReal) (c : Dev nD) (t : Fin cfg6.N) (j : Fin 64) : EReal := ∑ r : Fin 5000, f (z6 V c (tileRow6 t r) j)

theorem idx_facts6 : ∀ t : Fin cfg6.N, win6_0.index t (0 : Fin 2) = t.val ∧ win6_1.index t (0 : Fin 2) = t.val :=
  (by decide +kernel : ∀ t : Fin grid6.N, _)

theorem iblk6_0_apply (c : Dev nD) (t : Fin cfg6.N) (r : Fin 5000) (k : Fin 64) :
    iblk6 V c 0 t (ix2 r k) = V c main_v166_0 (ix2 (tileRow6 t r) k) :=
  congrArg (V c main_v166_0) (Shape.idx_ext₂
    (by show win6_0.index t (0 : Fin 2) * 5000 + 1 * r.val = t.val * 5000 + r.val; rw [(idx_facts6 t).1]; omega)
    (by show 0 * 64 + 1 * k.val = k.val; omega))

theorem iblk6_1_apply (c : Dev nD) (t : Fin cfg6.N) (r : Fin 5000) (k : Fin 64) :
    iblk6 V c 1 t (ix2 r k) = V c main_v179 (ix2 (tileRow6 t r) k) :=
  congrArg (V c main_v179) (Shape.idx_ext₂
    (by show win6_1.index t (0 : Fin 2) * 5000 + 1 * r.val = t.val * 5000 + r.val; rw [(idx_facts6 t).2]; omega)
    (by show 0 * 64 + 1 * k.val = k.val; omega))

theorem iblk6_2_apply (c : Dev nD) (t : Fin cfg6.N) (y : S64x64.Idx) : iblk6 V c 2 t y = V c main_v181 y :=
  congrArg (V c main_v181) (Shape.idx_ext₂ (win6_2.rect_emb_val_of_index_zero t (0 : Fin 2) rfl y)
    (win6_2.rect_emb_val_of_index_zero t (1 : Fin 2) rfl y))

theorem iblk6_3_apply (c : Dev nD) (t : Fin cfg6.N) (y : S1x64.Idx) : iblk6 V c 3 t y = V c main_v184 y :=
  congrArg (V c main_v184) (Shape.idx_ext₂ (win6_3.rect_emb_val_of_index_zero t (0 : Fin 2) rfl y)
    (win6_3.rect_emb_val_of_index_zero t (1 : Fin 2) rfl y))

theorem entry6 (c : Dev nD) (t : Fin cfg6.N) (r : Fin 5000) (j : Fin 64) :
    k6_pay3 (iblk6 V c 0 t) (iblk6 V c 1 t) (iblk6 V c 2 t) (iblk6 V c 3 t) (ix2 r j) = z6 V c (tileRow6 t r) j := by
  unfold k6_pay3
  simp only [shapeCast_self]
  rw [pre_entry_apply]
  simp only [iblk6_0_apply, iblk6_1_apply, iblk6_2_apply, iblk6_3_apply]
  rfl

theorem step_sum6 (c : Dev nD) (t : Fin cfg6.N) (v16 : FVec Ideal S1x64 .f32) (j : Fin 64) :
    k6_pay4 (iblk6 V c 0 t) (iblk6 V c 1 t) (iblk6 V c 2 t) (iblk6 V c 3 t) v16 (ix2 0 j)
      = v16 (ix2 0 j) + tile6 V id c t j :=
  (acc_row_apply _ v16 j).trans (congrArg (v16 _ + ·) (Finset.sum_congr rfl fun r _ => entry6 V c t r j))

theorem step_sq6 (c : Dev nD) (t : Fin cfg6.N) (v23 : FVec Ideal S1x64 .f32) (j : Fin 64) :
    k6_pay5 (iblk6 V c 0 t) (iblk6 V c 1 t) (iblk6 V c 2 t) (iblk6 V c 3 t) v23 (ix2 0 j)
      = v23 (ix2 0 j) + tile6 V (fun x => x * x) c t j :=
  (acc_row_apply _ v23 j).trans (congrArg (v23 _ + ·) (Finset.sum_congr rfl fun r _ =>
    congrArg (fun x => x * x) (entry6 V c t r j)))

theorem pay1_apply6 (i : S1x64.Idx) : (k6_pay1 (F := Ideal)) i = (0 : EReal) := zero_row_apply i
theorem pay2_apply6 (i : S1x64.Idx) : (k6_pay2 (F := Ideal)) i = (0 : EReal) := zero_row_apply i

theorem total6 (c : Dev nD) (j : Fin 64) (f : EReal → EReal) (s : ℕ → EReal) (h0 : s 0 = tile6 V f c (pt6 0) j)
    (hs : ∀ n, s (n + 1) = s n + tile6 V f c (pt6 (n + 1)) j) : s 19 = ∑ i : Fin 100000, f (z6 V c i j) := by
  have e : ∀ n, s n = ∑ t ∈ Finset.range (n + 1), tile6 V f c (pt6 t) j := fun n => by
    induction n with
    | zero => rw [h0, Finset.sum_range_one]
    | succ n ih => rw [hs, ih, Finset.sum_range_succ _ (n + 1)]
  rw [e, Finset.sum_range fun t => tile6 V f c (pt6 t) j]
  exact (Finset.sum_congr rfl fun t _ => congrArg (tile6 V f c · j) (pt6_val t)).trans
    (Cert.Spec.sum_tiles' (T := 20) (R := 5000) (fun i => f (z6 V c i j))
      fun t r => by have := t.isLt; have := r.isLt; omega).symm

def last6 : Fin cfg6.N := ⟨19, by decide⟩

theorem arrAt6_4 (c : Dev nD) : (dat6 V c).arrAt 4 cfg6.N = scr6_0 V c 19 := by
  refine (dat6 V c).arrAt_eq_of_cover 4 _ (fun t hf => ?_) fun i : S1x64.Idx => ⟨last6, (flush6_4 _).mpr rfl, ?_⟩
  · have h19 : t.val = 19 := by have := (flush6_4 t).mp hf; have := pt_lt6 t; omega
    rw [Pipeline.Dat.flushed, after6_4, h19]
    exact funext fun y => congrArg (scr6_0 V c 19) (Shape.idx_ext₂
      (win6_4.rect_emb_val_of_index_zero t (0 : Fin 2) rfl y).symm (win6_4.rect_emb_val_of_index_zero t (1 : Fin 2) rfl y).symm)
  · show i ∈ ((View.whole main_v185_0).slice (win6_4.rect last6)).set
    rw [View.set_slice_whole]
    exact View.mem_set_unit_zero (funext fun | ⟨0, _⟩ => rfl | ⟨1, _⟩ => rfl) _ i

theorem arrAt6_5 (c : Dev nD) : (dat6 V c).arrAt 5 cfg6.N = scr6_1 V c 19 := by
  refine (dat6 V c).arrAt_eq_of_cover 5 _ (fun t hf => ?_) fun i : S1x64.Idx => ⟨last6, (flush6_5 _).mpr rfl, ?_⟩
  · have h19 : t.val = 19 := by have := (flush6_5 t).mp hf; have := pt_lt6 t; omega
    rw [Pipeline.Dat.flushed, after6_5, h19]
    exact funext fun y => congrArg (scr6_1 V c 19) (Shape.idx_ext₂
      (win6_5.rect_emb_val_of_index_zero t (0 : Fin 2) rfl y).symm (win6_5.rect_emb_val_of_index_zero t (1 : Fin 2) rfl y).symm)
  · show i ∈ ((View.whole main_v185_1).slice (win6_5.rect last6)).set
    rw [View.set_slice_whole]
    exact View.mem_set_unit_zero (funext fun | ⟨0, _⟩ => rfl | ⟨1, _⟩ => rfl) _ i

theorem stats_sum6 (c : Dev nD) (j : Fin 64) :
    Cert.Spec.row ((dat6 (F := Ideal) V c).arrAt 4 cfg6.N) j = Cert.Spec.colSum (z6 V c) j := by
  rw [arrAt6_4]
  exact total6 V c j id (scr6_0 V c · (ix2 0 j)) (by rw [scr6_0, step_sum6, pay1_apply6, zero_add])
    fun n => by rw [scr6_0, step_sum6]

theorem stats_sumsq6 (c : Dev nD) (j : Fin 64) :
    Cert.Spec.row ((dat6 (F := Ideal) V c).arrAt 5 cfg6.N) j
      = Cert.Spec.colSum (fun i j => z6 V c i j * z6 V c i j) j := by
  rw [arrAt6_5]
  exact total6 V c j (fun x => x * x) (scr6_1 V c · (ix2 0 j)) (by rw [scr6_1, step_sq6, pay2_apply6, zero_add])
    fun n => by rw [scr6_1, step_sq6]

end Cert.KernelIdeal.Hand

end
-- ==== Proof.AggFin.lean ====
import proofs.«416827_j50268297232946_2_alg».proof.KernelIdeal
import proofs.«416827_j50268297232946_2_alg».proof.ReferenceIdeal
import proofs.«416827_j50268297232946_2_alg».proof.Proof.SpecLaws
import Idealize.ShloMosaic.PureOps.Ideal

open scoped BigOperators

noncomputable section

namespace Cert.AggFin

open Idealize.ShloMosaic Cert.Spec

theorem zero_bits : Ideal.ofBits .f32 0x00000000#32 = (0 : EReal) := by
  simp [Ideal.ofBits, Ideal.ieee]

theorem one_bits : Ideal.ofBits .f32 0x3F800000#32 = (1 : EReal) := by
  simp [Ideal.ofBits, Ideal.ieee, -EReal.coe_mul]; norm_num

theorem const_zero (s : Shape) (i : s.Idx) : (constant s .f32 0x00000000#32 : FVec Ideal s .f32) i = 0 := zero_bits

theorem const_one (s : Shape) (i : s.Idx) : (constant s .f32 0x3F800000#32 : FVec Ideal s .f32) i = 1 := one_bits

theorem fin_const_zero (s : Shape) : ∀ i, ∃ r : ℝ, (constant s .f32 0x00000000#32 : FVec Ideal s .f32) i = (r : EReal) :=
  fun i => ⟨0, const_zero s i⟩

theorem fin_const_one (s : Shape) : ∀ i, ∃ r : ℝ, (constant s .f32 0x3F800000#32 : FVec Ideal s .f32) i = (r : EReal) :=
  fun i => ⟨1, const_one s i⟩

theorem fin_bcast {s t : Shape} {φ : FTy} (dims : Fin s.rank → Fin t.rank) (h : s.BroadcastsInDim t dims)
    (x : FVec Ideal s φ) (hx : ∀ i, ∃ r : ℝ, x i = (r : EReal)) :
    ∀ j, ∃ r : ℝ, broadcastInDim t dims h x j = (r : EReal) := fun j => hx _

theorem fin_gather {s si t : Shape} {w : Nat} {φ : FTy} (d : GatherDims s si t) (x : FVec Ideal s φ) (idx : IVec si w)
    (hx : ∀ i, ∃ r : ℝ, x i = (r : EReal)) :
    ∀ j, ∃ r : ℝ, Host.gather d x idx j = (r : EReal) := fun j => hx _

theorem fin_scatterAdd {s si su : Shape} {w : Nat} {φ : FTy} (d : ScatterDims s si su) (x : FVec Ideal s φ)
    (idx : IVec si w) (upd : FVec Ideal su φ)
    (hx : ∀ i, ∃ r : ℝ, x i = (r : EReal)) (hu : ∀ j, ∃ r : ℝ, upd j = (r : EReal)) :
    ∀ i, ∃ r : ℝ, Host.scatterAdd d x idx upd i = (r : EReal) := fun i =>
  fin_add (hx i) (fin_sum _ _ fun j _ => hu j)

theorem fin_mulf {s : Shape} {φ : FTy} (x y : FVec Ideal s φ)
    (hx : ∀ i, ∃ r : ℝ, x i = (r : EReal)) (hy : ∀ i, ∃ r : ℝ, y i = (r : EReal)) :
    ∀ i, ∃ r : ℝ, mulf x y i = (r : EReal) := fun i => fin_mul (hx i) (hy i)

theorem fin_divf_max_one {s : Shape} {φ : FTy} (a x b : FVec Ideal s φ)
    (ha : ∀ i, ∃ r : ℝ, a i = (r : EReal)) (hx : ∀ i, ∃ r : ℝ, x i = (r : EReal)) (hb : ∀ i, b i = 1) :
    ∀ i, ∃ r : ℝ, Host.divf a (maximumf x b) i = (r : EReal) := fun i => by
  obtain ⟨m, hm⟩ := fin_max (hx i) (⟨1, rfl⟩ : ∃ r : ℝ, (1 : EReal) = (r : EReal))
  have h1 : (1 : ℝ) ≤ m := by
    have h : ((1 : ℝ) : EReal) ≤ (m : EReal) := by rw [← hm]; exact le_max_right _ _
    exact EReal.coe_le_coe_iff.1 h
  show ∃ r : ℝ, Ideal.div (a i) (max (x i) (b i)) = (r : EReal)
  rw [hb i, hm]
  exact fin_div_coe (ha i) (lt_of_lt_of_le one_pos h1).ne'

/-- One over max(count, 1), the count a scatter of real updates onto a real array, is real. -/
theorem fin_inv_count {s si su : Shape} {w : Nat} {φ : FTy} (d : ScatterDims s si su) (idx : IVec si w)
    (z o : FVec Ideal s φ) (u : FVec Ideal su φ)
    (hz : ∀ i, ∃ r : ℝ, z i = (r : EReal)) (hu : ∀ j, ∃ r : ℝ, u j = (r : EReal)) (ho : ∀ i, o i = 1) :
    ∀ i, ∃ r : ℝ, Host.divf o (maximumf (Host.scatterAdd d z idx u) o) i = (r : EReal) :=
  fin_divf_max_one _ _ _ (fun i => ⟨1, ho i⟩) (fin_scatterAdd _ _ _ _ hz hu) ho

namespace KernelIdeal

open Cert.KernelIdeal

variable [Cert.KernelIdeal.Facts₀]
open Cert.KernelIdeal.Facts₀

abbrev deg (dst : IVec S1600000x1 32) : FVec Ideal S100000 .f32 :=
  Host.scatterAdd scatter_S100000_S1600000x1_S1600000_n_0_0_1
    (broadcastInDim S100000 ![] bcast_S_S100000 (constant S_ .f32 0x00000000#32)) dst
    (broadcastInDim S1600000 ![] bcast_S_S1600000 (constant S_ .f32 0x3F800000#32))

abbrev invDeg (dst : IVec S1600000x1 32) : FVec Ideal S100000 .f32 :=
  Host.divf (broadcastInDim S100000 ![] bcast_S_S100000 (constant S_ .f32 0x3F800000#32))
    (maximumf (deg dst) (broadcastInDim S100000 ![] bcast_S_S100000 (constant S_ .f32 0x3F800000#32)))

abbrev gcnt (bat : IVec S100000x1 32) : FVec Ideal S128 .f32 :=
  Host.scatterAdd scatter_S128_S100000x1_S100000_n_0_0_1
    (broadcastInDim S128 ![] bcast_S_S128 (constant S_ .f32 0x00000000#32)) bat
    (broadcastInDim S100000 ![] bcast_S_S100000 (constant S_ .f32 0x3F800000#32))

abbrev invGcnt (bat : IVec S100000x1 32) : FVec Ideal S128 .f32 :=
  Host.divf (broadcastInDim S128 ![] bcast_S_S128 (constant S_ .f32 0x3F800000#32))
    (maximumf (gcnt bat) (broadcastInDim S128 ![] bcast_S_S128 (constant S_ .f32 0x3F800000#32)))

abbrev nsum (h : FVec Ideal S100000x64 .f32) (src dst : IVec S1600000x1 32) : FVec Ideal S100000x64 .f32 :=
  Host.scatterAdd scatter_S100000x64_S1600000x1_S1600000x64_1_0_0_1
    (broadcastInDim S100000x64 ![] bcast_S_S100000x64 (constant S_ .f32 0x00000000#32)) dst
    (Host.gather gather_S100000x64_S1600000x1_S1600000x64_1_0_n_n_0_1_164 h src)

abbrev agg (h : FVec Ideal S100000x64 .f32) (src dst : IVec S1600000x1 32) (f : FVec Ideal S100000 .f32) :
    FVec Ideal S100000x64 .f32 :=
  mulf (nsum h src dst)
    (broadcastInDim S100000x64 ![0, 1] bcast_S100000x1_S100000x64_0_1
      (broadcastInDim S100000x1 ![0] bcast_S100000_S100000x1_0 f))

theorem fin_invDeg (dst : IVec S1600000x1 32) : ∀ i, ∃ r : ℝ, invDeg dst i = (r : EReal) :=
  fin_inv_count _ _ _ _ _ (fin_bcast _ _ _ (fin_const_zero _)) (fin_bcast _ _ _ (fin_const_one _)) fun i => const_one _ _

theorem fin_invGcnt (bat : IVec S100000x1 32) : ∀ i, ∃ r : ℝ, invGcnt bat i = (r : EReal) :=
  fin_inv_count _ _ _ _ _ (fin_bcast _ _ _ (fin_const_zero _)) (fin_bcast _ _ _ (fin_const_one _)) fun i => const_one _ _

theorem fin_agg_invDeg (h : FVec Ideal S100000x64 .f32) (src dst dst' : IVec S1600000x1 32)
    (hh : ∀ i, ∃ r : ℝ, h i = (r : EReal)) :
    ∀ i, ∃ r : ℝ, agg h src dst (invDeg dst') i = (r : EReal) :=
  fin_mulf _ _ (fin_scatterAdd _ _ _ _ (fin_bcast _ _ _ (fin_const_zero _)) (fin_gather _ _ _ hh))
    (fin_bcast _ _ _ (fin_bcast _ _ _ (fin_invDeg dst')))

end KernelIdeal

namespace ReferenceIdeal

open Cert.ReferenceIdeal

variable [Cert.ReferenceIdeal.Facts₀]
open Cert.ReferenceIdeal.Facts₀

abbrev deg (dst : IVec S1600000x1 32) : FVec Ideal S100000 .f32 :=
  Host.scatterAdd scatter_S100000_S1600000x1_S1600000_n_0_0_1
    (broadcastInDim S100000 ![] bcast_S_S100000 (constant S_ .f32 0x00000000#32)) dst
    (broadcastInDim S1600000 ![] bcast_S_S1600000 (constant S_ .f32 0x3F800000#32))

abbrev invDeg (dst : IVec S1600000x1 32) : FVec Ideal S100000 .f32 :=
  Host.divf (broadcastInDim S100000 ![] bcast_S_S100000 (constant S_ .f32 0x3F800000#32))
    (maximumf (deg dst) (broadcastInDim S100000 ![] bcast_S_S100000 (constant S_ .f32 0x3F800000#32)))

abbrev gcnt (bat : IVec S100000x1 32) : FVec Ideal S128 .f32 :=
  Host.scatterAdd scatter_S128_S100000x1_S100000_n_0_0_1
    (broadcastInDim S128 ![] bcast_S_S128 (constant S_ .f32 0x00000000#32)) bat
    (broadcastInDim S100000 ![] bcast_S_S100000 (constant S_ .f32 0x3F800000#32))

abbrev invGcnt (bat : IVec S100000x1 32) : FVec Ideal S128 .f32 :=
  Host.divf (broadcastInDim S128 ![] bcast_S_S128 (constant S_ .f32 0x3F800000#32))
    (maximumf (gcnt bat) (broadcastInDim S128 ![] bcast_S_S128 (constant S_ .f32 0x3F800000#32)))

abbrev nsum (h : FVec Ideal S100000x64 .f32) (src dst : IVec S1600000x1 32) : FVec Ideal S100000x64 .f32 :=
  Host.scatterAdd scatter_S100000x64_S1600000x1_S1600000x64_1_0_0_1
    (broadcastInDim S100000x64 ![] bcast_S_S100000x64 (constant S_ .f32 0x00000000#32)) dst
    (Host.gather gather_S100000x64_S1600000x1_S1600000x64_1_0_n_n_0_1_164 h src)

abbrev agg (h : FVec Ideal S100000x64 .f32) (src dst : IVec S1600000x1 32) (f : FVec Ideal S100000 .f32) :
    FVec Ideal S100000x64 .f32 :=
  mulf (nsum h src dst)
    (broadcastInDim S100000x64 ![0, 1] bcast_S100000x1_S100000x64_0_1
      (broadcastInDim S100000x1 ![0] bcast_S100000_S100000x1_0 f))

theorem fin_invDeg (dst : IVec S1600000x1 32) : ∀ i, ∃ r : ℝ, invDeg dst i = (r : EReal) :=
  fin_inv_count _ _ _ _ _ (fin_bcast _ _ _ (fin_const_zero _)) (fin_bcast _ _ _ (fin_const_one _)) fun i => const_one _ _

theorem fin_invGcnt (bat : IVec S100000x1 32) : ∀ i, ∃ r : ℝ, invGcnt bat i = (r : EReal) :=
  fin_inv_count _ _ _ _ _ (fin_bcast _ _ _ (fin_const_zero _)) (fin_bcast _ _ _ (fin_const_one _)) fun i => const_one _ _

theorem fin_agg_invDeg (h : FVec Ideal S100000x64 .f32) (src dst dst' : IVec S1600000x1 32)
    (hh : ∀ i, ∃ r : ℝ, h i = (r : EReal)) :
    ∀ i, ∃ r : ℝ, agg h src dst (invDeg dst') i = (r : EReal) :=
  fin_mulf _ _ (fin_scatterAdd _ _ _ _ (fin_bcast _ _ _ (fin_const_zero _)) (fin_gather _ _ _ hh))
    (fin_bcast _ _ _ (fin_bcast _ _ _ (fin_invDeg dst')))

end ReferenceIdeal

end Cert.AggFin

end
-- ==== Proof.KI.Host0.lean ====
import proofs.«416827_j50268297232946_2_alg».proof.Proof.Gen.KernelIdeal.Regions
import proofs.«416827_j50268297232946_2_alg».proof.Proof.Gen.KernelIdeal.Launch
import proofs.«416827_j50268297232946_2_alg».proof.Proof.SpecRead
import proofs.«416827_j50268297232946_2_alg».proof.Proof.SpecLaws
import proofs.«416827_j50268297232946_2_alg».proof.Proof.AggFin
import Idealize.ShloMosaic.Lib.IdealHost
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.StableHlo Idealize.SL.Sem

variable (m : (ℓ : Loc nD τ sig) → Buf (Elt Ideal) ℓ) (outs : Outs (F := Ideal))

open Cert.AggFin.KernelIdeal

abbrev srcRow (e : IVec S2x1600000 32) : IVec S1600000 32 :=
  shapeCast S1600000 (extractStridedSlice S1x1600000 ![0, 0] e slices_S2x1600000_S1x1600000_0_0) shapeCasts_S1x1600000_S1600000

abbrev dstRow (e : IVec S2x1600000 32) : IVec S1600000 32 :=
  shapeCast S1600000 (extractStridedSlice S1x1600000 ![1, 0] e slices_S2x1600000_S1x1600000_1_0) shapeCasts_S1x1600000_S1600000

abbrev srcIx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

abbrev dstIx (d : IVec S1600000 32) : IVec S1600000x1 32 :=
  broadcastInDim S1600000x1 ![0] bcast_S1600000_S1600000x1_0 d

abbrev batIx (b : IVec S100000 32) : IVec S100000x1 32 :=
  broadcastInDim S100000x1 ![0] bcast_S100000_S100000x1_0 b

abbrev srcCol (c : Dev nD) : IVec S1600000x1 32 := srcIx (srcRow (V0 m c main_arg1))
abbrev dstCol (c : Dev nD) : IVec S1600000x1 32 := dstIx (dstRow (V0 m c main_arg1))

theorem layer_mat {L : ℕ} (o : ℕ) (X : (⟨3, ![L, 64, 64]⟩ : Shape).Idx → EReal)
    (hs : (⟨3, ![L, 64, 64]⟩ : Shape).Slices ![o, 0, 0] ⟨3, ![1, 64, 64]⟩)
    (hc : (⟨3, ![1, 64, 64]⟩ : Shape).ShapeCasts ⟨2, ![64, 64]⟩) (l : Fin L) (hl : l.val = o) :
    mat (shapeCast ⟨2, ![64, 64]⟩ (extractStridedSlice ⟨3, ![1, 64, 64]⟩ ![o, 0, 0] X hs) hc) = mat3 X l := by
  funext i j
  show shapeCast ⟨2, ![64, 64]⟩ (extractStridedSlice ⟨3, ![1, 64, 64]⟩ ![o, 0, 0] X hs) hc (ix2 i j) = X (ix3 l i j)
  rw [shapeCast_1ab_ab_apply]
  exact extractStridedSlice_apply _ _ _ _ (ix3 l i j) (fun a => match a with
    | ⟨0, _⟩ => by show l.val = o + 0; omega
    | ⟨1, _⟩ => (Nat.zero_add _).symm
    | ⟨2, _⟩ => (Nat.zero_add _).symm)

theorem layer_row {L : ℕ} (o : ℕ) (X : (⟨2, ![L, 64]⟩ : Shape).Idx → EReal)
    (hs : (⟨2, ![L, 64]⟩ : Shape).Slices ![o, 0] ⟨2, ![1, 64]⟩)
    (h1 : (⟨2, ![1, 64]⟩ : Shape).ShapeCasts ⟨1, ![64]⟩) (h2 : (⟨1, ![64]⟩ : Shape).ShapeCasts ⟨2, ![1, 64]⟩)
    (l : Fin L) (hl : l.val = o) :
    row (shapeCast ⟨2, ![1, 64]⟩ (shapeCast ⟨1, ![64]⟩ (extractStridedSlice ⟨2, ![1, 64]⟩ ![o, 0] X hs) h1) h2) = row2 X l := by
  funext j
  show shapeCast ⟨2, ![1, 64]⟩ (shapeCast ⟨1, ![64]⟩ (extractStridedSlice ⟨2, ![1, 64]⟩ ![o, 0] X hs) h1) h2 (ix2 0 j) = X (ix2 l j)
  rw [shapeCast_a_1a_apply, shapeCast_1a_a_apply]
  exact slice2_axis0_apply o X hs 0 j l (by rw [hl]; rfl)

theorem V1_v1 (c : Dev nD) : V1 m c main_v1 = srcRow (V0 m c main_arg1) := by
  dsimp only [V1, hostOps0]; after_results_simp <;> rfl
theorem V1_v3 (c : Dev nD) : V1 m c main_v3 = dstRow (V0 m c main_arg1) := by
  dsimp only [V1, hostOps0]; after_results_simp <;> rfl
theorem V1_v11 (c : Dev nD) : V1 m c main_v11 = invDeg (dstCol m c) := by
  dsimp only [V1, hostOps0]; after_results_simp <;> rfl
theorem V1_v35 (c : Dev nD) : V1 m c main_v35 = agg (V0 m c main_arg0) (srcCol m c) (dstCol m c) (invDeg (dstCol m c)) := by
  dsimp only [V1, hostOps0]; after_results_simp <;> rfl
theorem V1_v19 (c : Dev nD) : V1 m c main_v19 = invGcnt (batIx (V0 m c main_arg2)) := by
  dsimp only [V1, hostOps0]; after_results_simp <;> rfl

theorem V1_v20_at (c : Dev nD) (i : Fin 100000) :
    (V1 m c main_v20 : IVec S100000x1 32) (ix2 i 0) = (V0 m c main_arg2 : IVec S100000 32) (ix1 i) := by
  dsimp only [V1, hostOps0]; after_results_simp
  exact shapeCast_apply _ _ (ix2 i 0) (ix1 i) (by
    rw [Shape.rowMajor_val_one, Shape.rowMajor_val_two]
    show i.val = i.val * 1 + 0
    omega)

theorem V1_v21_at (c : Dev nD) (i : S100000x64.Idx) : (V1 m c main_v21 : S100000x64.Idx → EReal) i = (0 : EReal) := by
  dsimp only [V1, hostOps0]; after_results_simp
  exact (broadcastInDim_scalar_apply _ _ _).trans (Cert.AggFin.const_zero S_ ix0)

theorem V1_v22_at (c : Dev nD) (i : S128x64.Idx) : (V1 m c main_v22 : S128x64.Idx → EReal) i = (0 : EReal) := by
  dsimp only [V1, hostOps0]; after_results_simp
  exact (broadcastInDim_scalar_apply _ _ _).trans (Cert.AggFin.const_zero S_ ix0)

theorem V1_v37 (c : Dev nD) :
    mat (V1 m c main_v37 : S64x64.Idx → EReal) = mat3 (V0 m c main_arg3 : S4x64x64.Idx → EReal) 0 := by
  dsimp only [V1, hostOps0]; after_results_simp
  exact layer_mat 0 _ _ _ 0 rfl

theorem V1_v40 (c : Dev nD) :
    row (V1 m c main_v40 : S1x64.Idx → EReal) = row2 (V0 m c main_arg4 : S4x64.Idx → EReal) 0 := by
  dsimp only [V1, hostOps0]; after_results_simp
  exact layer_row 0 _ _ _ _ 0 rfl

theorem V4_to_V1 (c : Dev nD) (r : Ref sig .tc)
    (h2 : r ∉ ([main_v41_0, main_v41_1] : List (Ref sig .tc)) := by decide)
    (h3 : r ∉ hostOps1_W := by decide)
    (h4 : r ∉ ([main_v70_0, main_v70_1, main_v70_2] : List (Ref sig .tc)) := by decide) :
    V4 m outs c r = V1 m c r :=
  (V4_of m outs c r h4).trans <| (V3_of m outs c r h3).trans (V2_of m outs c r h2)

theorem V8_to_V1 (c : Dev nD) (r : Ref sig .tc)
    (h2 : r ∉ ([main_v41_0, main_v41_1] : List (Ref sig .tc)) := by decide)
    (h3 : r ∉ hostOps1_W := by decide)
    (h4 : r ∉ ([main_v70_0, main_v70_1, main_v70_2] : List (Ref sig .tc)) := by decide)
    (h5 : r ∉ hostOps2_W := by decide)
    (h6 : r ∉ ([main_v89_0, main_v89_1] : List (Ref sig .tc)) := by decide)
    (h7 : r ∉ hostOps3_W := by decide)
    (h8 : r ∉ ([main_v118_0, main_v118_1, main_v118_2] : List (Ref sig .tc)) := by decide) :
    V8 m outs c r = V1 m c r :=
  (V8_of m outs c r h8).trans <| (V7_of m outs c r h7).trans <| (V6_of m outs c r h6).trans <| (V5_of m outs c r h5).trans (V4_to_V1 m outs c r h2 h3 h4)

theorem V12_to_V1 (c : Dev nD) (r : Ref sig .tc)
    (h2 : r ∉ ([main_v41_0, main_v41_1] : List (Ref sig .tc)) := by decide)
    (h3 : r ∉ hostOps1_W := by decide)
    (h4 : r ∉ ([main_v70_0, main_v70_1, main_v70_2] : List (Ref sig .tc)) := by decide)
    (h5 : r ∉ hostOps2_W := by decide)
    (h6 : r ∉ ([main_v89_0, main_v89_1] : List (Ref sig .tc)) := by decide)
    (h7 : r ∉ hostOps3_W := by decide)
    (h8 : r ∉ ([main_v118_0, main_v118_1, main_v118_2] : List (Ref sig .tc)) := by decide)
    (h9 : r ∉ hostOps4_W := by decide)
    (h10 : r ∉ ([main_v137_0, main_v137_1] : List (Ref sig .tc)) := by decide)
    (h11 : r ∉ hostOps5_W := by decide)
    (h12 : r ∉ ([main_v166_0, main_v166_1, main_v166_2] : List (Ref sig .tc)) := by decide) :
    V12 m outs c r = V1 m c r :=
  (V12_of m outs c r h12).trans <| (V11_of m outs c r h11).trans <| (V10_of m outs c r h10).trans <| (V9_of m outs c r h9).trans (V8_to_V1 m outs c r h2 h3 h4 h5 h6 h7 h8)

end Cert.KernelIdeal.Hand

end
-- ==== Proof.KI.Host1.lean ====
import proofs.«416827_j50268297232946_2_alg».proof.Proof.KI.Host0
import Idealize.ShloMosaic.Lib.Pipeline.Value

set_option maxRecDepth 16384

noncomputable section

namespace Cert.KernelIdeal.Hand

open Idealize.ShloMosaic Idealize.ShloMosaic.TcCoe Idealize.ShloMosaic.ValueIdx
open Cert.KernelIdeal.Gen Cert.Spec

variable (m : (ℓ : Loc nD τ sig) → Buf (Elt Ideal) ℓ) (outs : Outs (F := Ideal)) (c : Dev nD)

theorem host1_mean (x : S1x64.Idx → EReal) (j : Fin 64) :
    Host.divf (fun i => shapeCast S64 x shapeCasts_S1x64_S64 i)
        (broadcastInDim S64 ![] bcast_S_S64 (constant (F := Ideal) S_ .f32 0x47C35000#32)) (ix1 j)
      = Ideal.div (x (ix2 0 j)) ((100000 : ℝ) : EReal) :=
  (hostDivf_apply _ _ (ix1 j)).trans (congrArg₂ Ideal.div (shapeCast_1a_a_apply _ shapeCasts_S1x64_S64 j)
    ((broadcastInDim_scalar_apply _ _ _).trans ((constant_apply _ _).trans ofBits_100000)))

theorem host1_mu (j : Fin 64) :
    row (V3 m outs c main_v65 : S1x64.Idx → EReal) j = Ideal.div (row (V2 m outs c main_v41_0 : S1x64.Idx → EReal) j) ((100000 : ℝ) : EReal) := by
  show (V3 m outs c main_v65 : S1x64.Idx → EReal) (ix2 0 j) = _
  dsimp only [V3, hostOps1]; after_results_simp
  exact (shapeCast_a_1a_apply _ shapeCasts_S64_S1x64 0 j).trans (host1_mean (V2 m outs c main_v41_0 : S1x64.Idx → EReal) j)

theorem host1_var (j : Fin 64) :
    row (V3 m outs c main_v66 : S1x64.Idx → EReal) j
      = max (Ideal.div (row (V2 m outs c main_v41_1 : S1x64.Idx → EReal) j) ((100000 : ℝ) : EReal)
          - Ideal.div (row (V2 m outs c main_v41_0 : S1x64.Idx → EReal) j) ((100000 : ℝ) : EReal) * Ideal.div (row (V2 m outs c main_v41_0 : S1x64.Idx → EReal) j) ((100000 : ℝ) : EReal)) 0 := by
  show (V3 m outs c main_v66 : S1x64.Idx → EReal) (ix2 0 j) = _
  dsimp only [V3, hostOps1]; after_results_simp
  refine (shapeCast_a_1a_apply _ shapeCasts_S64_S1x64 0 j).trans ((maximumf_apply _ _ (ix1 j)).trans (congrArg₂ max ?_ ?_))
  · exact (subf_apply _ _ (ix1 j)).trans (congrArg₂ (fun a b : EReal => a - b) (host1_mean (V2 m outs c main_v41_1 : S1x64.Idx → EReal) j)
      ((mulf_apply _ _ (ix1 j)).trans (congrArg₂ (fun a b : EReal => a * b) (host1_mean (V2 m outs c main_v41_0 : S1x64.Idx → EReal) j) (host1_mean (V2 m outs c main_v41_0 : S1x64.Idx → EReal) j))))
  · exact (broadcastInDim_scalar_apply _ _ _).trans ((constant_apply _ _).trans ofBits_zero)

theorem host1_W1 :
    mat (V3 m outs c main_v53 : S64x64.Idx → EReal) = mat3 (m ((c : Thread nD τ).loc main_arg3) : S4x64x64.Idx → EReal) 0 := by
  dsimp only [V3, hostOps1]; after_results_simp
  rw [V2_of m outs c main_arg3 (by decide), V1_of m c main_arg3 (by decide)]
  exact layer_mat 0 _ _ _ 0 rfl

theorem host1_b1 :
    row (V3 m outs c main_v64 : S1x64.Idx → EReal) = row2 (m ((c : Thread nD τ).loc main_arg4) : S4x64.Idx → EReal) 0 := by
  dsimp only [V3, hostOps1]; after_results_simp
  rw [V2_of m outs c main_arg4 (by decide), V1_of m c main_arg4 (by decide)]
  exact layer_row 0 _ _ _ _ 0 rfl

theorem host1_gamma :
    row (V3 m outs c main_v67 : S1x64.Idx → EReal) = row2 (m ((c : Thread nD τ).loc main_arg5) : S4x64.Idx → EReal) 0 := by
  dsimp only [V3, hostOps1]; after_results_simp
  rw [V2_of m outs c main_arg5 (by decide), V1_of m c main_arg5 (by decide)]
  exact layer_row 0 _ _ _ _ 0 rfl

theorem host1_beta :
    row (V3 m outs c main_v68 : S1x64.Idx → EReal) = row2 (m ((c : Thread nD τ).loc main_arg6) : S4x64.Idx → EReal) 0 := by
  dsimp only [V3, hostOps1]; after_results_simp
  rw [V2_of m outs c main_arg6 (by decide), V1_of m c main_arg6 (by decide)]
  exact layer_row 0 _ _ _ _ 0 rfl

theorem host1_W2 :
    mat (V3 m outs c main_v61 : S64x64.Idx → EReal) = mat3 (m ((c : Thread nD τ).loc main_arg7) : S4x64x64.Idx → EReal) 0 := by
  dsimp only [V3, hostOps1]; after_results_simp
  rw [V2_of m outs c main_arg7 (by decide), V1_of m c main_arg7 (by decide)]
  exact layer_mat 0 _ _ _ 0 rfl

theorem host1_b2 :
    row (V3 m outs c main_v69 : S1x64.Idx → EReal) = row2 (m ((c : Thread nD τ).loc main_arg8) : S4x64.Idx → EReal) 0 := by
  dsimp only [V3, hostOps1]; after_results_simp
  rw [V2_of m outs c main_arg8 (by decide), V1_of m c main_arg8 (by decide)]
  exact layer_row 0 _ _ _ _ 0 rfl

end Cert.KernelIdeal.Hand

end
-- ==== Proof.KI.Host2.lean ====
import proofs.«416827_j50268297232946_2_alg».proof.Proof.KI.Host0

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.StableHlo Idealize.SL.Sem

variable (m : (ℓ : Loc nD τ sig) → Buf (Elt Ideal) ℓ) (outs : Outs (F := Ideal))

open Cert.AggFin.KernelIdeal

theorem after2_v83 (W : Valuation τ sig (Elt Ideal)) :
    after (hostOps2 (F := Ideal)) W main_v83 =
      agg (W main_v70_0) (srcIx (W main_v1)) (dstIx (W main_v3)) (W main_v11) := by
  dsimp only [hostOps2]; after_results_simp <;> rfl

theorem after2_v85 (W : Valuation τ sig (Elt Ideal)) :
    mat (after (hostOps2 (F := Ideal)) W main_v85 : S64x64.Idx → EReal) = mat3 (W main_arg3 : S4x64x64.Idx → EReal) (1 : Fin 4) := by
  dsimp only [hostOps2]; after_results_simp
  exact layer_mat 1 _ _ _ (1 : Fin 4) rfl

theorem after2_v88 (W : Valuation τ sig (Elt Ideal)) :
    row (after (hostOps2 (F := Ideal)) W main_v88 : S1x64.Idx → EReal) = row2 (W main_arg4 : S4x64.Idx → EReal) (1 : Fin 4) := by
  dsimp only [hostOps2]; after_results_simp
  exact layer_row 1 _ _ _ _ (1 : Fin 4) rfl

theorem V5_v83 (c : Dev nD) :
    V5 m outs c main_v83 =
      agg (V4 m outs c main_v70_0) (srcCol m c) (dstCol m c) (invDeg (dstCol m c)) := by
  have h := after2_v83 (V4 m outs c)
  rw [V4_to_V1 m outs c main_v1, V4_to_V1 m outs c main_v3, V4_to_V1 m outs c main_v11, V1_v1, V1_v3, V1_v11] at h
  exact h

theorem V5_v85 (c : Dev nD) :
    mat (V5 m outs c main_v85 : S64x64.Idx → EReal) = mat3 (V0 m c main_arg3 : S4x64x64.Idx → EReal) (1 : Fin 4) :=
  (after2_v85 (V4 m outs c)).trans (by rw [V4_to_V1 m outs c main_arg3, V1_of m c main_arg3 (by decide)])

theorem V5_v88 (c : Dev nD) :
    row (V5 m outs c main_v88 : S1x64.Idx → EReal) = row2 (V0 m c main_arg4 : S4x64.Idx → EReal) (1 : Fin 4) :=
  (after2_v88 (V4 m outs c)).trans (by rw [V4_to_V1 m outs c main_arg4, V1_of m c main_arg4 (by decide)])

end Cert.KernelIdeal.Hand

end
-- ==== Proof.KI.Host3.lean ====
import proofs.«416827_j50268297232946_2_alg».proof.Proof.KI.Host0
import Idealize.ShloMosaic.Lib.Pipeline.Value

set_option maxRecDepth 16384

noncomputable section

namespace Cert.KernelIdeal.Hand

open Idealize.ShloMosaic Idealize.ShloMosaic.TcCoe Idealize.ShloMosaic.ValueIdx
open Cert.KernelIdeal.Gen Cert.Spec

variable (m : (ℓ : Loc nD τ sig) → Buf (Elt Ideal) ℓ) (outs : Outs (F := Ideal)) (c : Dev nD)

theorem host3_mean (x : S1x64.Idx → EReal) (j : Fin 64) :
    Host.divf (fun i => shapeCast S64 x shapeCasts_S1x64_S64 i)
        (broadcastInDim S64 ![] bcast_S_S64 (constant (F := Ideal) S_ .f32 0x47C35000#32)) (ix1 j)
      = Ideal.div (x (ix2 0 j)) ((100000 : ℝ) : EReal) :=
  (hostDivf_apply _ _ (ix1 j)).trans (congrArg₂ Ideal.div (shapeCast_1a_a_apply _ shapeCasts_S1x64_S64 j)
    ((broadcastInDim_scalar_apply _ _ _).trans ((constant_apply _ _).trans ofBits_100000)))

theorem host3_mu (j : Fin 64) :
    row (V7 m outs c main_v113 : S1x64.Idx → EReal) j = Ideal.div (row (V6 m outs c main_v89_0 : S1x64.Idx → EReal) j) ((100000 : ℝ) : EReal) := by
  show (V7 m outs c main_v113 : S1x64.Idx → EReal) (ix2 0 j) = _
  dsimp only [V7, hostOps3]; after_results_simp
  exact (shapeCast_a_1a_apply _ shapeCasts_S64_S1x64 0 j).trans (host3_mean (V6 m outs c main_v89_0 : S1x64.Idx → EReal) j)

theorem host3_var (j : Fin 64) :
    row (V7 m outs c main_v114 : S1x64.Idx → EReal) j
      = max (Ideal.div (row (V6 m outs c main_v89_1 : S1x64.Idx → EReal) j) ((100000 : ℝ) : EReal)
          - Ideal.div (row (V6 m outs c main_v89_0 : S1x64.Idx → EReal) j) ((100000 : ℝ) : EReal) * Ideal.div (row (V6 m outs c main_v89_0 : S1x64.Idx → EReal) j) ((100000 : ℝ) : EReal)) 0 := by
  show (V7 m outs c main_v114 : S1x64.Idx → EReal) (ix2 0 j) = _
  dsimp only [V7, hostOps3]; after_results_simp
  refine (shapeCast_a_1a_apply _ shapeCasts_S64_S1x64 0 j).trans ((maximumf_apply _ _ (ix1 j)).trans (congrArg₂ max ?_ ?_))
  · exact (subf_apply _ _ (ix1 j)).trans (congrArg₂ (fun a b : EReal => a - b) (host3_mean (V6 m outs c main_v89_1 : S1x64.Idx → EReal) j)
      ((mulf_apply _ _ (ix1 j)).trans (congrArg₂ (fun a b : EReal => a * b) (host3_mean (V6 m outs c main_v89_0 : S1x64.Idx → EReal) j) (host3_mean (V6 m outs c main_v89_0 : S1x64.Idx → EReal) j))))
  · exact (broadcastInDim_scalar_apply _ _ _).trans ((constant_apply _ _).trans ofBits_zero)

theorem host3_W1 :
    mat (V7 m outs c main_v101 : S64x64.Idx → EReal) = mat3 (m ((c : Thread nD τ).loc main_arg3) : S4x64x64.Idx → EReal) 1 := by
  dsimp only [V7, hostOps3]; after_results_simp
  rw [V6_of m outs c main_arg3 (by decide), V5_of m outs c main_arg3 (by decide), V4_to_V1 m outs c main_arg3, V1_of m c main_arg3 (by decide)]
  exact layer_mat 1 _ _ _ 1 rfl

theorem host3_b1 :
    row (V7 m outs c main_v112 : S1x64.Idx → EReal) = row2 (m ((c : Thread nD τ).loc main_arg4) : S4x64.Idx → EReal) 1 := by
  dsimp only [V7, hostOps3]; after_results_simp
  rw [V6_of m outs c main_arg4 (by decide), V5_of m outs c main_arg4 (by decide), V4_to_V1 m outs c main_arg4, V1_of m c main_arg4 (by decide)]
  exact layer_row 1 _ _ _ _ 1 rfl

theorem host3_gamma :
    row (V7 m outs c main_v115 : S1x64.Idx → EReal) = row2 (m ((c : Thread nD τ).loc main_arg5) : S4x64.Idx → EReal) 1 := by
  dsimp only [V7, hostOps3]; after_results_simp
  rw [V6_of m outs c main_arg5 (by decide), V5_of m outs c main_arg5 (by decide), V4_to_V1 m outs c main_arg5, V1_of m c main_arg5 (by decide)]
  exact layer_row 1 _ _ _ _ 1 rfl

theorem host3_beta :
    row (V7 m outs c main_v116 : S1x64.Idx → EReal) = row2 (m ((c : Thread nD τ).loc main_arg6) : S4x64.Idx → EReal) 1 := by
  dsimp only [V7, hostOps3]; after_results_simp
  rw [V6_of m outs c main_arg6 (by decide), V5_of m outs c main_arg6 (by decide), V4_to_V1 m outs c main_arg6, V1_of m c main_arg6 (by decide)]
  exact layer_row 1 _ _ _ _ 1 rfl

theorem host3_W2 :
    mat (V7 m outs c main_v109 : S64x64.Idx → EReal) = mat3 (m ((c : Thread nD τ).loc main_arg7) : S4x64x64.Idx → EReal) 1 := by
  dsimp only [V7, hostOps3]; after_results_simp
  rw [V6_of m outs c main_arg7 (by decide), V5_of m outs c main_arg7 (by decide), V4_to_V1 m outs c main_arg7, V1_of m c main_arg7 (by decide)]
  exact layer_mat 1 _ _ _ 1 rfl

theorem host3_b2 :
    row (V7 m outs c main_v117 : S1x64.Idx → EReal) = row2 (m ((c : Thread nD τ).loc main_arg8) : S4x64.Idx → EReal) 1 := by
  dsimp only [V7, hostOps3]; after_results_simp
  rw [V6_of m outs c main_arg8 (by decide), V5_of m outs c main_arg8 (by decide), V4_to_V1 m outs c main_arg8, V1_of m c main_arg8 (by decide)]
  exact layer_row 1 _ _ _ _ 1 rfl

end Cert.KernelIdeal.Hand

end
-- ==== Proof.KI.Host4.lean ====
import proofs.«416827_j50268297232946_2_alg».proof.Proof.KI.Host0

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.StableHlo Idealize.SL.Sem

variable (m : (ℓ : Loc nD τ sig) → Buf (Elt Ideal) ℓ) (outs : Outs (F := Ideal))

open Cert.AggFin.KernelIdeal

theorem after4_v131 (W : Valuation τ sig (Elt Ideal)) :
    after (hostOps4 (F := Ideal)) W main_v131 =
      agg (W main_v118_0) (srcIx (W main_v1)) (dstIx (W main_v3)) (W main_v11) := by
  dsimp only [hostOps4]; after_results_simp <;> rfl

theorem after4_v133 (W : Valuation τ sig (Elt Ideal)) :
    mat (after (hostOps4 (F := Ideal)) W main_v133 : S64x64.Idx → EReal) = mat3 (W main_arg3 : S4x64x64.Idx → EReal) (2 : Fin 4) := by
  dsimp only [hostOps4]; after_results_simp
  exact layer_mat 2 _ _ _ (2 : Fin 4) rfl

theorem after4_v136 (W : Valuation τ sig (Elt Ideal)) :
    row (after (hostOps4 (F := Ideal)) W main_v136 : S1x64.Idx → EReal) = row2 (W main_arg4 : S4x64.Idx → EReal) (2 : Fin 4) := by
  dsimp only [hostOps4]; after_results_simp
  exact layer_row 2 _ _ _ _ (2 : Fin 4) rfl

theorem V9_v131 (c : Dev nD) :
    V9 m outs c main_v131 =
      agg (V8 m outs c main_v118_0) (srcCol m c) (dstCol m c) (invDeg (dstCol m c)) := by
  have h := after4_v131 (V8 m outs c)
  rw [V8_to_V1 m outs c main_v1, V8_to_V1 m outs c main_v3, V8_to_V1 m outs c main_v11, V1_v1, V1_v3, V1_v11] at h
  exact h

theorem V9_v133 (c : Dev nD) :
    mat (V9 m outs c main_v133 : S64x64.Idx → EReal) = mat3 (V0 m c main_arg3 : S4x64x64.Idx → EReal) (2 : Fin 4) :=
  (after4_v133 (V8 m outs c)).trans (by rw [V8_to_V1 m outs c main_arg3, V1_of m c main_arg3 (by decide)])

theorem V9_v136 (c : Dev nD) :
    row (V9 m outs c main_v136 : S1x64.Idx → EReal) = row2 (V0 m c main_arg4 : S4x64.Idx → EReal) (2 : Fin 4) :=
  (after4_v136 (V8 m outs c)).trans (by rw [V8_to_V1 m outs c main_arg4, V1_of m c main_arg4 (by decide)])

end Cert.KernelIdeal.Hand

end
-- ==== Proof.KI.Host5.lean ====
import proofs.«416827_j50268297232946_2_alg».proof.Proof.KI.Host0
import Idealize.ShloMosaic.Lib.Pipeline.Value

set_option maxRecDepth 16384

noncomputable section

namespace Cert.KernelIdeal.Hand

open Idealize.ShloMosaic Idealize.ShloMosaic.TcCoe Idealize.ShloMosaic.ValueIdx
open Cert.KernelIdeal.Gen Cert.Spec

variable (m : (ℓ : Loc nD τ sig) → Buf (Elt Ideal) ℓ) (outs : Outs (F := Ideal)) (c : Dev nD)

theorem host5_mean (x : S1x64.Idx → EReal) (j : Fin 64) :
    Host.divf (fun i => shapeCast S64 x shapeCasts_S1x64_S64 i)
        (broadcastInDim S64 ![] bcast_S_S64 (constant (F := Ideal) S_ .f32 0x47C35000#32)) (ix1 j)
      = Ideal.div (x (ix2 0 j)) ((100000 : ℝ) : EReal) :=
  (hostDivf_apply _ _ (ix1 j)).trans (congrArg₂ Ideal.div (shapeCast_1a_a_apply _ shapeCasts_S1x64_S64 j)
    ((broadcastInDim_scalar_apply _ _ _).trans ((constant_apply _ _).trans ofBits_100000)))

theorem host5_mu (j : Fin 64) :
    row (V11 m outs c main_v161 : S1x64.Idx → EReal) j = Ideal.div (row (V10 m outs c main_v137_0 : S1x64.Idx → EReal) j) ((100000 : ℝ) : EReal) := by
  show (V11 m outs c main_v161 : S1x64.Idx → EReal) (ix2 0 j) = _
  dsimp only [V11, hostOps5]; after_results_simp
  exact (shapeCast_a_1a_apply _ shapeCasts_S64_S1x64 0 j).trans (host5_mean (V10 m outs c main_v137_0 : S1x64.Idx → EReal) j)

theorem host5_var (j : Fin 64) :
    row (V11 m outs c main_v162 : S1x64.Idx → EReal) j
      = max (Ideal.div (row (V10 m outs c main_v137_1 : S1x64.Idx → EReal) j) ((100000 : ℝ) : EReal)
          - Ideal.div (row (V10 m outs c main_v137_0 : S1x64.Idx → EReal) j) ((100000 : ℝ) : EReal) * Ideal.div (row (V10 m outs c main_v137_0 : S1x64.Idx → EReal) j) ((100000 : ℝ) : EReal)) 0 := by
  show (V11 m outs c main_v162 : S1x64.Idx → EReal) (ix2 0 j) = _
  dsimp only [V11, hostOps5]; after_results_simp
  refine (shapeCast_a_1a_apply _ shapeCasts_S64_S1x64 0 j).trans ((maximumf_apply _ _ (ix1 j)).trans (congrArg₂ max ?_ ?_))
  · exact (subf_apply _ _ (ix1 j)).trans (congrArg₂ (fun a b : EReal => a - b) (host5_mean (V10 m outs c main_v137_1 : S1x64.Idx → EReal) j)
      ((mulf_apply _ _ (ix1 j)).trans (congrArg₂ (fun a b : EReal => a * b) (host5_mean (V10 m outs c main_v137_0 : S1x64.Idx → EReal) j) (host5_mean (V10 m outs c main_v137_0 : S1x64.Idx → EReal) j))))
  · exact (broadcastInDim_scalar_apply _ _ _).trans ((constant_apply _ _).trans ofBits_zero)

theorem host5_W1 :
    mat (V11 m outs c main_v149 : S64x64.Idx → EReal) = mat3 (m ((c : Thread nD τ).loc main_arg3) : S4x64x64.Idx → EReal) 2 := by
  dsimp only [V11, hostOps5]; after_results_simp
  rw [V10_of m outs c main_arg3 (by decide), V9_of m outs c main_arg3 (by decide), V8_to_V1 m outs c main_arg3, V1_of m c main_arg3 (by decide)]
  exact layer_mat 2 _ _ _ 2 rfl

theorem host5_b1 :
    row (V11 m outs c main_v160 : S1x64.Idx → EReal) = row2 (m ((c : Thread nD τ).loc main_arg4) : S4x64.Idx → EReal) 2 := by
  dsimp only [V11, hostOps5]; after_results_simp
  rw [V10_of m outs c main_arg4 (by decide), V9_of m outs c main_arg4 (by decide), V8_to_V1 m outs c main_arg4, V1_of m c main_arg4 (by decide)]
  exact layer_row 2 _ _ _ _ 2 rfl

theorem host5_gamma :
    row (V11 m outs c main_v163 : S1x64.Idx → EReal) = row2 (m ((c : Thread nD τ).loc main_arg5) : S4x64.Idx → EReal) 2 := by
  dsimp only [V11, hostOps5]; after_results_simp
  rw [V10_of m outs c main_arg5 (by decide), V9_of m outs c main_arg5 (by decide), V8_to_V1 m outs c main_arg5, V1_of m c main_arg5 (by decide)]
  exact layer_row 2 _ _ _ _ 2 rfl

theorem host5_beta :
    row (V11 m outs c main_v164 : S1x64.Idx → EReal) = row2 (m ((c : Thread nD τ).loc main_arg6) : S4x64.Idx → EReal) 2 := by
  dsimp only [V11, hostOps5]; after_results_simp
  rw [V10_of m outs c main_arg6 (by decide), V9_of m outs c main_arg6 (by decide), V8_to_V1 m outs c main_arg6, V1_of m c main_arg6 (by decide)]
  exact layer_row 2 _ _ _ _ 2 rfl

theorem host5_W2 :
    mat (V11 m outs c main_v157 : S64x64.Idx → EReal) = mat3 (m ((c : Thread nD τ).loc main_arg7) : S4x64x64.Idx → EReal) 2 := by
  dsimp only [V11, hostOps5]; after_results_simp
  rw [V10_of m outs c main_arg7 (by decide), V9_of m outs c main_arg7 (by decide), V8_to_V1 m outs c main_arg7, V1_of m c main_arg7 (by decide)]
  exact layer_mat 2 _ _ _ 2 rfl

theorem host5_b2 :
    row (V11 m outs c main_v165 : S1x64.Idx → EReal) = row2 (m ((c : Thread nD τ).loc main_arg8) : S4x64.Idx → EReal) 2 := by
  dsimp only [V11, hostOps5]; after_results_simp
  rw [V10_of m outs c main_arg8 (by decide), V9_of m outs c main_arg8 (by decide), V8_to_V1 m outs c main_arg8, V1_of m c main_arg8 (by decide)]
  exact layer_row 2 _ _ _ _ 2 rfl

end Cert.KernelIdeal.Hand

end
-- ==== Proof.KI.Host6.lean ====
import proofs.«416827_j50268297232946_2_alg».proof.Proof.KI.Host0

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.StableHlo Idealize.SL.Sem

variable (m : (ℓ : Loc nD τ sig) → Buf (Elt Ideal) ℓ) (outs : Outs (F := Ideal))

open Cert.AggFin.KernelIdeal

theorem after6_v179 (W : Valuation τ sig (Elt Ideal)) :
    after (hostOps6 (F := Ideal)) W main_v179 =
      agg (W main_v166_0) (srcIx (W main_v1)) (dstIx (W main_v3)) (W main_v11) := by
  dsimp only [hostOps6]; after_results_simp <;> rfl

theorem after6_v181 (W : Valuation τ sig (Elt Ideal)) :
    mat (after (hostOps6 (F := Ideal)) W main_v181 : S64x64.Idx → EReal) = mat3 (W main_arg3 : S4x64x64.Idx → EReal) (3 : Fin 4) := by
  dsimp only [hostOps6]; after_results_simp
  exact layer_mat 3 _ _ _ (3 : Fin 4) rfl

theorem after6_v184 (W : Valuation τ sig (Elt Ideal)) :
    row (after (hostOps6 (F := Ideal)) W main_v184 : S1x64.Idx → EReal) = row2 (W main_arg4 : S4x64.Idx → EReal) (3 : Fin 4) := by
  dsimp only [hostOps6]; after_results_simp
  exact layer_row 3 _ _ _ _ (3 : Fin 4) rfl

theorem V13_v179 (c : Dev nD) :
    V13 m outs c main_v179 =
      agg (V12 m outs c main_v166_0) (srcCol m c) (dstCol m c) (invDeg (dstCol m c)) := by
  have h := after6_v179 (V12 m outs c)
  rw [V12_to_V1 m outs c main_v1, V12_to_V1 m outs c main_v3, V12_to_V1 m outs c main_v11, V1_v1, V1_v3, V1_v11] at h
  exact h

theorem V13_v181 (c : Dev nD) :
    mat (V13 m outs c main_v181 : S64x64.Idx → EReal) = mat3 (V0 m c main_arg3 : S4x64x64.Idx → EReal) (3 : Fin 4) :=
  (after6_v181 (V12 m outs c)).trans (by rw [V12_to_V1 m outs c main_arg3, V1_of m c main_arg3 (by decide)])

theorem V13_v184 (c : Dev nD) :
    row (V13 m outs c main_v184 : S1x64.Idx → EReal) = row2 (V0 m c main_arg4 : S4x64.Idx → EReal) (3 : Fin 4) :=
  (after6_v184 (V12 m outs c)).trans (by rw [V12_to_V1 m outs c main_arg4, V1_of m c main_arg4 (by decide)])

end Cert.KernelIdeal.Hand

end
-- ==== Proof.KI.Host7.lean ====
import proofs.«416827_j50268297232946_2_alg».proof.Proof.KI.Host0
import Idealize.ShloMosaic.Lib.Pipeline.Value

set_option maxRecDepth 16384

noncomputable section

namespace Cert.KernelIdeal.Hand

open Idealize.ShloMosaic Idealize.ShloMosaic.TcCoe Idealize.ShloMosaic.ValueIdx
open Cert.KernelIdeal.Gen Cert.Spec

variable (m : (ℓ : Loc nD τ sig) → Buf (Elt Ideal) ℓ) (outs : Outs (F := Ideal)) (c : Dev nD)

theorem host7_mean (x : S1x64.Idx → EReal) (j : Fin 64) :
    Host.divf (fun i => shapeCast S64 x shapeCasts_S1x64_S64 i)
        (broadcastInDim S64 ![] bcast_S_S64 (constant (F := Ideal) S_ .f32 0x47C35000#32)) (ix1 j)
      = Ideal.div (x (ix2 0 j)) ((100000 : ℝ) : EReal) :=
  (hostDivf_apply _ _ (ix1 j)).trans (congrArg₂ Ideal.div (shapeCast_1a_a_apply _ shapeCasts_S1x64_S64 j)
    ((broadcastInDim_scalar_apply _ _ _).trans ((constant_apply _ _).trans ofBits_100000)))

theorem host7_mu (j : Fin 64) :
    row (V15 m outs c main_v209 : S1x64.Idx → EReal) j = Ideal.div (row (V14 m outs c main_v185_0 : S1x64.Idx → EReal) j) ((100000 : ℝ) : EReal) := by
  show (V15 m outs c main_v209 : S1x64.Idx → EReal) (ix2 0 j) = _
  dsimp only [V15, hostOps7]; after_results_simp
  exact (shapeCast_a_1a_apply _ shapeCasts_S64_S1x64 0 j).trans (host7_mean (V14 m outs c main_v185_0 : S1x64.Idx → EReal) j)

theorem host7_var (j : Fin 64) :
    row (V15 m outs c main_v210 : S1x64.Idx → EReal) j
      = max (Ideal.div (row (V14 m outs c main_v185_1 : S1x64.Idx → EReal) j) ((100000 : ℝ) : EReal)
          - Ideal.div (row (V14 m outs c main_v185_0 : S1x64.Idx → EReal) j) ((100000 : ℝ) : EReal) * Ideal.div (row (V14 m outs c main_v185_0 : S1x64.Idx → EReal) j) ((100000 : ℝ) : EReal)) 0 := by
  show (V15 m outs c main_v210 : S1x64.Idx → EReal) (ix2 0 j) = _
  dsimp only [V15, hostOps7]; after_results_simp
  refine (shapeCast_a_1a_apply _ shapeCasts_S64_S1x64 0 j).trans ((maximumf_apply _ _ (ix1 j)).trans (congrArg₂ max ?_ ?_))
  · exact (subf_apply _ _ (ix1 j)).trans (congrArg₂ (fun a b : EReal => a - b) (host7_mean (V14 m outs c main_v185_1 : S1x64.Idx → EReal) j)
      ((mulf_apply _ _ (ix1 j)).trans (congrArg₂ (fun a b : EReal => a * b) (host7_mean (V14 m outs c main_v185_0 : S1x64.Idx → EReal) j) (host7_mean (V14 m outs c main_v185_0 : S1x64.Idx → EReal) j))))
  · exact (broadcastInDim_scalar_apply _ _ _).trans ((constant_apply _ _).trans ofBits_zero)

theorem host7_W1 :
    mat (V15 m outs c main_v197 : S64x64.Idx → EReal) = mat3 (m ((c : Thread nD τ).loc main_arg3) : S4x64x64.Idx → EReal) 3 := by
  dsimp only [V15, hostOps7]; after_results_simp
  rw [V14_of m outs c main_arg3 (by decide), V13_of m outs c main_arg3 (by decide), V12_to_V1 m outs c main_arg3, V1_of m c main_arg3 (by decide)]
  exact layer_mat 3 _ _ _ 3 rfl

theorem host7_b1 :
    row (V15 m outs c main_v208 : S1x64.Idx → EReal) = row2 (m ((c : Thread nD τ).loc main_arg4) : S4x64.Idx → EReal) 3 := by
  dsimp only [V15, hostOps7]; after_results_simp
  rw [V14_of m outs c main_arg4 (by decide), V13_of m outs c main_arg4 (by decide), V12_to_V1 m outs c main_arg4, V1_of m c main_arg4 (by decide)]
  exact layer_row 3 _ _ _ _ 3 rfl

theorem host7_gamma :
    row (V15 m outs c main_v211 : S1x64.Idx → EReal) = row2 (m ((c : Thread nD τ).loc main_arg5) : S4x64.Idx → EReal) 3 := by
  dsimp only [V15, hostOps7]; after_results_simp
  rw [V14_of m outs c main_arg5 (by decide), V13_of m outs c main_arg5 (by decide), V12_to_V1 m outs c main_arg5, V1_of m c main_arg5 (by decide)]
  exact layer_row 3 _ _ _ _ 3 rfl

theorem host7_beta :
    row (V15 m outs c main_v212 : S1x64.Idx → EReal) = row2 (m ((c : Thread nD τ).loc main_arg6) : S4x64.Idx → EReal) 3 := by
  dsimp only [V15, hostOps7]; after_results_simp
  rw [V14_of m outs c main_arg6 (by decide), V13_of m outs c main_arg6 (by decide), V12_to_V1 m outs c main_arg6, V1_of m c main_arg6 (by decide)]
  exact layer_row 3 _ _ _ _ 3 rfl

theorem host7_W2 :
    mat (V15 m outs c main_v205 : S64x64.Idx → EReal) = mat3 (m ((c : Thread nD τ).loc main_arg7) : S4x64x64.Idx → EReal) 3 := by
  dsimp only [V15, hostOps7]; after_results_simp
  rw [V14_of m outs c main_arg7 (by decide), V13_of m outs c main_arg7 (by decide), V12_to_V1 m outs c main_arg7, V1_of m c main_arg7 (by decide)]
  exact layer_mat 3 _ _ _ 3 rfl

theorem host7_b2 :
    row (V15 m outs c main_v213 : S1x64.Idx → EReal) = row2 (m ((c : Thread nD τ).loc main_arg8) : S4x64.Idx → EReal) 3 := by
  dsimp only [V15, hostOps7]; after_results_simp
  rw [V14_of m outs c main_arg8 (by decide), V13_of m outs c main_arg8 (by decide), V12_to_V1 m outs c main_arg8, V1_of m c main_arg8 (by decide)]
  exact layer_row 3 _ _ _ _ 3 rfl

end Cert.KernelIdeal.Hand

end
-- ==== Proof.KI.Host8.lean ====
import proofs.«416827_j50268297232946_2_alg».proof.Proof.Gen.KernelIdeal.Regions
import proofs.«416827_j50268297232946_2_alg».proof.Proof.Gen.KernelIdeal.Launch
import proofs.«416827_j50268297232946_2_alg».proof.Proof.SpecRead
import proofs.«416827_j50268297232946_2_alg».proof.Proof.SpecLaws
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.StableHlo Idealize.SL.Sem

variable (m : (ℓ : Loc nD τ sig) → Buf (Elt Ideal) ℓ) (outs : Outs (F := Ideal))

theorem spread_cols_apply (v : S128.Idx → EReal) (g : Fin 128) (j : Fin 64) :
    broadcastInDim S128x64 ![0, 1] bcast_S128x1_S128x64_0_1 (broadcastInDim S128x1 ![0] bcast_S128_S128x1_0 v) (ix2 g j)
      = v (ix1 g) := by
  rw [broadcastInDim_apply (![0, 1] : Fin 2 → Fin 2) bcast_S128x1_S128x64_0_1 _ (ix2 g j) (ix2 g (0 : Fin 1))
        (Fin.forall_fin_two.2 ⟨rfl, rfl⟩),
      broadcastInDim_apply (![0] : Fin 1 → Fin 2) bcast_S128_S128x1_0 v (ix2 g (0 : Fin 1)) (ix1 g)
        (Fin.forall_fin_one.2 rfl)]

theorem V17_v217_at (c : Dev nD) (g : Fin 128) (j : Fin 64) :
    (V17 m outs c main_v217 : S128x64.Idx → EReal) (ix2 g j) =
      mat (V16 m outs c main_v214_2 : S128x64.Idx → EReal) g j * vec (V16 m outs c main_v19 : S128.Idx → EReal) g := by
  dsimp only [V17, hostOps8]; after_results
  rw [mulf_apply, spread_cols_apply]
  rfl

end Cert.KernelIdeal.Hand

end
-- ==== Proof.KI.UpdateTile.lean ====
import proofs.«416827_j50268297232946_2_alg».proof.Proof.SpecLaws
import proofs.«416827_j50268297232946_2_alg».proof.Proof.SpecRead
import proofs.«416827_j50268297232946_2_alg».proof.Proof.SpecMV
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Spec.Tile

open Idealize.ShloMosaic Idealize.ShloMosaic.ValueIdx Cert.Spec

theorem matmul_nk_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant (F := Ideal) ⟨2, ![M, N]⟩ .f32 0x00000000#32) (ix2 a b)
      = ∑ c : Fin K, A (ix2 a c) * B (ix2 c b) := by
  show FloatOps.matmul _ prec A B (constant (F := Ideal) ⟨2, ![M, N]⟩ .f32 0x00000000#32) (ix2 a b) = _
  rw [Ideal.matmul_constant_zero_apply, ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  congr 2 <;> funext ax <;> apply Fin.ext <;> match ax with
    | ⟨0, _⟩ | ⟨1, _⟩ => simp [DotDims.lhsIdx, DotDims.rhsIdx] <;> first | rfl | exact c2

theorem matmul_tn_apply {K M N : ℕ} {φ₁ φ₂ : FTy}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (a : Fin M) (b : Fin N) :
    matmul (⟨[0], [0], [1], [1], [], [], w⟩ : DotDims ⟨2, ![K, M]⟩ ⟨2, ![K, N]⟩ ⟨2, ![M, N]⟩) prec A B
        (constant (F := Ideal) ⟨2, ![M, N]⟩ .f32 0x00000000#32) (ix2 a b)
      = ∑ c : Fin K, A (ix2 c a) * B (ix2 c b) := by
  show FloatOps.matmul _ prec A B (constant (F := Ideal) ⟨2, ![M, N]⟩ .f32 0x00000000#32) (ix2 a b) = _
  rw [Ideal.matmul_constant_zero_apply, ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun c _ => ?_
  have c2 := contrEquiv1_symm_val (⟨[0], [0], [1], [1], [], [], w⟩ : DotDims ⟨2, ![K, M]⟩ ⟨2, ![K, N]⟩ ⟨2, ![M, N]⟩) K rfl rfl c
  congr 2 <;> funext ax <;> apply Fin.ext <;> match ax with
    | ⟨0, _⟩ | ⟨1, _⟩ => simp [DotDims.lhsIdx, DotDims.rhsIdx] <;> first | rfl | exact c2

theorem bcast_col_apply {α : Type} {M : ℕ} (v : (⟨2, ![M, 1]⟩ : Shape).Idx → α)
    (h : (⟨2, ![M, 1]⟩ : Shape).Broadcasts ⟨2, ![M, 128]⟩) (r : Fin M) (g : Fin 128) :
    broadcastTo ⟨2, ![M, 128]⟩ v h (ix2 r g) = v (ix2 r 0) := by
  refine broadcastTo_apply v h (ix2 r g) (ix2 r 0) fun a => ?_
  match a with
  | ⟨0, _⟩ =>
    show r.val = if M = 1 then 0 else r.val
    split_ifs with hM
    · subst hM; exact Nat.lt_one_iff.mp r.isLt
    · rfl
  | ⟨1, _⟩ => exact (if_pos rfl).symm

theorem word_onehot (a b : BitVec 32) :
    ((BitVec.ofBool (a == b)).setWidth 32).toInt = if a = b then 1 else 0 := by
  by_cases e : a = b
  · subst e; rw [if_pos rfl, beq_self_eq_true]; decide
  · rw [if_neg e, beq_eq_false_iff_ne.mpr e]; decide

theorem onehot_apply {s : Shape} (x y : IVec s 32) (h : 1 < 32) (i : s.Idx) :
    (sitofp (F := Ideal) .f32 (extui 32 (cmpi .eq x y) h)) i = if x i = y i then (1 : EReal) else 0 := by
  show ((((BitVec.ofBool (x i == y i)).setWidth 32).toInt : ℝ) : EReal) = _
  rw [word_onehot]
  split_ifs <;> simp

theorem rsqrt_apply {s : Shape} {φ : FTy} (v : FVec Ideal s φ) (i : s.Idx) : rsqrt v i = Ideal.rsqrt (v i) := rfl

section Ops

variable {M : ℕ}
variable (hT : (⟨2, ![M, 64]⟩ : Shape).ShapeCasts ⟨2, ![M, 64]⟩) (hW : (⟨2, ![64, 64]⟩ : Shape).ShapeCasts ⟨2, ![64, 64]⟩)
  (hR : (⟨2, ![1, 64]⟩ : Shape).ShapeCasts ⟨2, ![1, 64]⟩) (hB : (⟨2, ![1, 64]⟩ : Shape).Broadcasts ⟨2, ![M, 64]⟩)
  (hlt : FTy.bf16.bits < FTy.f32.bits)
  (wnk : DotDims.WF ⟨2, ![M, 64]⟩ ⟨2, ![64, 64]⟩ ⟨2, ![M, 64]⟩ [1] [0] [0] [1] [] [])

def actT (x0 x1 : Vec Ideal ⟨2, ![M, 64]⟩ .f32) (w1 : Vec Ideal ⟨2, ![64, 64]⟩ .f32)
    (b1 va mu ga be : Vec Ideal ⟨2, ![1, 64]⟩ .f32) : FVec Ideal ⟨2, ![M, 64]⟩ .f32 :=
  have v4 : FVec Ideal ⟨2, ![M, 64]⟩ .f32 := shapeCast ⟨2, ![M, 64]⟩ x0 hT
  have v6 : FVec Ideal ⟨2, ![M, 64]⟩ .f32 := shapeCast ⟨2, ![M, 64]⟩ x1 hT
  have v7 : FVec Ideal ⟨2, ![M, 64]⟩ .f32 := addf v4 v6
  have v8 : FVec Ideal ⟨2, ![M, 64]⟩ .bf16 := truncf .bf16 v7 hlt
  have v10 : FVec Ideal ⟨2, ![64, 64]⟩ .f32 := shapeCast ⟨2, ![64, 64]⟩ w1 hW
  have v11 : FVec Ideal ⟨2, ![64, 64]⟩ .bf16 := truncf .bf16 v10 hlt
  have cst : FVec Ideal ⟨2, ![M, 64]⟩ .f32 := constant ⟨2, ![M, 64]⟩ .f32 0x00000000#32
  have v12 : FVec Ideal ⟨2, ![M, 64]⟩ .f32 := matmul (⟨[1], [0], [0], [1], [], [], wnk⟩ : DotDims ⟨2, ![M, 64]⟩ ⟨2, ![64, 64]⟩ ⟨2, ![M, 64]⟩) none v8 v11 cst
  have v14 : FVec Ideal ⟨2, ![1, 64]⟩ .f32 := shapeCast ⟨2, ![1, 64]⟩ b1 hR
  have v15 : FVec Ideal ⟨2, ![M, 64]⟩ .f32 := broadcastTo ⟨2, ![M, 64]⟩ v14 hB
  have v16 : FVec Ideal ⟨2, ![M, 64]⟩ .f32 := addf v12 v15
  have v18 : FVec Ideal ⟨2, ![1, 64]⟩ .f32 := shapeCast ⟨2, ![1, 64]⟩ va hR
  have cst_10 : Ideal .f32 := Scalar.ofBits .f32 0x3727C5AC#32
  have v19 : FVec Ideal ⟨2, ![1, 64]⟩ .f32 := broadcast ⟨2, ![1, 64]⟩ cst_10
  have v20 : FVec Ideal ⟨2, ![1, 64]⟩ .f32 := addf v18 v19
  have v21 : FVec Ideal ⟨2, ![1, 64]⟩ .f32 := rsqrt v20
  have v23 : FVec Ideal ⟨2, ![1, 64]⟩ .f32 := shapeCast ⟨2, ![1, 64]⟩ mu hR
  have v24 : FVec Ideal ⟨2, ![M, 64]⟩ .f32 := broadcastTo ⟨2, ![M, 64]⟩ v23 hB
  have v25 : FVec Ideal ⟨2, ![M, 64]⟩ .f32 := subf v16 v24
  have v26 : FVec Ideal ⟨2, ![M, 64]⟩ .f32 := broadcastTo ⟨2, ![M, 64]⟩ v21 hB
  have v27 : FVec Ideal ⟨2, ![M, 64]⟩ .f32 := mulf v25 v26
  have v29 : FVec Ideal ⟨2, ![1, 64]⟩ .f32 := shapeCast ⟨2, ![1, 64]⟩ ga hR
  have v30 : FVec Ideal ⟨2, ![M, 64]⟩ .f32 := broadcastTo ⟨2, ![M, 64]⟩ v29 hB
  have v31 : FVec Ideal ⟨2, ![M, 64]⟩ .f32 := mulf v27 v30
  have v33 : FVec Ideal ⟨2, ![1, 64]⟩ .f32 := shapeCast ⟨2, ![1, 64]⟩ be hR
  have v34 : FVec Ideal ⟨2, ![M, 64]⟩ .f32 := broadcastTo ⟨2, ![M, 64]⟩ v33 hB
  have v35 : FVec Ideal ⟨2, ![M, 64]⟩ .f32 := addf v31 v34
  v35

def zeroT : FVec Ideal ⟨2, ![M, 64]⟩ .f32 :=
  have cst_17 : Ideal .f32 := Scalar.ofBits .f32 0x00000000#32
  have v36 : FVec Ideal ⟨2, ![M, 64]⟩ .f32 := broadcast ⟨2, ![M, 64]⟩ cst_17
  v36

def hnewT (v35 v36 : FVec Ideal ⟨2, ![M, 64]⟩ .f32) (w2 : Vec Ideal ⟨2, ![64, 64]⟩ .f32) (b2 : Vec Ideal ⟨2, ![1, 64]⟩ .f32) :
    FVec Ideal ⟨2, ![M, 64]⟩ .f32 :=
  have v37 : FVec Ideal ⟨2, ![M, 64]⟩ .f32 := maximumf v35 v36
  have v38 : FVec Ideal ⟨2, ![M, 64]⟩ .bf16 := truncf .bf16 v37 hlt
  have v40 : FVec Ideal ⟨2, ![64, 64]⟩ .f32 := shapeCast ⟨2, ![64, 64]⟩ w2 hW
  have v41 : FVec Ideal ⟨2, ![64, 64]⟩ .bf16 := truncf .bf16 v40 hlt
  have cst_20 : FVec Ideal ⟨2, ![M, 64]⟩ .f32 := constant ⟨2, ![M, 64]⟩ .f32 0x00000000#32
  have v42 : FVec Ideal ⟨2, ![M, 64]⟩ .f32 := matmul (⟨[1], [0], [0], [1], [], [], wnk⟩ : DotDims ⟨2, ![M, 64]⟩ ⟨2, ![64, 64]⟩ ⟨2, ![M, 64]⟩) none v38 v41 cst_20
  have v44 : FVec Ideal ⟨2, ![1, 64]⟩ .f32 := shapeCast ⟨2, ![1, 64]⟩ b2 hR
  have v45 : FVec Ideal ⟨2, ![M, 64]⟩ .f32 := broadcastTo ⟨2, ![M, 64]⟩ v44 hB
  have v46 : FVec Ideal ⟨2, ![M, 64]⟩ .f32 := addf v42 v45
  v46

def npoolT (v35 v36 : FVec Ideal ⟨2, ![M, 64]⟩ .f32) (w2 : Vec Ideal ⟨2, ![64, 64]⟩ .f32) (b2 : Vec Ideal ⟨2, ![1, 64]⟩ .f32)
    (np : Vec Ideal ⟨2, ![M, 64]⟩ .f32) : FVec Ideal ⟨2, ![M, 64]⟩ .f32 :=
  have v49 : FVec Ideal ⟨2, ![M, 64]⟩ .f32 := shapeCast ⟨2, ![M, 64]⟩ np hT
  have v50 : FVec Ideal ⟨2, ![M, 64]⟩ .f32 := addf v49 (hnewT hW hR hB hlt wnk v35 v36 w2 b2)
  v50

variable (hI : (⟨2, ![M, 128]⟩ : Shape).Iotas .tc 32 [1]) (hC : (⟨2, ![M, 1]⟩ : Shape).ShapeCasts ⟨2, ![M, 1]⟩)
  (hBc : (⟨2, ![M, 1]⟩ : Shape).Broadcasts ⟨2, ![M, 128]⟩) (h132 : 1 < 32)
  (hG : (⟨2, ![128, 64]⟩ : Shape).ShapeCasts ⟨2, ![128, 64]⟩)
  (wtn : DotDims.WF ⟨2, ![M, 128]⟩ ⟨2, ![M, 64]⟩ ⟨2, ![128, 64]⟩ [0] [0] [1] [1] [] [])

def gpoolT (v35 v36 : FVec Ideal ⟨2, ![M, 64]⟩ .f32) (w2 : Vec Ideal ⟨2, ![64, 64]⟩ .f32) (b2 : Vec Ideal ⟨2, ![1, 64]⟩ .f32)
    (v53 : Vec Ideal ⟨2, ![M, 1]⟩ .i32) (v62 : Vec Ideal ⟨2, ![128, 64]⟩ .f32) : FVec Ideal ⟨2, ![128, 64]⟩ .f32 :=
  have v52 : IVec ⟨2, ![M, 128]⟩ 32 := iota .tc ⟨2, ![M, 128]⟩ 32 [1] hI
  have v54 : IVec ⟨2, ![M, 1]⟩ 32 := shapeCast ⟨2, ![M, 1]⟩ v53 hC
  have v55 : IVec ⟨2, ![M, 128]⟩ 32 := broadcastTo ⟨2, ![M, 128]⟩ v54 hBc
  have v56 : IVec ⟨2, ![M, 128]⟩ 1 := cmpi .eq v55 v52
  have v57 : IVec ⟨2, ![M, 128]⟩ 32 := extui 32 v56 h132
  have v58 : FVec Ideal ⟨2, ![M, 128]⟩ .f32 := sitofp .f32 v57
  have v59 : FVec Ideal ⟨2, ![M, 128]⟩ .bf16 := truncf .bf16 v58 hlt
  have v60 : FVec Ideal ⟨2, ![M, 64]⟩ .bf16 := truncf .bf16 (hnewT hW hR hB hlt wnk v35 v36 w2 b2) hlt
  have cst_31 : FVec Ideal ⟨2, ![128, 64]⟩ .f32 := constant ⟨2, ![128, 64]⟩ .f32 0x00000000#32
  have v61 : FVec Ideal ⟨2, ![128, 64]⟩ .f32 := matmul (⟨[0], [0], [1], [1], [], [], wtn⟩ : DotDims ⟨2, ![M, 128]⟩ ⟨2, ![M, 64]⟩ ⟨2, ![128, 64]⟩) none v59 v60 cst_31
  have v63 : FVec Ideal ⟨2, ![128, 64]⟩ .f32 := addf v62 v61
  have v66 : FVec Ideal ⟨2, ![128, 64]⟩ .f32 := shapeCast ⟨2, ![128, 64]⟩ v63 hG
  v66

def gpool0T (v70 : Vec Ideal ⟨2, ![128, 64]⟩ .f32) : FVec Ideal ⟨2, ![128, 64]⟩ .f32 :=
  have v71 : FVec Ideal ⟨2, ![128, 64]⟩ .f32 := shapeCast ⟨2, ![128, 64]⟩ v70 hG
  have v74 : FVec Ideal ⟨2, ![128, 64]⟩ .f32 := shapeCast ⟨2, ![128, 64]⟩ v71 hG
  v74

abbrev eps : EReal := Ideal.ofBits .f32 0x3727C5AC#32

theorem actT_apply (x0 x1 : Vec Ideal ⟨2, ![M, 64]⟩ .f32) (w1 : Vec Ideal ⟨2, ![64, 64]⟩ .f32)
    (b1 va mu ga be : Vec Ideal ⟨2, ![1, 64]⟩ .f32) (r : Fin M) (q : Fin 64) :
    actT hT hW hR hB hlt wnk x0 x1 w1 b1 va mu ga be (ix2 r q)
      = bn (pre1 (mat x0) (mat x1) (mat w1) (row b1)) (row mu) (row va) eps (row ga) (row be) r q := by
  unfold actT
  simp only [addf_apply, mulf_apply, subf_apply, shapeCast_self, broadcastTo_1b_ab_apply, rsqrt_apply, broadcast_apply]
  rw [matmul_nk_apply wnk none]
  rfl

theorem zeroT_apply (i : (⟨2, ![M, 64]⟩ : Shape).Idx) : zeroT (M := M) i = 0 := Ideal.ofBits_zero_f32

theorem hnewT_apply (x0 x1 : Vec Ideal ⟨2, ![M, 64]⟩ .f32) (w1 : Vec Ideal ⟨2, ![64, 64]⟩ .f32)
    (b1 va mu ga be : Vec Ideal ⟨2, ![1, 64]⟩ .f32) (w2 : Vec Ideal ⟨2, ![64, 64]⟩ .f32) (b2 : Vec Ideal ⟨2, ![1, 64]⟩ .f32)
    (r : Fin M) (q : Fin 64) :
    hnewT hW hR hB hlt wnk (actT hT hW hR hB hlt wnk x0 x1 w1 b1 va mu ga be) zeroT w2 b2 (ix2 r q)
      = layerMV eps (mat x0) (mat x1) (mat w1) (row b1) (row mu) (row va) (row ga) (row be) (mat w2) (row b2) r q := by
  unfold hnewT
  simp only [addf_apply, shapeCast_self, broadcastTo_1b_ab_apply]
  rw [matmul_nk_apply wnk none]
  refine congrArg (· + b2 (ix2 0 q)) (Finset.sum_congr rfl fun l _ => ?_)
  refine congrArg (· * w2 (ix2 l q)) ?_
  show max (actT hT hW hR hB hlt wnk x0 x1 w1 b1 va mu ga be (ix2 r l)) (zeroT (ix2 r l)) = _
  rw [actT_apply, zeroT_apply]
  rfl

theorem npoolT_apply (v35 v36 : FVec Ideal ⟨2, ![M, 64]⟩ .f32) (w2 : Vec Ideal ⟨2, ![64, 64]⟩ .f32) (b2 : Vec Ideal ⟨2, ![1, 64]⟩ .f32)
    (np : Vec Ideal ⟨2, ![M, 64]⟩ .f32) (i : (⟨2, ![M, 64]⟩ : Shape).Idx) :
    npoolT hT hW hR hB hlt wnk v35 v36 w2 b2 np i = np i + hnewT hW hR hB hlt wnk v35 v36 w2 b2 i := by
  unfold npoolT
  simp only [addf_apply, shapeCast_self]

theorem gpoolT_apply (v35 v36 : FVec Ideal ⟨2, ![M, 64]⟩ .f32) (w2 : Vec Ideal ⟨2, ![64, 64]⟩ .f32) (b2 : Vec Ideal ⟨2, ![1, 64]⟩ .f32)
    (v53 : Vec Ideal ⟨2, ![M, 1]⟩ .i32) (v62 : Vec Ideal ⟨2, ![128, 64]⟩ .f32) (g : Fin 128) (j : Fin 64) :
    gpoolT hW hR hB hlt wnk hI hC hBc h132 hG wtn v35 v36 w2 b2 v53 v62 (ix2 g j)
      = v62 (ix2 g j) + ∑ r : Fin M, (if (v53 (ix2 r 0) : BitVec 32) = BitVec.ofNat 32 g.val then (1 : EReal) else 0)
          * hnewT hW hR hB hlt wnk v35 v36 w2 b2 (ix2 r j) := by
  unfold gpoolT
  simp only [shapeCast_self, addf_apply]
  rw [matmul_tn_apply wtn none]
  refine congrArg (v62 (ix2 g j) + ·) (Finset.sum_congr rfl fun r _ => ?_)
  refine congrArg (· * hnewT hW hR hB hlt wnk v35 v36 w2 b2 (ix2 r j)) ?_
  refine (onehot_apply _ _ h132 (ix2 r g)).trans (if_congr ?_ rfl rfl)
  rw [bcast_col_apply, iota_single_apply]
  exact Iff.rfl

theorem gpool0T_eq (v70 : Vec Ideal ⟨2, ![128, 64]⟩ .f32) : gpool0T hG v70 = v70 := by
  unfold gpool0T
  simp only [shapeCast_self]

end Ops

theorem layerMV_row {n n' k m p : ℕ} (e : EReal) (h agg : Mat n k) (h' agg' : Mat n' k) (W1 : Mat k m)
    (b1 mu var g be : Fin m → EReal) (W2 : Mat m p) (b2 : Fin p → EReal) (i : Fin n) (i' : Fin n')
    (hh : ∀ l, h i l = h' i' l) (ha : ∀ l, agg i l = agg' i' l) (j : Fin p) :
    layerMV e h agg W1 b1 mu var g be W2 b2 i j = layerMV e h' agg' W1 b1 mu var g be W2 b2 i' j := by
  simp only [layerMV, lin, relu, bn, pre1, hh, ha]

theorem pool_after_blocks {T R G d : ℕ} (hT : 0 < T) (sel : Fin (T * R) → Fin G → Prop) [∀ i g, Decidable (sel i g)]
    (h : Mat (T * R) d) (hlt : ∀ (t : Fin T) (r : Fin R), t.val * R + r.val < T * R)
    (gp : Mat G d) (acc : ℕ → Mat G d)
    (h0 : ∀ g j, acc 0 g j = gp g j + ∑ r : Fin R,
        (if sel ⟨(⟨0, hT⟩ : Fin T).val * R + r.val, hlt ⟨0, hT⟩ r⟩ g then (1 : EReal) else 0) * h ⟨(⟨0, hT⟩ : Fin T).val * R + r.val, hlt ⟨0, hT⟩ r⟩ j)
    (hs : ∀ n (hn : n + 1 < T) g j, acc (n + 1) g j = acc n g j + ∑ r : Fin R,
        (if sel ⟨(⟨n + 1, hn⟩ : Fin T).val * R + r.val, hlt ⟨n + 1, hn⟩ r⟩ g then (1 : EReal) else 0) * h ⟨(⟨n + 1, hn⟩ : Fin T).val * R + r.val, hlt ⟨n + 1, hn⟩ r⟩ j)
    (g : Fin G) (j : Fin d) :
    acc (T - 1) g j = gp g j + seg sel h g j := by
  let f : ℕ → EReal := fun t => if ht : t < T then ∑ r : Fin R,
      (if sel ⟨(⟨t, ht⟩ : Fin T).val * R + r.val, hlt ⟨t, ht⟩ r⟩ g then (1 : EReal) else 0) * h ⟨(⟨t, ht⟩ : Fin T).val * R + r.val, hlt ⟨t, ht⟩ r⟩ j else 0
  have key : ∀ n, n < T → acc n g j = gp g j + ∑ t ∈ Finset.range (n + 1), f t := by
    intro n
    induction n with
    | zero =>
      intro _
      rw [h0, Finset.sum_range_one]
      show _ = gp g j + f 0
      simp only [f, dif_pos hT]
    | succ n ih =>
      intro hn
      rw [hs n hn, ih (Nat.lt_of_succ_lt hn), Finset.sum_range_succ _ (n + 1), add_assoc]
      congr 2
      simp only [f, dif_pos hn]
  rw [key (T - 1) (Nat.sub_lt hT Nat.one_pos), Nat.sub_add_cancel hT, Finset.sum_range,
    ← onehot_sum_eq_seg sel (fun i g => if sel i g then 1 else 0) (fun _ _ => rfl) h g j, sum_tiles' _ hlt]
  congr 1
  refine Finset.sum_congr rfl fun t _ => ?_
  simp only [f, dif_pos t.isLt]

end Cert.Spec.Tile

end
-- ==== Proof.KI.UpdateVal1.lean ====
import proofs.«416827_j50268297232946_2_alg».proof.Proof.KI.Update1
import proofs.«416827_j50268297232946_2_alg».proof.Proof.KI.UpdateTile
import proofs.«416827_j50268297232946_2_alg».proof.Proof.SpecLaws
import proofs.«416827_j50268297232946_2_alg».proof.Proof.SpecRead
import proofs.«416827_j50268297232946_2_alg».proof.Proof.SpecMV
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.ShloMosaic.Pipeline (Dat Cfg Window)
open Cert.KernelIdeal.Gen

section Val

open Idealize.ShloMosaic.ValueIdx Cert.Spec Cert.Spec.Tile
open scoped BigOperators

variable (W : (c : Dev nD) → (b : Ref sig .tc) → Buf (Elt Ideal) ((c : Thread nD τ).loc b))

def hnewAll1 (c : Dev nD) : Cert.Spec.Mat 100000 64 :=
  Cert.Spec.layerMV (Ideal.ofBits .f32 0x3727C5AC#32 : EReal)
    (Cert.Spec.mat (W c main_arg0)) (Cert.Spec.mat (W c main_v35)) (Cert.Spec.mat (W c main_v53))
    (Cert.Spec.row (W c main_v64)) (Cert.Spec.row (W c main_v65)) (Cert.Spec.row (W c main_v66))
    (Cert.Spec.row (W c main_v67)) (Cert.Spec.row (W c main_v68)) (Cert.Spec.mat (W c main_v61))
    (Cert.Spec.row (W c main_v69))

def sel1 (c : Dev nD) (i : Fin 100000) (g : Fin 128) : Prop :=
  (W c main_v20 : IVec S100000x1 32) (ix2 i 0) = BitVec.ofNat 32 g.val

instance sel1_dec (c : Dev nD) : ∀ i g, Decidable (sel1 W c i g) := fun i g =>
  inferInstanceAs (Decidable ((W c main_v20 : IVec S100000x1 32) (ix2 i 0) = BitVec.ofNat 32 g.val))

-- The block index of a row-block window is the point along the rows; every other block index is zero.
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_10.index t (0 : Fin 2) = t.val
    ∧ win1_10.index t (1 : Fin 2) = 0
    ∧ win1_11.index t (0 : Fin 2) = t.val
    ∧ win1_11.index t (1 : Fin 2) = 0
    ∧ win1_13.index t (0 : Fin 2) = t.val
    ∧ win1_13.index t (1 : Fin 2) = 0
    ∧ win1_14.index t (0 : Fin 2) = t.val
    ∧ win1_14.index t (1 : Fin 2) = 0
    ∧ win1_15.index t (0 : Fin 2) = 0
    ∧ win1_15.index t (1 : Fin 2) = 0 :=
  (by decide +kernel : ∀ t : Fin grid1.N, _)

-- Every block index of a window whose block is its whole array is zero.
theorem idxW1 : ∀ (t : Fin cfg1.N) (a : Fin 2), win1_2.index t a = 0 ∧ win1_3.index t a = 0 ∧ win1_4.index t a = 0
    ∧ win1_5.index t a = 0 ∧ win1_6.index t a = 0 ∧ win1_7.index t a = 0 ∧ win1_8.index t a = 0 ∧ win1_9.index t a = 0
    ∧ win1_12.index t a = 0 :=
  (by decide +kernel : ∀ (t : Fin grid1.N) (a : Fin 2), _)

abbrev tb1_0 (c : Dev nD) (t : Fin cfg1.N) : Vec Ideal S5000x64 .f32 := iblk1 W c 0 t
abbrev tb1_1 (c : Dev nD) (t : Fin cfg1.N) : Vec Ideal S5000x64 .f32 := iblk1 W c 1 t
abbrev tb1_2 (c : Dev nD) (t : Fin cfg1.N) : Vec Ideal S64x64 .f32 := iblk1 W c 2 t
abbrev tb1_3 (c : Dev nD) (t : Fin cfg1.N) : Vec Ideal S1x64 .f32 := iblk1 W c 3 t
abbrev tb1_4 (c : Dev nD) (t : Fin cfg1.N) : Vec Ideal S1x64 .f32 := iblk1 W c 4 t
abbrev tb1_5 (c : Dev nD) (t : Fin cfg1.N) : Vec Ideal S1x64 .f32 := iblk1 W c 5 t
abbrev tb1_6 (c : Dev nD) (t : Fin cfg1.N) : Vec Ideal S1x64 .f32 := iblk1 W c 6 t
abbrev tb1_7 (c : Dev nD) (t : Fin cfg1.N) : Vec Ideal S1x64 .f32 := iblk1 W c 7 t
abbrev tb1_8 (c : Dev nD) (t : Fin cfg1.N) : Vec Ideal S64x64 .f32 := iblk1 W c 8 t
abbrev tb1_9 (c : Dev nD) (t : Fin cfg1.N) : Vec Ideal S1x64 .f32 := iblk1 W c 9 t
abbrev tb1_10 (c : Dev nD) (t : Fin cfg1.N) : Vec Ideal S5000x64 .f32 := iblk1 W c 10 t
abbrev tb1_11 (c : Dev nD) (t : Fin cfg1.N) : Vec Ideal S5000x1 .i32 := iblk1 W c 11 t
abbrev tb1_12 (c : Dev nD) (t : Fin cfg1.N) : Vec Ideal S128x64 .f32 := iblk1 W c 12 t

-- Two indices of a two-axis array with the same coordinates are equal.
private theorem ix2_ext {n0 n1 : ℕ} {x y : (⟨2, ![n0, n1]⟩ : Shape).Idx} (h0 : (x 0).val = (y 0).val) (h1 : (x 1).val = (y 1).val) :
    x = y :=
  funext fun a => Fin.ext (match a with | ⟨0, _⟩ => h0 | ⟨1, _⟩ => h1)

-- A row block at point t reads rows 5000 t, 5000 t + 1, … of its array; a block that is its whole array reads the array.
theorem blk1 (c : Dev nD) (t : Fin cfg1.N) :
    (∀ (r : Fin 5000) (i : Fin 100000), i.val = t.val * 5000 + r.val →
      (∀ q, tb1_0 W c t (ix2 r q) = W c main_arg0 (ix2 i q))
      ∧ (∀ q, tb1_1 W c t (ix2 r q) = W c main_v35 (ix2 i q))
      ∧ (∀ q, tb1_10 W c t (ix2 r q) = W c main_v21 (ix2 i q))
      ∧ (∀ q, tb1_11 W c t (ix2 r q) = W c main_v20 (ix2 i q)))
    ∧ tb1_2 W c t = W c main_v53
    ∧ tb1_3 W c t = W c main_v64
    ∧ tb1_4 W c t = W c main_v65
    ∧ tb1_5 W c t = W c main_v66
    ∧ tb1_6 W c t = W c main_v67
    ∧ tb1_7 W c t = W c main_v68
    ∧ tb1_8 W c t = W c main_v61
    ∧ tb1_9 W c t = W c main_v69
    ∧ tb1_12 W c t = W c main_v22 := by
  have := idx1 t
  refine ⟨fun r i hi => ⟨fun q => congrArg (W c main_arg0) (ix2_ext ?_ ?_),
      fun q => congrArg (W c main_v35) (ix2_ext ?_ ?_),
      fun q => congrArg (W c main_v21) (ix2_ext ?_ ?_),
      fun q => congrArg (W c main_v20) (ix2_ext ?_ ?_)⟩,
    funext fun y => congrArg (W c main_v53) (funext fun a => Fin.ext (win1_2.rect_emb_val_of_index_zero t a (idxW1 t a).1 y)),
    funext fun y => congrArg (W c main_v64) (funext fun a => Fin.ext (win1_3.rect_emb_val_of_index_zero t a (idxW1 t a).2.1 y)),
    funext fun y => congrArg (W c main_v65) (funext fun a => Fin.ext (win1_4.rect_emb_val_of_index_zero t a (idxW1 t a).2.2.1 y)),
    funext fun y => congrArg (W c main_v66) (funext fun a => Fin.ext (win1_5.rect_emb_val_of_index_zero t a (idxW1 t a).2.2.2.1 y)),
    funext fun y => congrArg (W c main_v67) (funext fun a => Fin.ext (win1_6.rect_emb_val_of_index_zero t a (idxW1 t a).2.2.2.2.1 y)),
    funext fun y => congrArg (W c main_v68) (funext fun a => Fin.ext (win1_7.rect_emb_val_of_index_zero t a (idxW1 t a).2.2.2.2.2.1 y)),
    funext fun y => congrArg (W c main_v61) (funext fun a => Fin.ext (win1_8.rect_emb_val_of_index_zero t a (idxW1 t a).2.2.2.2.2.2.1 y)),
    funext fun y => congrArg (W c main_v69) (funext fun a => Fin.ext (win1_9.rect_emb_val_of_index_zero t a (idxW1 t a).2.2.2.2.2.2.2.1 y)),
    funext fun y => congrArg (W c main_v22) (funext fun a => Fin.ext (win1_12.rect_emb_val_of_index_zero t a (idxW1 t a).2.2.2.2.2.2.2.2 y))⟩
  · show win1_0.index t (0 : Fin 2) * 5000 + 1 * r.val = i.val; omega
  · show win1_0.index t (1 : Fin 2) * 64 + 1 * q.val = q.val; omega
  · show win1_1.index t (0 : Fin 2) * 5000 + 1 * r.val = i.val; omega
  · show win1_1.index t (1 : Fin 2) * 64 + 1 * q.val = q.val; omega
  · show win1_10.index t (0 : Fin 2) * 5000 + 1 * r.val = i.val; omega
  · show win1_10.index t (1 : Fin 2) * 64 + 1 * q.val = q.val; omega
  · show win1_11.index t (0 : Fin 2) * 5000 + 1 * r.val = i.val; omega
  · show win1_11.index t (1 : Fin 2) * 1 + 1 * q.val = q.val; omega

abbrev actT1 (c : Dev nD) (t : Fin cfg1.N) : FVec Ideal S5000x64 .f32 :=
  actT (M := 5000) shapeCasts_S5000x64_S5000x64 shapeCasts_S64x64_S64x64 shapeCasts_S1x64_S1x64 broadcasts_S1x64_S5000x64 bitsLt_bf16_f32 dot_S5000x64_S64x64_S5000x64_1_0_0_1_n_n_wf (tb1_0 W c t) (tb1_1 W c t) (tb1_2 W c t) (tb1_3 W c t) (tb1_5 W c t) (tb1_4 W c t) (tb1_6 W c t) (tb1_7 W c t)

abbrev hnewT1 (c : Dev nD) (t : Fin cfg1.N) : FVec Ideal S5000x64 .f32 :=
  hnewT (M := 5000) shapeCasts_S64x64_S64x64 shapeCasts_S1x64_S1x64 broadcasts_S1x64_S5000x64 bitsLt_bf16_f32 dot_S5000x64_S64x64_S5000x64_1_0_0_1_n_n_wf (actT1 W c t) zeroT (tb1_8 W c t) (tb1_9 W c t)

-- Reshaping an array to its own shape changes nothing, so the block's rectified activations are the tile's.
theorem act1_eq (c : Dev nD) (t : Fin cfg1.N) : act1 W c t = maximumf (actT1 W c t) zeroT := by
  unfold act1 k1_pay5 actT1 actT zeroT
  simp only [shapeCast_self] <;> rfl

theorem tile_h1 (c : Dev nD) (t : Fin cfg1.N) (y : S5000x64.Idx) (i : Fin 100000) (j : Fin 64)
    (hi : i.val = t.val * 5000 + (y 0).val) (hj : j.val = (y 1).val) : hnewT1 W c t y = hnewAll1 W c i j := by
  obtain ⟨r, q, rfl⟩ : ∃ (r : Fin 5000) (q : Fin 64), y = ix2 r q := ⟨y 0, y 1, eq_ix2 y⟩
  obtain rfl : j = q := Fin.ext hj
  obtain ⟨hr, h2, h3, h4, h5, h6, h7, h8, h9, _⟩ := blk1 W c t
  obtain ⟨h0, h1, _⟩ := hr r i hi
  refine (hnewT_apply (M := 5000) _ _ _ _ _ _ (tb1_0 W c t) (tb1_1 W c t) (tb1_2 W c t) (tb1_3 W c t) (tb1_5 W c t) (tb1_4 W c t) (tb1_6 W c t) (tb1_7 W c t) (tb1_8 W c t) (tb1_9 W c t) r j).trans ?_
  rw [h2, h3, h4, h5, h6, h7, h8, h9]
  exact layerMV_row eps (mat (tb1_0 W c t)) (mat (tb1_1 W c t)) (mat (n := 100000) (m := 64) (W c main_arg0))
    (mat (n := 100000) (m := 64) (W c main_v35)) _ _ _ _ _ _ _ _ r i h0 h1 j

theorem hnew1_eq (c : Dev nD) (t : Fin cfg1.N) : hnew1 W c t = hnewT1 W c t := by
  unfold hnew1
  rw [act1_eq]
  rfl

theorem tile_np1 (c : Dev nD) (t : Fin cfg1.N) (y : S5000x64.Idx) (i : Fin 100000) (j : Fin 64)
    (hi : i.val = t.val * 5000 + (y 0).val) (hj : j.val = (y 1).val) :
    npool1 W c t y = Cert.Spec.mat (n := 100000) (m := 64) (W c main_v21) i j + hnewAll1 W c i j := by
  obtain ⟨r, q, rfl⟩ : ∃ (r : Fin 5000) (q : Fin 64), y = ix2 r q := ⟨y 0, y 1, eq_ix2 y⟩
  obtain rfl : j = q := Fin.ext hj
  unfold npool1
  rw [act1_eq]
  exact (npoolT_apply (M := 5000) _ _ _ _ _ _ (actT1 W c t) zeroT (tb1_8 W c t) (tb1_9 W c t) (tb1_10 W c t) (ix2 r j)).trans
    (congrArg₂ (· + ·) (((blk1 W c t).1 r i hi).2.2.1 j) (tile_h1 W c t (ix2 r j) i j hi rfl))

theorem step_gp1 (c : Dev nD) (t : Fin cfg1.N) (acc : Vec Ideal S128x64 .f32) (g : Fin 128) (j : Fin 64)
    (hlt : ∀ r : Fin 5000, t.val * 5000 + r.val < 100000) :
    k1_pay3 (act1 W c t) (iblk1 W c 8 t) (iblk1 W c 9 t) (iblk1 W c 11 t) acc (ix2 g j)
      = acc (ix2 g j) + ∑ r : Fin 5000, (if sel1 W c ⟨t.val * 5000 + r.val, hlt r⟩ g then (1 : EReal) else 0)
          * hnewAll1 W c ⟨t.val * 5000 + r.val, hlt r⟩ j := by
  rw [act1_eq]
  exact (gpoolT_apply (M := 5000) _ _ _ _ _ _ _ _ _ _ _ (actT1 W c t) zeroT (tb1_8 W c t) (tb1_9 W c t) (tb1_11 W c t) acc g j).trans
    (congrArg (acc (ix2 g j) + ·) (Finset.sum_congr rfl fun r _ =>
      congrArg₂ (· * ·) (if_congr (Eq.congr_left (((blk1 W c t).1 r ⟨_, hlt r⟩ rfl).2.2.2 0)) rfl rfl)
        (tile_h1 W c t (ix2 r j) ⟨_, hlt r⟩ j rfl rfl)))

def G1_13 (c : Dev nD) : S100000x64.Idx → EReal := fun i => hnewAll1 W c (i 0) (i 1)
def G1_14 (c : Dev nD) : S100000x64.Idx → EReal :=
  fun i => Cert.Spec.mat (n := 100000) (m := 64) (W c main_v21) (i 0) (i 1) + hnewAll1 W c (i 0) (i 1)

theorem flushed1_13 (c : Dev nD) (t : Fin cfg1.N) :
    (dat1 W c).flushed 13 t = ((cfg1.win 13).blk t).view.read (Elt Ideal) (G1_13 W c) := by
  show (cfg1.win 13).cut (grid1.coords t) ((dat1 W c).after 13 t) = _
  rw [after1_13]
  have := idx1 t
  rw [hnew1_eq]
  refine funext fun y => tile_h1 W c t _ _ _ ?_ ?_
  · show win1_13.index t (0 : Fin 2) * 5000 + 1 * (y 0).val = t.val * 5000 + (y 0).val; omega
  · show win1_13.index t (1 : Fin 2) * 64 + 1 * (y 1).val = (y 1).val; omega

theorem flushed1_14 (c : Dev nD) (t : Fin cfg1.N) :
    (dat1 W c).flushed 14 t = ((cfg1.win 14).blk t).view.read (Elt Ideal) (G1_14 W c) := by
  show (cfg1.win 14).cut (grid1.coords t) ((dat1 W c).after 14 t) = _
  rw [after1_14]
  have := idx1 t
  refine funext fun y => tile_np1 W c t _ _ _ ?_ ?_
  · show win1_14.index t (0 : Fin 2) * 5000 + 1 * (y 0).val = t.val * 5000 + (y 0).val; omega
  · show win1_14.index t (1 : Fin 2) * 64 + 1 * (y 1).val = (y 1).val; omega

-- Row i of a row-block output lies in the block of point i / 5000.
theorem cover1 (i : S100000x64.Idx) :
    ∃ t : Fin cfg1.N, i ∈ ((cfg1.win 13).blk t).view.set ∧ i ∈ ((cfg1.win 14).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  have := idx1 t
  refine ⟨t, ?_, ?_⟩
  · show i ∈ ((View.whole main_v70_0).slice (win1_13.rect t)).set
    rw [View.set_slice_whole, Rect.mem_set_unit]
    intro a
    match a with
    | ⟨0, _⟩ => show win1_13.index t (0 : Fin 2) * 5000 ≤ (i 0).val ∧ (i 0).val < win1_13.index t (0 : Fin 2) * 5000 + 5000; omega
    | ⟨1, _⟩ => show win1_13.index t (1 : Fin 2) * 64 ≤ (i 1).val ∧ (i 1).val < win1_13.index t (1 : Fin 2) * 64 + 64; omega
  · show i ∈ ((View.whole main_v70_1).slice (win1_14.rect t)).set
    rw [View.set_slice_whole, Rect.mem_set_unit]
    intro a
    match a with
    | ⟨0, _⟩ => show win1_14.index t (0 : Fin 2) * 5000 ≤ (i 0).val ∧ (i 0).val < win1_14.index t (0 : Fin 2) * 5000 + 5000; omega
    | ⟨1, _⟩ => show win1_14.index t (1 : Fin 2) * 64 ≤ (i 1).val ∧ (i 1).val < win1_14.index t (1 : Fin 2) * 64 + 64; omega

theorem upd_h1 (c : Dev nD) :
    Cert.Spec.mat ((dat1 (F := Ideal) W c).arrAt 13 cfg1.N) = hnewAll1 W c :=
  funext fun i => funext fun j => congrFun
    ((dat1 W c).arrAt_eq_of_cover 13 (G1_13 W c) (fun t _ => flushed1_13 W c t) fun i => (cover1 i).imp fun t h => ⟨flush1_13 t, h.1⟩) (ix2 i j)

theorem upd_np1 (c : Dev nD) :
    Cert.Spec.mat ((dat1 (F := Ideal) W c).arrAt 14 cfg1.N)
      = fun i j => Cert.Spec.mat (W c main_v21) i j + hnewAll1 W c i j :=
  funext fun i => funext fun j => congrFun
    ((dat1 W c).arrAt_eq_of_cover 14 (G1_14 W c) (fun t _ => flushed1_14 W c t) fun i => (cover1 i).imp fun t h => ⟨flush1_14 t, h.2⟩) (ix2 i j)

theorem flushed1_15 (c : Dev nD) (t : Fin cfg1.N) (hf : (cfg1.win 15).flush t = true) :
    (dat1 W c).flushed 15 t = ((cfg1.win 15).blk t).view.read (Elt Ideal) (scr1_0 W c 19) := by
  have hN : cfg1.N = 20 := N_1
  have h1 : t.val = 19 := by have := (flush1_15 t).mp hf; have := t.isLt; omega
  show (cfg1.win 15).cut (grid1.coords t) ((dat1 W c).after 15 t) = _
  rw [after1_15, h1]
  have := idx1 t
  refine funext fun y => congrArg (scr1_0 W c 19) (ix2_ext ?_ ?_)
  · show (y 0).val = win1_15.index t (0 : Fin 2) * 128 + 1 * (y 0).val; omega
  · show (y 1).val = win1_15.index t (1 : Fin 2) * 64 + 1 * (y 1).val; omega

theorem cover1_15 (i : S128x64.Idx) :
    ∃ t : Fin cfg1.N, (cfg1.win 15).flush t = true ∧ i ∈ ((cfg1.win 15).blk t).view.set := by
  have hi0 : (i 0).val < 128 := (i 0).isLt
  have hi1 : (i 1).val < 64 := (i 1).isLt
  obtain ⟨t, ht⟩ : ∃ t : Fin cfg1.N, t.val = 19 := ⟨⟨19, lt_of_lt_of_eq (by decide : 19 < 20) N_1.symm⟩, rfl⟩
  have := idx1 t
  refine ⟨t, (flush1_15 t).mpr (by rw [ht]), ?_⟩
  show i ∈ ((View.whole main_v70_2).slice (win1_15.rect t)).set
  rw [View.set_slice_whole, Rect.mem_set_unit]
  intro a
  match a with
  | ⟨0, _⟩ => show win1_15.index t (0 : Fin 2) * 128 ≤ (i 0).val ∧ (i 0).val < win1_15.index t (0 : Fin 2) * 128 + 128; omega
  | ⟨1, _⟩ => show win1_15.index t (1 : Fin 2) * 64 ≤ (i 1).val ∧ (i 1).val < win1_15.index t (1 : Fin 2) * 64 + 64; omega

theorem upd_gp1 (c : Dev nD) :
    Cert.Spec.mat ((dat1 (F := Ideal) W c).arrAt 15 cfg1.N)
      = fun g j => Cert.Spec.mat (W c main_v22) g j + Cert.Spec.seg (sel1 W c) (hnewAll1 W c) g j := by
  funext g j
  refine (congrFun ((dat1 W c).arrAt_eq_of_cover 15 (scr1_0 W c 19) (fun t hf => flushed1_15 W c t hf) cover1_15) (ix2 g j)).trans ?_
  have hN : cfg1.N = 20 := N_1
  have hlt : ∀ (t : Fin 20) (r : Fin 5000), t.val * 5000 + r.val < 20 * 5000 := fun t r => by
    have := t.isLt; have := r.isLt; omega
  refine pool_after_blocks (T := 20) (R := 5000) (by decide) (sel1 W c) (hnewAll1 W c) hlt
    (Cert.Spec.mat (n := 128) (m := 64) (W c main_v22)) (fun n g j => scr1_0 W c n (ix2 g j)) ?_ ?_ g j
  · intro g j
    show scr1_0 W c 0 (ix2 g j) = _
    rw [scr1_0_zero]
    refine (step_gp1 W c (pt1 0) _ g j (fun r => hlt ⟨0, by decide⟩ r)).trans (congrArg (· + _) ?_)
    exact (congrFun (gpool0T_eq shapeCasts_S128x64_S128x64 (tb1_12 W c (pt1 0))) (ix2 g j)).trans
      (congrFun (blk1 W c (pt1 0)).2.2.2.2.2.2.2.2.2 (ix2 g j))
  · intro n hn g j
    show scr1_0 W c (n + 1) (ix2 g j) = _
    rw [scr1_0_succ, show pt1 (n + 1) = ⟨n + 1, lt_of_lt_of_eq hn hN.symm⟩ from Fin.ext (Nat.mod_eq_of_lt hn)]
    exact step_gp1 W c ⟨n + 1, lt_of_lt_of_eq hn hN.symm⟩ _ g j (fun r => hlt ⟨n + 1, hn⟩ r)

end Val

end Cert.KernelIdeal.Hand

end
-- ==== Proof.KI.UpdateVal3.lean ====
import proofs.«416827_j50268297232946_2_alg».proof.Proof.KI.Update3
import proofs.«416827_j50268297232946_2_alg».proof.Proof.KI.UpdateTile
import proofs.«416827_j50268297232946_2_alg».proof.Proof.SpecLaws
import proofs.«416827_j50268297232946_2_alg».proof.Proof.SpecRead
import proofs.«416827_j50268297232946_2_alg».proof.Proof.SpecMV
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.ShloMosaic.Pipeline (Dat Cfg Window)

section Val

open Idealize.ShloMosaic.ValueIdx Cert.KernelIdeal.Gen Cert.Spec Cert.Spec.Tile
open scoped BigOperators

variable (W : (c : Dev nD) → (b : Ref sig .tc) → Buf (Elt Ideal) ((c : Thread nD τ).loc b))

abbrev eps3 : EReal := Ideal.ofBits .f32 0x3727C5AC#32

def hnew3 (c : Dev nD) : Cert.Spec.Mat 100000 64 :=
  Cert.Spec.layerMV eps3 (Cert.Spec.mat (n := 100000) (m := 64) (W c main_v70_0)) (Cert.Spec.mat (n := 100000) (m := 64) (W c main_v83))
    (Cert.Spec.mat (n := 64) (m := 64) (W c main_v101)) (Cert.Spec.row (m := 64) (W c main_v112)) (Cert.Spec.row (m := 64) (W c main_v113))
    (Cert.Spec.row (m := 64) (W c main_v114)) (Cert.Spec.row (m := 64) (W c main_v115)) (Cert.Spec.row (m := 64) (W c main_v116))
    (Cert.Spec.mat (n := 64) (m := 64) (W c main_v109)) (Cert.Spec.row (m := 64) (W c main_v117))

abbrev sel3 (c : Dev nD) (i : Fin 100000) (g : Fin 128) : Prop :=
  (W c main_v20 : S100000x1.Idx → BitVec 32) (ix2 i 0) = BitVec.ofNat 32 g.val

-- The block index of a row-block window is the point along the rows; every other block index is zero.
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_10.index t (0 : Fin 2) = t.val
    ∧ win3_10.index t (1 : Fin 2) = 0
    ∧ win3_11.index t (0 : Fin 2) = t.val
    ∧ win3_11.index t (1 : Fin 2) = 0
    ∧ win3_13.index t (0 : Fin 2) = t.val
    ∧ win3_13.index t (1 : Fin 2) = 0
    ∧ win3_14.index t (0 : Fin 2) = t.val
    ∧ win3_14.index t (1 : Fin 2) = 0
    ∧ win3_15.index t (0 : Fin 2) = 0
    ∧ win3_15.index t (1 : Fin 2) = 0 :=
  (by decide +kernel : ∀ t : Fin grid3.N, _)

-- Every block index of a window whose block is its whole array is zero.
theorem idxW3 : ∀ (t : Fin cfg3.N) (a : Fin 2), win3_2.index t a = 0 ∧ win3_3.index t a = 0 ∧ win3_4.index t a = 0
    ∧ win3_5.index t a = 0 ∧ win3_6.index t a = 0 ∧ win3_7.index t a = 0 ∧ win3_8.index t a = 0 ∧ win3_9.index t a = 0
    ∧ win3_12.index t a = 0 :=
  (by decide +kernel : ∀ (t : Fin grid3.N) (a : Fin 2), _)

abbrev tb3_0 (c : Dev nD) (t : Fin cfg3.N) : Vec Ideal S5000x64 .f32 := iblk3 W c 0 t
abbrev tb3_1 (c : Dev nD) (t : Fin cfg3.N) : Vec Ideal S5000x64 .f32 := iblk3 W c 1 t
abbrev tb3_2 (c : Dev nD) (t : Fin cfg3.N) : Vec Ideal S64x64 .f32 := iblk3 W c 2 t
abbrev tb3_3 (c : Dev nD) (t : Fin cfg3.N) : Vec Ideal S1x64 .f32 := iblk3 W c 3 t
abbrev tb3_4 (c : Dev nD) (t : Fin cfg3.N) : Vec Ideal S1x64 .f32 := iblk3 W c 4 t
abbrev tb3_5 (c : Dev nD) (t : Fin cfg3.N) : Vec Ideal S1x64 .f32 := iblk3 W c 5 t
abbrev tb3_6 (c : Dev nD) (t : Fin cfg3.N) : Vec Ideal S1x64 .f32 := iblk3 W c 6 t
abbrev tb3_7 (c : Dev nD) (t : Fin cfg3.N) : Vec Ideal S1x64 .f32 := iblk3 W c 7 t
abbrev tb3_8 (c : Dev nD) (t : Fin cfg3.N) : Vec Ideal S64x64 .f32 := iblk3 W c 8 t
abbrev tb3_9 (c : Dev nD) (t : Fin cfg3.N) : Vec Ideal S1x64 .f32 := iblk3 W c 9 t
abbrev tb3_10 (c : Dev nD) (t : Fin cfg3.N) : Vec Ideal S5000x64 .f32 := iblk3 W c 10 t
abbrev tb3_11 (c : Dev nD) (t : Fin cfg3.N) : Vec Ideal S5000x1 .i32 := iblk3 W c 11 t
abbrev tb3_12 (c : Dev nD) (t : Fin cfg3.N) : Vec Ideal S128x64 .f32 := iblk3 W c 12 t

-- Two indices of a two-axis array with the same coordinates are equal.
private theorem ix2_ext {n0 n1 : ℕ} {x y : (⟨2, ![n0, n1]⟩ : Shape).Idx} (h0 : (x 0).val = (y 0).val) (h1 : (x 1).val = (y 1).val) :
    x = y :=
  funext fun a => Fin.ext (match a with | ⟨0, _⟩ => h0 | ⟨1, _⟩ => h1)

-- A row block at point t reads rows 5000 t, 5000 t + 1, … of its array; a block that is its whole array reads the array.
theorem blk3 (c : Dev nD) (t : Fin cfg3.N) :
    (∀ (r : Fin 5000) (i : Fin 100000), i.val = t.val * 5000 + r.val →
      (∀ q, tb3_0 W c t (ix2 r q) = W c main_v70_0 (ix2 i q))
      ∧ (∀ q, tb3_1 W c t (ix2 r q) = W c main_v83 (ix2 i q))
      ∧ (∀ q, tb3_10 W c t (ix2 r q) = W c main_v70_1 (ix2 i q))
      ∧ (∀ q, tb3_11 W c t (ix2 r q) = W c main_v20 (ix2 i q)))
    ∧ tb3_2 W c t = W c main_v101
    ∧ tb3_3 W c t = W c main_v112
    ∧ tb3_4 W c t = W c main_v113
    ∧ tb3_5 W c t = W c main_v114
    ∧ tb3_6 W c t = W c main_v115
    ∧ tb3_7 W c t = W c main_v116
    ∧ tb3_8 W c t = W c main_v109
    ∧ tb3_9 W c t = W c main_v117
    ∧ tb3_12 W c t = W c main_v70_2 := by
  have := idx3 t
  refine ⟨fun r i hi => ⟨fun q => congrArg (W c main_v70_0) (ix2_ext ?_ ?_),
      fun q => congrArg (W c main_v83) (ix2_ext ?_ ?_),
      fun q => congrArg (W c main_v70_1) (ix2_ext ?_ ?_),
      fun q => congrArg (W c main_v20) (ix2_ext ?_ ?_)⟩,
    funext fun y => congrArg (W c main_v101) (funext fun a => Fin.ext (win3_2.rect_emb_val_of_index_zero t a (idxW3 t a).1 y)),
    funext fun y => congrArg (W c main_v112) (funext fun a => Fin.ext (win3_3.rect_emb_val_of_index_zero t a (idxW3 t a).2.1 y)),
    funext fun y => congrArg (W c main_v113) (funext fun a => Fin.ext (win3_4.rect_emb_val_of_index_zero t a (idxW3 t a).2.2.1 y)),
    funext fun y => congrArg (W c main_v114) (funext fun a => Fin.ext (win3_5.rect_emb_val_of_index_zero t a (idxW3 t a).2.2.2.1 y)),
    funext fun y => congrArg (W c main_v115) (funext fun a => Fin.ext (win3_6.rect_emb_val_of_index_zero t a (idxW3 t a).2.2.2.2.1 y)),
    funext fun y => congrArg (W c main_v116) (funext fun a => Fin.ext (win3_7.rect_emb_val_of_index_zero t a (idxW3 t a).2.2.2.2.2.1 y)),
    funext fun y => congrArg (W c main_v109) (funext fun a => Fin.ext (win3_8.rect_emb_val_of_index_zero t a (idxW3 t a).2.2.2.2.2.2.1 y)),
    funext fun y => congrArg (W c main_v117) (funext fun a => Fin.ext (win3_9.rect_emb_val_of_index_zero t a (idxW3 t a).2.2.2.2.2.2.2.1 y)),
    funext fun y => congrArg (W c main_v70_2) (funext fun a => Fin.ext (win3_12.rect_emb_val_of_index_zero t a (idxW3 t a).2.2.2.2.2.2.2.2 y))⟩
  · show win3_0.index t (0 : Fin 2) * 5000 + 1 * r.val = i.val; omega
  · show win3_0.index t (1 : Fin 2) * 64 + 1 * q.val = q.val; omega
  · show win3_1.index t (0 : Fin 2) * 5000 + 1 * r.val = i.val; omega
  · show win3_1.index t (1 : Fin 2) * 64 + 1 * q.val = q.val; omega
  · show win3_10.index t (0 : Fin 2) * 5000 + 1 * r.val = i.val; omega
  · show win3_10.index t (1 : Fin 2) * 64 + 1 * q.val = q.val; omega
  · show win3_11.index t (0 : Fin 2) * 5000 + 1 * r.val = i.val; omega
  · show win3_11.index t (1 : Fin 2) * 1 + 1 * q.val = q.val; omega

theorem tile_h3 (c : Dev nD) (t : Fin cfg3.N) (y : S5000x64.Idx) (i : Fin 100000) (j : Fin 64)
    (hi : i.val = t.val * 5000 + (y 0).val) (hj : j.val = (y 1).val) :
    k3_pay1 (act3 W c t) k3_pay6 (iblk3 W c 8 t) (iblk3 W c 9 t) y = hnew3 W c i j := by
  obtain ⟨r, q, rfl⟩ : ∃ (r : Fin 5000) (q : Fin 64), y = ix2 r q := ⟨y 0, y 1, eq_ix2 y⟩
  obtain rfl : j = q := Fin.ext hj
  obtain ⟨hr, h2, h3, h4, h5, h6, h7, h8, h9, _⟩ := blk3 W c t
  obtain ⟨h0, h1, _⟩ := hr r i hi
  refine (hnewT_apply (M := 5000) _ _ _ _ _ _ (tb3_0 W c t) (tb3_1 W c t) (tb3_2 W c t) (tb3_3 W c t) (tb3_5 W c t) (tb3_4 W c t) (tb3_6 W c t) (tb3_7 W c t) (tb3_8 W c t) (tb3_9 W c t) r j).trans ?_
  rw [h2, h3, h4, h5, h6, h7, h8, h9]
  exact layerMV_row eps3 (mat (tb3_0 W c t)) (mat (tb3_1 W c t)) (mat (n := 100000) (m := 64) (W c main_v70_0))
    (mat (n := 100000) (m := 64) (W c main_v83)) _ _ _ _ _ _ _ _ r i h0 h1 j

theorem tile_np3 (c : Dev nD) (t : Fin cfg3.N) (y : S5000x64.Idx) (i : Fin 100000) (j : Fin 64)
    (hi : i.val = t.val * 5000 + (y 0).val) (hj : j.val = (y 1).val) :
    k3_pay2 (act3 W c t) k3_pay6 (iblk3 W c 8 t) (iblk3 W c 9 t) (iblk3 W c 10 t) y
      = Cert.Spec.mat (n := 100000) (m := 64) (W c main_v70_1) i j + hnew3 W c i j := by
  obtain ⟨r, q, rfl⟩ : ∃ (r : Fin 5000) (q : Fin 64), y = ix2 r q := ⟨y 0, y 1, eq_ix2 y⟩
  obtain rfl : j = q := Fin.ext hj
  exact (npoolT_apply (M := 5000) _ _ _ _ _ _ (act3 W c t) k3_pay6 (tb3_8 W c t) (tb3_9 W c t) (tb3_10 W c t) (ix2 r j)).trans
    (congrArg₂ (· + ·) (((blk3 W c t).1 r i hi).2.2.1 j) (tile_h3 W c t (ix2 r j) i j hi rfl))

theorem step_gp3 (c : Dev nD) (t : Fin cfg3.N) (acc : Vec Ideal S128x64 .f32) (g : Fin 128) (j : Fin 64)
    (hlt : ∀ r : Fin 5000, t.val * 5000 + r.val < 100000) :
    k3_pay3 (act3 W c t) k3_pay6 (iblk3 W c 8 t) (iblk3 W c 9 t) (iblk3 W c 11 t) acc (ix2 g j)
      = acc (ix2 g j) + ∑ r : Fin 5000, (if sel3 W c ⟨t.val * 5000 + r.val, hlt r⟩ g then (1 : EReal) else 0)
          * hnew3 W c ⟨t.val * 5000 + r.val, hlt r⟩ j :=
  (gpoolT_apply (M := 5000) _ _ _ _ _ _ _ _ _ _ _ (act3 W c t) k3_pay6 (tb3_8 W c t) (tb3_9 W c t) (tb3_11 W c t) acc g j).trans
    (congrArg (acc (ix2 g j) + ·) (Finset.sum_congr rfl fun r _ =>
      congrArg₂ (· * ·) (if_congr (Eq.congr_left (((blk3 W c t).1 r ⟨_, hlt r⟩ rfl).2.2.2 0)) rfl rfl)
        (tile_h3 W c t (ix2 r j) ⟨_, hlt r⟩ j rfl rfl)))

def G3_13 (c : Dev nD) : S100000x64.Idx → EReal := fun i => hnew3 W c (i 0) (i 1)
def G3_14 (c : Dev nD) : S100000x64.Idx → EReal :=
  fun i => Cert.Spec.mat (n := 100000) (m := 64) (W c main_v70_1) (i 0) (i 1) + hnew3 W c (i 0) (i 1)

theorem flushed3_13 (c : Dev nD) (t : Fin cfg3.N) :
    (dat3 W c).flushed 13 t = ((cfg3.win 13).blk t).view.read (Elt Ideal) (G3_13 W c) := by
  show (cfg3.win 13).cut (grid3.coords t) ((dat3 W c).after 13 t) = _
  rw [after3_13]
  have := idx3 t
  refine funext fun y => tile_h3 W c t _ _ _ ?_ ?_
  · show win3_13.index t (0 : Fin 2) * 5000 + 1 * (y 0).val = t.val * 5000 + (y 0).val; omega
  · show win3_13.index t (1 : Fin 2) * 64 + 1 * (y 1).val = (y 1).val; omega

theorem flushed3_14 (c : Dev nD) (t : Fin cfg3.N) :
    (dat3 W c).flushed 14 t = ((cfg3.win 14).blk t).view.read (Elt Ideal) (G3_14 W c) := by
  show (cfg3.win 14).cut (grid3.coords t) ((dat3 W c).after 14 t) = _
  rw [after3_14]
  have := idx3 t
  refine funext fun y => tile_np3 W c t _ _ _ ?_ ?_
  · show win3_14.index t (0 : Fin 2) * 5000 + 1 * (y 0).val = t.val * 5000 + (y 0).val; omega
  · show win3_14.index t (1 : Fin 2) * 64 + 1 * (y 1).val = (y 1).val; omega

-- Row i of a row-block output lies in the block of point i / 5000.
theorem cover3 (i : S100000x64.Idx) :
    ∃ t : Fin cfg3.N, i ∈ ((cfg3.win 13).blk t).view.set ∧ i ∈ ((cfg3.win 14).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  have := idx3 t
  refine ⟨t, ?_, ?_⟩
  · show i ∈ ((View.whole main_v118_0).slice (win3_13.rect t)).set
    rw [View.set_slice_whole, Rect.mem_set_unit]
    intro a
    match a with
    | ⟨0, _⟩ => show win3_13.index t (0 : Fin 2) * 5000 ≤ (i 0).val ∧ (i 0).val < win3_13.index t (0 : Fin 2) * 5000 + 5000; omega
    | ⟨1, _⟩ => show win3_13.index t (1 : Fin 2) * 64 ≤ (i 1).val ∧ (i 1).val < win3_13.index t (1 : Fin 2) * 64 + 64; omega
  · show i ∈ ((View.whole main_v118_1).slice (win3_14.rect t)).set
    rw [View.set_slice_whole, Rect.mem_set_unit]
    intro a
    match a with
    | ⟨0, _⟩ => show win3_14.index t (0 : Fin 2) * 5000 ≤ (i 0).val ∧ (i 0).val < win3_14.index t (0 : Fin 2) * 5000 + 5000; omega
    | ⟨1, _⟩ => show win3_14.index t (1 : Fin 2) * 64 ≤ (i 1).val ∧ (i 1).val < win3_14.index t (1 : Fin 2) * 64 + 64; omega

theorem upd_h3 (c : Dev nD) :
    Cert.Spec.mat (n := 100000) (m := 64) ((dat3 (F := Ideal) W c).arrAt 13 cfg3.N) = hnew3 W c :=
  funext fun i => funext fun j => congrFun
    ((dat3 W c).arrAt_eq_of_cover 13 (G3_13 W c) (fun t _ => flushed3_13 W c t) fun i => (cover3 i).imp fun t h => ⟨flush3_13 t, h.1⟩) (ix2 i j)

theorem upd_np3 (c : Dev nD) :
    Cert.Spec.mat (n := 100000) (m := 64) ((dat3 (F := Ideal) W c).arrAt 14 cfg3.N)
      = fun i j => Cert.Spec.mat (n := 100000) (m := 64) (W c main_v70_1) i j + hnew3 W c i j :=
  funext fun i => funext fun j => congrFun
    ((dat3 W c).arrAt_eq_of_cover 14 (G3_14 W c) (fun t _ => flushed3_14 W c t) fun i => (cover3 i).imp fun t h => ⟨flush3_14 t, h.2⟩) (ix2 i j)

theorem flushed3_15 (c : Dev nD) (t : Fin cfg3.N) (hf : (cfg3.win 15).flush t = true) :
    (dat3 W c).flushed 15 t = ((cfg3.win 15).blk t).view.read (Elt Ideal) (scr3_0 W c 19) := by
  have hN : cfg3.N = 20 := N_3
  have h1 : t.val = 19 := by have := (flush3_15 t).mp hf; have := t.isLt; omega
  show (cfg3.win 15).cut (grid3.coords t) ((dat3 W c).after 15 t) = _
  rw [after3_15, h1]
  have := idx3 t
  refine funext fun y => congrArg (scr3_0 W c 19) (ix2_ext ?_ ?_)
  · show (y 0).val = win3_15.index t (0 : Fin 2) * 128 + 1 * (y 0).val; omega
  · show (y 1).val = win3_15.index t (1 : Fin 2) * 64 + 1 * (y 1).val; omega

theorem cover3_15 (i : S128x64.Idx) :
    ∃ t : Fin cfg3.N, (cfg3.win 15).flush t = true ∧ i ∈ ((cfg3.win 15).blk t).view.set := by
  have hi0 : (i 0).val < 128 := (i 0).isLt
  have hi1 : (i 1).val < 64 := (i 1).isLt
  obtain ⟨t, ht⟩ : ∃ t : Fin cfg3.N, t.val = 19 := ⟨⟨19, lt_of_lt_of_eq (by decide : 19 < 20) N_3.symm⟩, rfl⟩
  have := idx3 t
  refine ⟨t, (flush3_15 t).mpr (by rw [ht]), ?_⟩
  show i ∈ ((View.whole main_v118_2).slice (win3_15.rect t)).set
  rw [View.set_slice_whole, Rect.mem_set_unit]
  intro a
  match a with
  | ⟨0, _⟩ => show win3_15.index t (0 : Fin 2) * 128 ≤ (i 0).val ∧ (i 0).val < win3_15.index t (0 : Fin 2) * 128 + 128; omega
  | ⟨1, _⟩ => show win3_15.index t (1 : Fin 2) * 64 ≤ (i 1).val ∧ (i 1).val < win3_15.index t (1 : Fin 2) * 64 + 64; omega

theorem upd_gp3 (c : Dev nD) :
    Cert.Spec.mat (n := 128) (m := 64) ((dat3 (F := Ideal) W c).arrAt 15 cfg3.N)
      = fun g j => Cert.Spec.mat (n := 128) (m := 64) (W c main_v70_2) g j + Cert.Spec.seg (sel3 W c) (hnew3 W c) g j := by
  funext g j
  refine (congrFun ((dat3 W c).arrAt_eq_of_cover 15 (scr3_0 W c 19) (fun t hf => flushed3_15 W c t hf) cover3_15) (ix2 g j)).trans ?_
  have hN : cfg3.N = 20 := N_3
  have hlt : ∀ (t : Fin 20) (r : Fin 5000), t.val * 5000 + r.val < 20 * 5000 := fun t r => by
    have := t.isLt; have := r.isLt; omega
  refine pool_after_blocks (T := 20) (R := 5000) (by decide) (sel3 W c) (hnew3 W c) hlt
    (Cert.Spec.mat (n := 128) (m := 64) (W c main_v70_2)) (fun n g j => scr3_0 W c n (ix2 g j)) ?_ ?_ g j
  · intro g j
    show scr3_0 W c 0 (ix2 g j) = _
    rw [scr3_0_zero]
    refine (step_gp3 W c ⟨0, by decide⟩ _ g j (fun r => hlt ⟨0, by decide⟩ r)).trans (congrArg (· + _) ?_)
    exact (congrFun (gpool0T_eq shapeCasts_S128x64_S128x64 (tb3_12 W c ⟨0, by decide⟩)) (ix2 g j)).trans
      (congrFun (blk3 W c ⟨0, by decide⟩).2.2.2.2.2.2.2.2.2 (ix2 g j))
  · intro n hn g j
    show scr3_0 W c (n + 1) (ix2 g j) = _
    rw [scr3_0_succ W c n (lt_of_lt_of_eq hn hN.symm)]
    exact step_gp3 W c ⟨n + 1, lt_of_lt_of_eq hn hN.symm⟩ _ g j (fun r => hlt ⟨n + 1, hn⟩ r)

end Val

end Cert.KernelIdeal.Hand

end
-- ==== Proof.KI.UpdateVal5.lean ====
import proofs.«416827_j50268297232946_2_alg».proof.Proof.KI.Update5
import proofs.«416827_j50268297232946_2_alg».proof.Proof.KI.UpdateTile
import proofs.«416827_j50268297232946_2_alg».proof.Proof.SpecLaws
import proofs.«416827_j50268297232946_2_alg».proof.Proof.SpecRead
import proofs.«416827_j50268297232946_2_alg».proof.Proof.SpecMV
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.ShloMosaic.Pipeline (Dat Cfg Window)

section Val

open Idealize.ShloMosaic.ValueIdx Cert.KernelIdeal.Gen Cert.Spec Cert.Spec.Tile
open scoped BigOperators

variable (W : (c : Dev nD) → (b : Ref sig .tc) → Buf (Elt Ideal) ((c : Thread nD τ).loc b))

abbrev eps5 : EReal := Ideal.ofBits .f32 0x3727C5AC#32

def hnew5 (c : Dev nD) : Cert.Spec.Mat 100000 64 :=
  Cert.Spec.layerMV eps5 (Cert.Spec.mat (n := 100000) (m := 64) (W c main_v118_0)) (Cert.Spec.mat (n := 100000) (m := 64) (W c main_v131))
    (Cert.Spec.mat (n := 64) (m := 64) (W c main_v149)) (Cert.Spec.row (m := 64) (W c main_v160)) (Cert.Spec.row (m := 64) (W c main_v161))
    (Cert.Spec.row (m := 64) (W c main_v162)) (Cert.Spec.row (m := 64) (W c main_v163)) (Cert.Spec.row (m := 64) (W c main_v164))
    (Cert.Spec.mat (n := 64) (m := 64) (W c main_v157)) (Cert.Spec.row (m := 64) (W c main_v165))

abbrev sel5 (c : Dev nD) (i : Fin 100000) (g : Fin 128) : Prop :=
  (W c main_v20 : S100000x1.Idx → BitVec 32) (ix2 i 0) = BitVec.ofNat 32 g.val

-- The block index of a row-block window is the point along the rows; every other block index is zero.
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_10.index t (0 : Fin 2) = t.val
    ∧ win5_10.index t (1 : Fin 2) = 0
    ∧ win5_11.index t (0 : Fin 2) = t.val
    ∧ win5_11.index t (1 : Fin 2) = 0
    ∧ win5_13.index t (0 : Fin 2) = t.val
    ∧ win5_13.index t (1 : Fin 2) = 0
    ∧ win5_14.index t (0 : Fin 2) = t.val
    ∧ win5_14.index t (1 : Fin 2) = 0
    ∧ win5_15.index t (0 : Fin 2) = 0
    ∧ win5_15.index t (1 : Fin 2) = 0 :=
  (by decide +kernel : ∀ t : Fin grid5.N, _)

-- Every block index of a window whose block is its whole array is zero.
theorem idxW5 : ∀ (t : Fin cfg5.N) (a : Fin 2), win5_2.index t a = 0 ∧ win5_3.index t a = 0 ∧ win5_4.index t a = 0
    ∧ win5_5.index t a = 0 ∧ win5_6.index t a = 0 ∧ win5_7.index t a = 0 ∧ win5_8.index t a = 0 ∧ win5_9.index t a = 0
    ∧ win5_12.index t a = 0 :=
  (by decide +kernel : ∀ (t : Fin grid5.N) (a : Fin 2), _)

abbrev tb5_0 (c : Dev nD) (t : Fin cfg5.N) : Vec Ideal S5000x64 .f32 := iblk5 W c 0 t
abbrev tb5_1 (c : Dev nD) (t : Fin cfg5.N) : Vec Ideal S5000x64 .f32 := iblk5 W c 1 t
abbrev tb5_2 (c : Dev nD) (t : Fin cfg5.N) : Vec Ideal S64x64 .f32 := iblk5 W c 2 t
abbrev tb5_3 (c : Dev nD) (t : Fin cfg5.N) : Vec Ideal S1x64 .f32 := iblk5 W c 3 t
abbrev tb5_4 (c : Dev nD) (t : Fin cfg5.N) : Vec Ideal S1x64 .f32 := iblk5 W c 4 t
abbrev tb5_5 (c : Dev nD) (t : Fin cfg5.N) : Vec Ideal S1x64 .f32 := iblk5 W c 5 t
abbrev tb5_6 (c : Dev nD) (t : Fin cfg5.N) : Vec Ideal S1x64 .f32 := iblk5 W c 6 t
abbrev tb5_7 (c : Dev nD) (t : Fin cfg5.N) : Vec Ideal S1x64 .f32 := iblk5 W c 7 t
abbrev tb5_8 (c : Dev nD) (t : Fin cfg5.N) : Vec Ideal S64x64 .f32 := iblk5 W c 8 t
abbrev tb5_9 (c : Dev nD) (t : Fin cfg5.N) : Vec Ideal S1x64 .f32 := iblk5 W c 9 t
abbrev tb5_10 (c : Dev nD) (t : Fin cfg5.N) : Vec Ideal S5000x64 .f32 := iblk5 W c 10 t
abbrev tb5_11 (c : Dev nD) (t : Fin cfg5.N) : Vec Ideal S5000x1 .i32 := iblk5 W c 11 t
abbrev tb5_12 (c : Dev nD) (t : Fin cfg5.N) : Vec Ideal S128x64 .f32 := iblk5 W c 12 t

-- Two indices of a two-axis array with the same coordinates are equal.
private theorem ix2_ext {n0 n1 : ℕ} {x y : (⟨2, ![n0, n1]⟩ : Shape).Idx} (h0 : (x 0).val = (y 0).val) (h1 : (x 1).val = (y 1).val) :
    x = y :=
  funext fun a => Fin.ext (match a with | ⟨0, _⟩ => h0 | ⟨1, _⟩ => h1)

-- A row block at point t reads rows 5000 t, 5000 t + 1, … of its array; a block that is its whole array reads the array.
theorem blk5 (c : Dev nD) (t : Fin cfg5.N) :
    (∀ (r : Fin 5000) (i : Fin 100000), i.val = t.val * 5000 + r.val →
      (∀ q, tb5_0 W c t (ix2 r q) = W c main_v118_0 (ix2 i q))
      ∧ (∀ q, tb5_1 W c t (ix2 r q) = W c main_v131 (ix2 i q))
      ∧ (∀ q, tb5_10 W c t (ix2 r q) = W c main_v118_1 (ix2 i q))
      ∧ (∀ q, tb5_11 W c t (ix2 r q) = W c main_v20 (ix2 i q)))
    ∧ tb5_2 W c t = W c main_v149
    ∧ tb5_3 W c t = W c main_v160
    ∧ tb5_4 W c t = W c main_v161
    ∧ tb5_5 W c t = W c main_v162
    ∧ tb5_6 W c t = W c main_v163
    ∧ tb5_7 W c t = W c main_v164
    ∧ tb5_8 W c t = W c main_v157
    ∧ tb5_9 W c t = W c main_v165
    ∧ tb5_12 W c t = W c main_v118_2 := by
  have := idx5 t
  refine ⟨fun r i hi => ⟨fun q => congrArg (W c main_v118_0) (ix2_ext ?_ ?_),
      fun q => congrArg (W c main_v131) (ix2_ext ?_ ?_),
      fun q => congrArg (W c main_v118_1) (ix2_ext ?_ ?_),
      fun q => congrArg (W c main_v20) (ix2_ext ?_ ?_)⟩,
    funext fun y => congrArg (W c main_v149) (funext fun a => Fin.ext (win5_2.rect_emb_val_of_index_zero t a (idxW5 t a).1 y)),
    funext fun y => congrArg (W c main_v160) (funext fun a => Fin.ext (win5_3.rect_emb_val_of_index_zero t a (idxW5 t a).2.1 y)),
    funext fun y => congrArg (W c main_v161) (funext fun a => Fin.ext (win5_4.rect_emb_val_of_index_zero t a (idxW5 t a).2.2.1 y)),
    funext fun y => congrArg (W c main_v162) (funext fun a => Fin.ext (win5_5.rect_emb_val_of_index_zero t a (idxW5 t a).2.2.2.1 y)),
    funext fun y => congrArg (W c main_v163) (funext fun a => Fin.ext (win5_6.rect_emb_val_of_index_zero t a (idxW5 t a).2.2.2.2.1 y)),
    funext fun y => congrArg (W c main_v164) (funext fun a => Fin.ext (win5_7.rect_emb_val_of_index_zero t a (idxW5 t a).2.2.2.2.2.1 y)),
    funext fun y => congrArg (W c main_v157) (funext fun a => Fin.ext (win5_8.rect_emb_val_of_index_zero t a (idxW5 t a).2.2.2.2.2.2.1 y)),
    funext fun y => congrArg (W c main_v165) (funext fun a => Fin.ext (win5_9.rect_emb_val_of_index_zero t a (idxW5 t a).2.2.2.2.2.2.2.1 y)),
    funext fun y => congrArg (W c main_v118_2) (funext fun a => Fin.ext (win5_12.rect_emb_val_of_index_zero t a (idxW5 t a).2.2.2.2.2.2.2.2 y))⟩
  · show win5_0.index t (0 : Fin 2) * 5000 + 1 * r.val = i.val; omega
  · show win5_0.index t (1 : Fin 2) * 64 + 1 * q.val = q.val; omega
  · show win5_1.index t (0 : Fin 2) * 5000 + 1 * r.val = i.val; omega
  · show win5_1.index t (1 : Fin 2) * 64 + 1 * q.val = q.val; omega
  · show win5_10.index t (0 : Fin 2) * 5000 + 1 * r.val = i.val; omega
  · show win5_10.index t (1 : Fin 2) * 64 + 1 * q.val = q.val; omega
  · show win5_11.index t (0 : Fin 2) * 5000 + 1 * r.val = i.val; omega
  · show win5_11.index t (1 : Fin 2) * 1 + 1 * q.val = q.val; omega

theorem tile_h5 (c : Dev nD) (t : Fin cfg5.N) (y : S5000x64.Idx) (i : Fin 100000) (j : Fin 64)
    (hi : i.val = t.val * 5000 + (y 0).val) (hj : j.val = (y 1).val) :
    k5_pay1 (act5 W c t) k5_pay6 (iblk5 W c 8 t) (iblk5 W c 9 t) y = hnew5 W c i j := by
  obtain ⟨r, q, rfl⟩ : ∃ (r : Fin 5000) (q : Fin 64), y = ix2 r q := ⟨y 0, y 1, eq_ix2 y⟩
  obtain rfl : j = q := Fin.ext hj
  obtain ⟨hr, h2, h3, h4, h5, h6, h7, h8, h9, _⟩ := blk5 W c t
  obtain ⟨h0, h1, _⟩ := hr r i hi
  refine (hnewT_apply (M := 5000) _ _ _ _ _ _ (tb5_0 W c t) (tb5_1 W c t) (tb5_2 W c t) (tb5_3 W c t) (tb5_5 W c t) (tb5_4 W c t) (tb5_6 W c t) (tb5_7 W c t) (tb5_8 W c t) (tb5_9 W c t) r j).trans ?_
  rw [h2, h3, h4, h5, h6, h7, h8, h9]
  exact layerMV_row eps5 (mat (tb5_0 W c t)) (mat (tb5_1 W c t)) (mat (n := 100000) (m := 64) (W c main_v118_0))
    (mat (n := 100000) (m := 64) (W c main_v131)) _ _ _ _ _ _ _ _ r i h0 h1 j

theorem tile_np5 (c : Dev nD) (t : Fin cfg5.N) (y : S5000x64.Idx) (i : Fin 100000) (j : Fin 64)
    (hi : i.val = t.val * 5000 + (y 0).val) (hj : j.val = (y 1).val) :
    k5_pay2 (act5 W c t) k5_pay6 (iblk5 W c 8 t) (iblk5 W c 9 t) (iblk5 W c 10 t) y
      = Cert.Spec.mat (n := 100000) (m := 64) (W c main_v118_1) i j + hnew5 W c i j := by
  obtain ⟨r, q, rfl⟩ : ∃ (r : Fin 5000) (q : Fin 64), y = ix2 r q := ⟨y 0, y 1, eq_ix2 y⟩
  obtain rfl : j = q := Fin.ext hj
  exact (npoolT_apply (M := 5000) _ _ _ _ _ _ (act5 W c t) k5_pay6 (tb5_8 W c t) (tb5_9 W c t) (tb5_10 W c t) (ix2 r j)).trans
    (congrArg₂ (· + ·) (((blk5 W c t).1 r i hi).2.2.1 j) (tile_h5 W c t (ix2 r j) i j hi rfl))

theorem step_gp5 (c : Dev nD) (t : Fin cfg5.N) (acc : Vec Ideal S128x64 .f32) (g : Fin 128) (j : Fin 64)
    (hlt : ∀ r : Fin 5000, t.val * 5000 + r.val < 100000) :
    k5_pay3 (act5 W c t) k5_pay6 (iblk5 W c 8 t) (iblk5 W c 9 t) (iblk5 W c 11 t) acc (ix2 g j)
      = acc (ix2 g j) + ∑ r : Fin 5000, (if sel5 W c ⟨t.val * 5000 + r.val, hlt r⟩ g then (1 : EReal) else 0)
          * hnew5 W c ⟨t.val * 5000 + r.val, hlt r⟩ j :=
  (gpoolT_apply (M := 5000) _ _ _ _ _ _ _ _ _ _ _ (act5 W c t) k5_pay6 (tb5_8 W c t) (tb5_9 W c t) (tb5_11 W c t) acc g j).trans
    (congrArg (acc (ix2 g j) + ·) (Finset.sum_congr rfl fun r _ =>
      congrArg₂ (· * ·) (if_congr (Eq.congr_left (((blk5 W c t).1 r ⟨_, hlt r⟩ rfl).2.2.2 0)) rfl rfl)
        (tile_h5 W c t (ix2 r j) ⟨_, hlt r⟩ j rfl rfl)))

def G5_13 (c : Dev nD) : S100000x64.Idx → EReal := fun i => hnew5 W c (i 0) (i 1)
def G5_14 (c : Dev nD) : S100000x64.Idx → EReal :=
  fun i => Cert.Spec.mat (n := 100000) (m := 64) (W c main_v118_1) (i 0) (i 1) + hnew5 W c (i 0) (i 1)

theorem flushed5_13 (c : Dev nD) (t : Fin cfg5.N) :
    (dat5 W c).flushed 13 t = ((cfg5.win 13).blk t).view.read (Elt Ideal) (G5_13 W c) := by
  show (cfg5.win 13).cut (grid5.coords t) ((dat5 W c).after 13 t) = _
  rw [after5_13]
  have := idx5 t
  refine funext fun y => tile_h5 W c t _ _ _ ?_ ?_
  · show win5_13.index t (0 : Fin 2) * 5000 + 1 * (y 0).val = t.val * 5000 + (y 0).val; omega
  · show win5_13.index t (1 : Fin 2) * 64 + 1 * (y 1).val = (y 1).val; omega

theorem flushed5_14 (c : Dev nD) (t : Fin cfg5.N) :
    (dat5 W c).flushed 14 t = ((cfg5.win 14).blk t).view.read (Elt Ideal) (G5_14 W c) := by
  show (cfg5.win 14).cut (grid5.coords t) ((dat5 W c).after 14 t) = _
  rw [after5_14]
  have := idx5 t
  refine funext fun y => tile_np5 W c t _ _ _ ?_ ?_
  · show win5_14.index t (0 : Fin 2) * 5000 + 1 * (y 0).val = t.val * 5000 + (y 0).val; omega
  · show win5_14.index t (1 : Fin 2) * 64 + 1 * (y 1).val = (y 1).val; omega

-- Row i of a row-block output lies in the block of point i / 5000.
theorem cover5 (i : S100000x64.Idx) :
    ∃ t : Fin cfg5.N, i ∈ ((cfg5.win 13).blk t).view.set ∧ i ∈ ((cfg5.win 14).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, lt_of_lt_of_eq (by omega : (i 0).val / 5000 < 20) N_5.symm⟩, rfl⟩
  have := idx5 t
  refine ⟨t, ?_, ?_⟩
  · show i ∈ ((View.whole main_v166_0).slice (win5_13.rect t)).set
    rw [View.set_slice_whole, Rect.mem_set_unit]
    intro a
    match a with
    | ⟨0, _⟩ => show win5_13.index t (0 : Fin 2) * 5000 ≤ (i 0).val ∧ (i 0).val < win5_13.index t (0 : Fin 2) * 5000 + 5000; omega
    | ⟨1, _⟩ => show win5_13.index t (1 : Fin 2) * 64 ≤ (i 1).val ∧ (i 1).val < win5_13.index t (1 : Fin 2) * 64 + 64; omega
  · show i ∈ ((View.whole main_v166_1).slice (win5_14.rect t)).set
    rw [View.set_slice_whole, Rect.mem_set_unit]
    intro a
    match a with
    | ⟨0, _⟩ => show win5_14.index t (0 : Fin 2) * 5000 ≤ (i 0).val ∧ (i 0).val < win5_14.index t (0 : Fin 2) * 5000 + 5000; omega
    | ⟨1, _⟩ => show win5_14.index t (1 : Fin 2) * 64 ≤ (i 1).val ∧ (i 1).val < win5_14.index t (1 : Fin 2) * 64 + 64; omega

theorem upd_h5 (c : Dev nD) :
    Cert.Spec.mat (n := 100000) (m := 64) ((dat5 (F := Ideal) W c).arrAt 13 cfg5.N) = hnew5 W c :=
  funext fun i => funext fun j => congrFun
    ((dat5 W c).arrAt_eq_of_cover 13 (G5_13 W c) (fun t _ => flushed5_13 W c t) fun i => (cover5 i).imp fun t h => ⟨flush5_13 t, h.1⟩) (ix2 i j)

theorem upd_np5 (c : Dev nD) :
    Cert.Spec.mat (n := 100000) (m := 64) ((dat5 (F := Ideal) W c).arrAt 14 cfg5.N)
      = fun i j => Cert.Spec.mat (n := 100000) (m := 64) (W c main_v118_1) i j + hnew5 W c i j :=
  funext fun i => funext fun j => congrFun
    ((dat5 W c).arrAt_eq_of_cover 14 (G5_14 W c) (fun t _ => flushed5_14 W c t) fun i => (cover5 i).imp fun t h => ⟨flush5_14 t, h.2⟩) (ix2 i j)

theorem flushed5_15 (c : Dev nD) (t : Fin cfg5.N) (hf : (cfg5.win 15).flush t = true) :
    (dat5 W c).flushed 15 t = ((cfg5.win 15).blk t).view.read (Elt Ideal) (scr5_0 W c 19) := by
  have hN : cfg5.N = 20 := N_5
  have h1 : t.val = 19 := by have := (flush5_15 t).mp hf; have := t.isLt; omega
  show (cfg5.win 15).cut (grid5.coords t) ((dat5 W c).after 15 t) = _
  rw [after5_15, h1]
  have := idx5 t
  refine funext fun y => congrArg (scr5_0 W c 19) (ix2_ext ?_ ?_)
  · show (y 0).val = win5_15.index t (0 : Fin 2) * 128 + 1 * (y 0).val; omega
  · show (y 1).val = win5_15.index t (1 : Fin 2) * 64 + 1 * (y 1).val; omega

theorem cover5_15 (i : S128x64.Idx) :
    ∃ t : Fin cfg5.N, (cfg5.win 15).flush t = true ∧ i ∈ ((cfg5.win 15).blk t).view.set := by
  have hi0 : (i 0).val < 128 := (i 0).isLt
  have hi1 : (i 1).val < 64 := (i 1).isLt
  obtain ⟨t, ht⟩ : ∃ t : Fin cfg5.N, t.val = 19 := ⟨⟨19, lt_of_lt_of_eq (by decide : 19 < 20) N_5.symm⟩, rfl⟩
  have := idx5 t
  refine ⟨t, (flush5_15 t).mpr (by rw [ht]), ?_⟩
  show i ∈ ((View.whole main_v166_2).slice (win5_15.rect t)).set
  rw [View.set_slice_whole, Rect.mem_set_unit]
  intro a
  match a with
  | ⟨0, _⟩ => show win5_15.index t (0 : Fin 2) * 128 ≤ (i 0).val ∧ (i 0).val < win5_15.index t (0 : Fin 2) * 128 + 128; omega
  | ⟨1, _⟩ => show win5_15.index t (1 : Fin 2) * 64 ≤ (i 1).val ∧ (i 1).val < win5_15.index t (1 : Fin 2) * 64 + 64; omega

theorem upd_gp5 (c : Dev nD) :
    Cert.Spec.mat (n := 128) (m := 64) ((dat5 (F := Ideal) W c).arrAt 15 cfg5.N)
      = fun g j => Cert.Spec.mat (n := 128) (m := 64) (W c main_v118_2) g j + Cert.Spec.seg (sel5 W c) (hnew5 W c) g j := by
  funext g j
  refine (congrFun ((dat5 W c).arrAt_eq_of_cover 15 (scr5_0 W c 19) (fun t hf => flushed5_15 W c t hf) cover5_15) (ix2 g j)).trans ?_
  have hN : cfg5.N = 20 := N_5
  have hlt : ∀ (t : Fin 20) (r : Fin 5000), t.val * 5000 + r.val < 20 * 5000 := fun t r => by
    have := t.isLt; have := r.isLt; omega
  refine pool_after_blocks (T := 20) (R := 5000) (by decide) (sel5 W c) (hnew5 W c) hlt
    (Cert.Spec.mat (n := 128) (m := 64) (W c main_v118_2)) (fun n g j => scr5_0 W c n (ix2 g j)) ?_ ?_ g j
  · intro g j
    show scr5_0 W c 0 (ix2 g j) = _
    rw [scr5_0_zero]
    refine (step_gp5 W c ⟨0, by decide⟩ _ g j (fun r => hlt ⟨0, by decide⟩ r)).trans (congrArg (· + _) ?_)
    exact (congrFun (gpool0T_eq shapeCasts_S128x64_S128x64 (tb5_12 W c ⟨0, by decide⟩)) (ix2 g j)).trans
      (congrFun (blk5 W c ⟨0, by decide⟩).2.2.2.2.2.2.2.2.2 (ix2 g j))
  · intro n hn g j
    show scr5_0 W c (n + 1) (ix2 g j) = _
    rw [scr5_0_succ W c n (lt_of_lt_of_eq hn hN.symm)]
    exact step_gp5 W c ⟨n + 1, lt_of_lt_of_eq hn hN.symm⟩ _ g j (fun r => hlt ⟨n + 1, hn⟩ r)

end Val

end Cert.KernelIdeal.Hand

end
-- ==== Proof.KI.UpdateVal7.lean ====
import proofs.«416827_j50268297232946_2_alg».proof.Proof.KI.Update7
import proofs.«416827_j50268297232946_2_alg».proof.Proof.KI.UpdateTile
import proofs.«416827_j50268297232946_2_alg».proof.Proof.SpecLaws
import proofs.«416827_j50268297232946_2_alg».proof.Proof.SpecRead
import proofs.«416827_j50268297232946_2_alg».proof.Proof.SpecMV
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.ShloMosaic.Pipeline (Dat Cfg Window)

section Val

open Idealize.ShloMosaic.ValueIdx Cert.KernelIdeal.Gen Cert.Spec Cert.Spec.Tile
open scoped BigOperators

variable (W : (c : Dev nD) → (b : Ref sig .tc) → Buf (Elt Ideal) ((c : Thread nD τ).loc b))

abbrev eps7 : EReal := Ideal.ofBits .f32 0x3727C5AC#32

def hnew7 (c : Dev nD) : Cert.Spec.Mat 100000 64 :=
  Cert.Spec.layerMV eps7 (Cert.Spec.mat (n := 100000) (m := 64) (W c main_v166_0)) (Cert.Spec.mat (n := 100000) (m := 64) (W c main_v179))
    (Cert.Spec.mat (n := 64) (m := 64) (W c main_v197)) (Cert.Spec.row (m := 64) (W c main_v208)) (Cert.Spec.row (m := 64) (W c main_v209))
    (Cert.Spec.row (m := 64) (W c main_v210)) (Cert.Spec.row (m := 64) (W c main_v211)) (Cert.Spec.row (m := 64) (W c main_v212))
    (Cert.Spec.mat (n := 64) (m := 64) (W c main_v205)) (Cert.Spec.row (m := 64) (W c main_v213))

abbrev sel7 (c : Dev nD) (i : Fin 100000) (g : Fin 128) : Prop :=
  (W c main_v20 : S100000x1.Idx → BitVec 32) (ix2 i 0) = BitVec.ofNat 32 g.val

-- The block index of a row-block window is the point along the rows; every other block index is zero.
theorem idx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_10.index t (0 : Fin 2) = t.val
    ∧ win7_10.index t (1 : Fin 2) = 0
    ∧ win7_11.index t (0 : Fin 2) = t.val
    ∧ win7_11.index t (1 : Fin 2) = 0
    ∧ win7_13.index t (0 : Fin 2) = t.val
    ∧ win7_13.index t (1 : Fin 2) = 0
    ∧ win7_14.index t (0 : Fin 2) = t.val
    ∧ win7_14.index t (1 : Fin 2) = 0
    ∧ win7_15.index t (0 : Fin 2) = 0
    ∧ win7_15.index t (1 : Fin 2) = 0 :=
  (by decide +kernel : ∀ t : Fin grid7.N, _)

-- Every block index of a window whose block is its whole array is zero.
theorem idxW7 : ∀ (t : Fin cfg7.N) (a : Fin 2), win7_2.index t a = 0 ∧ win7_3.index t a = 0 ∧ win7_4.index t a = 0
    ∧ win7_5.index t a = 0 ∧ win7_6.index t a = 0 ∧ win7_7.index t a = 0 ∧ win7_8.index t a = 0 ∧ win7_9.index t a = 0
    ∧ win7_12.index t a = 0 :=
  (by decide +kernel : ∀ (t : Fin grid7.N) (a : Fin 2), _)

abbrev tb7_0 (c : Dev nD) (t : Fin cfg7.N) : Vec Ideal S5000x64 .f32 := iblk7 W c 0 t
abbrev tb7_1 (c : Dev nD) (t : Fin cfg7.N) : Vec Ideal S5000x64 .f32 := iblk7 W c 1 t
abbrev tb7_2 (c : Dev nD) (t : Fin cfg7.N) : Vec Ideal S64x64 .f32 := iblk7 W c 2 t
abbrev tb7_3 (c : Dev nD) (t : Fin cfg7.N) : Vec Ideal S1x64 .f32 := iblk7 W c 3 t
abbrev tb7_4 (c : Dev nD) (t : Fin cfg7.N) : Vec Ideal S1x64 .f32 := iblk7 W c 4 t
abbrev tb7_5 (c : Dev nD) (t : Fin cfg7.N) : Vec Ideal S1x64 .f32 := iblk7 W c 5 t
abbrev tb7_6 (c : Dev nD) (t : Fin cfg7.N) : Vec Ideal S1x64 .f32 := iblk7 W c 6 t
abbrev tb7_7 (c : Dev nD) (t : Fin cfg7.N) : Vec Ideal S1x64 .f32 := iblk7 W c 7 t
abbrev tb7_8 (c : Dev nD) (t : Fin cfg7.N) : Vec Ideal S64x64 .f32 := iblk7 W c 8 t
abbrev tb7_9 (c : Dev nD) (t : Fin cfg7.N) : Vec Ideal S1x64 .f32 := iblk7 W c 9 t
abbrev tb7_10 (c : Dev nD) (t : Fin cfg7.N) : Vec Ideal S5000x64 .f32 := iblk7 W c 10 t
abbrev tb7_11 (c : Dev nD) (t : Fin cfg7.N) : Vec Ideal S5000x1 .i32 := iblk7 W c 11 t
abbrev tb7_12 (c : Dev nD) (t : Fin cfg7.N) : Vec Ideal S128x64 .f32 := iblk7 W c 12 t

-- Two indices of a two-axis array with the same coordinates are equal.
private theorem ix2_ext {n0 n1 : ℕ} {x y : (⟨2, ![n0, n1]⟩ : Shape).Idx} (h0 : (x 0).val = (y 0).val) (h1 : (x 1).val = (y 1).val) :
    x = y :=
  funext fun a => Fin.ext (match a with | ⟨0, _⟩ => h0 | ⟨1, _⟩ => h1)

-- A row block at point t reads rows 5000 t, 5000 t + 1, … of its array; a block that is its whole array reads the array.
theorem blk7 (c : Dev nD) (t : Fin cfg7.N) :
    (∀ (r : Fin 5000) (i : Fin 100000), i.val = t.val * 5000 + r.val →
      (∀ q, tb7_0 W c t (ix2 r q) = W c main_v166_0 (ix2 i q))
      ∧ (∀ q, tb7_1 W c t (ix2 r q) = W c main_v179 (ix2 i q))
      ∧ (∀ q, tb7_10 W c t (ix2 r q) = W c main_v166_1 (ix2 i q))
      ∧ (∀ q, tb7_11 W c t (ix2 r q) = W c main_v20 (ix2 i q)))
    ∧ tb7_2 W c t = W c main_v197
    ∧ tb7_3 W c t = W c main_v208
    ∧ tb7_4 W c t = W c main_v209
    ∧ tb7_5 W c t = W c main_v210
    ∧ tb7_6 W c t = W c main_v211
    ∧ tb7_7 W c t = W c main_v212
    ∧ tb7_8 W c t = W c main_v205
    ∧ tb7_9 W c t = W c main_v213
    ∧ tb7_12 W c t = W c main_v166_2 := by
  have := idx7 t
  refine ⟨fun r i hi => ⟨fun q => congrArg (W c main_v166_0) (ix2_ext ?_ ?_),
      fun q => congrArg (W c main_v179) (ix2_ext ?_ ?_),
      fun q => congrArg (W c main_v166_1) (ix2_ext ?_ ?_),
      fun q => congrArg (W c main_v20) (ix2_ext ?_ ?_)⟩,
    funext fun y => congrArg (W c main_v197) (funext fun a => Fin.ext (win7_2.rect_emb_val_of_index_zero t a (idxW7 t a).1 y)),
    funext fun y => congrArg (W c main_v208) (funext fun a => Fin.ext (win7_3.rect_emb_val_of_index_zero t a (idxW7 t a).2.1 y)),
    funext fun y => congrArg (W c main_v209) (funext fun a => Fin.ext (win7_4.rect_emb_val_of_index_zero t a (idxW7 t a).2.2.1 y)),
    funext fun y => congrArg (W c main_v210) (funext fun a => Fin.ext (win7_5.rect_emb_val_of_index_zero t a (idxW7 t a).2.2.2.1 y)),
    funext fun y => congrArg (W c main_v211) (funext fun a => Fin.ext (win7_6.rect_emb_val_of_index_zero t a (idxW7 t a).2.2.2.2.1 y)),
    funext fun y => congrArg (W c main_v212) (funext fun a => Fin.ext (win7_7.rect_emb_val_of_index_zero t a (idxW7 t a).2.2.2.2.2.1 y)),
    funext fun y => congrArg (W c main_v205) (funext fun a => Fin.ext (win7_8.rect_emb_val_of_index_zero t a (idxW7 t a).2.2.2.2.2.2.1 y)),
    funext fun y => congrArg (W c main_v213) (funext fun a => Fin.ext (win7_9.rect_emb_val_of_index_zero t a (idxW7 t a).2.2.2.2.2.2.2.1 y)),
    funext fun y => congrArg (W c main_v166_2) (funext fun a => Fin.ext (win7_12.rect_emb_val_of_index_zero t a (idxW7 t a).2.2.2.2.2.2.2.2 y))⟩
  · show win7_0.index t (0 : Fin 2) * 5000 + 1 * r.val = i.val; omega
  · show win7_0.index t (1 : Fin 2) * 64 + 1 * q.val = q.val; omega
  · show win7_1.index t (0 : Fin 2) * 5000 + 1 * r.val = i.val; omega
  · show win7_1.index t (1 : Fin 2) * 64 + 1 * q.val = q.val; omega
  · show win7_10.index t (0 : Fin 2) * 5000 + 1 * r.val = i.val; omega
  · show win7_10.index t (1 : Fin 2) * 64 + 1 * q.val = q.val; omega
  · show win7_11.index t (0 : Fin 2) * 5000 + 1 * r.val = i.val; omega
  · show win7_11.index t (1 : Fin 2) * 1 + 1 * q.val = q.val; omega

theorem tile_h7 (c : Dev nD) (t : Fin cfg7.N) (y : S5000x64.Idx) (i : Fin 100000) (j : Fin 64)
    (hi : i.val = t.val * 5000 + (y 0).val) (hj : j.val = (y 1).val) :
    k7_pay1 (act7 W c t) k7_pay6 (iblk7 W c 8 t) (iblk7 W c 9 t) y = hnew7 W c i j := by
  obtain ⟨r, q, rfl⟩ : ∃ (r : Fin 5000) (q : Fin 64), y = ix2 r q := ⟨y 0, y 1, eq_ix2 y⟩
  obtain rfl : j = q := Fin.ext hj
  obtain ⟨hr, h2, h3, h4, h5, h6, h7, h8, h9, _⟩ := blk7 W c t
  obtain ⟨h0, h1, _⟩ := hr r i hi
  refine (hnewT_apply (M := 5000) _ _ _ _ _ _ (tb7_0 W c t) (tb7_1 W c t) (tb7_2 W c t) (tb7_3 W c t) (tb7_5 W c t) (tb7_4 W c t) (tb7_6 W c t) (tb7_7 W c t) (tb7_8 W c t) (tb7_9 W c t) r j).trans ?_
  rw [h2, h3, h4, h5, h6, h7, h8, h9]
  exact layerMV_row eps7 (mat (tb7_0 W c t)) (mat (tb7_1 W c t)) (mat (n := 100000) (m := 64) (W c main_v166_0))
    (mat (n := 100000) (m := 64) (W c main_v179)) _ _ _ _ _ _ _ _ r i h0 h1 j

theorem tile_np7 (c : Dev nD) (t : Fin cfg7.N) (y : S5000x64.Idx) (i : Fin 100000) (j : Fin 64)
    (hi : i.val = t.val * 5000 + (y 0).val) (hj : j.val = (y 1).val) :
    k7_pay2 (act7 W c t) k7_pay6 (iblk7 W c 8 t) (iblk7 W c 9 t) (iblk7 W c 10 t) y
      = Cert.Spec.mat (n := 100000) (m := 64) (W c main_v166_1) i j + hnew7 W c i j := by
  obtain ⟨r, q, rfl⟩ : ∃ (r : Fin 5000) (q : Fin 64), y = ix2 r q := ⟨y 0, y 1, eq_ix2 y⟩
  obtain rfl : j = q := Fin.ext hj
  exact (npoolT_apply (M := 5000) _ _ _ _ _ _ (act7 W c t) k7_pay6 (tb7_8 W c t) (tb7_9 W c t) (tb7_10 W c t) (ix2 r j)).trans
    (congrArg₂ (· + ·) (((blk7 W c t).1 r i hi).2.2.1 j) (tile_h7 W c t (ix2 r j) i j hi rfl))

theorem step_gp7 (c : Dev nD) (t : Fin cfg7.N) (acc : Vec Ideal S128x64 .f32) (g : Fin 128) (j : Fin 64)
    (hlt : ∀ r : Fin 5000, t.val * 5000 + r.val < 100000) :
    k7_pay3 (act7 W c t) k7_pay6 (iblk7 W c 8 t) (iblk7 W c 9 t) (iblk7 W c 11 t) acc (ix2 g j)
      = acc (ix2 g j) + ∑ r : Fin 5000, (if sel7 W c ⟨t.val * 5000 + r.val, hlt r⟩ g then (1 : EReal) else 0)
          * hnew7 W c ⟨t.val * 5000 + r.val, hlt r⟩ j :=
  (gpoolT_apply (M := 5000) _ _ _ _ _ _ _ _ _ _ _ (act7 W c t) k7_pay6 (tb7_8 W c t) (tb7_9 W c t) (tb7_11 W c t) acc g j).trans
    (congrArg (acc (ix2 g j) + ·) (Finset.sum_congr rfl fun r _ =>
      congrArg₂ (· * ·) (if_congr (Eq.congr_left (((blk7 W c t).1 r ⟨_, hlt r⟩ rfl).2.2.2 0)) rfl rfl)
        (tile_h7 W c t (ix2 r j) ⟨_, hlt r⟩ j rfl rfl)))

def G7_13 (c : Dev nD) : S100000x64.Idx → EReal := fun i => hnew7 W c (i 0) (i 1)
def G7_14 (c : Dev nD) : S100000x64.Idx → EReal :=
  fun i => Cert.Spec.mat (n := 100000) (m := 64) (W c main_v166_1) (i 0) (i 1) + hnew7 W c (i 0) (i 1)

theorem flushed7_13 (c : Dev nD) (t : Fin cfg7.N) :
    (dat7 W c).flushed 13 t = ((cfg7.win 13).blk t).view.read (Elt Ideal) (G7_13 W c) := by
  show (cfg7.win 13).cut (grid7.coords t) ((dat7 W c).after 13 t) = _
  rw [after7_13]
  have := idx7 t
  refine funext fun y => tile_h7 W c t _ _ _ ?_ ?_
  · show win7_13.index t (0 : Fin 2) * 5000 + 1 * (y 0).val = t.val * 5000 + (y 0).val; omega
  · show win7_13.index t (1 : Fin 2) * 64 + 1 * (y 1).val = (y 1).val; omega

theorem flushed7_14 (c : Dev nD) (t : Fin cfg7.N) :
    (dat7 W c).flushed 14 t = ((cfg7.win 14).blk t).view.read (Elt Ideal) (G7_14 W c) := by
  show (cfg7.win 14).cut (grid7.coords t) ((dat7 W c).after 14 t) = _
  rw [after7_14]
  have := idx7 t
  refine funext fun y => tile_np7 W c t _ _ _ ?_ ?_
  · show win7_14.index t (0 : Fin 2) * 5000 + 1 * (y 0).val = t.val * 5000 + (y 0).val; omega
  · show win7_14.index t (1 : Fin 2) * 64 + 1 * (y 1).val = (y 1).val; omega

-- Row i of a row-block output lies in the block of point i / 5000.
theorem cover7 (i : S100000x64.Idx) :
    ∃ t : Fin cfg7.N, i ∈ ((cfg7.win 13).blk t).view.set ∧ i ∈ ((cfg7.win 14).blk t).view.set := by
  have hi0 : (i 0).val < 100000 := (i 0).isLt
  have hi1 : (i 1).val < 64 := (i 1).isLt
  obtain ⟨t, ht⟩ : ∃ t : Fin cfg7.N, t.val = (i 0).val / 5000 :=
    ⟨⟨(i 0).val / 5000, lt_of_lt_of_eq (by omega : (i 0).val / 5000 < 20) N_7.symm⟩, rfl⟩
  have := idx7 t
  refine ⟨t, ?_, ?_⟩
  · show i ∈ ((View.whole main_v214_0).slice (win7_13.rect t)).set
    rw [View.set_slice_whole, Rect.mem_set_unit]
    intro a
    match a with
    | ⟨0, _⟩ => show win7_13.index t (0 : Fin 2) * 5000 ≤ (i 0).val ∧ (i 0).val < win7_13.index t (0 : Fin 2) * 5000 + 5000; omega
    | ⟨1, _⟩ => show win7_13.index t (1 : Fin 2) * 64 ≤ (i 1).val ∧ (i 1).val < win7_13.index t (1 : Fin 2) * 64 + 64; omega
  · show i ∈ ((View.whole main_v214_1).slice (win7_14.rect t)).set
    rw [View.set_slice_whole, Rect.mem_set_unit]
    intro a
    match a with
    | ⟨0, _⟩ => show win7_14.index t (0 : Fin 2) * 5000 ≤ (i 0).val ∧ (i 0).val < win7_14.index t (0 : Fin 2) * 5000 + 5000; omega
    | ⟨1, _⟩ => show win7_14.index t (1 : Fin 2) * 64 ≤ (i 1).val ∧ (i 1).val < win7_14.index t (1 : Fin 2) * 64 + 64; omega

theorem upd_h7 (c : Dev nD) :
    Cert.Spec.mat (n := 100000) (m := 64) ((dat7 (F := Ideal) W c).arrAt 13 cfg7.N) = hnew7 W c :=
  funext fun i => funext fun j => congrFun
    ((dat7 W c).arrAt_eq_of_cover 13 (G7_13 W c) (fun t _ => flushed7_13 W c t) fun i => (cover7 i).imp fun t h => ⟨flush7_13 t, h.1⟩) (ix2 i j)

theorem upd_np7 (c : Dev nD) :
    Cert.Spec.mat (n := 100000) (m := 64) ((dat7 (F := Ideal) W c).arrAt 14 cfg7.N)
      = fun i j => Cert.Spec.mat (n := 100000) (m := 64) (W c main_v166_1) i j + hnew7 W c i j :=
  funext fun i => funext fun j => congrFun
    ((dat7 W c).arrAt_eq_of_cover 14 (G7_14 W c) (fun t _ => flushed7_14 W c t) fun i => (cover7 i).imp fun t h => ⟨flush7_14 t, h.2⟩) (ix2 i j)

theorem flushed7_15 (c : Dev nD) (t : Fin cfg7.N) (hf : (cfg7.win 15).flush t = true) :
    (dat7 W c).flushed 15 t = ((cfg7.win 15).blk t).view.read (Elt Ideal) (scr7_0 W c 19) := by
  have hN : cfg7.N = 20 := N_7
  have h1 : t.val = 19 := by have := (flush7_15 t).mp hf; have := t.isLt; omega
  show (cfg7.win 15).cut (grid7.coords t) ((dat7 W c).after 15 t) = _
  rw [after7_15, h1]
  have := idx7 t
  refine funext fun y => congrArg (scr7_0 W c 19) (ix2_ext ?_ ?_)
  · show (y 0).val = win7_15.index t (0 : Fin 2) * 128 + 1 * (y 0).val; omega
  · show (y 1).val = win7_15.index t (1 : Fin 2) * 64 + 1 * (y 1).val; omega

theorem cover7_15 (i : S128x64.Idx) :
    ∃ t : Fin cfg7.N, (cfg7.win 15).flush t = true ∧ i ∈ ((cfg7.win 15).blk t).view.set := by
  have hi0 : (i 0).val < 128 := (i 0).isLt
  have hi1 : (i 1).val < 64 := (i 1).isLt
  obtain ⟨t, ht⟩ : ∃ t : Fin cfg7.N, t.val = 19 := ⟨⟨19, lt_of_lt_of_eq (by decide : 19 < 20) N_7.symm⟩, rfl⟩
  have := idx7 t
  refine ⟨t, (flush7_15 t).mpr (by rw [ht]), ?_⟩
  show i ∈ ((View.whole main_v214_2).slice (win7_15.rect t)).set
  rw [View.set_slice_whole, Rect.mem_set_unit]
  intro a
  match a with
  | ⟨0, _⟩ => show win7_15.index t (0 : Fin 2) * 128 ≤ (i 0).val ∧ (i 0).val < win7_15.index t (0 : Fin 2) * 128 + 128; omega
  | ⟨1, _⟩ => show win7_15.index t (1 : Fin 2) * 64 ≤ (i 1).val ∧ (i 1).val < win7_15.index t (1 : Fin 2) * 64 + 64; omega

theorem upd_gp7 (c : Dev nD) :
    Cert.Spec.mat (n := 128) (m := 64) ((dat7 (F := Ideal) W c).arrAt 15 cfg7.N)
      = fun g j => Cert.Spec.mat (n := 128) (m := 64) (W c main_v166_2) g j + Cert.Spec.seg (sel7 W c) (hnew7 W c) g j := by
  funext g j
  refine (congrFun ((dat7 W c).arrAt_eq_of_cover 15 (scr7_0 W c 19) (fun t hf => flushed7_15 W c t hf) cover7_15) (ix2 g j)).trans ?_
  have hN : cfg7.N = 20 := N_7
  have hlt : ∀ (t : Fin 20) (r : Fin 5000), t.val * 5000 + r.val < 20 * 5000 := fun t r => by
    have := t.isLt; have := r.isLt; omega
  refine pool_after_blocks (T := 20) (R := 5000) (by decide) (sel7 W c) (hnew7 W c) hlt
    (Cert.Spec.mat (n := 128) (m := 64) (W c main_v166_2)) (fun n g j => scr7_0 W c n (ix2 g j)) ?_ ?_ g j
  · intro g j
    show scr7_0 W c 0 (ix2 g j) = _
    rw [scr7_0_zero]
    refine (step_gp7 W c ⟨0, by decide⟩ _ g j (fun r => hlt ⟨0, by decide⟩ r)).trans (congrArg (· + _) ?_)
    exact (congrFun (gpool0T_eq shapeCasts_S128x64_S128x64 (tb7_12 W c ⟨0, by decide⟩)) (ix2 g j)).trans
      (congrFun (blk7 W c ⟨0, by decide⟩).2.2.2.2.2.2.2.2.2 (ix2 g j))
  · intro n hn g j
    show scr7_0 W c (n + 1) (ix2 g j) = _
    rw [scr7_0_succ W c n (lt_of_lt_of_eq hn hN.symm)]
    exact step_gp7 W c ⟨n + 1, lt_of_lt_of_eq hn hN.symm⟩ _ g j (fun r => hlt ⟨n + 1, hn⟩ r)

end Val

end Cert.KernelIdeal.Hand

end
-- ==== Proof.KI.Chain.lean ====
import proofs.«416827_j50268297232946_2_alg».proof.Proof.SpecMV
import proofs.«416827_j50268297232946_2_alg».proof.Proof.SpecNet
import proofs.«416827_j50268297232946_2_alg».proof.Proof.KI.Fold
import proofs.«416827_j50268297232946_2_alg».proof.Proof.KI.StatsVal0
import proofs.«416827_j50268297232946_2_alg».proof.Proof.KI.StatsVal2
import proofs.«416827_j50268297232946_2_alg».proof.Proof.KI.StatsVal4
import proofs.«416827_j50268297232946_2_alg».proof.Proof.KI.StatsVal6
import proofs.«416827_j50268297232946_2_alg».proof.Proof.KI.Host0
import proofs.«416827_j50268297232946_2_alg».proof.Proof.KI.Host1
import proofs.«416827_j50268297232946_2_alg».proof.Proof.KI.Host2
import proofs.«416827_j50268297232946_2_alg».proof.Proof.KI.Host3
import proofs.«416827_j50268297232946_2_alg».proof.Proof.KI.Host4
import proofs.«416827_j50268297232946_2_alg».proof.Proof.KI.Host5
import proofs.«416827_j50268297232946_2_alg».proof.Proof.KI.Host6
import proofs.«416827_j50268297232946_2_alg».proof.Proof.KI.Host7
import proofs.«416827_j50268297232946_2_alg».proof.Proof.KI.Host8
import proofs.«416827_j50268297232946_2_alg».proof.Proof.KI.UpdateVal1
import proofs.«416827_j50268297232946_2_alg».proof.Proof.KI.UpdateVal3
import proofs.«416827_j50268297232946_2_alg».proof.Proof.KI.UpdateVal5
import proofs.«416827_j50268297232946_2_alg».proof.Proof.KI.UpdateVal7
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.StableHlo Idealize.SL.Sem
open Idealize.ShloMosaic.Pipeline (Dat Cfg Window)
open Cert.AggFin.KernelIdeal

abbrev NE : EReal := ((100000 : ℝ) : EReal)
abbrev epsE : EReal := (Ideal.ofBits .f32 0x3727C5AC#32 : EReal)

section Chain

variable (m : (ℓ : Loc nD τ sig) → Buf (Elt Ideal) ℓ) (c : Dev nD)

abbrev xM : Mat 100000 64 := mat (V0 m c main_arg0 : S100000x64.Idx → EReal)
abbrev W1M : Fin 4 → Mat 64 64 := fun l => mat3 (V0 m c main_arg3 : S4x64x64.Idx → EReal) l
abbrev b1M : Fin 4 → Fin 64 → EReal := fun l => row2 (V0 m c main_arg4 : S4x64.Idx → EReal) l
abbrev gM : Fin 4 → Fin 64 → EReal := fun l => row2 (V0 m c main_arg5 : S4x64.Idx → EReal) l
abbrev beM : Fin 4 → Fin 64 → EReal := fun l => row2 (V0 m c main_arg6 : S4x64.Idx → EReal) l
abbrev W2M : Fin 4 → Mat 64 64 := fun l => mat3 (V0 m c main_arg7 : S4x64x64.Idx → EReal) l
abbrev b2M : Fin 4 → Fin 64 → EReal := fun l => row2 (V0 m c main_arg8 : S4x64.Idx → EReal) l

def arr (hm : Mat 100000 64) : S100000x64.Idx → EReal := fun idx => hm (idx 0) (idx 1)

def aggM : Mat 100000 64 → Mat 100000 64 :=
  fun hm => mat (agg (arr hm) (srcCol m c) (dstCol m c) (invDeg (dstCol m c)))

def cvec : Fin 128 → EReal := vec (invGcnt (batIx (V0 m c main_arg2)) : S128.Idx → EReal)

abbrev selOf (batch : IVec S100000 32) : Fin 100000 → Fin 128 → Prop := fun i g => batch (ix1 i) = BitVec.ofNat 32 g.val
abbrev selM : Fin 100000 → Fin 128 → Prop := selOf (V0 m c main_arg2 : IVec S100000 32)

abbrev HK1 : Mat 100000 64 := hK1 NE epsE (aggM m c) (W1M m c) (W2M m c) (b1M m c) (gM m c) (beM m c) (b2M m c) (xM m c)
abbrev HK2 : Mat 100000 64 := hK2 NE epsE (aggM m c) (W1M m c) (W2M m c) (b1M m c) (gM m c) (beM m c) (b2M m c) (xM m c)
abbrev HK3 : Mat 100000 64 := hK3 NE epsE (aggM m c) (W1M m c) (W2M m c) (b1M m c) (gM m c) (beM m c) (b2M m c) (xM m c)
abbrev HK4 : Mat 100000 64 := hK4 NE epsE (aggM m c) (W1M m c) (W2M m c) (b1M m c) (gM m c) (beM m c) (b2M m c) (xM m c)

theorem arr_mat (a : S100000x64.Idx → EReal) : arr (mat a) = a :=
  funext fun idx => congrArg a (eq_ix2 idx).symm

theorem seg_congr {n G d : ℕ} (s s' : Fin n → Fin G → Prop) [∀ i g, Decidable (s i g)] [∀ i g, Decidable (s' i g)]
    (h : Mat n d) (hs : ∀ i g, s i g ↔ s' i g) : seg s h = seg s' h := by
  funext g j
  unfold seg
  exact Finset.sum_congr (Finset.filter_congr fun i _ => hs i g) fun _ _ => rfl

theorem layer_core (h ag : Mat 100000 64) (W1 W2 : Mat 64 64) (b1 ga be b2 : Fin 64 → EReal) (s0 s1 mu va : Fin 64 → EReal)
    (hs0 : ∀ j, s0 j = colSum (pre1 h ag W1 b1) j)
    (hs1 : ∀ j, s1 j = colSum (fun i j => pre1 h ag W1 b1 i j * pre1 h ag W1 b1 i j) j)
    (hmu : ∀ j, mu j = Ideal.div (s0 j) NE)
    (hva : ∀ j, va j = max (Ideal.div (s1 j) NE - Ideal.div (s0 j) NE * Ideal.div (s0 j) NE) 0) :
    layerMV epsE h ag W1 b1 mu va ga be W2 b2 = layerK NE epsE h ag W1 b1 ga be W2 b2 := by
  obtain rfl : s0 = colSum (pre1 h ag W1 b1) := funext hs0
  obtain rfl : s1 = colSum (fun i j => pre1 h ag W1 b1 i j * pre1 h ag W1 b1 i j) := funext hs1
  obtain rfl : mu = mean NE (pre1 h ag W1 b1) := funext hmu
  obtain rfl : va = varK NE (pre1 h ag W1 b1) := funext hva
  exact (layerWith_eq_layerMV varK NE epsE h ag W1 b1 ga be W2 b2).symm

theorem mat_trans {n k : ℕ} {a b : (⟨2, ![n, k]⟩ : Shape).Idx → EReal} {M : Mat n k} (e : a = b) (h : mat b = M) : mat a = M :=
  (congrArg mat e).trans h

theorem row_trans {k : ℕ} {a b : (⟨2, ![1, k]⟩ : Shape).Idx → EReal} {f : Fin k → EReal} (e : a = b) (h : ∀ j, row b j = f j) (j : Fin k) :
    row a j = f j :=
  (congrArg (fun a => row a j) e).trans (h j)

/-- The aggregate of an array that reads as the matrix h is the aggregation map at h. -/
theorem aggM_of {a b : S100000x64.Idx → EReal} {h : Mat 100000 64}
    (e : b = agg a (srcCol m c) (dstCol m c) (invDeg (dstCol m c))) (ha : mat a = h) : mat b = aggM m c h := by
  subst e ha
  exact congrArg (fun x : S100000x64.Idx → EReal => mat (agg x (srcCol m c) (dstCol m c) (invDeg (dstCol m c)))) (arr_mat a).symm

theorem sel_of {b : S100000x1.Idx → BitVec 32} (e : b = V1 m c main_v20) (i : Fin 100000) (g : Fin 128) :
    b (ix2 i 0) = BitVec.ofNat 32 g.val ↔ selM m c i g := by
  rw [e, V1_v20_at m c i]

/-- One layer: the column sums of the pre-activation and of its square give the mean and the clamped variance; the layer at these is added onto the two pools. -/
theorem layer_step {h ag hA agA hU agU z hn H' o0 o1 np npU : Mat 100000 64} {o2 gp gpU : Mat 128 64}
    {W1 W2 WA W1U W2U : Mat 64 64} {b1 ga be b2 bA b1U gaU beU b2U s0 s1 mu va : Fin 64 → EReal}
    {sel sel' : Fin 100000 → Fin 128 → Prop} [∀ i g, Decidable (sel i g)] [∀ i g, Decidable (sel' i g)]
    (Hh : hA = h) (Hag : agA = ag) (HW : WA = W1) (Hb : bA = b1)
    (S0 : ∀ j, s0 j = colSum z j) (S1 : ∀ j, s1 j = colSum (fun i j => z i j * z i j) j) (hz : z = pre1 hA agA WA bA)
    (hmu : ∀ j, mu j = Ideal.div (s0 j) NE)
    (hva : ∀ j, va j = max (Ideal.div (s1 j) NE - Ideal.div (s0 j) NE * Ideal.div (s0 j) NE) 0)
    (Uh : hU = hA) (Uag : agU = agA) (UW1 : W1U = W1) (Ub1 : b1U = b1) (Uga : gaU = ga) (Ube : beU = be)
    (UW2 : W2U = W2) (Ub2 : b2U = b2) (hN : hn = layerMV epsE hU agU W1U b1U mu va gaU beU W2U b2U)
    (hH : H' = layerK NE epsE h ag W1 b1 ga be W2 b2) (Unp : npU = np) (Ugp : gpU = gp)
    (R0 : o0 = hn) (R1 : o1 = fun i j => npU i j + hn i j) (R2 : o2 = fun g j => gpU g j + seg sel hn g j)
    (hs : ∀ i g, sel i g ↔ sel' i g) :
    o0 = H' ∧ o1 = (fun i j => np i j + H' i j) ∧ o2 = fun g j => gp g j + seg sel' H' g j := by
  subst Hh Hag HW Hb hz Uh Uag UW1 Ub1 Uga Ube UW2 Ub2 hN hH Unp Ugp R0 R1 R2
  rw [layer_core _ _ _ _ _ _ _ _ s0 s1 mu va S0 S1 hmu hva, seg_congr sel sel' _ hs]
  exact ⟨rfl, rfl, rfl⟩

theorem layer1 :
    mat (V4 m (outs m) c main_v70_0 : S100000x64.Idx → EReal) = HK1 m c
    ∧ mat (V4 m (outs m) c main_v70_1 : S100000x64.Idx → EReal) = (fun i j => 0 + HK1 m c i j)
    ∧ mat (V4 m (outs m) c main_v70_2 : S128x64.Idx → EReal) = (fun g j => 0 + seg (selM m c) (HK1 m c) g j) := by
  have Unp : mat (V3 m (outs m) c main_v21 : S100000x64.Idx → EReal) = fun i j => 0 := funext fun i => funext fun j =>
    (congrFun ((V3_of m (outs m) c main_v21 (by decide)).trans (V2_of m (outs m) c main_v21 (by decide))) (ix2 i j)).trans (V1_v21_at m c (ix2 i j))
  have Ugp : mat (V3 m (outs m) c main_v22 : S128x64.Idx → EReal) = fun g j => 0 := funext fun g => funext fun j =>
    (congrFun ((V3_of m (outs m) c main_v22 (by decide)).trans (V2_of m (outs m) c main_v22 (by decide))) (ix2 g j)).trans (V1_v22_at m c (ix2 g j))
  exact layer_step (mat_trans (V1_of m c main_arg0 (by decide)) rfl) (aggM_of m c (V1_v35 m c) rfl) (V1_v37 m c) (V1_v40 m c)
    (row_trans (regOut0 m c 4) (stats_sum0 (atRefs (V1 m)) c)) (row_trans (regOut0 m c 5) (stats_sumsq0 (atRefs (V1 m)) c)) rfl
    (host1_mu m (outs m) c) (host1_var m (outs m) c) (mat_trans ((V3_of m (outs m) c main_arg0 (by decide)).trans (V2_of m (outs m) c main_arg0 (by decide))) rfl) (mat_trans ((V3_of m (outs m) c main_v35 (by decide)).trans (V2_of m (outs m) c main_v35 (by decide))) rfl)
    (host1_W1 m (outs m) c) (host1_b1 m (outs m) c) (host1_gamma m (outs m) c) (host1_beta m (outs m) c)
    (host1_W2 m (outs m) c) (host1_b2 m (outs m) c) rfl rfl
    Unp
    Ugp
    (mat_trans (regOut1 m c 13) (upd_h1 (atRefs (V3 m (outs m))) c)) (mat_trans (regOut1 m c 14) (upd_np1 (atRefs (V3 m (outs m))) c))
    (mat_trans (regOut1 m c 15) (upd_gp1 (atRefs (V3 m (outs m))) c))
    (sel_of m c ((V3_of m (outs m) c main_v20 (by decide)).trans (V2_of m (outs m) c main_v20 (by decide))))

theorem layer2 :
    mat (V8 m (outs m) c main_v118_0 : S100000x64.Idx → EReal) = HK2 m c
    ∧ mat (V8 m (outs m) c main_v118_1 : S100000x64.Idx → EReal) = (fun i j => (0 + HK1 m c i j) + HK2 m c i j)
    ∧ mat (V8 m (outs m) c main_v118_2 : S128x64.Idx → EReal) = (fun g j => (0 + seg (selM m c) (HK1 m c) g j) + seg (selM m c) (HK2 m c) g j) := by
  obtain ⟨P0, P1, P2⟩ := layer1 m c
  exact layer_step (mat_trans (V5_of m (outs m) c main_v70_0 (by decide)) P0) (aggM_of m c (V5_v83 m (outs m) c) P0) (V5_v85 m (outs m) c) (V5_v88 m (outs m) c)
    (row_trans (regOut2 m c 4) (stats_sum2 (atRefs (V5 m (outs m))) c)) (row_trans (regOut2 m c 5) (stats_sumsq2 (atRefs (V5 m (outs m))) c)) rfl
    (host3_mu m (outs m) c) (host3_var m (outs m) c) (mat_trans ((V7_of m (outs m) c main_v70_0 (by decide)).trans (V6_of m (outs m) c main_v70_0 (by decide))) rfl) (mat_trans ((V7_of m (outs m) c main_v83 (by decide)).trans (V6_of m (outs m) c main_v83 (by decide))) rfl)
    (host3_W1 m (outs m) c) (host3_b1 m (outs m) c) (host3_gamma m (outs m) c) (host3_beta m (outs m) c)
    (host3_W2 m (outs m) c) (host3_b2 m (outs m) c) rfl rfl
    (mat_trans ((V7_of m (outs m) c main_v70_1 (by decide)).trans ((V6_of m (outs m) c main_v70_1 (by decide)).trans (V5_of m (outs m) c main_v70_1 (by decide)))) P1)
    (mat_trans ((V7_of m (outs m) c main_v70_2 (by decide)).trans ((V6_of m (outs m) c main_v70_2 (by decide)).trans (V5_of m (outs m) c main_v70_2 (by decide)))) P2)
    (mat_trans (regOut3 m c 13) (upd_h3 (atRefs (V7 m (outs m))) c)) (mat_trans (regOut3 m c 14) (upd_np3 (atRefs (V7 m (outs m))) c))
    (mat_trans (regOut3 m c 15) (upd_gp3 (atRefs (V7 m (outs m))) c))
    (sel_of m c ((V7_of m (outs m) c main_v20 (by decide)).trans ((V6_of m (outs m) c main_v20 (by decide)).trans ((V5_of m (outs m) c main_v20 (by decide)).trans (V4_to_V1 m (outs m) c main_v20)))))

theorem layer3 :
    mat (V12 m (outs m) c main_v166_0 : S100000x64.Idx → EReal) = HK3 m c
    ∧ mat (V12 m (outs m) c main_v166_1 : S100000x64.Idx → EReal) = (fun i j => ((0 + HK1 m c i j) + HK2 m c i j) + HK3 m c i j)
    ∧ mat (V12 m (outs m) c main_v166_2 : S128x64.Idx → EReal) = (fun g j => ((0 + seg (selM m c) (HK1 m c) g j) + seg (selM m c) (HK2 m c) g j) + seg (selM m c) (HK3 m c) g j) := by
  obtain ⟨P0, P1, P2⟩ := layer2 m c
  exact layer_step (mat_trans (V9_of m (outs m) c main_v118_0 (by decide)) P0) (aggM_of m c (V9_v131 m (outs m) c) P0) (V9_v133 m (outs m) c) (V9_v136 m (outs m) c)
    (row_trans (regOut4 m c 4) (stats_sum4 (atRefs (V9 m (outs m))) c)) (row_trans (regOut4 m c 5) (stats_sumsq4 (atRefs (V9 m (outs m))) c)) rfl
    (host5_mu m (outs m) c) (host5_var m (outs m) c) (mat_trans ((V11_of m (outs m) c main_v118_0 (by decide)).trans (V10_of m (outs m) c main_v118_0 (by decide))) rfl) (mat_trans ((V11_of m (outs m) c main_v131 (by decide)).trans (V10_of m (outs m) c main_v131 (by decide))) rfl)
    (host5_W1 m (outs m) c) (host5_b1 m (outs m) c) (host5_gamma m (outs m) c) (host5_beta m (outs m) c)
    (host5_W2 m (outs m) c) (host5_b2 m (outs m) c) rfl rfl
    (mat_trans ((V11_of m (outs m) c main_v118_1 (by decide)).trans ((V10_of m (outs m) c main_v118_1 (by decide)).trans (V9_of m (outs m) c main_v118_1 (by decide)))) P1)
    (mat_trans ((V11_of m (outs m) c main_v118_2 (by decide)).trans ((V10_of m (outs m) c main_v118_2 (by decide)).trans (V9_of m (outs m) c main_v118_2 (by decide)))) P2)
    (mat_trans (regOut5 m c 13) (upd_h5 (atRefs (V11 m (outs m))) c)) (mat_trans (regOut5 m c 14) (upd_np5 (atRefs (V11 m (outs m))) c))
    (mat_trans (regOut5 m c 15) (upd_gp5 (atRefs (V11 m (outs m))) c))
    (sel_of m c ((V11_of m (outs m) c main_v20 (by decide)).trans ((V10_of m (outs m) c main_v20 (by decide)).trans ((V9_of m (outs m) c main_v20 (by decide)).trans (V8_to_V1 m (outs m) c main_v20)))))

theorem layer4 :
    mat (V16 m (outs m) c main_v214_0 : S100000x64.Idx → EReal) = HK4 m c
    ∧ mat (V16 m (outs m) c main_v214_1 : S100000x64.Idx → EReal) = (fun i j => (((0 + HK1 m c i j) + HK2 m c i j) + HK3 m c i j) + HK4 m c i j)
    ∧ mat (V16 m (outs m) c main_v214_2 : S128x64.Idx → EReal) = (fun g j => (((0 + seg (selM m c) (HK1 m c) g j) + seg (selM m c) (HK2 m c) g j) + seg (selM m c) (HK3 m c) g j) + seg (selM m c) (HK4 m c) g j) := by
  obtain ⟨P0, P1, P2⟩ := layer3 m c
  exact layer_step (mat_trans (V13_of m (outs m) c main_v166_0 (by decide)) P0) (aggM_of m c (V13_v179 m (outs m) c) P0) (V13_v181 m (outs m) c) (V13_v184 m (outs m) c)
    (row_trans (regOut6 m c 4) (stats_sum6 (atRefs (V13 m (outs m))) c)) (row_trans (regOut6 m c 5) (stats_sumsq6 (atRefs (V13 m (outs m))) c)) rfl
    (host7_mu m (outs m) c) (host7_var m (outs m) c) (mat_trans ((V15_of m (outs m) c main_v166_0 (by decide)).trans (V14_of m (outs m) c main_v166_0 (by decide))) rfl) (mat_trans ((V15_of m (outs m) c main_v179 (by decide)).trans (V14_of m (outs m) c main_v179 (by decide))) rfl)
    (host7_W1 m (outs m) c) (host7_b1 m (outs m) c) (host7_gamma m (outs m) c) (host7_beta m (outs m) c)
    (host7_W2 m (outs m) c) (host7_b2 m (outs m) c) rfl rfl
    (mat_trans ((V15_of m (outs m) c main_v166_1 (by decide)).trans ((V14_of m (outs m) c main_v166_1 (by decide)).trans (V13_of m (outs m) c main_v166_1 (by decide)))) P1)
    (mat_trans ((V15_of m (outs m) c main_v166_2 (by decide)).trans ((V14_of m (outs m) c main_v166_2 (by decide)).trans (V13_of m (outs m) c main_v166_2 (by decide)))) P2)
    (mat_trans (regOut7 m c 13) (upd_h7 (atRefs (V15 m (outs m))) c)) (mat_trans (regOut7 m c 14) (upd_np7 (atRefs (V15 m (outs m))) c))
    (mat_trans (regOut7 m c 15) (upd_gp7 (atRefs (V15 m (outs m))) c))
    (sel_of m c ((V15_of m (outs m) c main_v20 (by decide)).trans ((V14_of m (outs m) c main_v20 (by decide)).trans ((V13_of m (outs m) c main_v20 (by decide)).trans (V12_to_V1 m (outs m) c main_v20)))))

theorem kernel_np :
    mat (V17 m (outs m) c main_v214_1 : S100000x64.Idx → EReal)
      = Cert.Spec.pool4 (HK1 m c) (HK2 m c) (HK3 m c) (HK4 m c) :=
  mat_trans (V17_of m (outs m) c main_v214_1 (by decide)) (layer4 m c).2.1

theorem kernel_gp :
    mat (V17 m (outs m) c main_v217 : S128x64.Idx → EReal)
      = Cert.Spec.gpoolK (selM m c) (cvec m c) (HK1 m c) (HK2 m c) (HK3 m c) (HK4 m c) := by
  funext g j
  show (V17 m (outs m) c main_v217 : S128x64.Idx → EReal) (ix2 g j) = _
  rw [V17_v217_at m (outs m) c g j, congrFun (congrFun (layer4 m c).2.2 g) j]
  show _ * vec (V16 m (outs m) c main_v19 : S128.Idx → EReal) g = _ * cvec m c g
  rw [show (V16 m (outs m) c main_v19 : S128.Idx → EReal) = invGcnt (batIx (V0 m c main_arg2)) from
    (V16_of m (outs m) c main_v19 (by decide)).trans ((V15_of m (outs m) c main_v19 (by decide)).trans ((V14_of m (outs m) c main_v19 (by decide)).trans
      ((V13_of m (outs m) c main_v19 (by decide)).trans ((V12_to_V1 m (outs m) c main_v19).trans (V1_v19 m c)))))]
  rfl

end Chain

end Cert.KernelIdeal.Hand

end
-- ==== Proof.Ref.Value.lean ====
import proofs.«416827_j50268297232946_2_alg».proof.Proof.Ref.Run
import proofs.«416827_j50268297232946_2_alg».proof.Proof.SpecLaws
import proofs.«416827_j50268297232946_2_alg».proof.Proof.SpecRead
import proofs.«416827_j50268297232946_2_alg».proof.Proof.SpecNet
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.HandValue

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx Cert.Spec

def nRows : EReal := ((100000 : ℝ) : EReal)
def eps : EReal := Ideal.ofBits .f32 0x3727C5AC#32

def arr {n m : ℕ} (a : Mat n m) : (⟨2, ![n, m]⟩ : Shape).Idx → EReal := fun i => a (i 0) (i 1)
theorem arr_mat {n m : ℕ} (a : (⟨2, ![n, m]⟩ : Shape).Idx → EReal) : arr (mat a) = a :=
  funext fun i => (congrArg a (eq_ix2 i)).symm

abbrev selOf (batch : IVec S100000 32) : Fin 100000 → Fin 128 → Prop := fun i g => batch (ix1 i) = BitVec.ofNat 32 g.val

theorem selOf_iff_toInt (batch : IVec S100000 32) (i : Fin 100000) (g : Fin 128) :
    selOf batch i g ↔ (batch (ix1 i)).toInt = (g.val : ℤ) := by
  have hg := g.isLt
  have hx := (batch (ix1 i)).isLt
  show batch (ix1 i) = BitVec.ofNat 32 g.val ↔ _
  rw [← BitVec.toNat_inj, BitVec.toNat_ofNat, Nat.mod_eq_of_lt (by omega), BitVec.toInt_eq_toNat_cond]
  split <;> omega

theorem matRow_apply (k : ℕ) (hk : k < 4) (hk3 : S4x64x64.Slices ![k, 0, 0] S1x64x64) (W : FVec Ideal S4x64x64 .f32) (a b : Fin 64) :
    matRow (F := Ideal) k hk3 W (ix2 a b) = W (ix3 (⟨k, hk⟩ : Fin 4) a b) := by
  unfold matRow
  refine (shapeCast_1ab_ab_apply _ _ a b).trans ?_
  exact extractStridedSlice_apply _ _ _ _ _ (fun ax => by
    match ax with
    | ⟨0, _⟩ => exact (Nat.add_zero k).symm
    | ⟨1, _⟩ => exact (Nat.zero_add _).symm
    | ⟨2, _⟩ => exact (Nat.zero_add _).symm)

theorem vecRow_apply (k : ℕ) (hk : k < 4) (hk2 : S4x64.Slices ![k, 0] S1x64) (v : FVec Ideal S4x64 .f32) (b : Fin 64) :
    vecRow (F := Ideal) k hk2 v (ix1 b) = v (ix2 (⟨k, hk⟩ : Fin 4) b) := by
  unfold vecRow
  refine (shapeCast_1a_a_apply _ _ b).trans ?_
  exact slice2_axis0_apply k v hk2 (0 : Fin 1) b ⟨k, hk⟩ (Nat.add_zero k).symm

theorem bcastRows_apply (v : FVec Ideal S1x64 .f32) (a : Fin 100000) (b : Fin 64) :
    broadcastInDim S100000x64 ![0, 1] bcast_S1x64_S100000x64_0_1 v (ix2 a b) = v (ix2 (0 : Fin 1) b) :=
  broadcastInDim_apply _ _ _ (ix2 a b) (ix2 (0 : Fin 1) b) (fun ax => by
    match ax with
    | ⟨0, _⟩ => rfl
    | ⟨1, _⟩ => rfl)
theorem bcastOneRow_apply (v : FVec Ideal S64 .f32) (u : Fin 1) (b : Fin 64) :
    broadcastInDim S1x64 ![1] bcast_S64_S1x64_1 v (ix2 u b) = v (ix1 b) :=
  broadcastInDim_apply _ _ _ (ix2 u b) (ix1 b) (fun ax => by
    match ax with
    | ⟨0, _⟩ => rfl)
theorem rowBcast_apply (v : FVec Ideal S64 .f32) (a : Fin 100000) (b : Fin 64) : rowBcast (F := Ideal) v (ix2 a b) = v (ix1 b) := by
  unfold rowBcast
  rw [bcastRows_apply, bcastOneRow_apply]

theorem dot_apply (A : FVec Ideal S100000x64 .f32) (B : FVec Ideal S64x64 .f32) (i : Fin 100000) (j : Fin 64) :
    Host.dotGeneral (F := Ideal) dot_S100000x64_S64x64_S100000x64_1_0_0_1_n_n none A B (ix2 i j)
      = ∑ l : Fin 64, A (ix2 i l) * B (ix2 l j) :=
  StackMember.dotGeneral_plain_apply none A B i j

theorem reduces_cols : S100000x64.Reduces [0] S64 := by decide
theorem lift_cols (j : Fin 64) (i : Fin 100000) : reduces_cols.lift (ix1 j) i = ix2 i j := by
  funext a
  apply Fin.ext
  match a with
  | ⟨0, _⟩ => rfl
  | ⟨1, _⟩ => rfl
theorem colsum_apply (z : FVec Ideal S100000x64 .f32) (j : Fin 64) :
    Host.reduceAdd (F := Ideal) z (constant S_ .f32 0x00000000#32) reducesTo_S100000x64_S64_d0 h_S_ (ix1 j)
      = ∑ i : Fin 100000, z (ix2 i j) := by
  show Ideal.hostReduceAdd reducesTo_S100000x64_S64_d0 z (Ideal.ofBits .f32 0x00000000#32) (ix1 j) = _
  rw [Ideal.hostReduceAdd_single reducesTo_S100000x64_S64_d0 reduces_cols, ofBits_zero, zero_add]
  exact Finset.sum_congr rfl fun i _ => congrArg z (lift_cols j i)

theorem dofN_apply (i : S_.Idx) : dofN (F := Ideal) i = nRows := by
  show Ideal.ofBits .f32 0x47C35000#32 - (((0#32 : BitVec 32).toInt : ℝ) : EReal) = _
  have h0 : (0#32 : BitVec 32).toInt = 0 := by decide
  rw [ofBits_100000, h0, Int.cast_zero, EReal.coe_zero, sub_zero]
  rfl

theorem dofN_pos_bit (i : S_.Idx) :
    cmpf (F := Ideal) .ogt (dofN (F := Ideal)) (constant S_ .f32 0x00000000#32) i = 1#1 := by
  show Ideal.cmp .ogt (dofN (F := Ideal) i) (Ideal.ofBits .f32 0x00000000#32) = 1#1
  rw [dofN_apply, ofBits_zero]
  have h : (0 : EReal) < nRows := by
    unfold nRows
    exact_mod_cast (by norm_num : (0 : ℝ) < 100000)
  show BitVec.ofBool (decide ((0 : EReal) < nRows)) = 1#1
  rw [decide_eq_true h]
  rfl

theorem vec_stepMu (z : FVec Ideal S100000x64 .f32) : vec (stepMu (F := Ideal) z) = mean nRows (mat z) := by
  funext j
  show Ideal.div (Host.reduceAdd (F := Ideal) z (constant S_ .f32 0x00000000#32) reducesTo_S100000x64_S64_d0 h_S_ (ix1 j))
    (Ideal.ofBits .f32 0x47C35000#32) = _
  rw [colsum_apply, ofBits_100000]
  rfl

theorem devOf_apply (z : FVec Ideal S100000x64 .f32) (i : Fin 100000) (j : Fin 64) :
    devOf (F := Ideal) z (ix2 i j) = mat z i j - mean nRows (mat z) j := by
  unfold devOf
  rw [subf_apply, bcastRows_apply]
  show z (ix2 i j) - Ideal.div (broadcastInDim S1x64 ![1] bcast_S64_S1x64_1
      (Host.reduceAdd (F := Ideal) z (constant S_ .f32 0x00000000#32) reducesTo_S100000x64_S64_d0 h_S_) (ix2 (0 : Fin 1) j))
    (Ideal.ofBits .f32 0x47C35000#32) = _
  rw [bcastOneRow_apply, colsum_apply, ofBits_100000]
  rfl

theorem vec_stepVar (z : FVec Ideal S100000x64 .f32) : vec (stepVar (F := Ideal) z) = varR nRows (mat z) := by
  funext j
  show Scalar.select (cmpf (F := Ideal) .ogt (dofN (F := Ideal)) (constant S_ .f32 0x00000000#32) _)
    (Ideal.div (Host.reduceAdd (F := Ideal) (mulf (devOf (F := Ideal) z) (devOf (F := Ideal) z)) (constant S_ .f32 0x00000000#32)
        reducesTo_S100000x64_S64_d0 h_S_ (ix1 j)) (dofN (F := Ideal) _)) _ = _
  rw [dofN_pos_bit, select_one, colsum_apply, dofN_apply]
  simp only [mulf_apply, devOf_apply]
  rfl

section Stages

variable (k : ℕ) (hk : k < 4) (hk3 : S4x64x64.Slices ![k, 0, 0] S1x64x64) (hk2 : S4x64.Slices ![k, 0] S1x64)

theorem mat_stepZ (h : FVec Ideal S100000x64 .f32) (src dst : IVec S1600000 32) (invdeg : FVec Ideal S100000 .f32)
    (W1 : FVec Ideal S4x64x64 .f32) (b1 : FVec Ideal S4x64 .f32) :
    mat (stepZ (F := Ideal) k hk3 hk2 h src dst invdeg W1 b1)
      = pre1 (mat h) (mat (aggOf (F := Ideal) h src dst invdeg)) (mat3 W1 ⟨k, hk⟩) (row2 b1 ⟨k, hk⟩) := by
  funext i j
  show stepZ (F := Ideal) k hk3 hk2 h src dst invdeg W1 b1 (ix2 i j) = _
  unfold stepZ
  rw [addf_apply, dot_apply, rowBcast_apply, vecRow_apply k hk]
  simp only [matRow_apply k hk, addf_apply]
  rfl

theorem mat_stepH (z : FVec Ideal S100000x64 .f32) (mu var : FVec Ideal S64 .f32) (g be : FVec Ideal S4x64 .f32)
    (W2 : FVec Ideal S4x64x64 .f32) (b2 : FVec Ideal S4x64 .f32) :
    mat (stepH (F := Ideal) k hk3 hk2 z mu var g be W2 b2)
      = lin (relu (bn (mat z) (vec mu) (vec var) eps (row2 g ⟨k, hk⟩) (row2 be ⟨k, hk⟩))) (mat3 W2 ⟨k, hk⟩) (row2 b2 ⟨k, hk⟩) := by
  funext i j
  show stepH (F := Ideal) k hk3 hk2 z mu var g be W2 b2 (ix2 i j) = _
  unfold stepH
  rw [addf_apply, dot_apply, rowBcast_apply, vecRow_apply k hk]
  refine congrArg₂ (· + ·) (Finset.sum_congr rfl fun l _ => ?_) rfl
  rw [matRow_apply k hk, maximumf_apply]
  show max _ (Ideal.ofBits .f32 0x00000000#32) * _ = max _ (0 : EReal) * _
  rw [ofBits_zero]
  simp only [addf_apply, mulf_apply, subf_apply, rowBcast_apply, vecRow_apply k hk]
  rfl

theorem mat_layerOf (h : FVec Ideal S100000x64 .f32) (src dst : IVec S1600000 32) (invdeg : FVec Ideal S100000 .f32)
    (W1 : FVec Ideal S4x64x64 .f32) (b1 g be : FVec Ideal S4x64 .f32) (W2 : FVec Ideal S4x64x64 .f32) (b2 : FVec Ideal S4x64 .f32) :
    mat (layerOf (F := Ideal) k hk3 hk2 h src dst invdeg W1 b1 g be W2 b2)
      = layerR nRows eps (mat h) (mat (aggOf (F := Ideal) h src dst invdeg)) (mat3 W1 ⟨k, hk⟩) (row2 b1 ⟨k, hk⟩)
          (row2 g ⟨k, hk⟩) (row2 be ⟨k, hk⟩) (mat3 W2 ⟨k, hk⟩) (row2 b2 ⟨k, hk⟩) := by
  unfold layerOf
  rw [mat_stepH k hk, vec_stepMu, vec_stepVar, mat_stepZ k hk]
  rfl

end Stages

theorem gp_start0 (idx : IVec S100000x1 32) (a : Fin 100000) (b : Fin 64) :
    scatter_S128x64_S100000x1_S100000x64_1_0_0_1.start (ix2 a b) idx (0 : Fin 2) = (idx (ix2 a (0 : Fin 1))).toInt := by
  unfold ScatterDims.start
  rw [dif_pos (show (0 : Fin S128x64.rank) ∈ scatter_S128x64_S100000x1_S100000x64_1_0_0_1.scatterDimsToOperandDims from
    List.mem_singleton.mpr rfl)]
  refine congrArg (fun q => (idx q).toInt) (funext fun c => Fin.ext ?_)
  match c with
  | ⟨0, _⟩ => rfl
  | ⟨1, _⟩ => rfl

theorem gp_start1 (idx : IVec S100000x1 32) (a : Fin 100000) (b : Fin 64) :
    scatter_S128x64_S100000x1_S100000x64_1_0_0_1.start (ix2 a b) idx (1 : Fin 2) = 0 := by
  unfold ScatterDims.start
  rw [dif_neg (show ¬ (1 : Fin S128x64.rank) ∈ scatter_S128x64_S100000x1_S100000x64_1_0_0_1.scatterDimsToOperandDims by decide)]

theorem gp_window0 (a : Fin 100000) (b : Fin 64) :
    scatter_S128x64_S100000x1_S100000x64_1_0_0_1.window (ix2 a b) (0 : Fin 2) = 0 := by
  unfold ScatterDims.window
  rw [dif_neg (show ¬ (0 : Fin S128x64.rank) ∈ scatter_S128x64_S100000x1_S100000x64_1_0_0_1.sKept by decide)]

theorem gp_window1 (a : Fin 100000) (b : Fin 64) :
    scatter_S128x64_S100000x1_S100000x64_1_0_0_1.window (ix2 a b) (1 : Fin 2) = b.val := by
  unfold ScatterDims.window
  rw [dif_pos (show (1 : Fin S128x64.rank) ∈ scatter_S128x64_S100000x1_S100000x64_1_0_0_1.sKept by decide)]
  rfl

theorem resultIdx?_eq_some {s si su : Shape} (d : ScatterDims s si su) {w : ℕ} (j : su.Idx) (idx : IVec si w) (r : s.Idx) :
    d.resultIdx? j idx = some r ↔ ∀ a, d.start j idx a + (d.window j a : ℤ) = ((r a).val : ℤ) := by
  unfold ScatterDims.resultIdx?
  split
  · rename_i h
    rw [Option.some.injEq, funext_iff]
    refine forall_congr' fun a => ?_
    have := (h a).1
    rw [Fin.ext_iff]
    show (d.start j idx a + (d.window j a : ℤ)).toNat = (r a).val ↔ _
    omega
  · rename_i h
    refine ⟨fun e => absurd e (by simp), fun e => absurd (fun a => ?_) h⟩
    have := (r a).isLt
    have := e a
    omega

theorem gp_resultIdx (idx : IVec S100000x1 32) (a : Fin 100000) (b : Fin 64) (g : Fin 128) (j : Fin 64) :
    scatter_S128x64_S100000x1_S100000x64_1_0_0_1.resultIdx? (ix2 a b) idx = some (ix2 g j)
      ↔ (idx (ix2 a (0 : Fin 1))).toInt = (g.val : ℤ) ∧ b = j := by
  refine (resultIdx?_eq_some ..).trans (Fin.forall_fin_two.trans ?_)
  rw [gp_start0, gp_window0, gp_start1, gp_window1]
  show _ + ((0 : ℕ) : ℤ) = (g.val : ℤ) ∧ (0 : ℤ) + (b.val : ℤ) = (j.val : ℤ) ↔ _
  exact ⟨fun ⟨h0, h1⟩ => ⟨by omega, Fin.ext (by omega)⟩, fun ⟨h0, h1⟩ => ⟨by omega, by rw [h1, zero_add]⟩⟩

theorem gp_scatter_apply (x : FVec Ideal S128x64 .f32) (idx : IVec S100000x1 32) (upd : FVec Ideal S100000x64 .f32)
    (g : Fin 128) (j : Fin 64) :
    Host.scatterAdd (F := Ideal) scatter_S128x64_S100000x1_S100000x64_1_0_0_1 x idx upd (ix2 g j)
      = x (ix2 g j) + ∑ i ∈ Finset.univ.filter (fun i : Fin 100000 => (idx (ix2 i (0 : Fin 1))).toInt = (g.val : ℤ)), upd (ix2 i j) := by
  show Ideal.hostScatterAdd scatter_S128x64_S100000x1_S100000x64_1_0_0_1 x idx upd (ix2 g j) = _
  unfold Ideal.hostScatterAdd
  refine congrArg (x (ix2 g j) + ·) ?_
  rw [Finset.sum_filter, sum_idx2, Finset.sum_filter]
  refine Finset.sum_congr rfl fun a _ => ?_
  simp only [gp_resultIdx]
  by_cases h : (idx (ix2 a (0 : Fin 1))).toInt = (g.val : ℤ)
  · simp only [h, true_and, if_true]
    rw [Finset.sum_ite_eq' Finset.univ j (fun b => upd (ix2 a b)), if_pos (Finset.mem_univ j)]
  · simp only [h, false_and, if_false, Finset.sum_const_zero]

theorem bcastIds_apply (batch : IVec S100000 32) (i : Fin 100000) (u : Fin 1) :
    broadcastInDim S100000x1 ![0] bcast_S100000_S100000x1_0 batch (ix2 i u) = batch (ix1 i) :=
  broadcastInDim_apply _ _ _ (ix2 i u) (ix1 i) (fun ax => by
    match ax with
    | ⟨0, _⟩ => rfl)
theorem bcastCnt_apply (c : FVec Ideal S128 .f32) (g : Fin 128) (j : Fin 64) :
    broadcastInDim S128x64 ![0, 1] bcast_S128x1_S128x64_0_1 (broadcastInDim S128x1 ![0] bcast_S128_S128x1_0 c) (ix2 g j)
      = c (ix1 g) := by
  refine (broadcastInDim_apply _ _ _ (ix2 g j) (ix2 g (0 : Fin 1)) (fun ax => by
    match ax with
    | ⟨0, _⟩ => rfl
    | ⟨1, _⟩ => rfl)).trans ?_
  exact broadcastInDim_apply _ _ _ (ix2 g (0 : Fin 1)) (ix1 g) (fun ax => by
    match ax with
    | ⟨0, _⟩ => rfl)

theorem mat_stepGP (gp : FVec Ideal S128x64 .f32) (h : FVec Ideal S100000x64 .f32) (batch : IVec S100000 32)
    (invcnt : FVec Ideal S128 .f32) :
    mat (stepGP (F := Ideal) gp h batch invcnt)
      = fun g j => mat gp g j + seg (selOf batch) (mat h) g j * vec invcnt g := by
  funext g j
  show stepGP (F := Ideal) gp h batch invcnt (ix2 g j) = _
  unfold stepGP
  rw [addf_apply, mulf_apply, gp_scatter_apply, bcastCnt_apply]
  show gp (ix2 g j) + (Ideal.ofBits .f32 0x00000000#32 + _) * _ = _
  rw [ofBits_zero, zero_add]
  refine congrArg (fun s => gp (ix2 g j) + s * invcnt (ix1 g)) ?_
  unfold seg
  refine Finset.sum_congr (Finset.filter_congr fun i _ => ?_) fun i _ => rfl
  rw [bcastIds_apply]
  exact (selOf_iff_toInt batch i g).symm

section Chain

variable (V : Valuation τ sig (Elt Ideal))

def aggM : Mat 100000 64 → Mat 100000 64 := fun hm => mat (aggOf (F := Ideal) (arr hm) (vSrc V) (vDst V) (vInvDeg V))
def W1s (l : Fin 4) : Mat 64 64 := mat3 (L := 4) (n := 64) (m := 64) (V (Proc.devRef .tc main_arg3)) l
def b1s (l : Fin 4) : Fin 64 → EReal := row2 (L := 4) (m := 64) (V (Proc.devRef .tc main_arg4)) l
def gs (l : Fin 4) : Fin 64 → EReal := row2 (L := 4) (m := 64) (V (Proc.devRef .tc main_arg5)) l
def bes (l : Fin 4) : Fin 64 → EReal := row2 (L := 4) (m := 64) (V (Proc.devRef .tc main_arg6)) l
def W2s (l : Fin 4) : Mat 64 64 := mat3 (L := 4) (n := 64) (m := 64) (V (Proc.devRef .tc main_arg7)) l
def b2s (l : Fin 4) : Fin 64 → EReal := row2 (L := 4) (m := 64) (V (Proc.devRef .tc main_arg8)) l

def x0 : Mat 100000 64 := mat (n := 100000) (m := 64) (vH0 V)
def cnt : Fin 128 → EReal := vec (n := 128) (vInvCnt V)

theorem aggM_mat (h : FVec Ideal S100000x64 .f32) :
    aggM V (mat h) = mat (aggOf (F := Ideal) h (vSrc V) (vDst V) (vInvDeg V)) := by
  unfold aggM
  rw [arr_mat]

theorem vH1_mat : mat (vH1 V) = hR1 nRows eps (aggM V) (W1s V) (W2s V) (b1s V) (gs V) (bes V) (b2s V) (x0 V) := by
  unfold hR1 stepR x0
  rw [aggM_mat]
  exact mat_layerOf 0 (by decide) ..
theorem vH2_mat : mat (vH2 V) = hR2 nRows eps (aggM V) (W1s V) (W2s V) (b1s V) (gs V) (bes V) (b2s V) (x0 V) := by
  unfold hR2 stepR
  rw [← vH1_mat V, aggM_mat]
  exact mat_layerOf 1 (by decide) ..
theorem vH3_mat : mat (vH3 V) = hR3 nRows eps (aggM V) (W1s V) (W2s V) (b1s V) (gs V) (bes V) (b2s V) (x0 V) := by
  unfold hR3 stepR
  rw [← vH2_mat V, aggM_mat]
  exact mat_layerOf 2 (by decide) ..
theorem vH4_mat : mat (vH4 V) = hR4 nRows eps (aggM V) (W1s V) (W2s V) (b1s V) (gs V) (bes V) (b2s V) (x0 V) := by
  unfold hR4 stepR
  rw [← vH3_mat V, aggM_mat]
  exact mat_layerOf 3 (by decide) ..

theorem vNP4_mat : mat (vNP4 V) = pool4 (mat (vH1 V)) (mat (vH2 V)) (mat (vH3 V)) (mat (vH4 V)) := by
  funext i j
  show (((Ideal.ofBits .f32 0x00000000#32 + vH1 V (ix2 i j)) + vH2 V (ix2 i j)) + vH3 V (ix2 i j)) + vH4 V (ix2 i j) = _
  rw [ofBits_zero]
  rfl

theorem vGP4_mat : mat (vGP4 V)
    = gpoolR (selOf (V (Proc.devRef .tc main_arg2))) (cnt V) (mat (vH1 V)) (mat (vH2 V)) (mat (vH3 V)) (mat (vH4 V)) := by
  unfold vGP4 vGP3 vGP2 vGP1
  simp only [mat_stepGP]
  funext g j
  show (((Ideal.ofBits .f32 0x00000000#32 + _) + _) + _) + _ = _
  rw [ofBits_zero]
  rfl

end Chain

section Launch

variable (m : (ℓ : Loc nD τ sig) → Buf (Elt Ideal) ℓ) (c : Dev nD)

theorem resH1_mat : mat (resH1 m c) = hR1 nRows eps (aggM (launchContents m c)) (W1s (launchContents m c)) (W2s (launchContents m c))
    (b1s (launchContents m c)) (gs (launchContents m c)) (bes (launchContents m c)) (b2s (launchContents m c)) (x0 (launchContents m c)) :=
  vH1_mat _
theorem resH2_mat : mat (resH2 m c) = hR2 nRows eps (aggM (launchContents m c)) (W1s (launchContents m c)) (W2s (launchContents m c))
    (b1s (launchContents m c)) (gs (launchContents m c)) (bes (launchContents m c)) (b2s (launchContents m c)) (x0 (launchContents m c)) :=
  vH2_mat _
theorem resH3_mat : mat (resH3 m c) = hR3 nRows eps (aggM (launchContents m c)) (W1s (launchContents m c)) (W2s (launchContents m c))
    (b1s (launchContents m c)) (gs (launchContents m c)) (bes (launchContents m c)) (b2s (launchContents m c)) (x0 (launchContents m c)) :=
  vH3_mat _
theorem resH4_mat : mat (resH4 m c) = hR4 nRows eps (aggM (launchContents m c)) (W1s (launchContents m c)) (W2s (launchContents m c))
    (b1s (launchContents m c)) (gs (launchContents m c)) (bes (launchContents m c)) (b2s (launchContents m c)) (x0 (launchContents m c)) :=
  vH4_mat _
theorem resNP4_mat : mat (resNP4 m c) = pool4 (mat (resH1 m c)) (mat (resH2 m c)) (mat (resH3 m c)) (mat (resH4 m c)) :=
  vNP4_mat _
theorem resGP4_mat : mat (resGP4 m c)
    = gpoolR (selOf (launchContents m c (Proc.devRef .tc main_arg2))) (cnt (launchContents m c))
        (mat (resH1 m c)) (mat (resH2 m c)) (mat (resH3 m c)) (mat (resH4 m c)) :=
  vGP4_mat _

end Launch

end Cert.ReferenceIdeal.HandValue

end
-- ==== Proof.Final.lean ====
import proofs.«416827_j50268297232946_2_alg».proof.Defs
import proofs.«416827_j50268297232946_2_alg».proof.Proof.Gen.KernelIdeal
import proofs.«416827_j50268297232946_2_alg».proof.Proof.Gen.ReferenceIdeal
import proofs.«416827_j50268297232946_2_alg».proof.Proof.Gen.Pre_finite_inputs
import proofs.«416827_j50268297232946_2_alg».proof.Proof.SpecNetLaws
import proofs.«416827_j50268297232946_2_alg».proof.Proof.PreFin
import proofs.«416827_j50268297232946_2_alg».proof.Proof.KI.Run
import proofs.«416827_j50268297232946_2_alg».proof.Proof.KI.Chain
import proofs.«416827_j50268297232946_2_alg».proof.Proof.Ref.Run
import proofs.«416827_j50268297232946_2_alg».proof.Proof.Ref.Value

noncomputable section

namespace Cert.Proof.Final

open Idealize.ShloMosaic Idealize.SL.Sem Idealize.ShloMosaic.TcCoe Idealize.ShloMosaic.ValueIdx
open Idealize.ShloMosaic.StableHlo Cert.Spec

abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

abbrev locK (c : Dev Cert.KernelIdeal.nD) (r : Ref Cert.KernelIdeal.sig .tc) : Loc Cert.KernelIdeal.nD Cert.KernelIdeal.τ Cert.KernelIdeal.sig :=
  (c.tc : Thread Cert.KernelIdeal.nD Cert.KernelIdeal.τ).loc r
abbrev locR (c : Dev Cert.KernelIdeal.nD) (r : Ref Cert.ReferenceIdeal.sig .tc) : Loc Cert.ReferenceIdeal.nD Cert.ReferenceIdeal.τ Cert.ReferenceIdeal.sig :=
  (c.tc : Thread Cert.ReferenceIdeal.nD Cert.ReferenceIdeal.τ).loc r

theorem mat_inj {n k : ℕ} {a b : (⟨2, ![n, k]⟩ : Shape).Idx → EReal} (h : mat a = mat b) : a = b :=
  funext fun i => (congrArg a (eq_ix2 i)).trans ((congrFun (congrFun h (i 0)) (i 1)).trans (congrArg b (eq_ix2 i)).symm)

def Agree (m : MemK) (m' : MemR) : Prop :=
  ∀ c : Dev Cert.KernelIdeal.nD,
    m' (locR c Cert.ReferenceIdeal.main_arg0) = m (locK c Cert.KernelIdeal.main_arg0)
    ∧ m' (locR c Cert.ReferenceIdeal.main_arg1) = m (locK c Cert.KernelIdeal.main_arg1)
    ∧ m' (locR c Cert.ReferenceIdeal.main_arg2) = m (locK c Cert.KernelIdeal.main_arg2)
    ∧ m' (locR c Cert.ReferenceIdeal.main_arg3) = m (locK c Cert.KernelIdeal.main_arg3)
    ∧ m' (locR c Cert.ReferenceIdeal.main_arg4) = m (locK c Cert.KernelIdeal.main_arg4)
    ∧ m' (locR c Cert.ReferenceIdeal.main_arg5) = m (locK c Cert.KernelIdeal.main_arg5)
    ∧ m' (locR c Cert.ReferenceIdeal.main_arg6) = m (locK c Cert.KernelIdeal.main_arg6)
    ∧ m' (locR c Cert.ReferenceIdeal.main_arg7) = m (locK c Cert.KernelIdeal.main_arg7)
    ∧ m' (locR c Cert.ReferenceIdeal.main_arg8) = m (locK c Cert.KernelIdeal.main_arg8)

section Same

open Cert.ReferenceIdeal.HandRun Cert.ReferenceIdeal.HandValue

/-- The neighbour mean, the reciprocal graph sizes and the membership relation are the same functions of the edge list and the batch vector in the two programs. -/
theorem agg_same (E' : IVec Cert.ReferenceIdeal.S2x1600000 32) (E : IVec Cert.KernelIdeal.S2x1600000 32) (h : E' = E) :
    (fun hm : Mat 100000 64 => mat (aggOf (F := Ideal) (arr hm) (srcOf E') (dstOf E') (invDeg (F := Ideal) (dstOf E'))))
      = fun hm : Mat 100000 64 => mat (Cert.AggFin.KernelIdeal.agg (Cert.KernelIdeal.Hand.arr hm)
          (Cert.KernelIdeal.Hand.srcIx (Cert.KernelIdeal.Hand.srcRow E)) (Cert.KernelIdeal.Hand.dstIx (Cert.KernelIdeal.Hand.dstRow E))
          (Cert.AggFin.KernelIdeal.invDeg (Cert.KernelIdeal.Hand.dstIx (Cert.KernelIdeal.Hand.dstRow E)))) := by
  subst h; rfl

theorem cnt_same (B' : IVec Cert.ReferenceIdeal.S100000 32) (B : IVec Cert.KernelIdeal.S100000 32) (h : B' = B) :
    (vec (invCnt (F := Ideal) B') : Fin 128 → EReal) = vec (Cert.AggFin.KernelIdeal.invGcnt (Cert.KernelIdeal.Hand.batIx B)) := by
  subst h; rfl

theorem gpoolR_same (B' : IVec Cert.ReferenceIdeal.S100000 32) (B : IVec Cert.KernelIdeal.S100000 32) (h : B' = B)
    (cn : Fin 128 → EReal) (h1 h2 h3 h4 : Mat 100000 64) :
    gpoolR (selOf B') cn h1 h2 h3 h4 = gpoolR (Cert.KernelIdeal.Hand.selOf B) cn h1 h2 h3 h4 := by
  subst h; rfl

variable (m : MemK) (m' : MemR) (c : Dev Cert.KernelIdeal.nD)

theorem params_eq (h : Agree m m') :
    x0 (launchContents m' c) = Cert.KernelIdeal.Hand.xM m c
    ∧ aggM (launchContents m' c) = Cert.KernelIdeal.Hand.aggM m c
    ∧ W1s (launchContents m' c) = Cert.KernelIdeal.Hand.W1M m c
    ∧ W2s (launchContents m' c) = Cert.KernelIdeal.Hand.W2M m c
    ∧ b1s (launchContents m' c) = Cert.KernelIdeal.Hand.b1M m c
    ∧ gs (launchContents m' c) = Cert.KernelIdeal.Hand.gM m c
    ∧ bes (launchContents m' c) = Cert.KernelIdeal.Hand.beM m c
    ∧ b2s (launchContents m' c) = Cert.KernelIdeal.Hand.b2M m c
    ∧ cnt (launchContents m' c) = Cert.KernelIdeal.Hand.cvec m c := by
  obtain ⟨a0, a1, a2, a3, a4, a5, a6, a7, a8⟩ := h c
  exact ⟨congrArg (fun a => mat (n := 100000) (m := 64) a) a0,
   agg_same _ _ a1,
   funext fun l => congrArg (fun a => mat3 (L := 4) (n := 64) (m := 64) a l) a3,
   funext fun l => congrArg (fun a => mat3 (L := 4) (n := 64) (m := 64) a l) a7,
   funext fun l => congrArg (fun a => row2 (L := 4) (m := 64) a l) a4,
   funext fun l => congrArg (fun a => row2 (L := 4) (m := 64) a l) a5,
   funext fun l => congrArg (fun a => row2 (L := 4) (m := 64) a l) a6,
   funext fun l => congrArg (fun a => row2 (L := 4) (m := 64) a l) a8,
   cnt_same _ _ a2⟩

end Same

section Hyp

variable (m : MemK) (hpre : Cert.Pre_KernelIdeal m) (c : Dev Cert.KernelIdeal.nD)

open Cert.KernelIdeal.Hand in
include hpre in
theorem netHyp {e : ℝ} (he : 0 < e) :
    NetHyp (100000 : ℝ) e (aggM m c) (W1M m c) (W2M m c) (b1M m c) (gM m c) (beM m c) (b2M m c) (xM m c) := by
  obtain ⟨f0, f3, f4, f5, f6, f7, f8⟩ := Cert.PreFin.fin_of_pre_kernelIdeal m hpre c
  exact { hN := by norm_num
          hn := by norm_num
          he := he
          hx := mat_fin f0
          hagg := fun h hh => mat_fin (Cert.AggFin.KernelIdeal.fin_agg_invDeg _ _ _ _ fun i => hh (i 0) (i 1))
          hpar := fun l => ⟨mat3_fin f3 l, mat3_fin f7 l, row2_fin f4 l, row2_fin f5 l, row2_fin f6 l, row2_fin f8 l⟩ }

theorem cvec_fin : VecFin (Cert.KernelIdeal.Hand.cvec m c) :=
  vec_fin (Cert.AggFin.KernelIdeal.fin_invGcnt _)

end Hyp

section Results

variable (m : MemK) (m' : MemR) (hpre : Cert.Pre_KernelIdeal m) (hagree : Agree m m') (c : Dev Cert.KernelIdeal.nD)

open Cert.ReferenceIdeal.HandValue Cert.ReferenceIdeal.HandRun

include hpre hagree in
theorem np_eq :
    res262 (F := Ideal) m' c = Cert.KernelIdeal.Gen.V17 m (Cert.KernelIdeal.Hand.outs m) c Cert.KernelIdeal.main_v214_1 := by
  obtain ⟨px, pagg, pW1, pW2, pb1, pg, pbe, pb2, pcnt⟩ := params_eq m m' c hagree
  obtain ⟨e, he, hee⟩ := Cert.Spec.ofBits_eps_pos
  have key := pool4_eq (netHyp m hpre c he)
  rw [← hee] at key
  rw [res262_eq]
  refine mat_inj ?_
  rw [resNP4_mat, resH1_mat, resH2_mat, resH3_mat, resH4_mat, px, pagg, pW1, pW2, pb1, pg, pbe, pb2]
  exact key.symm.trans (Cert.KernelIdeal.Hand.kernel_np m c).symm

include hpre hagree in
theorem gp_eq :
    res269 (F := Ideal) m' c = Cert.KernelIdeal.Gen.V17 m (Cert.KernelIdeal.Hand.outs m) c Cert.KernelIdeal.main_v217 := by
  obtain ⟨px, pagg, pW1, pW2, pb1, pg, pbe, pb2, pcnt⟩ := params_eq m m' c hagree
  obtain ⟨e, he, hee⟩ := Cert.Spec.ofBits_eps_pos
  have key := gpool_eq (netHyp m hpre c he) (Cert.KernelIdeal.Hand.selM m c) (Cert.KernelIdeal.Hand.cvec m c) (cvec_fin m c)
  rw [← hee] at key
  rw [res269_eq]
  refine mat_inj ?_
  rw [resGP4_mat, resH1_mat, resH2_mat, resH3_mat, resH4_mat, px, pagg, pW1, pW2, pb1, pg, pbe, pb2, pcnt]
  exact (gpoolR_same _ _ (hagree c).2.2.1 _ _ _ _ _).trans (key.symm.trans (Cert.KernelIdeal.Hand.kernel_gp m c).symm)

end Results

open Cert.KernelIdeal Cert.KernelIdeal.Gen Cert.KernelIdeal.Hand in
theorem algebraic : Cert.algebraic_KernelIdeal_ReferenceIdeal := by
  intro m ρ m' ρ' hpre hagree
  refine ⟨fun c => V17 m (outs m) c main_v214_1, fun c => V17 m (outs m) c main_v217, ?_, ?_⟩
  · refine (θ_run Cert.KernelIdeal.defs _ _).mono (fun r h c => ?_) (run_all (F := Ideal) m ρ)
    have hc := h c
    refine ⟨hc (Proc.devRef .tc main_v214_1) ?_, hc (Proc.devRef .tc main_v217) ?_,
      (hc (Proc.devRef .tc main_arg0) ?_).trans (V17_main_arg0 m _ c), (hc (Proc.devRef .tc main_arg1) ?_).trans (V17_main_arg1 m _ c),
      (hc (Proc.devRef .tc main_arg2) ?_).trans (V17_main_arg2 m _ c), (hc (Proc.devRef .tc main_arg3) ?_).trans (V17_main_arg3 m _ c),
      (hc (Proc.devRef .tc main_arg4) ?_).trans (V17_main_arg4 m _ c), (hc (Proc.devRef .tc main_arg5) ?_).trans (V17_main_arg5 m _ c),
      (hc (Proc.devRef .tc main_arg6) ?_).trans (V17_main_arg6 m _ c), (hc (Proc.devRef .tc main_arg7) ?_).trans (V17_main_arg7 m _ c),
      (hc (Proc.devRef .tc main_arg8) ?_).trans (V17_main_arg8 m _ c)⟩ <;>
      exact Finset.mem_filter.mpr ⟨StableHlo.devRef_mem_tcRefs _, by decide⟩
  · refine (θ_run Cert.ReferenceIdeal.defs _ _).mono (fun r h c => ?_) (Cert.ReferenceIdeal.HandRun.run (F := Ideal) m' ρ')
    obtain ⟨h262, h269, rest⟩ := h c
    exact ⟨h262.trans (np_eq m m' hpre hagree c), h269.trans (gp_eq m m' hpre hagree c), rest⟩

end Cert.Proof.Final

end
-- ==== Proof.lean ====
import proofs.«416827_j50268297232946_2_alg».proof.Defs
import proofs.«416827_j50268297232946_2_alg».proof.Proof.Gen.Kernel
import proofs.«416827_j50268297232946_2_alg».proof.Proof.Gen.KernelIdeal
import proofs.«416827_j50268297232946_2_alg».proof.Proof.Gen.ReferenceIdeal
import proofs.«416827_j50268297232946_2_alg».proof.Proof.Gen.Pre_finite_inputs
import proofs.«416827_j50268297232946_2_alg».proof.Proof.K.Run
import proofs.«416827_j50268297232946_2_alg».proof.Proof.KI.Run
import proofs.«416827_j50268297232946_2_alg».proof.Proof.Ref.Run
import proofs.«416827_j50268297232946_2_alg».proof.Proof.Final
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.HandRun.run (F := Ideal) m ρ)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Proof.Final.algebraic⟩

end Cert.Proof

end
